-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S768x1536 : Shape := ⟨2, ![768, 1536]⟩
abbrev S768 : Shape := ⟨1, ![768]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S4x256x768 .f32) (main_arg1 : FVec F S768x1536 .f32) (main_arg2 : FVec F S768 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S4x256x768 : Shape := ⟨3, ![4, 256, 768]⟩
abbrev S768x1536 : Shape := ⟨2, ![768, 1536]⟩
abbrev S768 : Shape := ⟨1, ![768]⟩
abbrev S1x768 : Shape := ⟨2, ![1, 768]⟩
abbrev S4x32896x768 : Shape := ⟨3, ![4, 32896, 768]⟩
abbrev S1x256x768 : Shape := ⟨3, ![1, 256, 768]⟩
abbrev S256x768 : Shape := ⟨2, ![256, 768]⟩
abbrev S2x3976x768 : Shape := ⟨3, ![2, 3976, 768]⟩
abbrev S2 : Shape := ⟨1, ![2]⟩
abbrev S768x768 : Shape := ⟨2, ![768, 768]⟩
abbrev S255x768 : Shape := ⟨2, ![255, 768]⟩
abbrev S1x255x768 : Shape := ⟨3, ![1, 255, 768]⟩
abbrev S254x768 : Shape := ⟨2, ![254, 768]⟩
abbrev S1x254x768 : Shape := ⟨3, ![1, 254, 768]⟩
abbrev S253x768 : Shape := ⟨2, ![253, 768]⟩
abbrev S1x253x768 : Shape := ⟨3, ![1, 253, 768]⟩
abbrev S252x768 : Shape := ⟨2, ![252, 768]⟩
abbrev S1x252x768 : Shape := ⟨3, ![1, 252, 768]⟩
abbrev S251x768 : Shape := ⟨2, ![251, 768]⟩
abbrev S1x251x768 : Shape := ⟨3, ![1, 251, 768]⟩
abbrev S250x768 : Shape := ⟨2, ![250, 768]⟩
abbrev S1x250x768 : Shape := ⟨3, ![1, 250, 768]⟩
abbrev S249x768 : Shape := ⟨2, ![249, 768]⟩
abbrev S1x249x768 : Shape := ⟨3, ![1, 249, 768]⟩
abbrev S248x768 : Shape := ⟨2, ![248, 768]⟩
abbrev S1x248x768 : Shape := ⟨3, ![1, 248, 768]⟩
abbrev S247x768 : Shape := ⟨2, ![247, 768]⟩
abbrev S1x247x768 : Shape := ⟨3, ![1, 247, 768]⟩
abbrev S246x768 : Shape := ⟨2, ![246, 768]⟩
abbrev S1x246x768 : Shape := ⟨3, ![1, 246, 768]⟩
abbrev S245x768 : Shape := ⟨2, ![245, 768]⟩
abbrev S1x245x768 : Shape := ⟨3, ![1, 245, 768]⟩
abbrev S244x768 : Shape := ⟨2, ![244, 768]⟩
abbrev S1x244x768 : Shape := ⟨3, ![1, 244, 768]⟩
abbrev S243x768 : Shape := ⟨2, ![243, 768]⟩
abbrev S1x243x768 : Shape := ⟨3, ![1, 243, 768]⟩
abbrev S242x768 : Shape := ⟨2, ![242, 768]⟩
abbrev S1x242x768 : Shape := ⟨3, ![1, 242, 768]⟩
abbrev S241x768 : Shape := ⟨2, ![241, 768]⟩
abbrev S1x241x768 : Shape := ⟨3, ![1, 241, 768]⟩
abbrev S1 : Shape := ⟨1, ![1]⟩
abbrev S_ : Shape := ⟨0, ![]⟩
abbrev S1x3976x768 : Shape := ⟨3, ![1, 3976, 768]⟩
abbrev S3976x768 : Shape := ⟨2, ![3976, 768]⟩
abbrev S240x768 : Shape := ⟨2, ![240, 768]⟩
abbrev S1x240x768 : Shape := ⟨3, ![1, 240, 768]⟩
abbrev S239x768 : Shape := ⟨2, ![239, 768]⟩
abbrev S1x239x768 : Shape := ⟨3, ![1, 239, 768]⟩
abbrev S238x768 : Shape := ⟨2, ![238, 768]⟩
abbrev S1x238x768 : Shape := ⟨3, ![1, 238, 768]⟩
abbrev S237x768 : Shape := ⟨2, ![237, 768]⟩
abbrev S1x237x768 : Shape := ⟨3, ![1, 237, 768]⟩
abbrev S236x768 : Shape := ⟨2, ![236, 768]⟩
abbrev S1x236x768 : Shape := ⟨3, ![1, 236, 768]⟩
abbrev S235x768 : Shape := ⟨2, ![235, 768]⟩
abbrev S1x235x768 : Shape := ⟨3, ![1, 235, 768]⟩
abbrev S234x768 : Shape := ⟨2, ![234, 768]⟩
abbrev S1x234x768 : Shape := ⟨3, ![1, 234, 768]⟩
abbrev S233x768 : Shape := ⟨2, ![233, 768]⟩
abbrev S1x233x768 : Shape := ⟨3, ![1, 233, 768]⟩
abbrev S232x768 : Shape := ⟨2, ![232, 768]⟩
abbrev S1x232x768 : Shape := ⟨3, ![1, 232, 768]⟩
abbrev S231x768 : Shape := ⟨2, ![231, 768]⟩
abbrev S1x231x768 : Shape := ⟨3, ![1, 231, 768]⟩
abbrev S230x768 : Shape := ⟨2, ![230, 768]⟩
abbrev S1x230x768 : Shape := ⟨3, ![1, 230, 768]⟩
abbrev S229x768 : Shape := ⟨2, ![229, 768]⟩
abbrev S1x229x768 : Shape := ⟨3, ![1, 229, 768]⟩
abbrev S228x768 : Shape := ⟨2, ![228, 768]⟩
abbrev S1x228x768 : Shape := ⟨3, ![1, 228, 768]⟩
abbrev S227x768 : Shape := ⟨2, ![227, 768]⟩
abbrev S1x227x768 : Shape := ⟨3, ![1, 227, 768]⟩
abbrev S226x768 : Shape := ⟨2, ![226, 768]⟩
abbrev S1x226x768 : Shape := ⟨3, ![1, 226, 768]⟩
abbrev S225x768 : Shape := ⟨2, ![225, 768]⟩
abbrev S1x225x768 : Shape := ⟨3, ![1, 225, 768]⟩
abbrev S1x3720x768 : Shape := ⟨3, ![1, 3720, 768]⟩
abbrev S3720x768 : Shape := ⟨2, ![3720, 768]⟩
abbrev S224x768 : Shape := ⟨2, ![224, 768]⟩
abbrev S1x224x768 : Shape := ⟨3, ![1, 224, 768]⟩
abbrev S223x768 : Shape := ⟨2, ![223, 768]⟩
abbrev S1x223x768 : Shape := ⟨3, ![1, 223, 768]⟩
abbrev S222x768 : Shape := ⟨2, ![222, 768]⟩
abbrev S1x222x768 : Shape := ⟨3, ![1, 222, 768]⟩
abbrev S221x768 : Shape := ⟨2, ![221, 768]⟩
abbrev S1x221x768 : Shape := ⟨3, ![1, 221, 768]⟩
abbrev S220x768 : Shape := ⟨2, ![220, 768]⟩
abbrev S1x220x768 : Shape := ⟨3, ![1, 220, 768]⟩
abbrev S219x768 : Shape := ⟨2, ![219, 768]⟩
abbrev S1x219x768 : Shape := ⟨3, ![1, 219, 768]⟩
abbrev S218x768 : Shape := ⟨2, ![218, 768]⟩
abbrev S1x218x768 : Shape := ⟨3, ![1, 218, 768]⟩
abbrev S217x768 : Shape := ⟨2, ![217, 768]⟩
abbrev S1x217x768 : Shape := ⟨3, ![1, 217, 768]⟩
abbrev S216x768 : Shape := ⟨2, ![216, 768]⟩
abbrev S1x216x768 : Shape := ⟨3, ![1, 216, 768]⟩
abbrev S215x768 : Shape := ⟨2, ![215, 768]⟩
abbrev S1x215x768 : Shape := ⟨3, ![1, 215, 768]⟩
abbrev S214x768 : Shape := ⟨2, ![214, 768]⟩
abbrev S1x214x768 : Shape := ⟨3, ![1, 214, 768]⟩
abbrev S213x768 : Shape := ⟨2, ![213, 768]⟩
abbrev S1x213x768 : Shape := ⟨3, ![1, 213, 768]⟩
abbrev S212x768 : Shape := ⟨2, ![212, 768]⟩
abbrev S1x212x768 : Shape := ⟨3, ![1, 212, 768]⟩
abbrev S211x768 : Shape := ⟨2, ![211, 768]⟩
abbrev S1x211x768 : Shape := ⟨3, ![1, 211, 768]⟩
abbrev S210x768 : Shape := ⟨2, ![210, 768]⟩
abbrev S1x210x768 : Shape := ⟨3, ![1, 210, 768]⟩
abbrev S209x768 : Shape := ⟨2, ![209, 768]⟩
abbrev S1x209x768 : Shape := ⟨3, ![1, 209, 768]⟩
abbrev S1x3464x768 : Shape := ⟨3, ![1, 3464, 768]⟩
abbrev S3464x768 : Shape := ⟨2, ![3464, 768]⟩
abbrev S208x768 : Shape := ⟨2, ![208, 768]⟩
abbrev S1x208x768 : Shape := ⟨3, ![1, 208, 768]⟩
abbrev S207x768 : Shape := ⟨2, ![207, 768]⟩
abbrev S1x207x768 : Shape := ⟨3, ![1, 207, 768]⟩
abbrev S206x768 : Shape := ⟨2, ![206, 768]⟩
abbrev S1x206x768 : Shape := ⟨3, ![1, 206, 768]⟩
abbrev S205x768 : Shape := ⟨2, ![205, 768]⟩
abbrev S1x205x768 : Shape := ⟨3, ![1, 205, 768]⟩
abbrev S204x768 : Shape := ⟨2, ![204, 768]⟩
abbrev S1x204x768 : Shape := ⟨3, ![1, 204, 768]⟩
abbrev S203x768 : Shape := ⟨2, ![203, 768]⟩
abbrev S1x203x768 : Shape := ⟨3, ![1, 203, 768]⟩
abbrev S202x768 : Shape := ⟨2, ![202, 768]⟩
abbrev S1x202x768 : Shape := ⟨3, ![1, 202, 768]⟩
abbrev S201x768 : Shape := ⟨2, ![201, 768]⟩
abbrev S1x201x768 : Shape := ⟨3, ![1, 201, 768]⟩
abbrev S200x768 : Shape := ⟨2, ![200, 768]⟩
abbrev S1x200x768 : Shape := ⟨3, ![1, 200, 768]⟩
abbrev S199x768 : Shape := ⟨2, ![199, 768]⟩
abbrev S1x199x768 : Shape := ⟨3, ![1, 199, 768]⟩
abbrev S198x768 : Shape := ⟨2, ![198, 768]⟩
abbrev S1x198x768 : Shape := ⟨3, ![1, 198, 768]⟩
abbrev S197x768 : Shape := ⟨2, ![197, 768]⟩
abbrev S1x197x768 : Shape := ⟨3, ![1, 197, 768]⟩
abbrev S196x768 : Shape := ⟨2, ![196, 768]⟩
abbrev S1x196x768 : Shape := ⟨3, ![1, 196, 768]⟩
abbrev S195x768 : Shape := ⟨2, ![195, 768]⟩
abbrev S1x195x768 : Shape := ⟨3, ![1, 195, 768]⟩
abbrev S194x768 : Shape := ⟨2, ![194, 768]⟩
abbrev S1x194x768 : Shape := ⟨3, ![1, 194, 768]⟩
abbrev S193x768 : Shape := ⟨2, ![193, 768]⟩
abbrev S1x193x768 : Shape := ⟨3, ![1, 193, 768]⟩
abbrev S1x3208x768 : Shape := ⟨3, ![1, 3208, 768]⟩
abbrev S3208x768 : Shape := ⟨2, ![3208, 768]⟩
abbrev S192x768 : Shape := ⟨2, ![192, 768]⟩
abbrev S1x192x768 : Shape := ⟨3, ![1, 192, 768]⟩
abbrev S191x768 : Shape := ⟨2, ![191, 768]⟩
abbrev S1x191x768 : Shape := ⟨3, ![1, 191, 768]⟩
abbrev S190x768 : Shape := ⟨2, ![190, 768]⟩
abbrev S1x190x768 : Shape := ⟨3, ![1, 190, 768]⟩
abbrev S189x768 : Shape := ⟨2, ![189, 768]⟩
abbrev S1x189x768 : Shape := ⟨3, ![1, 189, 768]⟩
abbrev S188x768 : Shape := ⟨2, ![188, 768]⟩
abbrev S1x188x768 : Shape := ⟨3, ![1, 188, 768]⟩
abbrev S187x768 : Shape := ⟨2, ![187, 768]⟩
abbrev S1x187x768 : Shape := ⟨3, ![1, 187, 768]⟩
abbrev S186x768 : Shape := ⟨2, ![186, 768]⟩
abbrev S1x186x768 : Shape := ⟨3, ![1, 186, 768]⟩
abbrev S185x768 : Shape := ⟨2, ![185, 768]⟩
abbrev S1x185x768 : Shape := ⟨3, ![1, 185, 768]⟩
abbrev S184x768 : Shape := ⟨2, ![184, 768]⟩
abbrev S1x184x768 : Shape := ⟨3, ![1, 184, 768]⟩
abbrev S183x768 : Shape := ⟨2, ![183, 768]⟩
abbrev S1x183x768 : Shape := ⟨3, ![1, 183, 768]⟩
abbrev S182x768 : Shape := ⟨2, ![182, 768]⟩
abbrev S1x182x768 : Shape := ⟨3, ![1, 182, 768]⟩
abbrev S181x768 : Shape := ⟨2, ![181, 768]⟩
abbrev S1x181x768 : Shape := ⟨3, ![1, 181, 768]⟩
abbrev S180x768 : Shape := ⟨2, ![180, 768]⟩
abbrev S1x180x768 : Shape := ⟨3, ![1, 180, 768]⟩
abbrev S179x768 : Shape := ⟨2, ![179, 768]⟩
abbrev S1x179x768 : Shape := ⟨3, ![1, 179, 768]⟩
abbrev S178x768 : Shape := ⟨2, ![178, 768]⟩
abbrev S1x178x768 : Shape := ⟨3, ![1, 178, 768]⟩
abbrev S177x768 : Shape := ⟨2, ![177, 768]⟩
abbrev S1x177x768 : Shape := ⟨3, ![1, 177, 768]⟩
abbrev S1x2952x768 : Shape := ⟨3, ![1, 2952, 768]⟩
abbrev S2952x768 : Shape := ⟨2, ![2952, 768]⟩
abbrev S176x768 : Shape := ⟨2, ![176, 768]⟩
abbrev S1x176x768 : Shape := ⟨3, ![1, 176, 768]⟩
abbrev S175x768 : Shape := ⟨2, ![175, 768]⟩
abbrev S1x175x768 : Shape := ⟨3, ![1, 175, 768]⟩
abbrev S174x768 : Shape := ⟨2, ![174, 768]⟩
abbrev S1x174x768 : Shape := ⟨3, ![1, 174, 768]⟩
abbrev S173x768 : Shape := ⟨2, ![173, 768]⟩
abbrev S1x173x768 : Shape := ⟨3, ![1, 173, 768]⟩
abbrev S172x768 : Shape := ⟨2, ![172, 768]⟩
abbrev S1x172x768 : Shape := ⟨3, ![1, 172, 768]⟩
abbrev S171x768 : Shape := ⟨2, ![171, 768]⟩
abbrev S1x171x768 : Shape := ⟨3, ![1, 171, 768]⟩
abbrev S170x768 : Shape := ⟨2, ![170, 768]⟩
abbrev S1x170x768 : Shape := ⟨3, ![1, 170, 768]⟩
abbrev S169x768 : Shape := ⟨2, ![169, 768]⟩
abbrev S1x169x768 : Shape := ⟨3, ![1, 169, 768]⟩
abbrev S168x768 : Shape := ⟨2, ![168, 768]⟩
abbrev S1x168x768 : Shape := ⟨3, ![1, 168, 768]⟩
abbrev S167x768 : Shape := ⟨2, ![167, 768]⟩
abbrev S1x167x768 : Shape := ⟨3, ![1, 167, 768]⟩
abbrev S166x768 : Shape := ⟨2, ![166, 768]⟩
abbrev S1x166x768 : Shape := ⟨3, ![1, 166, 768]⟩
abbrev S165x768 : Shape := ⟨2, ![165, 768]⟩
abbrev S1x165x768 : Shape := ⟨3, ![1, 165, 768]⟩
abbrev S164x768 : Shape := ⟨2, ![164, 768]⟩
abbrev S1x164x768 : Shape := ⟨3, ![1, 164, 768]⟩
abbrev S163x768 : Shape := ⟨2, ![163, 768]⟩
abbrev S1x163x768 : Shape := ⟨3, ![1, 163, 768]⟩
abbrev S162x768 : Shape := ⟨2, ![162, 768]⟩
abbrev S1x162x768 : Shape := ⟨3, ![1, 162, 768]⟩
abbrev S161x768 : Shape := ⟨2, ![161, 768]⟩
abbrev S1x161x768 : Shape := ⟨3, ![1, 161, 768]⟩
abbrev S1x2696x768 : Shape := ⟨3, ![1, 2696, 768]⟩
abbrev S2696x768 : Shape := ⟨2, ![2696, 768]⟩
abbrev S160x768 : Shape := ⟨2, ![160, 768]⟩
abbrev S1x160x768 : Shape := ⟨3, ![1, 160, 768]⟩
abbrev S159x768 : Shape := ⟨2, ![159, 768]⟩
abbrev S1x159x768 : Shape := ⟨3, ![1, 159, 768]⟩
abbrev S158x768 : Shape := ⟨2, ![158, 768]⟩
abbrev S1x158x768 : Shape := ⟨3, ![1, 158, 768]⟩
abbrev S157x768 : Shape := ⟨2, ![157, 768]⟩
abbrev S1x157x768 : Shape := ⟨3, ![1, 157, 768]⟩
abbrev S156x768 : Shape := ⟨2, ![156, 768]⟩
abbrev S1x156x768 : Shape := ⟨3, ![1, 156, 768]⟩
abbrev S155x768 : Shape := ⟨2, ![155, 768]⟩
abbrev S1x155x768 : Shape := ⟨3, ![1, 155, 768]⟩
abbrev S154x768 : Shape := ⟨2, ![154, 768]⟩
abbrev S1x154x768 : Shape := ⟨3, ![1, 154, 768]⟩
abbrev S153x768 : Shape := ⟨2, ![153, 768]⟩
abbrev S1x153x768 : Shape := ⟨3, ![1, 153, 768]⟩
abbrev S152x768 : Shape := ⟨2, ![152, 768]⟩
abbrev S1x152x768 : Shape := ⟨3, ![1, 152, 768]⟩
abbrev S151x768 : Shape := ⟨2, ![151, 768]⟩
abbrev S1x151x768 : Shape := ⟨3, ![1, 151, 768]⟩
abbrev S150x768 : Shape := ⟨2, ![150, 768]⟩
abbrev S1x150x768 : Shape := ⟨3, ![1, 150, 768]⟩
abbrev S149x768 : Shape := ⟨2, ![149, 768]⟩
abbrev S1x149x768 : Shape := ⟨3, ![1, 149, 768]⟩
abbrev S148x768 : Shape := ⟨2, ![148, 768]⟩
abbrev S1x148x768 : Shape := ⟨3, ![1, 148, 768]⟩
abbrev S147x768 : Shape := ⟨2, ![147, 768]⟩
abbrev S1x147x768 : Shape := ⟨3, ![1, 147, 768]⟩
abbrev S146x768 : Shape := ⟨2, ![146, 768]⟩
abbrev S1x146x768 : Shape := ⟨3, ![1, 146, 768]⟩
abbrev S145x768 : Shape := ⟨2, ![145, 768]⟩
abbrev S1x145x768 : Shape := ⟨3, ![1, 145, 768]⟩
abbrev S1x2440x768 : Shape := ⟨3, ![1, 2440, 768]⟩
abbrev S2440x768 : Shape := ⟨2, ![2440, 768]⟩
abbrev S144x768 : Shape := ⟨2, ![144, 768]⟩
abbrev S1x144x768 : Shape := ⟨3, ![1, 144, 768]⟩
abbrev S143x768 : Shape := ⟨2, ![143, 768]⟩
abbrev S1x143x768 : Shape := ⟨3, ![1, 143, 768]⟩
abbrev S142x768 : Shape := ⟨2, ![142, 768]⟩
abbrev S1x142x768 : Shape := ⟨3, ![1, 142, 768]⟩
abbrev S141x768 : Shape := ⟨2, ![141, 768]⟩
abbrev S1x141x768 : Shape := ⟨3, ![1, 141, 768]⟩
abbrev S140x768 : Shape := ⟨2, ![140, 768]⟩
abbrev S1x140x768 : Shape := ⟨3, ![1, 140, 768]⟩
abbrev S139x768 : Shape := ⟨2, ![139, 768]⟩
abbrev S1x139x768 : Shape := ⟨3, ![1, 139, 768]⟩
abbrev S138x768 : Shape := ⟨2, ![138, 768]⟩
abbrev S1x138x768 : Shape := ⟨3, ![1, 138, 768]⟩
abbrev S137x768 : Shape := ⟨2, ![137, 768]⟩
abbrev S1x137x768 : Shape := ⟨3, ![1, 137, 768]⟩
abbrev S136x768 : Shape := ⟨2, ![136, 768]⟩
abbrev S1x136x768 : Shape := ⟨3, ![1, 136, 768]⟩
abbrev S135x768 : Shape := ⟨2, ![135, 768]⟩
abbrev S1x135x768 : Shape := ⟨3, ![1, 135, 768]⟩
abbrev S134x768 : Shape := ⟨2, ![134, 768]⟩
abbrev S1x134x768 : Shape := ⟨3, ![1, 134, 768]⟩
abbrev S133x768 : Shape := ⟨2, ![133, 768]⟩
abbrev S1x133x768 : Shape := ⟨3, ![1, 133, 768]⟩
abbrev S132x768 : Shape := ⟨2, ![132, 768]⟩
abbrev S1x132x768 : Shape := ⟨3, ![1, 132, 768]⟩
abbrev S131x768 : Shape := ⟨2, ![131, 768]⟩
abbrev S1x131x768 : Shape := ⟨3, ![1, 131, 768]⟩
abbrev S130x768 : Shape := ⟨2, ![130, 768]⟩
abbrev S1x130x768 : Shape := ⟨3, ![1, 130, 768]⟩
abbrev S129x768 : Shape := ⟨2, ![129, 768]⟩
abbrev S1x129x768 : Shape := ⟨3, ![1, 129, 768]⟩
abbrev S1x2184x768 : Shape := ⟨3, ![1, 2184, 768]⟩
abbrev S2184x768 : Shape := ⟨2, ![2184, 768]⟩
abbrev S128x768 : Shape := ⟨2, ![128, 768]⟩
abbrev S1x128x768 : Shape := ⟨3, ![1, 128, 768]⟩
abbrev S127x768 : Shape := ⟨2, ![127, 768]⟩
abbrev S1x127x768 : Shape := ⟨3, ![1, 127, 768]⟩
abbrev S126x768 : Shape := ⟨2, ![126, 768]⟩
abbrev S1x126x768 : Shape := ⟨3, ![1, 126, 768]⟩
abbrev S125x768 : Shape := ⟨2, ![125, 768]⟩
abbrev S1x125x768 : Shape := ⟨3, ![1, 125, 768]⟩
abbrev S124x768 : Shape := ⟨2, ![124, 768]⟩
abbrev S1x124x768 : Shape := ⟨3, ![1, 124, 768]⟩
abbrev S123x768 : Shape := ⟨2, ![123, 768]⟩
abbrev S1x123x768 : Shape := ⟨3, ![1, 123, 768]⟩
abbrev S122x768 : Shape := ⟨2, ![122, 768]⟩
abbrev S1x122x768 : Shape := ⟨3, ![1, 122, 768]⟩
abbrev S121x768 : Shape := ⟨2, ![121, 768]⟩
abbrev S1x121x768 : Shape := ⟨3, ![1, 121, 768]⟩
abbrev S120x768 : Shape := ⟨2, ![120, 768]⟩
abbrev S1x120x768 : Shape := ⟨3, ![1, 120, 768]⟩
abbrev S119x768 : Shape := ⟨2, ![119, 768]⟩
abbrev S1x119x768 : Shape := ⟨3, ![1, 119, 768]⟩
abbrev S118x768 : Shape := ⟨2, ![118, 768]⟩
abbrev S1x118x768 : Shape := ⟨3, ![1, 118, 768]⟩
abbrev S117x768 : Shape := ⟨2, ![117, 768]⟩
abbrev S1x117x768 : Shape := ⟨3, ![1, 117, 768]⟩
abbrev S116x768 : Shape := ⟨2, ![116, 768]⟩
abbrev S1x116x768 : Shape := ⟨3, ![1, 116, 768]⟩
abbrev S115x768 : Shape := ⟨2, ![115, 768]⟩
abbrev S1x115x768 : Shape := ⟨3, ![1, 115, 768]⟩
abbrev S114x768 : Shape := ⟨2, ![114, 768]⟩
abbrev S1x114x768 : Shape := ⟨3, ![1, 114, 768]⟩
abbrev S113x768 : Shape := ⟨2, ![113, 768]⟩
abbrev S1x113x768 : Shape := ⟨3, ![1, 113, 768]⟩
abbrev S1x1928x768 : Shape := ⟨3, ![1, 1928, 768]⟩
abbrev S1928x768 : Shape := ⟨2, ![1928, 768]⟩
abbrev S112x768 : Shape := ⟨2, ![112, 768]⟩
abbrev S1x112x768 : Shape := ⟨3, ![1, 112, 768]⟩
abbrev S111x768 : Shape := ⟨2, ![111, 768]⟩
abbrev S1x111x768 : Shape := ⟨3, ![1, 111, 768]⟩
abbrev S110x768 : Shape := ⟨2, ![110, 768]⟩
abbrev S1x110x768 : Shape := ⟨3, ![1, 110, 768]⟩
abbrev S109x768 : Shape := ⟨2, ![109, 768]⟩
abbrev S1x109x768 : Shape := ⟨3, ![1, 109, 768]⟩
abbrev S108x768 : Shape := ⟨2, ![108, 768]⟩
abbrev S1x108x768 : Shape := ⟨3, ![1, 108, 768]⟩
abbrev S107x768 : Shape := ⟨2, ![107, 768]⟩
abbrev S1x107x768 : Shape := ⟨3, ![1, 107, 768]⟩
abbrev S106x768 : Shape := ⟨2, ![106, 768]⟩
abbrev S1x106x768 : Shape := ⟨3, ![1, 106, 768]⟩
abbrev S105x768 : Shape := ⟨2, ![105, 768]⟩
abbrev S1x105x768 : Shape := ⟨3, ![1, 105, 768]⟩
abbrev S104x768 : Shape := ⟨2, ![104, 768]⟩
abbrev S1x104x768 : Shape := ⟨3, ![1, 104, 768]⟩
abbrev S103x768 : Shape := ⟨2, ![103, 768]⟩
abbrev S1x103x768 : Shape := ⟨3, ![1, 103, 768]⟩
abbrev S102x768 : Shape := ⟨2, ![102, 768]⟩
abbrev S1x102x768 : Shape := ⟨3, ![1, 102, 768]⟩
abbrev S101x768 : Shape := ⟨2, ![101, 768]⟩
abbrev S1x101x768 : Shape := ⟨3, ![1, 101, 768]⟩
abbrev S100x768 : Shape := ⟨2, ![100, 768]⟩
abbrev S1x100x768 : Shape := ⟨3, ![1, 100, 768]⟩
abbrev S99x768 : Shape := ⟨2, ![99, 768]⟩
abbrev S1x99x768 : Shape := ⟨3, ![1, 99, 768]⟩
abbrev S98x768 : Shape := ⟨2, ![98, 768]⟩
abbrev S1x98x768 : Shape := ⟨3, ![1, 98, 768]⟩
abbrev S97x768 : Shape := ⟨2, ![97, 768]⟩
abbrev S1x97x768 : Shape := ⟨3, ![1, 97, 768]⟩
abbrev S1x1672x768 : Shape := ⟨3, ![1, 1672, 768]⟩
abbrev S1672x768 : Shape := ⟨2, ![1672, 768]⟩
abbrev S96x768 : Shape := ⟨2, ![96, 768]⟩
abbrev S1x96x768 : Shape := ⟨3, ![1, 96, 768]⟩
abbrev S95x768 : Shape := ⟨2, ![95, 768]⟩
abbrev S1x95x768 : Shape := ⟨3, ![1, 95, 768]⟩
abbrev S94x768 : Shape := ⟨2, ![94, 768]⟩
abbrev S1x94x768 : Shape := ⟨3, ![1, 94, 768]⟩
abbrev S93x768 : Shape := ⟨2, ![93, 768]⟩
abbrev S1x93x768 : Shape := ⟨3, ![1, 93, 768]⟩
abbrev S92x768 : Shape := ⟨2, ![92, 768]⟩
abbrev S1x92x768 : Shape := ⟨3, ![1, 92, 768]⟩
abbrev S91x768 : Shape := ⟨2, ![91, 768]⟩
abbrev S1x91x768 : Shape := ⟨3, ![1, 91, 768]⟩
abbrev S90x768 : Shape := ⟨2, ![90, 768]⟩
abbrev S1x90x768 : Shape := ⟨3, ![1, 90, 768]⟩
abbrev S89x768 : Shape := ⟨2, ![89, 768]⟩
abbrev S1x89x768 : Shape := ⟨3, ![1, 89, 768]⟩
abbrev S88x768 : Shape := ⟨2, ![88, 768]⟩
abbrev S1x88x768 : Shape := ⟨3, ![1, 88, 768]⟩
abbrev S87x768 : Shape := ⟨2, ![87, 768]⟩
abbrev S1x87x768 : Shape := ⟨3, ![1, 87, 768]⟩
abbrev S86x768 : Shape := ⟨2, ![86, 768]⟩
abbrev S1x86x768 : Shape := ⟨3, ![1, 86, 768]⟩
abbrev S85x768 : Shape := ⟨2, ![85, 768]⟩
abbrev S1x85x768 : Shape := ⟨3, ![1, 85, 768]⟩
abbrev S84x768 : Shape := ⟨2, ![84, 768]⟩
abbrev S1x84x768 : Shape := ⟨3, ![1, 84, 768]⟩
abbrev S83x768 : Shape := ⟨2, ![83, 768]⟩
abbrev S1x83x768 : Shape := ⟨3, ![1, 83, 768]⟩
abbrev S82x768 : Shape := ⟨2, ![82, 768]⟩
abbrev S1x82x768 : Shape := ⟨3, ![1, 82, 768]⟩
abbrev S81x768 : Shape := ⟨2, ![81, 768]⟩
abbrev S1x81x768 : Shape := ⟨3, ![1, 81, 768]⟩
abbrev S1x1416x768 : Shape := ⟨3, ![1, 1416, 768]⟩
abbrev S1416x768 : Shape := ⟨2, ![1416, 768]⟩
abbrev S80x768 : Shape := ⟨2, ![80, 768]⟩
abbrev S1x80x768 : Shape := ⟨3, ![1, 80, 768]⟩
abbrev S79x768 : Shape := ⟨2, ![79, 768]⟩
abbrev S1x79x768 : Shape := ⟨3, ![1, 79, 768]⟩
abbrev S78x768 : Shape := ⟨2, ![78, 768]⟩
abbrev S1x78x768 : Shape := ⟨3, ![1, 78, 768]⟩
abbrev S77x768 : Shape := ⟨2, ![77, 768]⟩
abbrev S1x77x768 : Shape := ⟨3, ![1, 77, 768]⟩
abbrev S76x768 : Shape := ⟨2, ![76, 768]⟩
abbrev S1x76x768 : Shape := ⟨3, ![1, 76, 768]⟩
abbrev S75x768 : Shape := ⟨2, ![75, 768]⟩
abbrev S1x75x768 : Shape := ⟨3, ![1, 75, 768]⟩
abbrev S74x768 : Shape := ⟨2, ![74, 768]⟩
abbrev S1x74x768 : Shape := ⟨3, ![1, 74, 768]⟩
abbrev S73x768 : Shape := ⟨2, ![73, 768]⟩
abbrev S1x73x768 : Shape := ⟨3, ![1, 73, 768]⟩
abbrev S72x768 : Shape := ⟨2, ![72, 768]⟩
abbrev S1x72x768 : Shape := ⟨3, ![1, 72, 768]⟩
abbrev S71x768 : Shape := ⟨2, ![71, 768]⟩
abbrev S1x71x768 : Shape := ⟨3, ![1, 71, 768]⟩
abbrev S70x768 : Shape := ⟨2, ![70, 768]⟩
abbrev S1x70x768 : Shape := ⟨3, ![1, 70, 768]⟩
abbrev S69x768 : Shape := ⟨2, ![69, 768]⟩
abbrev S1x69x768 : Shape := ⟨3, ![1, 69, 768]⟩
abbrev S68x768 : Shape := ⟨2, ![68, 768]⟩
abbrev S1x68x768 : Shape := ⟨3, ![1, 68, 768]⟩
abbrev S67x768 : Shape := ⟨2, ![67, 768]⟩
abbrev S1x67x768 : Shape := ⟨3, ![1, 67, 768]⟩
abbrev S66x768 : Shape := ⟨2, ![66, 768]⟩
abbrev S1x66x768 : Shape := ⟨3, ![1, 66, 768]⟩
abbrev S65x768 : Shape := ⟨2, ![65, 768]⟩
abbrev S1x65x768 : Shape := ⟨3, ![1, 65, 768]⟩
abbrev S1x1160x768 : Shape := ⟨3, ![1, 1160, 768]⟩
abbrev S1160x768 : Shape := ⟨2, ![1160, 768]⟩
abbrev S64x768 : Shape := ⟨2, ![64, 768]⟩
abbrev S1x64x768 : Shape := ⟨3, ![1, 64, 768]⟩
abbrev S63x768 : Shape := ⟨2, ![63, 768]⟩
abbrev S1x63x768 : Shape := ⟨3, ![1, 63, 768]⟩
abbrev S62x768 : Shape := ⟨2, ![62, 768]⟩
abbrev S1x62x768 : Shape := ⟨3, ![1, 62, 768]⟩
abbrev S61x768 : Shape := ⟨2, ![61, 768]⟩
abbrev S1x61x768 : Shape := ⟨3, ![1, 61, 768]⟩
abbrev S60x768 : Shape := ⟨2, ![60, 768]⟩
abbrev S1x60x768 : Shape := ⟨3, ![1, 60, 768]⟩
abbrev S59x768 : Shape := ⟨2, ![59, 768]⟩
abbrev S1x59x768 : Shape := ⟨3, ![1, 59, 768]⟩
abbrev S58x768 : Shape := ⟨2, ![58, 768]⟩
abbrev S1x58x768 : Shape := ⟨3, ![1, 58, 768]⟩
abbrev S57x768 : Shape := ⟨2, ![57, 768]⟩
abbrev S1x57x768 : Shape := ⟨3, ![1, 57, 768]⟩
abbrev S56x768 : Shape := ⟨2, ![56, 768]⟩
abbrev S1x56x768 : Shape := ⟨3, ![1, 56, 768]⟩
abbrev S55x768 : Shape := ⟨2, ![55, 768]⟩
abbrev S1x55x768 : Shape := ⟨3, ![1, 55, 768]⟩
abbrev S54x768 : Shape := ⟨2, ![54, 768]⟩
abbrev S1x54x768 : Shape := ⟨3, ![1, 54, 768]⟩
abbrev S53x768 : Shape := ⟨2, ![53, 768]⟩
abbrev S1x53x768 : Shape := ⟨3, ![1, 53, 768]⟩
abbrev S52x768 : Shape := ⟨2, ![52, 768]⟩
abbrev S1x52x768 : Shape := ⟨3, ![1, 52, 768]⟩
abbrev S51x768 : Shape := ⟨2, ![51, 768]⟩
abbrev S1x51x768 : Shape := ⟨3, ![1, 51, 768]⟩
abbrev S50x768 : Shape := ⟨2, ![50, 768]⟩
abbrev S1x50x768 : Shape := ⟨3, ![1, 50, 768]⟩
abbrev S49x768 : Shape := ⟨2, ![49, 768]⟩
abbrev S1x49x768 : Shape := ⟨3, ![1, 49, 768]⟩
abbrev S1x904x768 : Shape := ⟨3, ![1, 904, 768]⟩
abbrev S904x768 : Shape := ⟨2, ![904, 768]⟩
abbrev S48x768 : Shape := ⟨2, ![48, 768]⟩
abbrev S1x48x768 : Shape := ⟨3, ![1, 48, 768]⟩
abbrev S47x768 : Shape := ⟨2, ![47, 768]⟩
abbrev S1x47x768 : Shape := ⟨3, ![1, 47, 768]⟩
abbrev S46x768 : Shape := ⟨2, ![46, 768]⟩
abbrev S1x46x768 : Shape := ⟨3, ![1, 46, 768]⟩
abbrev S45x768 : Shape := ⟨2, ![45, 768]⟩
abbrev S1x45x768 : Shape := ⟨3, ![1, 45, 768]⟩
abbrev S44x768 : Shape := ⟨2, ![44, 768]⟩
abbrev S1x44x768 : Shape := ⟨3, ![1, 44, 768]⟩
abbrev S43x768 : Shape := ⟨2, ![43, 768]⟩
abbrev S1x43x768 : Shape := ⟨3, ![1, 43, 768]⟩
abbrev S42x768 : Shape := ⟨2, ![42, 768]⟩
abbrev S1x42x768 : Shape := ⟨3, ![1, 42, 768]⟩
abbrev S41x768 : Shape := ⟨2, ![41, 768]⟩
abbrev S1x41x768 : Shape := ⟨3, ![1, 41, 768]⟩
abbrev S40x768 : Shape := ⟨2, ![40, 768]⟩
abbrev S1x40x768 : Shape := ⟨3, ![1, 40, 768]⟩
abbrev S39x768 : Shape := ⟨2, ![39, 768]⟩
abbrev S1x39x768 : Shape := ⟨3, ![1, 39, 768]⟩
abbrev S38x768 : Shape := ⟨2, ![38, 768]⟩
abbrev S1x38x768 : Shape := ⟨3, ![1, 38, 768]⟩
abbrev S37x768 : Shape := ⟨2, ![37, 768]⟩
abbrev S1x37x768 : Shape := ⟨3, ![1, 37, 768]⟩
abbrev S36x768 : Shape := ⟨2, ![36, 768]⟩
abbrev S1x36x768 : Shape := ⟨3, ![1, 36, 768]⟩
abbrev S35x768 : Shape := ⟨2, ![35, 768]⟩
abbrev S1x35x768 : Shape := ⟨3, ![1, 35, 768]⟩
abbrev S34x768 : Shape := ⟨2, ![34, 768]⟩
abbrev S1x34x768 : Shape := ⟨3, ![1, 34, 768]⟩
abbrev S33x768 : Shape := ⟨2, ![33, 768]⟩
abbrev S1x33x768 : Shape := ⟨3, ![1, 33, 768]⟩
abbrev S1x648x768 : Shape := ⟨3, ![1, 648, 768]⟩
abbrev S648x768 : Shape := ⟨2, ![648, 768]⟩
abbrev S32x768 : Shape := ⟨2, ![32, 768]⟩
abbrev S1x32x768 : Shape := ⟨3, ![1, 32, 768]⟩
abbrev S31x768 : Shape := ⟨2, ![31, 768]⟩
abbrev S1x31x768 : Shape := ⟨3, ![1, 31, 768]⟩
abbrev S30x768 : Shape := ⟨2, ![30, 768]⟩
abbrev S1x30x768 : Shape := ⟨3, ![1, 30, 768]⟩
abbrev S29x768 : Shape := ⟨2, ![29, 768]⟩
abbrev S1x29x768 : Shape := ⟨3, ![1, 29, 768]⟩
abbrev S28x768 : Shape := ⟨2, ![28, 768]⟩
abbrev S1x28x768 : Shape := ⟨3, ![1, 28, 768]⟩
abbrev S27x768 : Shape := ⟨2, ![27, 768]⟩
abbrev S1x27x768 : Shape := ⟨3, ![1, 27, 768]⟩
abbrev S26x768 : Shape := ⟨2, ![26, 768]⟩
abbrev S1x26x768 : Shape := ⟨3, ![1, 26, 768]⟩
abbrev S25x768 : Shape := ⟨2, ![25, 768]⟩
abbrev S1x25x768 : Shape := ⟨3, ![1, 25, 768]⟩
abbrev S24x768 : Shape := ⟨2, ![24, 768]⟩
abbrev S1x24x768 : Shape := ⟨3, ![1, 24, 768]⟩
abbrev S23x768 : Shape := ⟨2, ![23, 768]⟩
abbrev S1x23x768 : Shape := ⟨3, ![1, 23, 768]⟩
abbrev S22x768 : Shape := ⟨2, ![22, 768]⟩
abbrev S1x22x768 : Shape := ⟨3, ![1, 22, 768]⟩
abbrev S21x768 : Shape := ⟨2, ![21, 768]⟩
abbrev S1x21x768 : Shape := ⟨3, ![1, 21, 768]⟩
abbrev S20x768 : Shape := ⟨2, ![20, 768]⟩
abbrev S1x20x768 : Shape := ⟨3, ![1, 20, 768]⟩
abbrev S19x768 : Shape := ⟨2, ![19, 768]⟩
abbrev S1x19x768 : Shape := ⟨3, ![1, 19, 768]⟩
abbrev S18x768 : Shape := ⟨2, ![18, 768]⟩
abbrev S1x18x768 : Shape := ⟨3, ![1, 18, 768]⟩
abbrev S17x768 : Shape := ⟨2, ![17, 768]⟩
abbrev S1x17x768 : Shape := ⟨3, ![1, 17, 768]⟩
abbrev S1x392x768 : Shape := ⟨3, ![1, 392, 768]⟩
abbrev S392x768 : Shape := ⟨2, ![392, 768]⟩
abbrev S16x768 : Shape := ⟨2, ![16, 768]⟩
abbrev S1x16x768 : Shape := ⟨3, ![1, 16, 768]⟩
abbrev S15x768 : Shape := ⟨2, ![15, 768]⟩
abbrev S1x15x768 : Shape := ⟨3, ![1, 15, 768]⟩
abbrev S14x768 : Shape := ⟨2, ![14, 768]⟩
abbrev S1x14x768 : Shape := ⟨3, ![1, 14, 768]⟩
abbrev S13x768 : Shape := ⟨2, ![13, 768]⟩
abbrev S1x13x768 : Shape := ⟨3, ![1, 13, 768]⟩
abbrev S12x768 : Shape := ⟨2, ![12, 768]⟩
abbrev S1x12x768 : Shape := ⟨3, ![1, 12, 768]⟩
abbrev S11x768 : Shape := ⟨2, ![11, 768]⟩
abbrev S1x11x768 : Shape := ⟨3, ![1, 11, 768]⟩
abbrev S10x768 : Shape := ⟨2, ![10, 768]⟩
abbrev S1x10x768 : Shape := ⟨3, ![1, 10, 768]⟩
abbrev S9x768 : Shape := ⟨2, ![9, 768]⟩
abbrev S1x9x768 : Shape := ⟨3, ![1, 9, 768]⟩
abbrev S8x768 : Shape := ⟨2, ![8, 768]⟩
abbrev S1x8x768 : Shape := ⟨3, ![1, 8, 768]⟩
abbrev S7x768 : Shape := ⟨2, ![7, 768]⟩
abbrev S1x7x768 : Shape := ⟨3, ![1, 7, 768]⟩
abbrev S6x768 : Shape := ⟨2, ![6, 768]⟩
abbrev S1x6x768 : Shape := ⟨3, ![1, 6, 768]⟩
abbrev S5x768 : Shape := ⟨2, ![5, 768]⟩
abbrev S1x5x768 : Shape := ⟨3, ![1, 5, 768]⟩
abbrev S4x768 : Shape := ⟨2, ![4, 768]⟩
abbrev S1x4x768 : Shape := ⟨3, ![1, 4, 768]⟩
abbrev S3x768 : Shape := ⟨2, ![3, 768]⟩
abbrev S1x3x768 : Shape := ⟨3, ![1, 3, 768]⟩
abbrev S2x768 : Shape := ⟨2, ![2, 768]⟩
abbrev S1x2x768 : Shape := ⟨3, ![1, 2, 768]⟩
abbrev S1x1x768 : Shape := ⟨3, ![1, 1, 768]⟩

abbrev nBuf : Space → Nat
  | .hbm => 5
  | .vmem => 7
  | .smem => 0
  | _ => 0

abbrev bufTy : (tb : Table) → Fin (tcTables nBuf tb) → BufTy
  | .hbm, ⟨0, _⟩ => ⟨S4x256x768, .f32⟩
  | .hbm, ⟨1, _⟩ => ⟨S768x1536, .f32⟩
  | .hbm, ⟨2, _⟩ => ⟨S768, .f32⟩
  | .hbm, ⟨3, _⟩ => ⟨S1x768, .f32⟩
  | .hbm, ⟨4, _⟩ => ⟨S4x32896x768, .f32⟩
  | .local _ .vmem, ⟨0, _⟩ => ⟨S1x256x768, .f32⟩
  | .local _ .vmem, ⟨1, _⟩ => ⟨S1x256x768, .f32⟩
  | .local _ .vmem, ⟨2, _⟩ => ⟨S768x1536, .f32⟩
  | .local _ .vmem, ⟨3, _⟩ => ⟨S1x768, .f32⟩
  | .local _ .vmem, ⟨4, _⟩ => ⟨S256x768, .f32⟩
  | .local _ .vmem, ⟨5, _⟩ => ⟨S256x768, .f32⟩
  | .local _ .vmem, ⟨6, _⟩ => ⟨S2x3976x768, .f32⟩
  | _, _ => ⟨S4x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let c0_i32_94 : BitVec 32 := 0#32
  let c0_i32_95 : BitVec 32 := 0#32
  ![arg0.toNat, 0, 0]
def k0_off2 (i : grid0.Coords) : Fin 3 → Nat :=
  let arg0 : BitVec 32 := BitVec.ofNat 32 (i 0).val
  let c3976_i32 : BitVec 32 := 3976#32
  let c0_i32_180 : BitVec 32 := 0#32
  ![arg0.toNat, 3976, 0]
def k0_off3 (i : grid0.Coords) : Fin 3 → Nat :=
  let arg0 : BitVec 32 := BitVec.ofNat 32 (i 0).val
  let c7696_i32 : BitVec 32 := 7696#32
  let c0_i32_272 : BitVec 32 := 0#32
  ![arg0.toNat, 7696, 0]
def k0_off4 (i : grid0.Coords) : Fin 3 → Nat :=
  let arg0 : BitVec 32 := BitVec.ofNat 32 (i 0).val
  let c11160_i32 : BitVec 32 := 11160#32
  let c0_i32_364 : BitVec 32 := 0#32
  ![arg0.toNat, 11160, 0]
def k0_off5 (i : grid0.Coords) : Fin 3 → Nat :=
  let arg0 : BitVec 32 := BitVec.ofNat 32 (i 0).val
  let c14368_i32 : BitVec 32 := 14368#32
  let c0_i32_456 : BitVec 32 := 0#32
  ![arg0.toNat, 14368, 0]
def k0_off6 (i : grid0.Coords) : Fin 3 → Nat :=
  let arg0 : BitVec 32 := BitVec.ofNat 32 (i 0).val
  let c17320_i32 : BitVec 32 := 17320#32
  let c0_i32_548 : BitVec 32 := 0#32
  ![arg0.toNat, 17320, 0]
def k0_off7 (i : grid0.Coords) : Fin 3 → Nat :=
  let arg0 : BitVec 32 := BitVec.ofNat 32 (i 0).val
  let c20016_i32 : BitVec 32 := 20016#32
  let c0_i32_640 : BitVec 32 := 0#32
  ![arg0.toNat, 20016, 0]
def k0_off8 (i : grid0.Coords) : Fin 3 → Nat :=
  let arg0 : BitVec 32 := BitVec.ofNat 32 (i 0).val
  let c22456_i32 : BitVec 32 := 22456#32
  let c0_i32_732 : BitVec 32 := 0#32
  ![arg0.toNat, 22456, 0]
def k0_off9 (i : grid0.Coords) : Fin 3 → Nat :=
  let arg0 : BitVec 32 := BitVec.ofNat 32 (i 0).val
  let c24640_i32 : BitVec 32 := 24640#32
  let c0_i32_825 : BitVec 32 := 0#32
  ![arg0.toNat, 24640, 0]
def k0_off10 (i : grid0.Coords) : Fin 3 → Nat :=
  let arg0 : BitVec 32 := BitVec.ofNat 32 (i 0).val
  let c26568_i32 : BitVec 32 := 26568#32
  let c0_i32_919 : BitVec 32 := 0#32
  ![arg0.toNat, 26568, 0]
def k0_off11 (i : grid0.Coords) : Fin 3 → Nat :=
  let arg0 : BitVec 32 := BitVec.ofNat 32 (i 0).val
  let c28240_i32 : BitVec 32 := 28240#32
  let c0_i32_1013 : BitVec 32 := 0#32
  ![arg0.toNat, 28240, 0]
def k0_off12 (i : grid0.Coords) : Fin 3 → Nat :=
  let arg0 : BitVec 32 := BitVec.ofNat 32 (i 0).val
  let c29656_i32 : BitVec 32 := 29656#32
  let c0_i32_1109 : BitVec 32 := 0#32
  ![arg0.toNat, 29656, 0]
def k0_off13 (i : grid0.Coords) : Fin 3 → Nat :=
  let arg0 : BitVec 32 := BitVec.ofNat 32 (i 0).val
  let c30816_i32 : BitVec 32 := 30816#32
  let c0_i32_1205 : BitVec 32 := 0#32
  ![arg0.toNat, 30816, 0]
def k0_off14 (i : grid0.Coords) : Fin 3 → Nat :=
  let arg0 : BitVec 32 := BitVec.ofNat 32 (i 0).val
  let c31720_i32 : BitVec 32 := 31720#32
  let c0_i32_1303 : BitVec 32 := 0#32
  ![arg0.toNat, 31720, 0]
def k0_off15 (i : grid0.Coords) : Fin 3 → Nat :=
  let arg0 : BitVec 32 := BitVec.ofNat 32 (i 0).val
  let c32368_i32 : BitVec 32 := 32368#32
  let c0_i32_1406 : BitVec 32 := 0#32
  ![arg0.toNat, 32368, 0]
def k0_off16 (i : grid0.Coords) : Fin 3 → Nat :=
  let arg0 : BitVec 32 := BitVec.ofNat 32 (i 0).val
  let c32760_i32 : BitVec 32 := 32760#32
  let c0_i32_1517 : BitVec 32 := 0#32
  ![arg0.toNat, 32760, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class K0.Facts₀ : Prop where
  hrank0 : 0 < grid0.rank
  k0_off1_inb : ∀ i : grid0.Coords, ∀ a, (k0_off1 i) a + S1x3976x768.size a ≤ S4x32896x768.size a
  k0_off2_inb : ∀ i : grid0.Coords, ∀ a, (k0_off2 i) a + S1x3720x768.size a ≤ S4x32896x768.size a
  k0_off3_inb : ∀ i : grid0.Coords, ∀ a, (k0_off3 i) a + S1x3464x768.size a ≤ S4x32896x768.size a
  k0_off4_inb : ∀ i : grid0.Coords, ∀ a, (k0_off4 i) a + S1x3208x768.size a ≤ S4x32896x768.size a
  k0_off5_inb : ∀ i : grid0.Coords, ∀ a, (k0_off5 i) a + S1x2952x768.size a ≤ S4x32896x768.size a
  k0_off6_inb : ∀ i : grid0.Coords, ∀ a, (k0_off6 i) a + S1x2696x768.size a ≤ S4x32896x768.size a
  k0_off7_inb : ∀ i : grid0.Coords, ∀ a, (k0_off7 i) a + S1x2440x768.size a ≤ S4x32896x768.size a
  k0_off8_inb : ∀ i : grid0.Coords, ∀ a, (k0_off8 i) a + S1x2184x768.size a ≤ S4x32896x768.size a
  k0_off9_inb : ∀ i : grid0.Coords, ∀ a, (k0_off9 i) a + S1x1928x768.size a ≤ S4x32896x768.size a
  k0_off10_inb : ∀ i : grid0.Coords, ∀ a, (k0_off10 i) a + S1x1672x768.size a ≤ S4x32896x768.size a
  k0_off11_inb : ∀ i : grid0.Coords, ∀ a, (k0_off11 i) a + S1x1416x768.size a ≤ S4x32896x768.size a
  k0_off12_inb : ∀ i : grid0.Coords, ∀ a, (k0_off12 i) a + S1x1160x768.size a ≤ S4x32896x768.size a
  k0_off13_inb : ∀ i : grid0.Coords, ∀ a, (k0_off13 i) a + S1x904x768.size a ≤ S4x32896x768.size a
  k0_off14_inb : ∀ i : grid0.Coords, ∀ a, (k0_off14 i) a + S1x648x768.size a ≤ S4x32896x768.size a
  k0_off15_inb : ∀ i : grid0.Coords, ∀ a, (k0_off15 i) a + S1x392x768.size a ≤ S4x32896x768.size a
  k0_off16_inb : ∀ i : grid0.Coords, ∀ a, (k0_off16 i) a + S1x136x768.size a ≤ S4x32896x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S4x256x768.size a
  hwx0_0 : ∀ i : grid0.Coords, EltTy.bits .f32 = 32 ∨ (Rect.block (s := S4x256x768) S1x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1536.size a ≤ S768x1536.size a
  hwx0_1 : ∀ i : grid0.Coords, EltTy.bits .f32 = 32 ∨ (Rect.block (s := S768x1536) S768x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)

class Shapes1.Facts₀ : Prop where
  shapeCasts_S768_S1x768 : S768.ShapeCasts S1x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  bitsLt_bf16_f32 : FTy.bits .bf16 < FTy.bits .f32
  inb_S768x1536_S768x1536_0_0 : ∀ a, (![0, 0] : Fin 2 → Nat) a + S768x1536.size a ≤ S768x1536.size a
  h_S768x1536 : 0 < S768x1536.numel
  slices_S768x1536_o0_0_S768x768 : S768x1536.Slices ![0, 0] S768x768
  slices_S768x1536_o0_768_S768x768 : S768x1536.Slices ![0, 768] S768x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S256x768_S1x768_0_0 : ∀ a, (![0, 0] : Fin 2 → Nat) a + S1x768.size a ≤ S256x768.size a
  broadcasts_S1x768_S256x768 : S1x768.Broadcasts S256x768
  inb_S2x3976x768_S1x256x768_0_0_0 : ∀ a, (![0, 0, 0] : Fin 3 → Nat) a + S1x256x768.size a ≤ S2x3976x768.size a
  shapeCasts_S256x768_S1x256x768 : S256x768.ShapeCasts S1x256x768
  inb_S256x768_S1x768_1_0 : ∀ a, (![1, 0] : Fin 2 → Nat) a + S1x768.size a ≤ S256x768.size a
  inb_S256x768_S255x768_1_0 : ∀ a, (![1, 0] : Fin 2 → Nat) a + S255x768.size a ≤ S256x768.size a
  h_S255x768 : 0 < S255x768.numel
  broadcasts_S1x768_S255x768 : S1x768.Broadcasts S255x768
  inb_S2x3976x768_S1x255x768_0_256_0 : ∀ a, (![0, 256, 0] : Fin 3 → Nat) a + S1x255x768.size a ≤ S2x3976x768.size a
  h_S1x255x768 : 0 < S1x255x768.numel
  shapeCasts_S1x255x768_S255x768 : S1x255x768.ShapeCasts S255x768
  shapeCasts_S255x768_S1x255x768 : S255x768.ShapeCasts S1x255x768
  inb_S256x768_S1x768_2_0 : ∀ a, (![2, 0] : Fin 2 → Nat) a + S1x768.size a ≤ S256x768.size a
  inb_S256x768_S254x768_2_0 : ∀ a, (![2, 0] : Fin 2 → Nat) a + S254x768.size a ≤ S256x768.size a
  h_S254x768 : 0 < S254x768.numel
  broadcasts_S1x768_S254x768 : S1x768.Broadcasts S254x768
  inb_S2x3976x768_S1x254x768_0_511_0 : ∀ a, (![0, 511, 0] : Fin 3 → Nat) a + S1x254x768.size a ≤ S2x3976x768.size a
  h_S1x254x768 : 0 < S1x254x768.numel
  shapeCasts_S1x254x768_S254x768 : S1x254x768.ShapeCasts S254x768
  shapeCasts_S254x768_S1x254x768 : S254x768.ShapeCasts S1x254x768
  inb_S256x768_S1x768_3_0 : ∀ a, (![3, 0] : Fin 2 → Nat) a + S1x768.size a ≤ S256x768.size a
  inb_S256x768_S253x768_3_0 : ∀ a, (![3, 0] : Fin 2 → Nat) a + S253x768.size a ≤ S256x768.size a
  h_S253x768 : 0 < S253x768.numel
  broadcasts_S1x768_S253x768 : S1x768.Broadcasts S253x768
  inb_S2x3976x768_S1x253x768_0_765_0 : ∀ a, (![0, 765, 0] : Fin 3 → Nat) a + S1x253x768.size a ≤ S2x3976x768.size a
  h_S1x253x768 : 0 < S1x253x768.numel
  shapeCasts_S1x253x768_S253x768 : S1x253x768.ShapeCasts S253x768
  shapeCasts_S253x768_S1x253x768 : S253x768.ShapeCasts S1x253x768
  inb_S256x768_S1x768_4_0 : ∀ a, (![4, 0] : Fin 2 → Nat) a + S1x768.size a ≤ S256x768.size a
  inb_S256x768_S252x768_4_0 : ∀ a, (![4, 0] : Fin 2 → Nat) a + S252x768.size a ≤ S256x768.size a
  h_S252x768 : 0 < S252x768.numel
  broadcasts_S1x768_S252x768 : S1x768.Broadcasts S252x768
  inb_S2x3976x768_S1x252x768_0_1018_0 : ∀ a, (![0, 1018, 0] : Fin 3 → Nat) a + S1x252x768.size a ≤ S2x3976x768.size a
  h_S1x252x768 : 0 < S1x252x768.numel
  shapeCasts_S1x252x768_S252x768 : S1x252x768.ShapeCasts S252x768
  shapeCasts_S252x768_S1x252x768 : S252x768.ShapeCasts S1x252x768
  inb_S256x768_S1x768_5_0 : ∀ a, (![5, 0] : Fin 2 → Nat) a + S1x768.size a ≤ S256x768.size a
  inb_S256x768_S251x768_5_0 : ∀ a, (![5, 0] : Fin 2 → Nat) a + S251x768.size a ≤ S256x768.size a
  h_S251x768 : 0 < S251x768.numel
  broadcasts_S1x768_S251x768 : S1x768.Broadcasts S251x768
  inb_S2x3976x768_S1x251x768_0_1270_0 : ∀ a, (![0, 1270, 0] : Fin 3 → Nat) a + S1x251x768.size a ≤ S2x3976x768.size a
  h_S1x251x768 : 0 < S1x251x768.numel
  shapeCasts_S1x251x768_S251x768 : S1x251x768.ShapeCasts S251x768
  shapeCasts_S251x768_S1x251x768 : S251x768.ShapeCasts S1x251x768
  inb_S256x768_S1x768_6_0 : ∀ a, (![6, 0] : Fin 2 → Nat) a + S1x768.size a ≤ S256x768.size a
  inb_S256x768_S250x768_6_0 : ∀ a, (![6, 0] : Fin 2 → Nat) a + S250x768.size a ≤ S256x768.size a
  h_S250x768 : 0 < S250x768.numel
  broadcasts_S1x768_S250x768 : S1x768.Broadcasts S250x768
  inb_S2x3976x768_S1x250x768_0_1521_0 : ∀ a, (![0, 1521, 0] : Fin 3 → Nat) a + S1x250x768.size a ≤ S2x3976x768.size a
  h_S1x250x768 : 0 < S1x250x768.numel
  shapeCasts_S1x250x768_S250x768 : S1x250x768.ShapeCasts S250x768
  shapeCasts_S250x768_S1x250x768 : S250x768.ShapeCasts S1x250x768
  inb_S256x768_S1x768_7_0 : ∀ a, (![7, 0] : Fin 2 → Nat) a + S1x768.size a ≤ S256x768.size a
  inb_S256x768_S249x768_7_0 : ∀ a, (![7, 0] : Fin 2 → Nat) a + S249x768.size a ≤ S256x768.size a
  h_S249x768 : 0 < S249x768.numel
  broadcasts_S1x768_S249x768 : S1x768.Broadcasts S249x768
  inb_S2x3976x768_S1x249x768_0_1771_0 : ∀ a, (![0, 1771, 0] : Fin 3 → Nat) a + S1x249x768.size a ≤ S2x3976x768.size a
  h_S1x249x768 : 0 < S1x249x768.numel
  shapeCasts_S1x249x768_S249x768 : S1x249x768.ShapeCasts S249x768
  shapeCasts_S249x768_S1x249x768 : S249x768.ShapeCasts S1x249x768
  inb_S256x768_S1x768_8_0 : ∀ a, (![8, 0] : Fin 2 → Nat) a + S1x768.size a ≤ S256x768.size a
  inb_S256x768_S248x768_8_0 : ∀ a, (![8, 0] : Fin 2 → Nat) a + S248x768.size a ≤ S256x768.size a
  h_S248x768 : 0 < S248x768.numel
  broadcasts_S1x768_S248x768 : S1x768.Broadcasts S248x768
  inb_S2x3976x768_S1x248x768_0_2020_0 : ∀ a, (![0, 2020, 0] : Fin 3 → Nat) a + S1x248x768.size a ≤ S2x3976x768.size a
  h_S1x248x768 : 0 < S1x248x768.numel
  shapeCasts_S1x248x768_S248x768 : S1x248x768.ShapeCasts S248x768
  shapeCasts_S248x768_S1x248x768 : S248x768.ShapeCasts S1x248x768
  inb_S256x768_S1x768_9_0 : ∀ a, (![9, 0] : Fin 2 → Nat) a + S1x768.size a ≤ S256x768.size a
  inb_S256x768_S247x768_9_0 : ∀ a, (![9, 0] : Fin 2 → Nat) a + S247x768.size a ≤ S256x768.size a
  h_S247x768 : 0 < S247x768.numel
  broadcasts_S1x768_S247x768 : S1x768.Broadcasts S247x768
  inb_S2x3976x768_S1x247x768_0_2268_0 : ∀ a, (![0, 2268, 0] : Fin 3 → Nat) a + S1x247x768.size a ≤ S2x3976x768.size a
  h_S1x247x768 : 0 < S1x247x768.numel
  shapeCasts_S1x247x768_S247x768 : S1x247x768.ShapeCasts S247x768
  shapeCasts_S247x768_S1x247x768 : S247x768.ShapeCasts S1x247x768
  inb_S256x768_S1x768_10_0 : ∀ a, (![10, 0] : Fin 2 → Nat) a + S1x768.size a ≤ S256x768.size a
  inb_S256x768_S246x768_10_0 : ∀ a, (![10, 0] : Fin 2 → Nat) a + S246x768.size a ≤ S256x768.size a
  h_S246x768 : 0 < S246x768.numel
  broadcasts_S1x768_S246x768 : S1x768.Broadcasts S246x768
  inb_S2x3976x768_S1x246x768_0_2515_0 : ∀ a, (![0, 2515, 0] : Fin 3 → Nat) a + S1x246x768.size a ≤ S2x3976x768.size a
  h_S1x246x768 : 0 < S1x246x768.numel
  shapeCasts_S1x246x768_S246x768 : S1x246x768.ShapeCasts S246x768
  shapeCasts_S246x768_S1x246x768 : S246x768.ShapeCasts S1x246x768
  inb_S256x768_S1x768_11_0 : ∀ a, (![11, 0] : Fin 2 → Nat) a + S1x768.size a ≤ S256x768.size a
  inb_S256x768_S245x768_11_0 : ∀ a, (![11, 0] : Fin 2 → Nat) a + S245x768.size a ≤ S256x768.size a
  h_S245x768 : 0 < S245x768.numel
  broadcasts_S1x768_S245x768 : S1x768.Broadcasts S245x768
  inb_S2x3976x768_S1x245x768_0_2761_0 : ∀ a, (![0, 2761, 0] : Fin 3 → Nat) a + S1x245x768.size a ≤ S2x3976x768.size a
  h_S1x245x768 : 0 < S1x245x768.numel
  shapeCasts_S1x245x768_S245x768 : S1x245x768.ShapeCasts S245x768
  shapeCasts_S245x768_S1x245x768 : S245x768.ShapeCasts S1x245x768
  inb_S256x768_S1x768_12_0 : ∀ a, (![12, 0] : Fin 2 → Nat) a + S1x768.size a ≤ S256x768.size a
  inb_S256x768_S244x768_12_0 : ∀ a, (![12, 0] : Fin 2 → Nat) a + S244x768.size a ≤ S256x768.size a
  h_S244x768 : 0 < S244x768.numel
  broadcasts_S1x768_S244x768 : S1x768.Broadcasts S244x768
  inb_S2x3976x768_S1x244x768_0_3006_0 : ∀ a, (![0, 3006, 0] : Fin 3 → Nat) a + S1x244x768.size a ≤ S2x3976x768.size a
  h_S1x244x768 : 0 < S1x244x768.numel
  shapeCasts_S1x244x768_S244x768 : S1x244x768.ShapeCasts S244x768
  shapeCasts_S244x768_S1x244x768 : S244x768.ShapeCasts S1x244x768
  inb_S256x768_S1x768_13_0 : ∀ a, (![13, 0] : Fin 2 → Nat) a + S1x768.size a ≤ S256x768.size a
  inb_S256x768_S243x768_13_0 : ∀ a, (![13, 0] : Fin 2 → Nat) a + S243x768.size a ≤ S256x768.size a
  h_S243x768 : 0 < S243x768.numel
  broadcasts_S1x768_S243x768 : S1x768.Broadcasts S243x768
  inb_S2x3976x768_S1x243x768_0_3250_0 : ∀ a, (![0, 3250, 0] : Fin 3 → Nat) a + S1x243x768.size a ≤ S2x3976x768.size a
  h_S1x243x768 : 0 < S1x243x768.numel
  shapeCasts_S1x243x768_S243x768 : S1x243x768.ShapeCasts S243x768
  shapeCasts_S243x768_S1x243x768 : S243x768.ShapeCasts S1x243x768
  inb_S256x768_S1x768_14_0 : ∀ a, (![14, 0] : Fin 2 → Nat) a + S1x768.size a ≤ S256x768.size a
  inb_S256x768_S242x768_14_0 : ∀ a, (![14, 0] : Fin 2 → Nat) a + S242x768.size a ≤ S256x768.size a
  h_S242x768 : 0 < S242x768.numel
  broadcasts_S1x768_S242x768 : S1x768.Broadcasts S242x768
  inb_S2x3976x768_S1x242x768_0_3493_0 : ∀ a, (![0, 3493, 0] : Fin 3 → Nat) a + S1x242x768.size a ≤ S2x3976x768.size a
  h_S1x242x768 : 0 < S1x242x768.numel
  shapeCasts_S1x242x768_S242x768 : S1x242x768.ShapeCasts S242x768
  shapeCasts_S242x768_S1x242x768 : S242x768.ShapeCasts S1x242x768
  inb_S256x768_S1x768_15_0 : ∀ a, (![15, 0] : Fin 2 → Nat) a + S1x768.size a ≤ S256x768.size a
  inb_S256x768_S241x768_15_0 : ∀ a, (![15, 0] : Fin 2 → Nat) a + S241x768.size a ≤ S256x768.size a
  h_S241x768 : 0 < S241x768.numel
  broadcasts_S1x768_S241x768 : S1x768.Broadcasts S241x768
  inb_S2x3976x768_S1x241x768_0_3735_0 : ∀ a, (![0, 3735, 0] : Fin 3 → Nat) a + S1x241x768.size a ≤ S2x3976x768.size a
  h_S1x241x768 : 0 < S1x241x768.numel
  shapeCasts_S1x241x768_S241x768 : S1x241x768.ShapeCasts S241x768
  shapeCasts_S241x768_S1x241x768 : S241x768.ShapeCasts S1x241x768
  inb_S2_S1_0 : ∀ a, (![0] : Fin 1 → Nat) a + S1.size a ≤ S2.size a
  squeezes_S1_S_ : S1.Squeezes S_
  squeezes_S1x3976x768_S3976x768 : S1x3976x768.Squeezes S3976x768
  inb_S2x3976x768_S1x3976x768_0_0_0 : ∀ a, (![0, 0, 0] : Fin 3 → Nat) a + S1x3976x768.size a ≤ S2x3976x768.size a
  inb_S256x768_S1x768_16_0 : ∀ a, (![16, 0] : Fin 2 → Nat) a + S1x768.size a ≤ S256x768.size a
  inb_S256x768_S240x768_16_0 : ∀ a, (![16, 0] : Fin 2 → Nat) a + S240x768.size a ≤ S256x768.size a
  h_S240x768 : 0 < S240x768.numel
  broadcasts_S1x768_S240x768 : S1x768.Broadcasts S240x768
  inb_S2x3976x768_S1x240x768_1_0_0 : ∀ a, (![1, 0, 0] : Fin 3 → Nat) a + S1x240x768.size a ≤ S2x3976x768.size a
  h_S1x240x768 : 0 < S1x240x768.numel
  shapeCasts_S1x240x768_S240x768 : S1x240x768.ShapeCasts S240x768
  shapeCasts_S240x768_S1x240x768 : S240x768.ShapeCasts S1x240x768
  inb_S256x768_S1x768_17_0 : ∀ a, (![17, 0] : Fin 2 → Nat) a + S1x768.size a ≤ S256x768.size a
  inb_S256x768_S239x768_17_0 : ∀ a, (![17, 0] : Fin 2 → Nat) a + S239x768.size a ≤ S256x768.size a
  h_S239x768 : 0 < S239x768.numel
  broadcasts_S1x768_S239x768 : S1x768.Broadcasts S239x768
  inb_S2x3976x768_S1x239x768_1_240_0 : ∀ a, (![1, 240, 0] : Fin 3 → Nat) a + S1x239x768.size a ≤ S2x3976x768.size a
  h_S1x239x768 : 0 < S1x239x768.numel
  shapeCasts_S1x239x768_S239x768 : S1x239x768.ShapeCasts S239x768
  shapeCasts_S239x768_S1x239x768 : S239x768.ShapeCasts S1x239x768
  inb_S256x768_S1x768_18_0 : ∀ a, (![18, 0] : Fin 2 → Nat) a + S1x768.size a ≤ S256x768.size a
  inb_S256x768_S238x768_18_0 : ∀ a, (![18, 0] : Fin 2 → Nat) a + S238x768.size a ≤ S256x768.size a
  h_S238x768 : 0 < S238x768.numel
  broadcasts_S1x768_S238x768 : S1x768.Broadcasts S238x768
  inb_S2x3976x768_S1x238x768_1_479_0 : ∀ a, (![1, 479, 0] : Fin 3 → Nat) a + S1x238x768.size a ≤ S2x3976x768.size a
  h_S1x238x768 : 0 < S1x238x768.numel
  shapeCasts_S1x238x768_S238x768 : S1x238x768.ShapeCasts S238x768
  shapeCasts_S238x768_S1x238x768 : S238x768.ShapeCasts S1x238x768
  inb_S256x768_S1x768_19_0 : ∀ a, (![19, 0] : Fin 2 → Nat) a + S1x768.size a ≤ S256x768.size a
  inb_S256x768_S237x768_19_0 : ∀ a, (![19, 0] : Fin 2 → Nat) a + S237x768.size a ≤ S256x768.size a
  h_S237x768 : 0 < S237x768.numel
  broadcasts_S1x768_S237x768 : S1x768.Broadcasts S237x768
  inb_S2x3976x768_S1x237x768_1_717_0 : ∀ a, (![1, 717, 0] : Fin 3 → Nat) a + S1x237x768.size a ≤ S2x3976x768.size a
  h_S1x237x768 : 0 < S1x237x768.numel
  shapeCasts_S1x237x768_S237x768 : S1x237x768.ShapeCasts S237x768
  shapeCasts_S237x768_S1x237x768 : S237x768.ShapeCasts S1x237x768
  inb_S256x768_S1x768_20_0 : ∀ a, (![20, 0] : Fin 2 → Nat) a + S1x768.size a ≤ S256x768.size a
  inb_S256x768_S236x768_20_0 : ∀ a, (![20, 0] : Fin 2 → Nat) a + S236x768.size a ≤ S256x768.size a
  h_S236x768 : 0 < S236x768.numel
  broadcasts_S1x768_S236x768 : S1x768.Broadcasts S236x768
  inb_S2x3976x768_S1x236x768_1_954_0 : ∀ a, (![1, 954, 0] : Fin 3 → Nat) a + S1x236x768.size a ≤ S2x3976x768.size a
  h_S1x236x768 : 0 < S1x236x768.numel
  shapeCasts_S1x236x768_S236x768 : S1x236x768.ShapeCasts S236x768
  shapeCasts_S236x768_S1x236x768 : S236x768.ShapeCasts S1x236x768
  inb_S256x768_S1x768_21_0 : ∀ a, (![21, 0] : Fin 2 → Nat) a + S1x768.size a ≤ S256x768.size a
  inb_S256x768_S235x768_21_0 : ∀ a, (![21, 0] : Fin 2 → Nat) a + S235x768.size a ≤ S256x768.size a
  h_S235x768 : 0 < S235x768.numel
  broadcasts_S1x768_S235x768 : S1x768.Broadcasts S235x768
  inb_S2x3976x768_S1x235x768_1_1190_0 : ∀ a, (![1, 1190, 0] : Fin 3 → Nat) a + S1x235x768.size a ≤ S2x3976x768.size a
  h_S1x235x768 : 0 < S1x235x768.numel
  shapeCasts_S1x235x768_S235x768 : S1x235x768.ShapeCasts S235x768
  shapeCasts_S235x768_S1x235x768 : S235x768.ShapeCasts S1x235x768
  inb_S256x768_S1x768_22_0 : ∀ a, (![22, 0] : Fin 2 → Nat) a + S1x768.size a ≤ S256x768.size a
  inb_S256x768_S234x768_22_0 : ∀ a, (![22, 0] : Fin 2 → Nat) a + S234x768.size a ≤ S256x768.size a
  h_S234x768 : 0 < S234x768.numel
  broadcasts_S1x768_S234x768 : S1x768.Broadcasts S234x768
  inb_S2x3976x768_S1x234x768_1_1425_0 : ∀ a, (![1, 1425, 0] : Fin 3 → Nat) a + S1x234x768.size a ≤ S2x3976x768.size a
  h_S1x234x768 : 0 < S1x234x768.numel
  shapeCasts_S1x234x768_S234x768 : S1x234x768.ShapeCasts S234x768
  shapeCasts_S234x768_S1x234x768 : S234x768.ShapeCasts S1x234x768
  inb_S256x768_S1x768_23_0 : ∀ a, (![23, 0] : Fin 2 → Nat) a + S1x768.size a ≤ S256x768.size a
  inb_S256x768_S233x768_23_0 : ∀ a, (![23, 0] : Fin 2 → Nat) a + S233x768.size a ≤ S256x768.size a
  h_S233x768 : 0 < S233x768.numel
  broadcasts_S1x768_S233x768 : S1x768.Broadcasts S233x768
  inb_S2x3976x768_S1x233x768_1_1659_0 : ∀ a, (![1, 1659, 0] : Fin 3 → Nat) a + S1x233x768.size a ≤ S2x3976x768.size a
  h_S1x233x768 : 0 < S1x233x768.numel
  shapeCasts_S1x233x768_S233x768 : S1x233x768.ShapeCasts S233x768
  shapeCasts_S233x768_S1x233x768 : S233x768.ShapeCasts S1x233x768
  inb_S256x768_S1x768_24_0 : ∀ a, (![24, 0] : Fin 2 → Nat) a + S1x768.size a ≤ S256x768.size a
  inb_S256x768_S232x768_24_0 : ∀ a, (![24, 0] : Fin 2 → Nat) a + S232x768.size a ≤ S256x768.size a
  h_S232x768 : 0 < S232x768.numel
  broadcasts_S1x768_S232x768 : S1x768.Broadcasts S232x768
  inb_S2x3976x768_S1x232x768_1_1892_0 : ∀ a, (![1, 1892, 0] : Fin 3 → Nat) a + S1x232x768.size a ≤ S2x3976x768.size a
  h_S1x232x768 : 0 < S1x232x768.numel
  shapeCasts_S1x232x768_S232x768 : S1x232x768.ShapeCasts S232x768
  shapeCasts_S232x768_S1x232x768 : S232x768.ShapeCasts S1x232x768
  inb_S256x768_S1x768_25_0 : ∀ a, (![25, 0] : Fin 2 → Nat) a + S1x768.size a ≤ S256x768.size a
  inb_S256x768_S231x768_25_0 : ∀ a, (![25, 0] : Fin 2 → Nat) a + S231x768.size a ≤ S256x768.size a
  h_S231x768 : 0 < S231x768.numel
  broadcasts_S1x768_S231x768 : S1x768.Broadcasts S231x768
  inb_S2x3976x768_S1x231x768_1_2124_0 : ∀ a, (![1, 2124, 0] : Fin 3 → Nat) a + S1x231x768.size a ≤ S2x3976x768.size a
  h_S1x231x768 : 0 < S1x231x768.numel
  shapeCasts_S1x231x768_S231x768 : S1x231x768.ShapeCasts S231x768
  shapeCasts_S231x768_S1x231x768 : S231x768.ShapeCasts S1x231x768
  inb_S256x768_S1x768_26_0 : ∀ a, (![26, 0] : Fin 2 → Nat) a + S1x768.size a ≤ S256x768.size a
  inb_S256x768_S230x768_26_0 : ∀ a, (![26, 0] : Fin 2 → Nat) a + S230x768.size a ≤ S256x768.size a
  h_S230x768 : 0 < S230x768.numel
  broadcasts_S1x768_S230x768 : S1x768.Broadcasts S230x768
  inb_S2x3976x768_S1x230x768_1_2355_0 : ∀ a, (![1, 2355, 0] : Fin 3 → Nat) a + S1x230x768.size a ≤ S2x3976x768.size a
  h_S1x230x768 : 0 < S1x230x768.numel
  shapeCasts_S1x230x768_S230x768 : S1x230x768.ShapeCasts S230x768
  shapeCasts_S230x768_S1x230x768 : S230x768.ShapeCasts S1x230x768
  inb_S256x768_S1x768_27_0 : ∀ a, (![27, 0] : Fin 2 → Nat) a + S1x768.size a ≤ S256x768.size a
  inb_S256x768_S229x768_27_0 : ∀ a, (![27, 0] : Fin 2 → Nat) a + S229x768.size a ≤ S256x768.size a
  h_S229x768 : 0 < S229x768.numel
  broadcasts_S1x768_S229x768 : S1x768.Broadcasts S229x768
  inb_S2x3976x768_S1x229x768_1_2585_0 : ∀ a, (![1, 2585, 0] : Fin 3 → Nat) a + S1x229x768.size a ≤ S2x3976x768.size a
  h_S1x229x768 : 0 < S1x229x768.numel
  shapeCasts_S1x229x768_S229x768 : S1x229x768.ShapeCasts S229x768
  shapeCasts_S229x768_S1x229x768 : S229x768.ShapeCasts S1x229x768
  inb_S256x768_S1x768_28_0 : ∀ a, (![28, 0] : Fin 2 → Nat) a + S1x768.size a ≤ S256x768.size a
  inb_S256x768_S228x768_28_0 : ∀ a, (![28, 0] : Fin 2 → Nat) a + S228x768.size a ≤ S256x768.size a
  h_S228x768 : 0 < S228x768.numel
  broadcasts_S1x768_S228x768 : S1x768.Broadcasts S228x768
  inb_S2x3976x768_S1x228x768_1_2814_0 : ∀ a, (![1, 2814, 0] : Fin 3 → Nat) a + S1x228x768.size a ≤ S2x3976x768.size a
  h_S1x228x768 : 0 < S1x228x768.numel
  shapeCasts_S1x228x768_S228x768 : S1x228x768.ShapeCasts S228x768
  shapeCasts_S228x768_S1x228x768 : S228x768.ShapeCasts S1x228x768
  inb_S256x768_S1x768_29_0 : ∀ a, (![29, 0] : Fin 2 → Nat) a + S1x768.size a ≤ S256x768.size a
  inb_S256x768_S227x768_29_0 : ∀ a, (![29, 0] : Fin 2 → Nat) a + S227x768.size a ≤ S256x768.size a
  h_S227x768 : 0 < S227x768.numel
  broadcasts_S1x768_S227x768 : S1x768.Broadcasts S227x768
  inb_S2x3976x768_S1x227x768_1_3042_0 : ∀ a, (![1, 3042, 0] : Fin 3 → Nat) a + S1x227x768.size a ≤ S2x3976x768.size a
  h_S1x227x768 : 0 < S1x227x768.numel
  shapeCasts_S1x227x768_S227x768 : S1x227x768.ShapeCasts S227x768
  shapeCasts_S227x768_S1x227x768 : S227x768.ShapeCasts S1x227x768
  inb_S256x768_S1x768_30_0 : ∀ a, (![30, 0] : Fin 2 → Nat) a + S1x768.size a ≤ S256x768.size a
  inb_S256x768_S226x768_30_0 : ∀ a, (![30, 0] : Fin 2 → Nat) a + S226x768.size a ≤ S256x768.size a
  h_S226x768 : 0 < S226x768.numel
  broadcasts_S1x768_S226x768 : S1x768.Broadcasts S226x768
  inb_S2x3976x768_S1x226x768_1_3269_0 : ∀ a, (![1, 3269, 0] : Fin 3 → Nat) a + S1x226x768.size a ≤ S2x3976x768.size a
  h_S1x226x768 : 0 < S1x226x768.numel
  shapeCasts_S1x226x768_S226x768 : S1x226x768.ShapeCasts S226x768
  shapeCasts_S226x768_S1x226x768 : S226x768.ShapeCasts S1x226x768
  inb_S256x768_S1x768_31_0 : ∀ a, (![31, 0] : Fin 2 → Nat) a + S1x768.size a ≤ S256x768.size a
  inb_S256x768_S225x768_31_0 : ∀ a, (![31, 0] : Fin 2 → Nat) a + S225x768.size a ≤ S256x768.size a
  h_S225x768 : 0 < S225x768.numel
  broadcasts_S1x768_S225x768 : S1x768.Broadcasts S225x768
  inb_S2x3976x768_S1x225x768_1_3495_0 : ∀ a, (![1, 3495, 0] : Fin 3 → Nat) a + S1x225x768.size a ≤ S2x3976x768.size a
  h_S1x225x768 : 0 < S1x225x768.numel
  shapeCasts_S1x225x768_S225x768 : S1x225x768.ShapeCasts S225x768
  shapeCasts_S225x768_S1x225x768 : S225x768.ShapeCasts S1x225x768
  inb_S2_S1_1 : ∀ a, (![1] : Fin 1 → Nat) a + S1.size a ≤ S2.size a
  squeezes_S1x3720x768_S3720x768 : S1x3720x768.Squeezes S3720x768
  inb_S2x3976x768_S1x3720x768_1_0_0 : ∀ a, (![1, 0, 0] : Fin 3 → Nat) a + S1x3720x768.size a ≤ S2x3976x768.size a
  inb_S256x768_S1x768_32_0 : ∀ a, (![32, 0] : Fin 2 → Nat) a + S1x768.size a ≤ S256x768.size a
  inb_S256x768_S224x768_32_0 : ∀ a, (![32, 0] : Fin 2 → Nat) a + S224x768.size a ≤ S256x768.size a
  h_S224x768 : 0 < S224x768.numel
  broadcasts_S1x768_S224x768 : S1x768.Broadcasts S224x768
  inb_S2x3976x768_S1x224x768_0_0_0 : ∀ a, (![0, 0, 0] : Fin 3 → Nat) a + S1x224x768.size a ≤ S2x3976x768.size a
  h_S1x224x768 : 0 < S1x224x768.numel
  shapeCasts_S1x224x768_S224x768 : S1x224x768.ShapeCasts S224x768
  shapeCasts_S224x768_S1x224x768 : S224x768.ShapeCasts S1x224x768
  inb_S256x768_S1x768_33_0 : ∀ a, (![33, 0] : Fin 2 → Nat) a + S1x768.size a ≤ S256x768.size a
  inb_S256x768_S223x768_33_0 : ∀ a, (![33, 0] : Fin 2 → Nat) a + S223x768.size a ≤ S256x768.size a
  h_S223x768 : 0 < S223x768.numel
  broadcasts_S1x768_S223x768 : S1x768.Broadcasts S223x768
  inb_S2x3976x768_S1x223x768_0_224_0 : ∀ a, (![0, 224, 0] : Fin 3 → Nat) a + S1x223x768.size a ≤ S2x3976x768.size a
  h_S1x223x768 : 0 < S1x223x768.numel
  shapeCasts_S1x223x768_S223x768 : S1x223x768.ShapeCasts S223x768
  shapeCasts_S223x768_S1x223x768 : S223x768.ShapeCasts S1x223x768
  inb_S256x768_S1x768_34_0 : ∀ a, (![34, 0] : Fin 2 → Nat) a + S1x768.size a ≤ S256x768.size a
  inb_S256x768_S222x768_34_0 : ∀ a, (![34, 0] : Fin 2 → Nat) a + S222x768.size a ≤ S256x768.size a
  h_S222x768 : 0 < S222x768.numel
  broadcasts_S1x768_S222x768 : S1x768.Broadcasts S222x768
  inb_S2x3976x768_S1x222x768_0_447_0 : ∀ a, (![0, 447, 0] : Fin 3 → Nat) a + S1x222x768.size a ≤ S2x3976x768.size a
  h_S1x222x768 : 0 < S1x222x768.numel
  shapeCasts_S1x222x768_S222x768 : S1x222x768.ShapeCasts S222x768
  shapeCasts_S222x768_S1x222x768 : S222x768.ShapeCasts S1x222x768
  inb_S256x768_S1x768_35_0 : ∀ a, (![35, 0] : Fin 2 → Nat) a + S1x768.size a ≤ S256x768.size a
  inb_S256x768_S221x768_35_0 : ∀ a, (![35, 0] : Fin 2 → Nat) a + S221x768.size a ≤ S256x768.size a
  h_S221x768 : 0 < S221x768.numel
  broadcasts_S1x768_S221x768 : S1x768.Broadcasts S221x768
  inb_S2x3976x768_S1x221x768_0_669_0 : ∀ a, (![0, 669, 0] : Fin 3 → Nat) a + S1x221x768.size a ≤ S2x3976x768.size a
  h_S1x221x768 : 0 < S1x221x768.numel
  shapeCasts_S1x221x768_S221x768 : S1x221x768.ShapeCasts S221x768
  shapeCasts_S221x768_S1x221x768 : S221x768.ShapeCasts S1x221x768
  inb_S256x768_S1x768_36_0 : ∀ a, (![36, 0] : Fin 2 → Nat) a + S1x768.size a ≤ S256x768.size a
  inb_S256x768_S220x768_36_0 : ∀ a, (![36, 0] : Fin 2 → Nat) a + S220x768.size a ≤ S256x768.size a
  h_S220x768 : 0 < S220x768.numel
  broadcasts_S1x768_S220x768 : S1x768.Broadcasts S220x768
  inb_S2x3976x768_S1x220x768_0_890_0 : ∀ a, (![0, 890, 0] : Fin 3 → Nat) a + S1x220x768.size a ≤ S2x3976x768.size a
  h_S1x220x768 : 0 < S1x220x768.numel
  shapeCasts_S1x220x768_S220x768 : S1x220x768.ShapeCasts S220x768
  shapeCasts_S220x768_S1x220x768 : S220x768.ShapeCasts S1x220x768
  inb_S256x768_S1x768_37_0 : ∀ a, (![37, 0] : Fin 2 → Nat) a + S1x768.size a ≤ S256x768.size a
  inb_S256x768_S219x768_37_0 : ∀ a, (![37, 0] : Fin 2 → Nat) a + S219x768.size a ≤ S256x768.size a
  h_S219x768 : 0 < S219x768.numel
  broadcasts_S1x768_S219x768 : S1x768.Broadcasts S219x768
  inb_S2x3976x768_S1x219x768_0_1110_0 : ∀ a, (![0, 1110, 0] : Fin 3 → Nat) a + S1x219x768.size a ≤ S2x3976x768.size a
  h_S1x219x768 : 0 < S1x219x768.numel
  shapeCasts_S1x219x768_S219x768 : S1x219x768.ShapeCasts S219x768
  shapeCasts_S219x768_S1x219x768 : S219x768.ShapeCasts S1x219x768
  inb_S256x768_S1x768_38_0 : ∀ a, (![38, 0] : Fin 2 → Nat) a + S1x768.size a ≤ S256x768.size a
  inb_S256x768_S218x768_38_0 : ∀ a, (![38, 0] : Fin 2 → Nat) a + S218x768.size a ≤ S256x768.size a
  h_S218x768 : 0 < S218x768.numel
  broadcasts_S1x768_S218x768 : S1x768.Broadcasts S218x768
  inb_S2x3976x768_S1x218x768_0_1329_0 : ∀ a, (![0, 1329, 0] : Fin 3 → Nat) a + S1x218x768.size a ≤ S2x3976x768.size a
  h_S1x218x768 : 0 < S1x218x768.numel
  shapeCasts_S1x218x768_S218x768 : S1x218x768.ShapeCasts S218x768
  shapeCasts_S218x768_S1x218x768 : S218x768.ShapeCasts S1x218x768
  inb_S256x768_S1x768_39_0 : ∀ a, (![39, 0] : Fin 2 → Nat) a + S1x768.size a ≤ S256x768.size a
  inb_S256x768_S217x768_39_0 : ∀ a, (![39, 0] : Fin 2 → Nat) a + S217x768.size a ≤ S256x768.size a
  h_S217x768 : 0 < S217x768.numel
  broadcasts_S1x768_S217x768 : S1x768.Broadcasts S217x768
  inb_S2x3976x768_S1x217x768_0_1547_0 : ∀ a, (![0, 1547, 0] : Fin 3 → Nat) a + S1x217x768.size a ≤ S2x3976x768.size a
  h_S1x217x768 : 0 < S1x217x768.numel
  shapeCasts_S1x217x768_S217x768 : S1x217x768.ShapeCasts S217x768
  shapeCasts_S217x768_S1x217x768 : S217x768.ShapeCasts S1x217x768
  inb_S256x768_S1x768_40_0 : ∀ a, (![40, 0] : Fin 2 → Nat) a + S1x768.size a ≤ S256x768.size a
  inb_S256x768_S216x768_40_0 : ∀ a, (![40, 0] : Fin 2 → Nat) a + S216x768.size a ≤ S256x768.size a
  h_S216x768 : 0 < S216x768.numel
  broadcasts_S1x768_S216x768 : S1x768.Broadcasts S216x768
  inb_S2x3976x768_S1x216x768_0_1764_0 : ∀ a, (![0, 1764, 0] : Fin 3 → Nat) a + S1x216x768.size a ≤ S2x3976x768.size a
  h_S1x216x768 : 0 < S1x216x768.numel
  shapeCasts_S1x216x768_S216x768 : S1x216x768.ShapeCasts S216x768
  shapeCasts_S216x768_S1x216x768 : S216x768.ShapeCasts S1x216x768
  inb_S256x768_S1x768_41_0 : ∀ a, (![41, 0] : Fin 2 → Nat) a + S1x768.size a ≤ S256x768.size a
  inb_S256x768_S215x768_41_0 : ∀ a, (![41, 0] : Fin 2 → Nat) a + S215x768.size a ≤ S256x768.size a
  h_S215x768 : 0 < S215x768.numel
  broadcasts_S1x768_S215x768 : S1x768.Broadcasts S215x768
  inb_S2x3976x768_S1x215x768_0_1980_0 : ∀ a, (![0, 1980, 0] : Fin 3 → Nat) a + S1x215x768.size a ≤ S2x3976x768.size a
  h_S1x215x768 : 0 < S1x215x768.numel
  shapeCasts_S1x215x768_S215x768 : S1x215x768.ShapeCasts S215x768
  shapeCasts_S215x768_S1x215x768 : S215x768.ShapeCasts S1x215x768
  inb_S256x768_S1x768_42_0 : ∀ a, (![42, 0] : Fin 2 → Nat) a + S1x768.size a ≤ S256x768.size a
  inb_S256x768_S214x768_42_0 : ∀ a, (![42, 0] : Fin 2 → Nat) a + S214x768.size a ≤ S256x768.size a
  h_S214x768 : 0 < S214x768.numel
  broadcasts_S1x768_S214x768 : S1x768.Broadcasts S214x768
  inb_S2x3976x768_S1x214x768_0_2195_0 : ∀ a, (![0, 2195, 0] : Fin 3 → Nat) a + S1x214x768.size a ≤ S2x3976x768.size a
  h_S1x214x768 : 0 < S1x214x768.numel
  shapeCasts_S1x214x768_S214x768 : S1x214x768.ShapeCasts S214x768
  shapeCasts_S214x768_S1x214x768 : S214x768.ShapeCasts S1x214x768
  inb_S256x768_S1x768_43_0 : ∀ a, (![43, 0] : Fin 2 → Nat) a + S1x768.size a ≤ S256x768.size a
  inb_S256x768_S213x768_43_0 : ∀ a, (![43, 0] : Fin 2 → Nat) a + S213x768.size a ≤ S256x768.size a
  h_S213x768 : 0 < S213x768.numel
  broadcasts_S1x768_S213x768 : S1x768.Broadcasts S213x768
  inb_S2x3976x768_S1x213x768_0_2409_0 : ∀ a, (![0, 2409, 0] : Fin 3 → Nat) a + S1x213x768.size a ≤ S2x3976x768.size a
  h_S1x213x768 : 0 < S1x213x768.numel
  shapeCasts_S1x213x768_S213x768 : S1x213x768.ShapeCasts S213x768
  shapeCasts_S213x768_S1x213x768 : S213x768.ShapeCasts S1x213x768
  inb_S256x768_S1x768_44_0 : ∀ a, (![44, 0] : Fin 2 → Nat) a + S1x768.size a ≤ S256x768.size a
  inb_S256x768_S212x768_44_0 : ∀ a, (![44, 0] : Fin 2 → Nat) a + S212x768.size a ≤ S256x768.size a
  h_S212x768 : 0 < S212x768.numel
  broadcasts_S1x768_S212x768 : S1x768.Broadcasts S212x768
  inb_S2x3976x768_S1x212x768_0_2622_0 : ∀ a, (![0, 2622, 0] : Fin 3 → Nat) a + S1x212x768.size a ≤ S2x3976x768.size a
  h_S1x212x768 : 0 < S1x212x768.numel
  shapeCasts_S1x212x768_S212x768 : S1x212x768.ShapeCasts S212x768
  shapeCasts_S212x768_S1x212x768 : S212x768.ShapeCasts S1x212x768
  inb_S256x768_S1x768_45_0 : ∀ a, (![45, 0] : Fin 2 → Nat) a + S1x768.size a ≤ S256x768.size a
  inb_S256x768_S211x768_45_0 : ∀ a, (![45, 0] : Fin 2 → Nat) a + S211x768.size a ≤ S256x768.size a
  h_S211x768 : 0 < S211x768.numel
  broadcasts_S1x768_S211x768 : S1x768.Broadcasts S211x768
  inb_S2x3976x768_S1x211x768_0_2834_0 : ∀ a, (![0, 2834, 0] : Fin 3 → Nat) a + S1x211x768.size a ≤ S2x3976x768.size a
  h_S1x211x768 : 0 < S1x211x768.numel
  shapeCasts_S1x211x768_S211x768 : S1x211x768.ShapeCasts S211x768
  shapeCasts_S211x768_S1x211x768 : S211x768.ShapeCasts S1x211x768
  inb_S256x768_S1x768_46_0 : ∀ a, (![46, 0] : Fin 2 → Nat) a + S1x768.size a ≤ S256x768.size a
  inb_S256x768_S210x768_46_0 : ∀ a, (![46, 0] : Fin 2 → Nat) a + S210x768.size a ≤ S256x768.size a
  h_S210x768 : 0 < S210x768.numel
  broadcasts_S1x768_S210x768 : S1x768.Broadcasts S210x768
  inb_S2x3976x768_S1x210x768_0_3045_0 : ∀ a, (![0, 3045, 0] : Fin 3 → Nat) a + S1x210x768.size a ≤ S2x3976x768.size a
  h_S1x210x768 : 0 < S1x210x768.numel
  shapeCasts_S1x210x768_S210x768 : S1x210x768.ShapeCasts S210x768
  shapeCasts_S210x768_S1x210x768 : S210x768.ShapeCasts S1x210x768
  inb_S256x768_S1x768_47_0 : ∀ a, (![47, 0] : Fin 2 → Nat) a + S1x768.size a ≤ S256x768.size a
  inb_S256x768_S209x768_47_0 : ∀ a, (![47, 0] : Fin 2 → Nat) a + S209x768.size a ≤ S256x768.size a
  h_S209x768 : 0 < S209x768.numel
  broadcasts_S1x768_S209x768 : S1x768.Broadcasts S209x768
  inb_S2x3976x768_S1x209x768_0_3255_0 : ∀ a, (![0, 3255, 0] : Fin 3 → Nat) a + S1x209x768.size a ≤ S2x3976x768.size a
  h_S1x209x768 : 0 < S1x209x768.numel
  shapeCasts_S1x209x768_S209x768 : S1x209x768.ShapeCasts S209x768
  shapeCasts_S209x768_S1x209x768 : S209x768.ShapeCasts S1x209x768
  squeezes_S1x3464x768_S3464x768 : S1x3464x768.Squeezes S3464x768
  inb_S2x3976x768_S1x3464x768_0_0_0 : ∀ a, (![0, 0, 0] : Fin 3 → Nat) a + S1x3464x768.size a ≤ S2x3976x768.size a
  inb_S256x768_S1x768_48_0 : ∀ a, (![48, 0] : Fin 2 → Nat) a + S1x768.size a ≤ S256x768.size a
  inb_S256x768_S208x768_48_0 : ∀ a, (![48, 0] : Fin 2 → Nat) a + S208x768.size a ≤ S256x768.size a
  h_S208x768 : 0 < S208x768.numel
  broadcasts_S1x768_S208x768 : S1x768.Broadcasts S208x768
  inb_S2x3976x768_S1x208x768_1_0_0 : ∀ a, (![1, 0, 0] : Fin 3 → Nat) a + S1x208x768.size a ≤ S2x3976x768.size a
  h_S1x208x768 : 0 < S1x208x768.numel
  shapeCasts_S1x208x768_S208x768 : S1x208x768.ShapeCasts S208x768
  shapeCasts_S208x768_S1x208x768 : S208x768.ShapeCasts S1x208x768
  inb_S256x768_S1x768_49_0 : ∀ a, (![49, 0] : Fin 2 → Nat) a + S1x768.size a ≤ S256x768.size a
  inb_S256x768_S207x768_49_0 : ∀ a, (![49, 0] : Fin 2 → Nat) a + S207x768.size a ≤ S256x768.size a
  h_S207x768 : 0 < S207x768.numel
  broadcasts_S1x768_S207x768 : S1x768.Broadcasts S207x768
  inb_S2x3976x768_S1x207x768_1_208_0 : ∀ a, (![1, 208, 0] : Fin 3 → Nat) a + S1x207x768.size a ≤ S2x3976x768.size a
  h_S1x207x768 : 0 < S1x207x768.numel
  shapeCasts_S1x207x768_S207x768 : S1x207x768.ShapeCasts S207x768
  shapeCasts_S207x768_S1x207x768 : S207x768.ShapeCasts S1x207x768
  inb_S256x768_S1x768_50_0 : ∀ a, (![50, 0] : Fin 2 → Nat) a + S1x768.size a ≤ S256x768.size a
  inb_S256x768_S206x768_50_0 : ∀ a, (![50, 0] : Fin 2 → Nat) a + S206x768.size a ≤ S256x768.size a
  h_S206x768 : 0 < S206x768.numel
  broadcasts_S1x768_S206x768 : S1x768.Broadcasts S206x768
  inb_S2x3976x768_S1x206x768_1_415_0 : ∀ a, (![1, 415, 0] : Fin 3 → Nat) a + S1x206x768.size a ≤ S2x3976x768.size a
  h_S1x206x768 : 0 < S1x206x768.numel
  shapeCasts_S1x206x768_S206x768 : S1x206x768.ShapeCasts S206x768
  shapeCasts_S206x768_S1x206x768 : S206x768.ShapeCasts S1x206x768
  inb_S256x768_S1x768_51_0 : ∀ a, (![51, 0] : Fin 2 → Nat) a + S1x768.size a ≤ S256x768.size a
  inb_S256x768_S205x768_51_0 : ∀ a, (![51, 0] : Fin 2 → Nat) a + S205x768.size a ≤ S256x768.size a
  h_S205x768 : 0 < S205x768.numel
  broadcasts_S1x768_S205x768 : S1x768.Broadcasts S205x768
  inb_S2x3976x768_S1x205x768_1_621_0 : ∀ a, (![1, 621, 0] : Fin 3 → Nat) a + S1x205x768.size a ≤ S2x3976x768.size a
  h_S1x205x768 : 0 < S1x205x768.numel
  shapeCasts_S1x205x768_S205x768 : S1x205x768.ShapeCasts S205x768
  shapeCasts_S205x768_S1x205x768 : S205x768.ShapeCasts S1x205x768
  inb_S256x768_S1x768_52_0 : ∀ a, (![52, 0] : Fin 2 → Nat) a + S1x768.size a ≤ S256x768.size a
  inb_S256x768_S204x768_52_0 : ∀ a, (![52, 0] : Fin 2 → Nat) a + S204x768.size a ≤ S256x768.size a
  h_S204x768 : 0 < S204x768.numel
  broadcasts_S1x768_S204x768 : S1x768.Broadcasts S204x768
  inb_S2x3976x768_S1x204x768_1_826_0 : ∀ a, (![1, 826, 0] : Fin 3 → Nat) a + S1x204x768.size a ≤ S2x3976x768.size a
  h_S1x204x768 : 0 < S1x204x768.numel
  shapeCasts_S1x204x768_S204x768 : S1x204x768.ShapeCasts S204x768
  shapeCasts_S204x768_S1x204x768 : S204x768.ShapeCasts S1x204x768
  inb_S256x768_S1x768_53_0 : ∀ a, (![53, 0] : Fin 2 → Nat) a + S1x768.size a ≤ S256x768.size a
  inb_S256x768_S203x768_53_0 : ∀ a, (![53, 0] : Fin 2 → Nat) a + S203x768.size a ≤ S256x768.size a
  h_S203x768 : 0 < S203x768.numel
  broadcasts_S1x768_S203x768 : S1x768.Broadcasts S203x768
  inb_S2x3976x768_S1x203x768_1_1030_0 : ∀ a, (![1, 1030, 0] : Fin 3 → Nat) a + S1x203x768.size a ≤ S2x3976x768.size a
  h_S1x203x768 : 0 < S1x203x768.numel
  shapeCasts_S1x203x768_S203x768 : S1x203x768.ShapeCasts S203x768
  shapeCasts_S203x768_S1x203x768 : S203x768.ShapeCasts S1x203x768
  inb_S256x768_S1x768_54_0 : ∀ a, (![54, 0] : Fin 2 → Nat) a + S1x768.size a ≤ S256x768.size a
  inb_S256x768_S202x768_54_0 : ∀ a, (![54, 0] : Fin 2 → Nat) a + S202x768.size a ≤ S256x768.size a
  h_S202x768 : 0 < S202x768.numel
  broadcasts_S1x768_S202x768 : S1x768.Broadcasts S202x768
  inb_S2x3976x768_S1x202x768_1_1233_0 : ∀ a, (![1, 1233, 0] : Fin 3 → Nat) a + S1x202x768.size a ≤ S2x3976x768.size a
  h_S1x202x768 : 0 < S1x202x768.numel
  shapeCasts_S1x202x768_S202x768 : S1x202x768.ShapeCasts S202x768
  shapeCasts_S202x768_S1x202x768 : S202x768.ShapeCasts S1x202x768
  inb_S256x768_S1x768_55_0 : ∀ a, (![55, 0] : Fin 2 → Nat) a + S1x768.size a ≤ S256x768.size a
  inb_S256x768_S201x768_55_0 : ∀ a, (![55, 0] : Fin 2 → Nat) a + S201x768.size a ≤ S256x768.size a
  h_S201x768 : 0 < S201x768.numel
  broadcasts_S1x768_S201x768 : S1x768.Broadcasts S201x768
  inb_S2x3976x768_S1x201x768_1_1435_0 : ∀ a, (![1, 1435, 0] : Fin 3 → Nat) a + S1x201x768.size a ≤ S2x3976x768.size a
  h_S1x201x768 : 0 < S1x201x768.numel
  shapeCasts_S1x201x768_S201x768 : S1x201x768.ShapeCasts S201x768
  shapeCasts_S201x768_S1x201x768 : S201x768.ShapeCasts S1x201x768
  inb_S256x768_S1x768_56_0 : ∀ a, (![56, 0] : Fin 2 → Nat) a + S1x768.size a ≤ S256x768.size a
  inb_S256x768_S200x768_56_0 : ∀ a, (![56, 0] : Fin 2 → Nat) a + S200x768.size a ≤ S256x768.size a
  h_S200x768 : 0 < S200x768.numel
  broadcasts_S1x768_S200x768 : S1x768.Broadcasts S200x768
  inb_S2x3976x768_S1x200x768_1_1636_0 : ∀ a, (![1, 1636, 0] : Fin 3 → Nat) a + S1x200x768.size a ≤ S2x3976x768.size a
  h_S1x200x768 : 0 < S1x200x768.numel
  shapeCasts_S1x200x768_S200x768 : S1x200x768.ShapeCasts S200x768
  shapeCasts_S200x768_S1x200x768 : S200x768.ShapeCasts S1x200x768
  inb_S256x768_S1x768_57_0 : ∀ a, (![57, 0] : Fin 2 → Nat) a + S1x768.size a ≤ S256x768.size a
  inb_S256x768_S199x768_57_0 : ∀ a, (![57, 0] : Fin 2 → Nat) a + S199x768.size a ≤ S256x768.size a
  h_S199x768 : 0 < S199x768.numel
  broadcasts_S1x768_S199x768 : S1x768.Broadcasts S199x768
  inb_S2x3976x768_S1x199x768_1_1836_0 : ∀ a, (![1, 1836, 0] : Fin 3 → Nat) a + S1x199x768.size a ≤ S2x3976x768.size a
  h_S1x199x768 : 0 < S1x199x768.numel
  shapeCasts_S1x199x768_S199x768 : S1x199x768.ShapeCasts S199x768
  shapeCasts_S199x768_S1x199x768 : S199x768.ShapeCasts S1x199x768
  inb_S256x768_S1x768_58_0 : ∀ a, (![58, 0] : Fin 2 → Nat) a + S1x768.size a ≤ S256x768.size a
  inb_S256x768_S198x768_58_0 : ∀ a, (![58, 0] : Fin 2 → Nat) a + S198x768.size a ≤ S256x768.size a
  h_S198x768 : 0 < S198x768.numel
  broadcasts_S1x768_S198x768 : S1x768.Broadcasts S198x768
  inb_S2x3976x768_S1x198x768_1_2035_0 : ∀ a, (![1, 2035, 0] : Fin 3 → Nat) a + S1x198x768.size a ≤ S2x3976x768.size a
  h_S1x198x768 : 0 < S1x198x768.numel
  shapeCasts_S1x198x768_S198x768 : S1x198x768.ShapeCasts S198x768
  shapeCasts_S198x768_S1x198x768 : S198x768.ShapeCasts S1x198x768
  inb_S256x768_S1x768_59_0 : ∀ a, (![59, 0] : Fin 2 → Nat) a + S1x768.size a ≤ S256x768.size a
  inb_S256x768_S197x768_59_0 : ∀ a, (![59, 0] : Fin 2 → Nat) a + S197x768.size a ≤ S256x768.size a
  h_S197x768 : 0 < S197x768.numel
  broadcasts_S1x768_S197x768 : S1x768.Broadcasts S197x768
  inb_S2x3976x768_S1x197x768_1_2233_0 : ∀ a, (![1, 2233, 0] : Fin 3 → Nat) a + S1x197x768.size a ≤ S2x3976x768.size a
  h_S1x197x768 : 0 < S1x197x768.numel
  shapeCasts_S1x197x768_S197x768 : S1x197x768.ShapeCasts S197x768
  shapeCasts_S197x768_S1x197x768 : S197x768.ShapeCasts S1x197x768
  inb_S256x768_S1x768_60_0 : ∀ a, (![60, 0] : Fin 2 → Nat) a + S1x768.size a ≤ S256x768.size a
  inb_S256x768_S196x768_60_0 : ∀ a, (![60, 0] : Fin 2 → Nat) a + S196x768.size a ≤ S256x768.size a
  h_S196x768 : 0 < S196x768.numel
  broadcasts_S1x768_S196x768 : S1x768.Broadcasts S196x768
  inb_S2x3976x768_S1x196x768_1_2430_0 : ∀ a, (![1, 2430, 0] : Fin 3 → Nat) a + S1x196x768.size a ≤ S2x3976x768.size a
  h_S1x196x768 : 0 < S1x196x768.numel
  shapeCasts_S1x196x768_S196x768 : S1x196x768.ShapeCasts S196x768
  shapeCasts_S196x768_S1x196x768 : S196x768.ShapeCasts S1x196x768
  inb_S256x768_S1x768_61_0 : ∀ a, (![61, 0] : Fin 2 → Nat) a + S1x768.size a ≤ S256x768.size a
  inb_S256x768_S195x768_61_0 : ∀ a, (![61, 0] : Fin 2 → Nat) a + S195x768.size a ≤ S256x768.size a
  h_S195x768 : 0 < S195x768.numel
  broadcasts_S1x768_S195x768 : S1x768.Broadcasts S195x768
  inb_S2x3976x768_S1x195x768_1_2626_0 : ∀ a, (![1, 2626, 0] : Fin 3 → Nat) a + S1x195x768.size a ≤ S2x3976x768.size a
  h_S1x195x768 : 0 < S1x195x768.numel
  shapeCasts_S1x195x768_S195x768 : S1x195x768.ShapeCasts S195x768
  shapeCasts_S195x768_S1x195x768 : S195x768.ShapeCasts S1x195x768
  inb_S256x768_S1x768_62_0 : ∀ a, (![62, 0] : Fin 2 → Nat) a + S1x768.size a ≤ S256x768.size a
  inb_S256x768_S194x768_62_0 : ∀ a, (![62, 0] : Fin 2 → Nat) a + S194x768.size a ≤ S256x768.size a
  h_S194x768 : 0 < S194x768.numel
  broadcasts_S1x768_S194x768 : S1x768.Broadcasts S194x768
  inb_S2x3976x768_S1x194x768_1_2821_0 : ∀ a, (![1, 2821, 0] : Fin 3 → Nat) a + S1x194x768.size a ≤ S2x3976x768.size a
  h_S1x194x768 : 0 < S1x194x768.numel
  shapeCasts_S1x194x768_S194x768 : S1x194x768.ShapeCasts S194x768
  shapeCasts_S194x768_S1x194x768 : S194x768.ShapeCasts S1x194x768
  inb_S256x768_S1x768_63_0 : ∀ a, (![63, 0] : Fin 2 → Nat) a + S1x768.size a ≤ S256x768.size a
  inb_S256x768_S193x768_63_0 : ∀ a, (![63, 0] : Fin 2 → Nat) a + S193x768.size a ≤ S256x768.size a
  h_S193x768 : 0 < S193x768.numel
  broadcasts_S1x768_S193x768 : S1x768.Broadcasts S193x768
  inb_S2x3976x768_S1x193x768_1_3015_0 : ∀ a, (![1, 3015, 0] : Fin 3 → Nat) a + S1x193x768.size a ≤ S2x3976x768.size a
  h_S1x193x768 : 0 < S1x193x768.numel
  shapeCasts_S1x193x768_S193x768 : S1x193x768.ShapeCasts S193x768
  shapeCasts_S193x768_S1x193x768 : S193x768.ShapeCasts S1x193x768
  squeezes_S1x3208x768_S3208x768 : S1x3208x768.Squeezes S3208x768
  inb_S2x3976x768_S1x3208x768_1_0_0 : ∀ a, (![1, 0, 0] : Fin 3 → Nat) a + S1x3208x768.size a ≤ S2x3976x768.size a
  inb_S256x768_S1x768_64_0 : ∀ a, (![64, 0] : Fin 2 → Nat) a + S1x768.size a ≤ S256x768.size a
  inb_S256x768_S192x768_64_0 : ∀ a, (![64, 0] : Fin 2 → Nat) a + S192x768.size a ≤ S256x768.size a
  h_S192x768 : 0 < S192x768.numel
  broadcasts_S1x768_S192x768 : S1x768.Broadcasts S192x768
  inb_S2x3976x768_S1x192x768_0_0_0 : ∀ a, (![0, 0, 0] : Fin 3 → Nat) a + S1x192x768.size a ≤ S2x3976x768.size a
  h_S1x192x768 : 0 < S1x192x768.numel
  shapeCasts_S1x192x768_S192x768 : S1x192x768.ShapeCasts S192x768
  shapeCasts_S192x768_S1x192x768 : S192x768.ShapeCasts S1x192x768
  inb_S256x768_S1x768_65_0 : ∀ a, (![65, 0] : Fin 2 → Nat) a + S1x768.size a ≤ S256x768.size a
  inb_S256x768_S191x768_65_0 : ∀ a, (![65, 0] : Fin 2 → Nat) a + S191x768.size a ≤ S256x768.size a
  h_S191x768 : 0 < S191x768.numel
  broadcasts_S1x768_S191x768 : S1x768.Broadcasts S191x768
  inb_S2x3976x768_S1x191x768_0_192_0 : ∀ a, (![0, 192, 0] : Fin 3 → Nat) a + S1x191x768.size a ≤ S2x3976x768.size a
  h_S1x191x768 : 0 < S1x191x768.numel
  shapeCasts_S1x191x768_S191x768 : S1x191x768.ShapeCasts S191x768
  shapeCasts_S191x768_S1x191x768 : S191x768.ShapeCasts S1x191x768
  inb_S256x768_S1x768_66_0 : ∀ a, (![66, 0] : Fin 2 → Nat) a + S1x768.size a ≤ S256x768.size a
  inb_S256x768_S190x768_66_0 : ∀ a, (![66, 0] : Fin 2 → Nat) a + S190x768.size a ≤ S256x768.size a
  h_S190x768 : 0 < S190x768.numel
  broadcasts_S1x768_S190x768 : S1x768.Broadcasts S190x768
  inb_S2x3976x768_S1x190x768_0_383_0 : ∀ a, (![0, 383, 0] : Fin 3 → Nat) a + S1x190x768.size a ≤ S2x3976x768.size a
  h_S1x190x768 : 0 < S1x190x768.numel
  shapeCasts_S1x190x768_S190x768 : S1x190x768.ShapeCasts S190x768
  shapeCasts_S190x768_S1x190x768 : S190x768.ShapeCasts S1x190x768
  inb_S256x768_S1x768_67_0 : ∀ a, (![67, 0] : Fin 2 → Nat) a + S1x768.size a ≤ S256x768.size a
  inb_S256x768_S189x768_67_0 : ∀ a, (![67, 0] : Fin 2 → Nat) a + S189x768.size a ≤ S256x768.size a
  h_S189x768 : 0 < S189x768.numel
  broadcasts_S1x768_S189x768 : S1x768.Broadcasts S189x768
  inb_S2x3976x768_S1x189x768_0_573_0 : ∀ a, (![0, 573, 0] : Fin 3 → Nat) a + S1x189x768.size a ≤ S2x3976x768.size a
  h_S1x189x768 : 0 < S1x189x768.numel
  shapeCasts_S1x189x768_S189x768 : S1x189x768.ShapeCasts S189x768
  shapeCasts_S189x768_S1x189x768 : S189x768.ShapeCasts S1x189x768
  inb_S256x768_S1x768_68_0 : ∀ a, (![68, 0] : Fin 2 → Nat) a + S1x768.size a ≤ S256x768.size a
  inb_S256x768_S188x768_68_0 : ∀ a, (![68, 0] : Fin 2 → Nat) a + S188x768.size a ≤ S256x768.size a
  h_S188x768 : 0 < S188x768.numel
  broadcasts_S1x768_S188x768 : S1x768.Broadcasts S188x768
  inb_S2x3976x768_S1x188x768_0_762_0 : ∀ a, (![0, 762, 0] : Fin 3 → Nat) a + S1x188x768.size a ≤ S2x3976x768.size a
  h_S1x188x768 : 0 < S1x188x768.numel
  shapeCasts_S1x188x768_S188x768 : S1x188x768.ShapeCasts S188x768
  shapeCasts_S188x768_S1x188x768 : S188x768.ShapeCasts S1x188x768
  inb_S256x768_S1x768_69_0 : ∀ a, (![69, 0] : Fin 2 → Nat) a + S1x768.size a ≤ S256x768.size a
  inb_S256x768_S187x768_69_0 : ∀ a, (![69, 0] : Fin 2 → Nat) a + S187x768.size a ≤ S256x768.size a
  h_S187x768 : 0 < S187x768.numel
  broadcasts_S1x768_S187x768 : S1x768.Broadcasts S187x768
  inb_S2x3976x768_S1x187x768_0_950_0 : ∀ a, (![0, 950, 0] : Fin 3 → Nat) a + S1x187x768.size a ≤ S2x3976x768.size a
  h_S1x187x768 : 0 < S1x187x768.numel
  shapeCasts_S1x187x768_S187x768 : S1x187x768.ShapeCasts S187x768
  shapeCasts_S187x768_S1x187x768 : S187x768.ShapeCasts S1x187x768
  inb_S256x768_S1x768_70_0 : ∀ a, (![70, 0] : Fin 2 → Nat) a + S1x768.size a ≤ S256x768.size a
  inb_S256x768_S186x768_70_0 : ∀ a, (![70, 0] : Fin 2 → Nat) a + S186x768.size a ≤ S256x768.size a
  h_S186x768 : 0 < S186x768.numel
  broadcasts_S1x768_S186x768 : S1x768.Broadcasts S186x768
  inb_S2x3976x768_S1x186x768_0_1137_0 : ∀ a, (![0, 1137, 0] : Fin 3 → Nat) a + S1x186x768.size a ≤ S2x3976x768.size a
  h_S1x186x768 : 0 < S1x186x768.numel
  shapeCasts_S1x186x768_S186x768 : S1x186x768.ShapeCasts S186x768
  shapeCasts_S186x768_S1x186x768 : S186x768.ShapeCasts S1x186x768
  inb_S256x768_S1x768_71_0 : ∀ a, (![71, 0] : Fin 2 → Nat) a + S1x768.size a ≤ S256x768.size a
  inb_S256x768_S185x768_71_0 : ∀ a, (![71, 0] : Fin 2 → Nat) a + S185x768.size a ≤ S256x768.size a
  h_S185x768 : 0 < S185x768.numel
  broadcasts_S1x768_S185x768 : S1x768.Broadcasts S185x768
  inb_S2x3976x768_S1x185x768_0_1323_0 : ∀ a, (![0, 1323, 0] : Fin 3 → Nat) a + S1x185x768.size a ≤ S2x3976x768.size a
  h_S1x185x768 : 0 < S1x185x768.numel
  shapeCasts_S1x185x768_S185x768 : S1x185x768.ShapeCasts S185x768
  shapeCasts_S185x768_S1x185x768 : S185x768.ShapeCasts S1x185x768
  inb_S256x768_S1x768_72_0 : ∀ a, (![72, 0] : Fin 2 → Nat) a + S1x768.size a ≤ S256x768.size a
  inb_S256x768_S184x768_72_0 : ∀ a, (![72, 0] : Fin 2 → Nat) a + S184x768.size a ≤ S256x768.size a
  h_S184x768 : 0 < S184x768.numel
  broadcasts_S1x768_S184x768 : S1x768.Broadcasts S184x768
  inb_S2x3976x768_S1x184x768_0_1508_0 : ∀ a, (![0, 1508, 0] : Fin 3 → Nat) a + S1x184x768.size a ≤ S2x3976x768.size a
  h_S1x184x768 : 0 < S1x184x768.numel
  shapeCasts_S1x184x768_S184x768 : S1x184x768.ShapeCasts S184x768
  shapeCasts_S184x768_S1x184x768 : S184x768.ShapeCasts S1x184x768
  inb_S256x768_S1x768_73_0 : ∀ a, (![73, 0] : Fin 2 → Nat) a + S1x768.size a ≤ S256x768.size a
  inb_S256x768_S183x768_73_0 : ∀ a, (![73, 0] : Fin 2 → Nat) a + S183x768.size a ≤ S256x768.size a
  h_S183x768 : 0 < S183x768.numel
  broadcasts_S1x768_S183x768 : S1x768.Broadcasts S183x768
  inb_S2x3976x768_S1x183x768_0_1692_0 : ∀ a, (![0, 1692, 0] : Fin 3 → Nat) a + S1x183x768.size a ≤ S2x3976x768.size a
  h_S1x183x768 : 0 < S1x183x768.numel
  shapeCasts_S1x183x768_S183x768 : S1x183x768.ShapeCasts S183x768
  shapeCasts_S183x768_S1x183x768 : S183x768.ShapeCasts S1x183x768
  inb_S256x768_S1x768_74_0 : ∀ a, (![74, 0] : Fin 2 → Nat) a + S1x768.size a ≤ S256x768.size a
  inb_S256x768_S182x768_74_0 : ∀ a, (![74, 0] : Fin 2 → Nat) a + S182x768.size a ≤ S256x768.size a
  h_S182x768 : 0 < S182x768.numel
  broadcasts_S1x768_S182x768 : S1x768.Broadcasts S182x768
  inb_S2x3976x768_S1x182x768_0_1875_0 : ∀ a, (![0, 1875, 0] : Fin 3 → Nat) a + S1x182x768.size a ≤ S2x3976x768.size a
  h_S1x182x768 : 0 < S1x182x768.numel
  shapeCasts_S1x182x768_S182x768 : S1x182x768.ShapeCasts S182x768
  shapeCasts_S182x768_S1x182x768 : S182x768.ShapeCasts S1x182x768
  inb_S256x768_S1x768_75_0 : ∀ a, (![75, 0] : Fin 2 → Nat) a + S1x768.size a ≤ S256x768.size a
  inb_S256x768_S181x768_75_0 : ∀ a, (![75, 0] : Fin 2 → Nat) a + S181x768.size a ≤ S256x768.size a
  h_S181x768 : 0 < S181x768.numel
  broadcasts_S1x768_S181x768 : S1x768.Broadcasts S181x768
  inb_S2x3976x768_S1x181x768_0_2057_0 : ∀ a, (![0, 2057, 0] : Fin 3 → Nat) a + S1x181x768.size a ≤ S2x3976x768.size a
  h_S1x181x768 : 0 < S1x181x768.numel
  shapeCasts_S1x181x768_S181x768 : S1x181x768.ShapeCasts S181x768
  shapeCasts_S181x768_S1x181x768 : S181x768.ShapeCasts S1x181x768
  inb_S256x768_S1x768_76_0 : ∀ a, (![76, 0] : Fin 2 → Nat) a + S1x768.size a ≤ S256x768.size a
  inb_S256x768_S180x768_76_0 : ∀ a, (![76, 0] : Fin 2 → Nat) a + S180x768.size a ≤ S256x768.size a
  h_S180x768 : 0 < S180x768.numel
  broadcasts_S1x768_S180x768 : S1x768.Broadcasts S180x768
  inb_S2x3976x768_S1x180x768_0_2238_0 : ∀ a, (![0, 2238, 0] : Fin 3 → Nat) a + S1x180x768.size a ≤ S2x3976x768.size a
  h_S1x180x768 : 0 < S1x180x768.numel
  shapeCasts_S1x180x768_S180x768 : S1x180x768.ShapeCasts S180x768
  shapeCasts_S180x768_S1x180x768 : S180x768.ShapeCasts S1x180x768
  inb_S256x768_S1x768_77_0 : ∀ a, (![77, 0] : Fin 2 → Nat) a + S1x768.size a ≤ S256x768.size a
  inb_S256x768_S179x768_77_0 : ∀ a, (![77, 0] : Fin 2 → Nat) a + S179x768.size a ≤ S256x768.size a
  h_S179x768 : 0 < S179x768.numel
  broadcasts_S1x768_S179x768 : S1x768.Broadcasts S179x768
  inb_S2x3976x768_S1x179x768_0_2418_0 : ∀ a, (![0, 2418, 0] : Fin 3 → Nat) a + S1x179x768.size a ≤ S2x3976x768.size a
  h_S1x179x768 : 0 < S1x179x768.numel
  shapeCasts_S1x179x768_S179x768 : S1x179x768.ShapeCasts S179x768
  shapeCasts_S179x768_S1x179x768 : S179x768.ShapeCasts S1x179x768
  inb_S256x768_S1x768_78_0 : ∀ a, (![78, 0] : Fin 2 → Nat) a + S1x768.size a ≤ S256x768.size a
  inb_S256x768_S178x768_78_0 : ∀ a, (![78, 0] : Fin 2 → Nat) a + S178x768.size a ≤ S256x768.size a
  h_S178x768 : 0 < S178x768.numel
  broadcasts_S1x768_S178x768 : S1x768.Broadcasts S178x768
  inb_S2x3976x768_S1x178x768_0_2597_0 : ∀ a, (![0, 2597, 0] : Fin 3 → Nat) a + S1x178x768.size a ≤ S2x3976x768.size a
  h_S1x178x768 : 0 < S1x178x768.numel
  shapeCasts_S1x178x768_S178x768 : S1x178x768.ShapeCasts S178x768
  shapeCasts_S178x768_S1x178x768 : S178x768.ShapeCasts S1x178x768
  inb_S256x768_S1x768_79_0 : ∀ a, (![79, 0] : Fin 2 → Nat) a + S1x768.size a ≤ S256x768.size a
  inb_S256x768_S177x768_79_0 : ∀ a, (![79, 0] : Fin 2 → Nat) a + S177x768.size a ≤ S256x768.size a
  h_S177x768 : 0 < S177x768.numel
  broadcasts_S1x768_S177x768 : S1x768.Broadcasts S177x768
  inb_S2x3976x768_S1x177x768_0_2775_0 : ∀ a, (![0, 2775, 0] : Fin 3 → Nat) a + S1x177x768.size a ≤ S2x3976x768.size a
  h_S1x177x768 : 0 < S1x177x768.numel
  shapeCasts_S1x177x768_S177x768 : S1x177x768.ShapeCasts S177x768
  shapeCasts_S177x768_S1x177x768 : S177x768.ShapeCasts S1x177x768
  squeezes_S1x2952x768_S2952x768 : S1x2952x768.Squeezes S2952x768
  inb_S2x3976x768_S1x2952x768_0_0_0 : ∀ a, (![0, 0, 0] : Fin 3 → Nat) a + S1x2952x768.size a ≤ S2x3976x768.size a
  inb_S256x768_S1x768_80_0 : ∀ a, (![80, 0] : Fin 2 → Nat) a + S1x768.size a ≤ S256x768.size a
  inb_S256x768_S176x768_80_0 : ∀ a, (![80, 0] : Fin 2 → Nat) a + S176x768.size a ≤ S256x768.size a
  h_S176x768 : 0 < S176x768.numel
  broadcasts_S1x768_S176x768 : S1x768.Broadcasts S176x768
  inb_S2x3976x768_S1x176x768_1_0_0 : ∀ a, (![1, 0, 0] : Fin 3 → Nat) a + S1x176x768.size a ≤ S2x3976x768.size a
  h_S1x176x768 : 0 < S1x176x768.numel
  shapeCasts_S1x176x768_S176x768 : S1x176x768.ShapeCasts S176x768
  shapeCasts_S176x768_S1x176x768 : S176x768.ShapeCasts S1x176x768
  inb_S256x768_S1x768_81_0 : ∀ a, (![81, 0] : Fin 2 → Nat) a + S1x768.size a ≤ S256x768.size a
  inb_S256x768_S175x768_81_0 : ∀ a, (![81, 0] : Fin 2 → Nat) a + S175x768.size a ≤ S256x768.size a
  h_S175x768 : 0 < S175x768.numel
  broadcasts_S1x768_S175x768 : S1x768.Broadcasts S175x768
  inb_S2x3976x768_S1x175x768_1_176_0 : ∀ a, (![1, 176, 0] : Fin 3 → Nat) a + S1x175x768.size a ≤ S2x3976x768.size a
  h_S1x175x768 : 0 < S1x175x768.numel
  shapeCasts_S1x175x768_S175x768 : S1x175x768.ShapeCasts S175x768
  shapeCasts_S175x768_S1x175x768 : S175x768.ShapeCasts S1x175x768
  inb_S256x768_S1x768_82_0 : ∀ a, (![82, 0] : Fin 2 → Nat) a + S1x768.size a ≤ S256x768.size a
  inb_S256x768_S174x768_82_0 : ∀ a, (![82, 0] : Fin 2 → Nat) a + S174x768.size a ≤ S256x768.size a
  h_S174x768 : 0 < S174x768.numel
  broadcasts_S1x768_S174x768 : S1x768.Broadcasts S174x768
  inb_S2x3976x768_S1x174x768_1_351_0 : ∀ a, (![1, 351, 0] : Fin 3 → Nat) a + S1x174x768.size a ≤ S2x3976x768.size a
  h_S1x174x768 : 0 < S1x174x768.numel
  shapeCasts_S1x174x768_S174x768 : S1x174x768.ShapeCasts S174x768
  shapeCasts_S174x768_S1x174x768 : S174x768.ShapeCasts S1x174x768
  inb_S256x768_S1x768_83_0 : ∀ a, (![83, 0] : Fin 2 → Nat) a + S1x768.size a ≤ S256x768.size a
  inb_S256x768_S173x768_83_0 : ∀ a, (![83, 0] : Fin 2 → Nat) a + S173x768.size a ≤ S256x768.size a
  h_S173x768 : 0 < S173x768.numel
  broadcasts_S1x768_S173x768 : S1x768.Broadcasts S173x768
  inb_S2x3976x768_S1x173x768_1_525_0 : ∀ a, (![1, 525, 0] : Fin 3 → Nat) a + S1x173x768.size a ≤ S2x3976x768.size a
  h_S1x173x768 : 0 < S1x173x768.numel
  shapeCasts_S1x173x768_S173x768 : S1x173x768.ShapeCasts S173x768
  shapeCasts_S173x768_S1x173x768 : S173x768.ShapeCasts S1x173x768
  inb_S256x768_S1x768_84_0 : ∀ a, (![84, 0] : Fin 2 → Nat) a + S1x768.size a ≤ S256x768.size a
  inb_S256x768_S172x768_84_0 : ∀ a, (![84, 0] : Fin 2 → Nat) a + S172x768.size a ≤ S256x768.size a
  h_S172x768 : 0 < S172x768.numel
  broadcasts_S1x768_S172x768 : S1x768.Broadcasts S172x768
  inb_S2x3976x768_S1x172x768_1_698_0 : ∀ a, (![1, 698, 0] : Fin 3 → Nat) a + S1x172x768.size a ≤ S2x3976x768.size a
  h_S1x172x768 : 0 < S1x172x768.numel
  shapeCasts_S1x172x768_S172x768 : S1x172x768.ShapeCasts S172x768
  shapeCasts_S172x768_S1x172x768 : S172x768.ShapeCasts S1x172x768
  inb_S256x768_S1x768_85_0 : ∀ a, (![85, 0] : Fin 2 → Nat) a + S1x768.size a ≤ S256x768.size a
  inb_S256x768_S171x768_85_0 : ∀ a, (![85, 0] : Fin 2 → Nat) a + S171x768.size a ≤ S256x768.size a
  h_S171x768 : 0 < S171x768.numel
  broadcasts_S1x768_S171x768 : S1x768.Broadcasts S171x768
  inb_S2x3976x768_S1x171x768_1_870_0 : ∀ a, (![1, 870, 0] : Fin 3 → Nat) a + S1x171x768.size a ≤ S2x3976x768.size a
  h_S1x171x768 : 0 < S1x171x768.numel
  shapeCasts_S1x171x768_S171x768 : S1x171x768.ShapeCasts S171x768
  shapeCasts_S171x768_S1x171x768 : S171x768.ShapeCasts S1x171x768
  inb_S256x768_S1x768_86_0 : ∀ a, (![86, 0] : Fin 2 → Nat) a + S1x768.size a ≤ S256x768.size a
  inb_S256x768_S170x768_86_0 : ∀ a, (![86, 0] : Fin 2 → Nat) a + S170x768.size a ≤ S256x768.size a
  h_S170x768 : 0 < S170x768.numel
  broadcasts_S1x768_S170x768 : S1x768.Broadcasts S170x768
  inb_S2x3976x768_S1x170x768_1_1041_0 : ∀ a, (![1, 1041, 0] : Fin 3 → Nat) a + S1x170x768.size a ≤ S2x3976x768.size a
  h_S1x170x768 : 0 < S1x170x768.numel
  shapeCasts_S1x170x768_S170x768 : S1x170x768.ShapeCasts S170x768
  shapeCasts_S170x768_S1x170x768 : S170x768.ShapeCasts S1x170x768
  inb_S256x768_S1x768_87_0 : ∀ a, (![87, 0] : Fin 2 → Nat) a + S1x768.size a ≤ S256x768.size a
  inb_S256x768_S169x768_87_0 : ∀ a, (![87, 0] : Fin 2 → Nat) a + S169x768.size a ≤ S256x768.size a
  h_S169x768 : 0 < S169x768.numel
  broadcasts_S1x768_S169x768 : S1x768.Broadcasts S169x768
  inb_S2x3976x768_S1x169x768_1_1211_0 : ∀ a, (![1, 1211, 0] : Fin 3 → Nat) a + S1x169x768.size a ≤ S2x3976x768.size a
  h_S1x169x768 : 0 < S1x169x768.numel
  shapeCasts_S1x169x768_S169x768 : S1x169x768.ShapeCasts S169x768
  shapeCasts_S169x768_S1x169x768 : S169x768.ShapeCasts S1x169x768
  inb_S256x768_S1x768_88_0 : ∀ a, (![88, 0] : Fin 2 → Nat) a + S1x768.size a ≤ S256x768.size a
  inb_S256x768_S168x768_88_0 : ∀ a, (![88, 0] : Fin 2 → Nat) a + S168x768.size a ≤ S256x768.size a
  h_S168x768 : 0 < S168x768.numel
  broadcasts_S1x768_S168x768 : S1x768.Broadcasts S168x768
  inb_S2x3976x768_S1x168x768_1_1380_0 : ∀ a, (![1, 1380, 0] : Fin 3 → Nat) a + S1x168x768.size a ≤ S2x3976x768.size a
  h_S1x168x768 : 0 < S1x168x768.numel
  shapeCasts_S1x168x768_S168x768 : S1x168x768.ShapeCasts S168x768
  shapeCasts_S168x768_S1x168x768 : S168x768.ShapeCasts S1x168x768
  inb_S256x768_S1x768_89_0 : ∀ a, (![89, 0] : Fin 2 → Nat) a + S1x768.size a ≤ S256x768.size a
  inb_S256x768_S167x768_89_0 : ∀ a, (![89, 0] : Fin 2 → Nat) a + S167x768.size a ≤ S256x768.size a
  h_S167x768 : 0 < S167x768.numel
  broadcasts_S1x768_S167x768 : S1x768.Broadcasts S167x768
  inb_S2x3976x768_S1x167x768_1_1548_0 : ∀ a, (![1, 1548, 0] : Fin 3 → Nat) a + S1x167x768.size a ≤ S2x3976x768.size a
  h_S1x167x768 : 0 < S1x167x768.numel
  shapeCasts_S1x167x768_S167x768 : S1x167x768.ShapeCasts S167x768
  shapeCasts_S167x768_S1x167x768 : S167x768.ShapeCasts S1x167x768
  inb_S256x768_S1x768_90_0 : ∀ a, (![90, 0] : Fin 2 → Nat) a + S1x768.size a ≤ S256x768.size a
  inb_S256x768_S166x768_90_0 : ∀ a, (![90, 0] : Fin 2 → Nat) a + S166x768.size a ≤ S256x768.size a
  h_S166x768 : 0 < S166x768.numel
  broadcasts_S1x768_S166x768 : S1x768.Broadcasts S166x768
  inb_S2x3976x768_S1x166x768_1_1715_0 : ∀ a, (![1, 1715, 0] : Fin 3 → Nat) a + S1x166x768.size a ≤ S2x3976x768.size a
  h_S1x166x768 : 0 < S1x166x768.numel
  shapeCasts_S1x166x768_S166x768 : S1x166x768.ShapeCasts S166x768
  shapeCasts_S166x768_S1x166x768 : S166x768.ShapeCasts S1x166x768
  inb_S256x768_S1x768_91_0 : ∀ a, (![91, 0] : Fin 2 → Nat) a + S1x768.size a ≤ S256x768.size a
  inb_S256x768_S165x768_91_0 : ∀ a, (![91, 0] : Fin 2 → Nat) a + S165x768.size a ≤ S256x768.size a
  h_S165x768 : 0 < S165x768.numel
  broadcasts_S1x768_S165x768 : S1x768.Broadcasts S165x768
  inb_S2x3976x768_S1x165x768_1_1881_0 : ∀ a, (![1, 1881, 0] : Fin 3 → Nat) a + S1x165x768.size a ≤ S2x3976x768.size a
  h_S1x165x768 : 0 < S1x165x768.numel
  shapeCasts_S1x165x768_S165x768 : S1x165x768.ShapeCasts S165x768
  shapeCasts_S165x768_S1x165x768 : S165x768.ShapeCasts S1x165x768
  inb_S256x768_S1x768_92_0 : ∀ a, (![92, 0] : Fin 2 → Nat) a + S1x768.size a ≤ S256x768.size a
  inb_S256x768_S164x768_92_0 : ∀ a, (![92, 0] : Fin 2 → Nat) a + S164x768.size a ≤ S256x768.size a
  h_S164x768 : 0 < S164x768.numel
  broadcasts_S1x768_S164x768 : S1x768.Broadcasts S164x768
  inb_S2x3976x768_S1x164x768_1_2046_0 : ∀ a, (![1, 2046, 0] : Fin 3 → Nat) a + S1x164x768.size a ≤ S2x3976x768.size a
  h_S1x164x768 : 0 < S1x164x768.numel
  shapeCasts_S1x164x768_S164x768 : S1x164x768.ShapeCasts S164x768
  shapeCasts_S164x768_S1x164x768 : S164x768.ShapeCasts S1x164x768
  inb_S256x768_S1x768_93_0 : ∀ a, (![93, 0] : Fin 2 → Nat) a + S1x768.size a ≤ S256x768.size a
  inb_S256x768_S163x768_93_0 : ∀ a, (![93, 0] : Fin 2 → Nat) a + S163x768.size a ≤ S256x768.size a
  h_S163x768 : 0 < S163x768.numel
  broadcasts_S1x768_S163x768 : S1x768.Broadcasts S163x768
  inb_S2x3976x768_S1x163x768_1_2210_0 : ∀ a, (![1, 2210, 0] : Fin 3 → Nat) a + S1x163x768.size a ≤ S2x3976x768.size a
  h_S1x163x768 : 0 < S1x163x768.numel
  shapeCasts_S1x163x768_S163x768 : S1x163x768.ShapeCasts S163x768
  shapeCasts_S163x768_S1x163x768 : S163x768.ShapeCasts S1x163x768
  inb_S256x768_S1x768_94_0 : ∀ a, (![94, 0] : Fin 2 → Nat) a + S1x768.size a ≤ S256x768.size a
  inb_S256x768_S162x768_94_0 : ∀ a, (![94, 0] : Fin 2 → Nat) a + S162x768.size a ≤ S256x768.size a
  h_S162x768 : 0 < S162x768.numel
  broadcasts_S1x768_S162x768 : S1x768.Broadcasts S162x768
  inb_S2x3976x768_S1x162x768_1_2373_0 : ∀ a, (![1, 2373, 0] : Fin 3 → Nat) a + S1x162x768.size a ≤ S2x3976x768.size a
  h_S1x162x768 : 0 < S1x162x768.numel
  shapeCasts_S1x162x768_S162x768 : S1x162x768.ShapeCasts S162x768
  shapeCasts_S162x768_S1x162x768 : S162x768.ShapeCasts S1x162x768
  inb_S256x768_S1x768_95_0 : ∀ a, (![95, 0] : Fin 2 → Nat) a + S1x768.size a ≤ S256x768.size a
  inb_S256x768_S161x768_95_0 : ∀ a, (![95, 0] : Fin 2 → Nat) a + S161x768.size a ≤ S256x768.size a
  h_S161x768 : 0 < S161x768.numel
  broadcasts_S1x768_S161x768 : S1x768.Broadcasts S161x768
  inb_S2x3976x768_S1x161x768_1_2535_0 : ∀ a, (![1, 2535, 0] : Fin 3 → Nat) a + S1x161x768.size a ≤ S2x3976x768.size a
  h_S1x161x768 : 0 < S1x161x768.numel
  shapeCasts_S1x161x768_S161x768 : S1x161x768.ShapeCasts S161x768
  shapeCasts_S161x768_S1x161x768 : S161x768.ShapeCasts S1x161x768
  squeezes_S1x2696x768_S2696x768 : S1x2696x768.Squeezes S2696x768
  inb_S2x3976x768_S1x2696x768_1_0_0 : ∀ a, (![1, 0, 0] : Fin 3 → Nat) a + S1x2696x768.size a ≤ S2x3976x768.size a
  inb_S256x768_S1x768_96_0 : ∀ a, (![96, 0] : Fin 2 → Nat) a + S1x768.size a ≤ S256x768.size a
  inb_S256x768_S160x768_96_0 : ∀ a, (![96, 0] : Fin 2 → Nat) a + S160x768.size a ≤ S256x768.size a
  h_S160x768 : 0 < S160x768.numel
  broadcasts_S1x768_S160x768 : S1x768.Broadcasts S160x768
  inb_S2x3976x768_S1x160x768_0_0_0 : ∀ a, (![0, 0, 0] : Fin 3 → Nat) a + S1x160x768.size a ≤ S2x3976x768.size a
  h_S1x160x768 : 0 < S1x160x768.numel
  shapeCasts_S1x160x768_S160x768 : S1x160x768.ShapeCasts S160x768
  shapeCasts_S160x768_S1x160x768 : S160x768.ShapeCasts S1x160x768
  inb_S256x768_S1x768_97_0 : ∀ a, (![97, 0] : Fin 2 → Nat) a + S1x768.size a ≤ S256x768.size a
  inb_S256x768_S159x768_97_0 : ∀ a, (![97, 0] : Fin 2 → Nat) a + S159x768.size a ≤ S256x768.size a
  h_S159x768 : 0 < S159x768.numel
  broadcasts_S1x768_S159x768 : S1x768.Broadcasts S159x768
  inb_S2x3976x768_S1x159x768_0_160_0 : ∀ a, (![0, 160, 0] : Fin 3 → Nat) a + S1x159x768.size a ≤ S2x3976x768.size a
  h_S1x159x768 : 0 < S1x159x768.numel
  shapeCasts_S1x159x768_S159x768 : S1x159x768.ShapeCasts S159x768
  shapeCasts_S159x768_S1x159x768 : S159x768.ShapeCasts S1x159x768
  inb_S256x768_S1x768_98_0 : ∀ a, (![98, 0] : Fin 2 → Nat) a + S1x768.size a ≤ S256x768.size a
  inb_S256x768_S158x768_98_0 : ∀ a, (![98, 0] : Fin 2 → Nat) a + S158x768.size a ≤ S256x768.size a
  h_S158x768 : 0 < S158x768.numel
  broadcasts_S1x768_S158x768 : S1x768.Broadcasts S158x768
  inb_S2x3976x768_S1x158x768_0_319_0 : ∀ a, (![0, 319, 0] : Fin 3 → Nat) a + S1x158x768.size a ≤ S2x3976x768.size a
  h_S1x158x768 : 0 < S1x158x768.numel
  shapeCasts_S1x158x768_S158x768 : S1x158x768.ShapeCasts S158x768
  shapeCasts_S158x768_S1x158x768 : S158x768.ShapeCasts S1x158x768
  inb_S256x768_S1x768_99_0 : ∀ a, (![99, 0] : Fin 2 → Nat) a + S1x768.size a ≤ S256x768.size a
  inb_S256x768_S157x768_99_0 : ∀ a, (![99, 0] : Fin 2 → Nat) a + S157x768.size a ≤ S256x768.size a
  h_S157x768 : 0 < S157x768.numel
  broadcasts_S1x768_S157x768 : S1x768.Broadcasts S157x768
  inb_S2x3976x768_S1x157x768_0_477_0 : ∀ a, (![0, 477, 0] : Fin 3 → Nat) a + S1x157x768.size a ≤ S2x3976x768.size a
  h_S1x157x768 : 0 < S1x157x768.numel
  shapeCasts_S1x157x768_S157x768 : S1x157x768.ShapeCasts S157x768
  shapeCasts_S157x768_S1x157x768 : S157x768.ShapeCasts S1x157x768
  inb_S256x768_S1x768_100_0 : ∀ a, (![100, 0] : Fin 2 → Nat) a + S1x768.size a ≤ S256x768.size a
  inb_S256x768_S156x768_100_0 : ∀ a, (![100, 0] : Fin 2 → Nat) a + S156x768.size a ≤ S256x768.size a
  h_S156x768 : 0 < S156x768.numel
  broadcasts_S1x768_S156x768 : S1x768.Broadcasts S156x768
  inb_S2x3976x768_S1x156x768_0_634_0 : ∀ a, (![0, 634, 0] : Fin 3 → Nat) a + S1x156x768.size a ≤ S2x3976x768.size a
  h_S1x156x768 : 0 < S1x156x768.numel
  shapeCasts_S1x156x768_S156x768 : S1x156x768.ShapeCasts S156x768
  shapeCasts_S156x768_S1x156x768 : S156x768.ShapeCasts S1x156x768
  inb_S256x768_S1x768_101_0 : ∀ a, (![101, 0] : Fin 2 → Nat) a + S1x768.size a ≤ S256x768.size a
  inb_S256x768_S155x768_101_0 : ∀ a, (![101, 0] : Fin 2 → Nat) a + S155x768.size a ≤ S256x768.size a
  h_S155x768 : 0 < S155x768.numel
  broadcasts_S1x768_S155x768 : S1x768.Broadcasts S155x768
  inb_S2x3976x768_S1x155x768_0_790_0 : ∀ a, (![0, 790, 0] : Fin 3 → Nat) a + S1x155x768.size a ≤ S2x3976x768.size a
  h_S1x155x768 : 0 < S1x155x768.numel
  shapeCasts_S1x155x768_S155x768 : S1x155x768.ShapeCasts S155x768
  shapeCasts_S155x768_S1x155x768 : S155x768.ShapeCasts S1x155x768
  inb_S256x768_S1x768_102_0 : ∀ a, (![102, 0] : Fin 2 → Nat) a + S1x768.size a ≤ S256x768.size a
  inb_S256x768_S154x768_102_0 : ∀ a, (![102, 0] : Fin 2 → Nat) a + S154x768.size a ≤ S256x768.size a
  h_S154x768 : 0 < S154x768.numel
  broadcasts_S1x768_S154x768 : S1x768.Broadcasts S154x768
  inb_S2x3976x768_S1x154x768_0_945_0 : ∀ a, (![0, 945, 0] : Fin 3 → Nat) a + S1x154x768.size a ≤ S2x3976x768.size a
  h_S1x154x768 : 0 < S1x154x768.numel
  shapeCasts_S1x154x768_S154x768 : S1x154x768.ShapeCasts S154x768
  shapeCasts_S154x768_S1x154x768 : S154x768.ShapeCasts S1x154x768
  inb_S256x768_S1x768_103_0 : ∀ a, (![103, 0] : Fin 2 → Nat) a + S1x768.size a ≤ S256x768.size a
  inb_S256x768_S153x768_103_0 : ∀ a, (![103, 0] : Fin 2 → Nat) a + S153x768.size a ≤ S256x768.size a
  h_S153x768 : 0 < S153x768.numel
  broadcasts_S1x768_S153x768 : S1x768.Broadcasts S153x768
  inb_S2x3976x768_S1x153x768_0_1099_0 : ∀ a, (![0, 1099, 0] : Fin 3 → Nat) a + S1x153x768.size a ≤ S2x3976x768.size a
  h_S1x153x768 : 0 < S1x153x768.numel
  shapeCasts_S1x153x768_S153x768 : S1x153x768.ShapeCasts S153x768
  shapeCasts_S153x768_S1x153x768 : S153x768.ShapeCasts S1x153x768
  inb_S256x768_S1x768_104_0 : ∀ a, (![104, 0] : Fin 2 → Nat) a + S1x768.size a ≤ S256x768.size a
  inb_S256x768_S152x768_104_0 : ∀ a, (![104, 0] : Fin 2 → Nat) a + S152x768.size a ≤ S256x768.size a
  h_S152x768 : 0 < S152x768.numel
  broadcasts_S1x768_S152x768 : S1x768.Broadcasts S152x768
  inb_S2x3976x768_S1x152x768_0_1252_0 : ∀ a, (![0, 1252, 0] : Fin 3 → Nat) a + S1x152x768.size a ≤ S2x3976x768.size a
  h_S1x152x768 : 0 < S1x152x768.numel
  shapeCasts_S1x152x768_S152x768 : S1x152x768.ShapeCasts S152x768
  shapeCasts_S152x768_S1x152x768 : S152x768.ShapeCasts S1x152x768
  inb_S256x768_S1x768_105_0 : ∀ a, (![105, 0] : Fin 2 → Nat) a + S1x768.size a ≤ S256x768.size a
  inb_S256x768_S151x768_105_0 : ∀ a, (![105, 0] : Fin 2 → Nat) a + S151x768.size a ≤ S256x768.size a
  h_S151x768 : 0 < S151x768.numel
  broadcasts_S1x768_S151x768 : S1x768.Broadcasts S151x768
  inb_S2x3976x768_S1x151x768_0_1404_0 : ∀ a, (![0, 1404, 0] : Fin 3 → Nat) a + S1x151x768.size a ≤ S2x3976x768.size a
  h_S1x151x768 : 0 < S1x151x768.numel
  shapeCasts_S1x151x768_S151x768 : S1x151x768.ShapeCasts S151x768
  shapeCasts_S151x768_S1x151x768 : S151x768.ShapeCasts S1x151x768
  inb_S256x768_S1x768_106_0 : ∀ a, (![106, 0] : Fin 2 → Nat) a + S1x768.size a ≤ S256x768.size a
  inb_S256x768_S150x768_106_0 : ∀ a, (![106, 0] : Fin 2 → Nat) a + S150x768.size a ≤ S256x768.size a
  h_S150x768 : 0 < S150x768.numel
  broadcasts_S1x768_S150x768 : S1x768.Broadcasts S150x768
  inb_S2x3976x768_S1x150x768_0_1555_0 : ∀ a, (![0, 1555, 0] : Fin 3 → Nat) a + S1x150x768.size a ≤ S2x3976x768.size a
  h_S1x150x768 : 0 < S1x150x768.numel
  shapeCasts_S1x150x768_S150x768 : S1x150x768.ShapeCasts S150x768
  shapeCasts_S150x768_S1x150x768 : S150x768.ShapeCasts S1x150x768
  inb_S256x768_S1x768_107_0 : ∀ a, (![107, 0] : Fin 2 → Nat) a + S1x768.size a ≤ S256x768.size a
  inb_S256x768_S149x768_107_0 : ∀ a, (![107, 0] : Fin 2 → Nat) a + S149x768.size a ≤ S256x768.size a
  h_S149x768 : 0 < S149x768.numel
  broadcasts_S1x768_S149x768 : S1x768.Broadcasts S149x768
  inb_S2x3976x768_S1x149x768_0_1705_0 : ∀ a, (![0, 1705, 0] : Fin 3 → Nat) a + S1x149x768.size a ≤ S2x3976x768.size a
  h_S1x149x768 : 0 < S1x149x768.numel
  shapeCasts_S1x149x768_S149x768 : S1x149x768.ShapeCasts S149x768
  shapeCasts_S149x768_S1x149x768 : S149x768.ShapeCasts S1x149x768
  inb_S256x768_S1x768_108_0 : ∀ a, (![108, 0] : Fin 2 → Nat) a + S1x768.size a ≤ S256x768.size a
  inb_S256x768_S148x768_108_0 : ∀ a, (![108, 0] : Fin 2 → Nat) a + S148x768.size a ≤ S256x768.size a
  h_S148x768 : 0 < S148x768.numel
  broadcasts_S1x768_S148x768 : S1x768.Broadcasts S148x768
  inb_S2x3976x768_S1x148x768_0_1854_0 : ∀ a, (![0, 1854, 0] : Fin 3 → Nat) a + S1x148x768.size a ≤ S2x3976x768.size a
  h_S1x148x768 : 0 < S1x148x768.numel
  shapeCasts_S1x148x768_S148x768 : S1x148x768.ShapeCasts S148x768
  shapeCasts_S148x768_S1x148x768 : S148x768.ShapeCasts S1x148x768
  inb_S256x768_S1x768_109_0 : ∀ a, (![109, 0] : Fin 2 → Nat) a + S1x768.size a ≤ S256x768.size a
  inb_S256x768_S147x768_109_0 : ∀ a, (![109, 0] : Fin 2 → Nat) a + S147x768.size a ≤ S256x768.size a
  h_S147x768 : 0 < S147x768.numel
  broadcasts_S1x768_S147x768 : S1x768.Broadcasts S147x768
  inb_S2x3976x768_S1x147x768_0_2002_0 : ∀ a, (![0, 2002, 0] : Fin 3 → Nat) a + S1x147x768.size a ≤ S2x3976x768.size a
  h_S1x147x768 : 0 < S1x147x768.numel
  shapeCasts_S1x147x768_S147x768 : S1x147x768.ShapeCasts S147x768
  shapeCasts_S147x768_S1x147x768 : S147x768.ShapeCasts S1x147x768
  inb_S256x768_S1x768_110_0 : ∀ a, (![110, 0] : Fin 2 → Nat) a + S1x768.size a ≤ S256x768.size a
  inb_S256x768_S146x768_110_0 : ∀ a, (![110, 0] : Fin 2 → Nat) a + S146x768.size a ≤ S256x768.size a
  h_S146x768 : 0 < S146x768.numel
  broadcasts_S1x768_S146x768 : S1x768.Broadcasts S146x768
  inb_S2x3976x768_S1x146x768_0_2149_0 : ∀ a, (![0, 2149, 0] : Fin 3 → Nat) a + S1x146x768.size a ≤ S2x3976x768.size a
  h_S1x146x768 : 0 < S1x146x768.numel
  shapeCasts_S1x146x768_S146x768 : S1x146x768.ShapeCasts S146x768
  shapeCasts_S146x768_S1x146x768 : S146x768.ShapeCasts S1x146x768
  inb_S256x768_S1x768_111_0 : ∀ a, (![111, 0] : Fin 2 → Nat) a + S1x768.size a ≤ S256x768.size a
  inb_S256x768_S145x768_111_0 : ∀ a, (![111, 0] : Fin 2 → Nat) a + S145x768.size a ≤ S256x768.size a
  h_S145x768 : 0 < S145x768.numel
  broadcasts_S1x768_S145x768 : S1x768.Broadcasts S145x768
  inb_S2x3976x768_S1x145x768_0_2295_0 : ∀ a, (![0, 2295, 0] : Fin 3 → Nat) a + S1x145x768.size a ≤ S2x3976x768.size a
  h_S1x145x768 : 0 < S1x145x768.numel
  shapeCasts_S1x145x768_S145x768 : S1x145x768.ShapeCasts S145x768
  shapeCasts_S145x768_S1x145x768 : S145x768.ShapeCasts S1x145x768
  squeezes_S1x2440x768_S2440x768 : S1x2440x768.Squeezes S2440x768
  inb_S2x3976x768_S1x2440x768_0_0_0 : ∀ a, (![0, 0, 0] : Fin 3 → Nat) a + S1x2440x768.size a ≤ S2x3976x768.size a
  inb_S256x768_S1x768_112_0 : ∀ a, (![112, 0] : Fin 2 → Nat) a + S1x768.size a ≤ S256x768.size a
  inb_S256x768_S144x768_112_0 : ∀ a, (![112, 0] : Fin 2 → Nat) a + S144x768.size a ≤ S256x768.size a
  h_S144x768 : 0 < S144x768.numel
  broadcasts_S1x768_S144x768 : S1x768.Broadcasts S144x768
  inb_S2x3976x768_S1x144x768_1_0_0 : ∀ a, (![1, 0, 0] : Fin 3 → Nat) a + S1x144x768.size a ≤ S2x3976x768.size a
  h_S1x144x768 : 0 < S1x144x768.numel
  shapeCasts_S1x144x768_S144x768 : S1x144x768.ShapeCasts S144x768
  shapeCasts_S144x768_S1x144x768 : S144x768.ShapeCasts S1x144x768
  inb_S256x768_S1x768_113_0 : ∀ a, (![113, 0] : Fin 2 → Nat) a + S1x768.size a ≤ S256x768.size a
  inb_S256x768_S143x768_113_0 : ∀ a, (![113, 0] : Fin 2 → Nat) a + S143x768.size a ≤ S256x768.size a
  h_S143x768 : 0 < S143x768.numel
  broadcasts_S1x768_S143x768 : S1x768.Broadcasts S143x768
  inb_S2x3976x768_S1x143x768_1_144_0 : ∀ a, (![1, 144, 0] : Fin 3 → Nat) a + S1x143x768.size a ≤ S2x3976x768.size a
  h_S1x143x768 : 0 < S1x143x768.numel
  shapeCasts_S1x143x768_S143x768 : S1x143x768.ShapeCasts S143x768
  shapeCasts_S143x768_S1x143x768 : S143x768.ShapeCasts S1x143x768
  inb_S256x768_S1x768_114_0 : ∀ a, (![114, 0] : Fin 2 → Nat) a + S1x768.size a ≤ S256x768.size a
  inb_S256x768_S142x768_114_0 : ∀ a, (![114, 0] : Fin 2 → Nat) a + S142x768.size a ≤ S256x768.size a
  h_S142x768 : 0 < S142x768.numel
  broadcasts_S1x768_S142x768 : S1x768.Broadcasts S142x768
  inb_S2x3976x768_S1x142x768_1_287_0 : ∀ a, (![1, 287, 0] : Fin 3 → Nat) a + S1x142x768.size a ≤ S2x3976x768.size a
  h_S1x142x768 : 0 < S1x142x768.numel
  shapeCasts_S1x142x768_S142x768 : S1x142x768.ShapeCasts S142x768
  shapeCasts_S142x768_S1x142x768 : S142x768.ShapeCasts S1x142x768
  inb_S256x768_S1x768_115_0 : ∀ a, (![115, 0] : Fin 2 → Nat) a + S1x768.size a ≤ S256x768.size a
  inb_S256x768_S141x768_115_0 : ∀ a, (![115, 0] : Fin 2 → Nat) a + S141x768.size a ≤ S256x768.size a
  h_S141x768 : 0 < S141x768.numel
  broadcasts_S1x768_S141x768 : S1x768.Broadcasts S141x768
  inb_S2x3976x768_S1x141x768_1_429_0 : ∀ a, (![1, 429, 0] : Fin 3 → Nat) a + S1x141x768.size a ≤ S2x3976x768.size a
  h_S1x141x768 : 0 < S1x141x768.numel
  shapeCasts_S1x141x768_S141x768 : S1x141x768.ShapeCasts S141x768
  shapeCasts_S141x768_S1x141x768 : S141x768.ShapeCasts S1x141x768
  inb_S256x768_S1x768_116_0 : ∀ a, (![116, 0] : Fin 2 → Nat) a + S1x768.size a ≤ S256x768.size a
  inb_S256x768_S140x768_116_0 : ∀ a, (![116, 0] : Fin 2 → Nat) a + S140x768.size a ≤ S256x768.size a
  h_S140x768 : 0 < S140x768.numel
  broadcasts_S1x768_S140x768 : S1x768.Broadcasts S140x768
  inb_S2x3976x768_S1x140x768_1_570_0 : ∀ a, (![1, 570, 0] : Fin 3 → Nat) a + S1x140x768.size a ≤ S2x3976x768.size a
  h_S1x140x768 : 0 < S1x140x768.numel
  shapeCasts_S1x140x768_S140x768 : S1x140x768.ShapeCasts S140x768
  shapeCasts_S140x768_S1x140x768 : S140x768.ShapeCasts S1x140x768
  inb_S256x768_S1x768_117_0 : ∀ a, (![117, 0] : Fin 2 → Nat) a + S1x768.size a ≤ S256x768.size a
  inb_S256x768_S139x768_117_0 : ∀ a, (![117, 0] : Fin 2 → Nat) a + S139x768.size a ≤ S256x768.size a
  h_S139x768 : 0 < S139x768.numel
  broadcasts_S1x768_S139x768 : S1x768.Broadcasts S139x768
  inb_S2x3976x768_S1x139x768_1_710_0 : ∀ a, (![1, 710, 0] : Fin 3 → Nat) a + S1x139x768.size a ≤ S2x3976x768.size a
  h_S1x139x768 : 0 < S1x139x768.numel
  shapeCasts_S1x139x768_S139x768 : S1x139x768.ShapeCasts S139x768
  shapeCasts_S139x768_S1x139x768 : S139x768.ShapeCasts S1x139x768
  inb_S256x768_S1x768_118_0 : ∀ a, (![118, 0] : Fin 2 → Nat) a + S1x768.size a ≤ S256x768.size a
  inb_S256x768_S138x768_118_0 : ∀ a, (![118, 0] : Fin 2 → Nat) a + S138x768.size a ≤ S256x768.size a
  h_S138x768 : 0 < S138x768.numel
  broadcasts_S1x768_S138x768 : S1x768.Broadcasts S138x768
  inb_S2x3976x768_S1x138x768_1_849_0 : ∀ a, (![1, 849, 0] : Fin 3 → Nat) a + S1x138x768.size a ≤ S2x3976x768.size a
  h_S1x138x768 : 0 < S1x138x768.numel
  shapeCasts_S1x138x768_S138x768 : S1x138x768.ShapeCasts S138x768
  shapeCasts_S138x768_S1x138x768 : S138x768.ShapeCasts S1x138x768
  inb_S256x768_S1x768_119_0 : ∀ a, (![119, 0] : Fin 2 → Nat) a + S1x768.size a ≤ S256x768.size a
  inb_S256x768_S137x768_119_0 : ∀ a, (![119, 0] : Fin 2 → Nat) a + S137x768.size a ≤ S256x768.size a
  h_S137x768 : 0 < S137x768.numel
  broadcasts_S1x768_S137x768 : S1x768.Broadcasts S137x768
  inb_S2x3976x768_S1x137x768_1_987_0 : ∀ a, (![1, 987, 0] : Fin 3 → Nat) a + S1x137x768.size a ≤ S2x3976x768.size a
  h_S1x137x768 : 0 < S1x137x768.numel
  shapeCasts_S1x137x768_S137x768 : S1x137x768.ShapeCasts S137x768
  shapeCasts_S137x768_S1x137x768 : S137x768.ShapeCasts S1x137x768
  inb_S256x768_S1x768_120_0 : ∀ a, (![120, 0] : Fin 2 → Nat) a + S1x768.size a ≤ S256x768.size a
  inb_S256x768_S136x768_120_0 : ∀ a, (![120, 0] : Fin 2 → Nat) a + S136x768.size a ≤ S256x768.size a
  h_S136x768 : 0 < S136x768.numel
  broadcasts_S1x768_S136x768 : S1x768.Broadcasts S136x768
  inb_S2x3976x768_S1x136x768_1_1124_0 : ∀ a, (![1, 1124, 0] : Fin 3 → Nat) a + S1x136x768.size a ≤ S2x3976x768.size a
  h_S1x136x768 : 0 < S1x136x768.numel
  shapeCasts_S1x136x768_S136x768 : S1x136x768.ShapeCasts S136x768
  shapeCasts_S136x768_S1x136x768 : S136x768.ShapeCasts S1x136x768
  inb_S256x768_S1x768_121_0 : ∀ a, (![121, 0] : Fin 2 → Nat) a + S1x768.size a ≤ S256x768.size a
  inb_S256x768_S135x768_121_0 : ∀ a, (![121, 0] : Fin 2 → Nat) a + S135x768.size a ≤ S256x768.size a
  h_S135x768 : 0 < S135x768.numel
  broadcasts_S1x768_S135x768 : S1x768.Broadcasts S135x768

class Shapes2.Facts₀ : Prop where
  inb_S2x3976x768_S1x135x768_1_1260_0 : ∀ a, (![1, 1260, 0] : Fin 3 → Nat) a + S1x135x768.size a ≤ S2x3976x768.size a
  h_S1x135x768 : 0 < S1x135x768.numel
  shapeCasts_S1x135x768_S135x768 : S1x135x768.ShapeCasts S135x768
  shapeCasts_S135x768_S1x135x768 : S135x768.ShapeCasts S1x135x768
  inb_S256x768_S1x768_122_0 : ∀ a, (![122, 0] : Fin 2 → Nat) a + S1x768.size a ≤ S256x768.size a
  inb_S256x768_S134x768_122_0 : ∀ a, (![122, 0] : Fin 2 → Nat) a + S134x768.size a ≤ S256x768.size a
  h_S134x768 : 0 < S134x768.numel
  broadcasts_S1x768_S134x768 : S1x768.Broadcasts S134x768
  inb_S2x3976x768_S1x134x768_1_1395_0 : ∀ a, (![1, 1395, 0] : Fin 3 → Nat) a + S1x134x768.size a ≤ S2x3976x768.size a
  h_S1x134x768 : 0 < S1x134x768.numel
  shapeCasts_S1x134x768_S134x768 : S1x134x768.ShapeCasts S134x768
  shapeCasts_S134x768_S1x134x768 : S134x768.ShapeCasts S1x134x768
  inb_S256x768_S1x768_123_0 : ∀ a, (![123, 0] : Fin 2 → Nat) a + S1x768.size a ≤ S256x768.size a
  inb_S256x768_S133x768_123_0 : ∀ a, (![123, 0] : Fin 2 → Nat) a + S133x768.size a ≤ S256x768.size a
  h_S133x768 : 0 < S133x768.numel
  broadcasts_S1x768_S133x768 : S1x768.Broadcasts S133x768
  inb_S2x3976x768_S1x133x768_1_1529_0 : ∀ a, (![1, 1529, 0] : Fin 3 → Nat) a + S1x133x768.size a ≤ S2x3976x768.size a
  h_S1x133x768 : 0 < S1x133x768.numel
  shapeCasts_S1x133x768_S133x768 : S1x133x768.ShapeCasts S133x768
  shapeCasts_S133x768_S1x133x768 : S133x768.ShapeCasts S1x133x768
  inb_S256x768_S1x768_124_0 : ∀ a, (![124, 0] : Fin 2 → Nat) a + S1x768.size a ≤ S256x768.size a
  inb_S256x768_S132x768_124_0 : ∀ a, (![124, 0] : Fin 2 → Nat) a + S132x768.size a ≤ S256x768.size a
  h_S132x768 : 0 < S132x768.numel
  broadcasts_S1x768_S132x768 : S1x768.Broadcasts S132x768
  inb_S2x3976x768_S1x132x768_1_1662_0 : ∀ a, (![1, 1662, 0] : Fin 3 → Nat) a + S1x132x768.size a ≤ S2x3976x768.size a
  h_S1x132x768 : 0 < S1x132x768.numel
  shapeCasts_S1x132x768_S132x768 : S1x132x768.ShapeCasts S132x768
  shapeCasts_S132x768_S1x132x768 : S132x768.ShapeCasts S1x132x768
  inb_S256x768_S1x768_125_0 : ∀ a, (![125, 0] : Fin 2 → Nat) a + S1x768.size a ≤ S256x768.size a
  inb_S256x768_S131x768_125_0 : ∀ a, (![125, 0] : Fin 2 → Nat) a + S131x768.size a ≤ S256x768.size a
  h_S131x768 : 0 < S131x768.numel
  broadcasts_S1x768_S131x768 : S1x768.Broadcasts S131x768
  inb_S2x3976x768_S1x131x768_1_1794_0 : ∀ a, (![1, 1794, 0] : Fin 3 → Nat) a + S1x131x768.size a ≤ S2x3976x768.size a
  h_S1x131x768 : 0 < S1x131x768.numel
  shapeCasts_S1x131x768_S131x768 : S1x131x768.ShapeCasts S131x768
  shapeCasts_S131x768_S1x131x768 : S131x768.ShapeCasts S1x131x768
  inb_S256x768_S1x768_126_0 : ∀ a, (![126, 0] : Fin 2 → Nat) a + S1x768.size a ≤ S256x768.size a
  inb_S256x768_S130x768_126_0 : ∀ a, (![126, 0] : Fin 2 → Nat) a + S130x768.size a ≤ S256x768.size a
  h_S130x768 : 0 < S130x768.numel
  broadcasts_S1x768_S130x768 : S1x768.Broadcasts S130x768
  inb_S2x3976x768_S1x130x768_1_1925_0 : ∀ a, (![1, 1925, 0] : Fin 3 → Nat) a + S1x130x768.size a ≤ S2x3976x768.size a
  h_S1x130x768 : 0 < S1x130x768.numel
  shapeCasts_S1x130x768_S130x768 : S1x130x768.ShapeCasts S130x768
  shapeCasts_S130x768_S1x130x768 : S130x768.ShapeCasts S1x130x768
  inb_S256x768_S1x768_127_0 : ∀ a, (![127, 0] : Fin 2 → Nat) a + S1x768.size a ≤ S256x768.size a
  inb_S256x768_S129x768_127_0 : ∀ a, (![127, 0] : Fin 2 → Nat) a + S129x768.size a ≤ S256x768.size a
  h_S129x768 : 0 < S129x768.numel
  broadcasts_S1x768_S129x768 : S1x768.Broadcasts S129x768
  inb_S2x3976x768_S1x129x768_1_2055_0 : ∀ a, (![1, 2055, 0] : Fin 3 → Nat) a + S1x129x768.size a ≤ S2x3976x768.size a
  h_S1x129x768 : 0 < S1x129x768.numel
  shapeCasts_S1x129x768_S129x768 : S1x129x768.ShapeCasts S129x768
  shapeCasts_S129x768_S1x129x768 : S129x768.ShapeCasts S1x129x768
  squeezes_S1x2184x768_S2184x768 : S1x2184x768.Squeezes S2184x768
  inb_S2x3976x768_S1x2184x768_1_0_0 : ∀ a, (![1, 0, 0] : Fin 3 → Nat) a + S1x2184x768.size a ≤ S2x3976x768.size a
  inb_S256x768_S1x768_128_0 : ∀ a, (![128, 0] : Fin 2 → Nat) a + S1x768.size a ≤ S256x768.size a
  inb_S256x768_S128x768_128_0 : ∀ a, (![128, 0] : Fin 2 → Nat) a + S128x768.size a ≤ S256x768.size a
  h_S128x768 : 0 < S128x768.numel
  broadcasts_S1x768_S128x768 : S1x768.Broadcasts S128x768
  inb_S2x3976x768_S1x128x768_0_0_0 : ∀ a, (![0, 0, 0] : Fin 3 → Nat) a + S1x128x768.size a ≤ S2x3976x768.size a
  h_S1x128x768 : 0 < S1x128x768.numel
  shapeCasts_S1x128x768_S128x768 : S1x128x768.ShapeCasts S128x768
  shapeCasts_S128x768_S1x128x768 : S128x768.ShapeCasts S1x128x768
  inb_S256x768_S1x768_129_0 : ∀ a, (![129, 0] : Fin 2 → Nat) a + S1x768.size a ≤ S256x768.size a
  inb_S256x768_S127x768_129_0 : ∀ a, (![129, 0] : Fin 2 → Nat) a + S127x768.size a ≤ S256x768.size a
  h_S127x768 : 0 < S127x768.numel
  broadcasts_S1x768_S127x768 : S1x768.Broadcasts S127x768
  inb_S2x3976x768_S1x127x768_0_128_0 : ∀ a, (![0, 128, 0] : Fin 3 → Nat) a + S1x127x768.size a ≤ S2x3976x768.size a
  h_S1x127x768 : 0 < S1x127x768.numel
  shapeCasts_S1x127x768_S127x768 : S1x127x768.ShapeCasts S127x768
  shapeCasts_S127x768_S1x127x768 : S127x768.ShapeCasts S1x127x768
  inb_S256x768_S1x768_130_0 : ∀ a, (![130, 0] : Fin 2 → Nat) a + S1x768.size a ≤ S256x768.size a
  inb_S256x768_S126x768_130_0 : ∀ a, (![130, 0] : Fin 2 → Nat) a + S126x768.size a ≤ S256x768.size a
  h_S126x768 : 0 < S126x768.numel
  broadcasts_S1x768_S126x768 : S1x768.Broadcasts S126x768
  inb_S2x3976x768_S1x126x768_0_255_0 : ∀ a, (![0, 255, 0] : Fin 3 → Nat) a + S1x126x768.size a ≤ S2x3976x768.size a
  h_S1x126x768 : 0 < S1x126x768.numel
  shapeCasts_S1x126x768_S126x768 : S1x126x768.ShapeCasts S126x768
  shapeCasts_S126x768_S1x126x768 : S126x768.ShapeCasts S1x126x768
  inb_S256x768_S1x768_131_0 : ∀ a, (![131, 0] : Fin 2 → Nat) a + S1x768.size a ≤ S256x768.size a
  inb_S256x768_S125x768_131_0 : ∀ a, (![131, 0] : Fin 2 → Nat) a + S125x768.size a ≤ S256x768.size a
  h_S125x768 : 0 < S125x768.numel
  broadcasts_S1x768_S125x768 : S1x768.Broadcasts S125x768
  inb_S2x3976x768_S1x125x768_0_381_0 : ∀ a, (![0, 381, 0] : Fin 3 → Nat) a + S1x125x768.size a ≤ S2x3976x768.size a
  h_S1x125x768 : 0 < S1x125x768.numel
  shapeCasts_S1x125x768_S125x768 : S1x125x768.ShapeCasts S125x768
  shapeCasts_S125x768_S1x125x768 : S125x768.ShapeCasts S1x125x768
  inb_S256x768_S1x768_132_0 : ∀ a, (![132, 0] : Fin 2 → Nat) a + S1x768.size a ≤ S256x768.size a
  inb_S256x768_S124x768_132_0 : ∀ a, (![132, 0] : Fin 2 → Nat) a + S124x768.size a ≤ S256x768.size a
  h_S124x768 : 0 < S124x768.numel
  broadcasts_S1x768_S124x768 : S1x768.Broadcasts S124x768
  inb_S2x3976x768_S1x124x768_0_506_0 : ∀ a, (![0, 506, 0] : Fin 3 → Nat) a + S1x124x768.size a ≤ S2x3976x768.size a
  h_S1x124x768 : 0 < S1x124x768.numel
  shapeCasts_S1x124x768_S124x768 : S1x124x768.ShapeCasts S124x768
  shapeCasts_S124x768_S1x124x768 : S124x768.ShapeCasts S1x124x768
  inb_S256x768_S1x768_133_0 : ∀ a, (![133, 0] : Fin 2 → Nat) a + S1x768.size a ≤ S256x768.size a
  inb_S256x768_S123x768_133_0 : ∀ a, (![133, 0] : Fin 2 → Nat) a + S123x768.size a ≤ S256x768.size a
  h_S123x768 : 0 < S123x768.numel
  broadcasts_S1x768_S123x768 : S1x768.Broadcasts S123x768
  inb_S2x3976x768_S1x123x768_0_630_0 : ∀ a, (![0, 630, 0] : Fin 3 → Nat) a + S1x123x768.size a ≤ S2x3976x768.size a
  h_S1x123x768 : 0 < S1x123x768.numel
  shapeCasts_S1x123x768_S123x768 : S1x123x768.ShapeCasts S123x768
  shapeCasts_S123x768_S1x123x768 : S123x768.ShapeCasts S1x123x768
  inb_S256x768_S1x768_134_0 : ∀ a, (![134, 0] : Fin 2 → Nat) a + S1x768.size a ≤ S256x768.size a
  inb_S256x768_S122x768_134_0 : ∀ a, (![134, 0] : Fin 2 → Nat) a + S122x768.size a ≤ S256x768.size a
  h_S122x768 : 0 < S122x768.numel
  broadcasts_S1x768_S122x768 : S1x768.Broadcasts S122x768
  inb_S2x3976x768_S1x122x768_0_753_0 : ∀ a, (![0, 753, 0] : Fin 3 → Nat) a + S1x122x768.size a ≤ S2x3976x768.size a
  h_S1x122x768 : 0 < S1x122x768.numel
  shapeCasts_S1x122x768_S122x768 : S1x122x768.ShapeCasts S122x768
  shapeCasts_S122x768_S1x122x768 : S122x768.ShapeCasts S1x122x768
  inb_S256x768_S1x768_135_0 : ∀ a, (![135, 0] : Fin 2 → Nat) a + S1x768.size a ≤ S256x768.size a
  inb_S256x768_S121x768_135_0 : ∀ a, (![135, 0] : Fin 2 → Nat) a + S121x768.size a ≤ S256x768.size a
  h_S121x768 : 0 < S121x768.numel
  broadcasts_S1x768_S121x768 : S1x768.Broadcasts S121x768
  inb_S2x3976x768_S1x121x768_0_875_0 : ∀ a, (![0, 875, 0] : Fin 3 → Nat) a + S1x121x768.size a ≤ S2x3976x768.size a
  h_S1x121x768 : 0 < S1x121x768.numel
  shapeCasts_S1x121x768_S121x768 : S1x121x768.ShapeCasts S121x768
  shapeCasts_S121x768_S1x121x768 : S121x768.ShapeCasts S1x121x768
  inb_S256x768_S1x768_136_0 : ∀ a, (![136, 0] : Fin 2 → Nat) a + S1x768.size a ≤ S256x768.size a
  inb_S256x768_S120x768_136_0 : ∀ a, (![136, 0] : Fin 2 → Nat) a + S120x768.size a ≤ S256x768.size a
  h_S120x768 : 0 < S120x768.numel
  broadcasts_S1x768_S120x768 : S1x768.Broadcasts S120x768
  inb_S2x3976x768_S1x120x768_0_996_0 : ∀ a, (![0, 996, 0] : Fin 3 → Nat) a + S1x120x768.size a ≤ S2x3976x768.size a
  h_S1x120x768 : 0 < S1x120x768.numel
  shapeCasts_S1x120x768_S120x768 : S1x120x768.ShapeCasts S120x768
  shapeCasts_S120x768_S1x120x768 : S120x768.ShapeCasts S1x120x768
  inb_S256x768_S1x768_137_0 : ∀ a, (![137, 0] : Fin 2 → Nat) a + S1x768.size a ≤ S256x768.size a
  inb_S256x768_S119x768_137_0 : ∀ a, (![137, 0] : Fin 2 → Nat) a + S119x768.size a ≤ S256x768.size a
  h_S119x768 : 0 < S119x768.numel
  broadcasts_S1x768_S119x768 : S1x768.Broadcasts S119x768
  inb_S2x3976x768_S1x119x768_0_1116_0 : ∀ a, (![0, 1116, 0] : Fin 3 → Nat) a + S1x119x768.size a ≤ S2x3976x768.size a
  h_S1x119x768 : 0 < S1x119x768.numel
  shapeCasts_S1x119x768_S119x768 : S1x119x768.ShapeCasts S119x768
  shapeCasts_S119x768_S1x119x768 : S119x768.ShapeCasts S1x119x768
  inb_S256x768_S1x768_138_0 : ∀ a, (![138, 0] : Fin 2 → Nat) a + S1x768.size a ≤ S256x768.size a
  inb_S256x768_S118x768_138_0 : ∀ a, (![138, 0] : Fin 2 → Nat) a + S118x768.size a ≤ S256x768.size a
  h_S118x768 : 0 < S118x768.numel
  broadcasts_S1x768_S118x768 : S1x768.Broadcasts S118x768
  inb_S2x3976x768_S1x118x768_0_1235_0 : ∀ a, (![0, 1235, 0] : Fin 3 → Nat) a + S1x118x768.size a ≤ S2x3976x768.size a
  h_S1x118x768 : 0 < S1x118x768.numel
  shapeCasts_S1x118x768_S118x768 : S1x118x768.ShapeCasts S118x768
  shapeCasts_S118x768_S1x118x768 : S118x768.ShapeCasts S1x118x768
  inb_S256x768_S1x768_139_0 : ∀ a, (![139, 0] : Fin 2 → Nat) a + S1x768.size a ≤ S256x768.size a
  inb_S256x768_S117x768_139_0 : ∀ a, (![139, 0] : Fin 2 → Nat) a + S117x768.size a ≤ S256x768.size a
  h_S117x768 : 0 < S117x768.numel
  broadcasts_S1x768_S117x768 : S1x768.Broadcasts S117x768
  inb_S2x3976x768_S1x117x768_0_1353_0 : ∀ a, (![0, 1353, 0] : Fin 3 → Nat) a + S1x117x768.size a ≤ S2x3976x768.size a
  h_S1x117x768 : 0 < S1x117x768.numel
  shapeCasts_S1x117x768_S117x768 : S1x117x768.ShapeCasts S117x768
  shapeCasts_S117x768_S1x117x768 : S117x768.ShapeCasts S1x117x768
  inb_S256x768_S1x768_140_0 : ∀ a, (![140, 0] : Fin 2 → Nat) a + S1x768.size a ≤ S256x768.size a
  inb_S256x768_S116x768_140_0 : ∀ a, (![140, 0] : Fin 2 → Nat) a + S116x768.size a ≤ S256x768.size a
  h_S116x768 : 0 < S116x768.numel
  broadcasts_S1x768_S116x768 : S1x768.Broadcasts S116x768
  inb_S2x3976x768_S1x116x768_0_1470_0 : ∀ a, (![0, 1470, 0] : Fin 3 → Nat) a + S1x116x768.size a ≤ S2x3976x768.size a
  h_S1x116x768 : 0 < S1x116x768.numel
  shapeCasts_S1x116x768_S116x768 : S1x116x768.ShapeCasts S116x768
  shapeCasts_S116x768_S1x116x768 : S116x768.ShapeCasts S1x116x768
  inb_S256x768_S1x768_141_0 : ∀ a, (![141, 0] : Fin 2 → Nat) a + S1x768.size a ≤ S256x768.size a
  inb_S256x768_S115x768_141_0 : ∀ a, (![141, 0] : Fin 2 → Nat) a + S115x768.size a ≤ S256x768.size a
  h_S115x768 : 0 < S115x768.numel
  broadcasts_S1x768_S115x768 : S1x768.Broadcasts S115x768
  inb_S2x3976x768_S1x115x768_0_1586_0 : ∀ a, (![0, 1586, 0] : Fin 3 → Nat) a + S1x115x768.size a ≤ S2x3976x768.size a
  h_S1x115x768 : 0 < S1x115x768.numel
  shapeCasts_S1x115x768_S115x768 : S1x115x768.ShapeCasts S115x768
  shapeCasts_S115x768_S1x115x768 : S115x768.ShapeCasts S1x115x768
  inb_S256x768_S1x768_142_0 : ∀ a, (![142, 0] : Fin 2 → Nat) a + S1x768.size a ≤ S256x768.size a
  inb_S256x768_S114x768_142_0 : ∀ a, (![142, 0] : Fin 2 → Nat) a + S114x768.size a ≤ S256x768.size a
  h_S114x768 : 0 < S114x768.numel
  broadcasts_S1x768_S114x768 : S1x768.Broadcasts S114x768
  inb_S2x3976x768_S1x114x768_0_1701_0 : ∀ a, (![0, 1701, 0] : Fin 3 → Nat) a + S1x114x768.size a ≤ S2x3976x768.size a
  h_S1x114x768 : 0 < S1x114x768.numel
  shapeCasts_S1x114x768_S114x768 : S1x114x768.ShapeCasts S114x768
  shapeCasts_S114x768_S1x114x768 : S114x768.ShapeCasts S1x114x768
  inb_S256x768_S1x768_143_0 : ∀ a, (![143, 0] : Fin 2 → Nat) a + S1x768.size a ≤ S256x768.size a
  inb_S256x768_S113x768_143_0 : ∀ a, (![143, 0] : Fin 2 → Nat) a + S113x768.size a ≤ S256x768.size a
  h_S113x768 : 0 < S113x768.numel
  broadcasts_S1x768_S113x768 : S1x768.Broadcasts S113x768
  inb_S2x3976x768_S1x113x768_0_1815_0 : ∀ a, (![0, 1815, 0] : Fin 3 → Nat) a + S1x113x768.size a ≤ S2x3976x768.size a
  h_S1x113x768 : 0 < S1x113x768.numel
  shapeCasts_S1x113x768_S113x768 : S1x113x768.ShapeCasts S113x768
  shapeCasts_S113x768_S1x113x768 : S113x768.ShapeCasts S1x113x768
  squeezes_S1x1928x768_S1928x768 : S1x1928x768.Squeezes S1928x768
  inb_S2x3976x768_S1x1928x768_0_0_0 : ∀ a, (![0, 0, 0] : Fin 3 → Nat) a + S1x1928x768.size a ≤ S2x3976x768.size a
  inb_S256x768_S1x768_144_0 : ∀ a, (![144, 0] : Fin 2 → Nat) a + S1x768.size a ≤ S256x768.size a
  inb_S256x768_S112x768_144_0 : ∀ a, (![144, 0] : Fin 2 → Nat) a + S112x768.size a ≤ S256x768.size a
  h_S112x768 : 0 < S112x768.numel
  broadcasts_S1x768_S112x768 : S1x768.Broadcasts S112x768
  inb_S2x3976x768_S1x112x768_1_0_0 : ∀ a, (![1, 0, 0] : Fin 3 → Nat) a + S1x112x768.size a ≤ S2x3976x768.size a
  h_S1x112x768 : 0 < S1x112x768.numel
  shapeCasts_S1x112x768_S112x768 : S1x112x768.ShapeCasts S112x768
  shapeCasts_S112x768_S1x112x768 : S112x768.ShapeCasts S1x112x768
  inb_S256x768_S1x768_145_0 : ∀ a, (![145, 0] : Fin 2 → Nat) a + S1x768.size a ≤ S256x768.size a
  inb_S256x768_S111x768_145_0 : ∀ a, (![145, 0] : Fin 2 → Nat) a + S111x768.size a ≤ S256x768.size a
  h_S111x768 : 0 < S111x768.numel
  broadcasts_S1x768_S111x768 : S1x768.Broadcasts S111x768
  inb_S2x3976x768_S1x111x768_1_112_0 : ∀ a, (![1, 112, 0] : Fin 3 → Nat) a + S1x111x768.size a ≤ S2x3976x768.size a
  h_S1x111x768 : 0 < S1x111x768.numel
  shapeCasts_S1x111x768_S111x768 : S1x111x768.ShapeCasts S111x768
  shapeCasts_S111x768_S1x111x768 : S111x768.ShapeCasts S1x111x768
  inb_S256x768_S1x768_146_0 : ∀ a, (![146, 0] : Fin 2 → Nat) a + S1x768.size a ≤ S256x768.size a
  inb_S256x768_S110x768_146_0 : ∀ a, (![146, 0] : Fin 2 → Nat) a + S110x768.size a ≤ S256x768.size a
  h_S110x768 : 0 < S110x768.numel
  broadcasts_S1x768_S110x768 : S1x768.Broadcasts S110x768
  inb_S2x3976x768_S1x110x768_1_223_0 : ∀ a, (![1, 223, 0] : Fin 3 → Nat) a + S1x110x768.size a ≤ S2x3976x768.size a
  h_S1x110x768 : 0 < S1x110x768.numel
  shapeCasts_S1x110x768_S110x768 : S1x110x768.ShapeCasts S110x768
  shapeCasts_S110x768_S1x110x768 : S110x768.ShapeCasts S1x110x768
  inb_S256x768_S1x768_147_0 : ∀ a, (![147, 0] : Fin 2 → Nat) a + S1x768.size a ≤ S256x768.size a
  inb_S256x768_S109x768_147_0 : ∀ a, (![147, 0] : Fin 2 → Nat) a + S109x768.size a ≤ S256x768.size a
  h_S109x768 : 0 < S109x768.numel
  broadcasts_S1x768_S109x768 : S1x768.Broadcasts S109x768
  inb_S2x3976x768_S1x109x768_1_333_0 : ∀ a, (![1, 333, 0] : Fin 3 → Nat) a + S1x109x768.size a ≤ S2x3976x768.size a
  h_S1x109x768 : 0 < S1x109x768.numel
  shapeCasts_S1x109x768_S109x768 : S1x109x768.ShapeCasts S109x768
  shapeCasts_S109x768_S1x109x768 : S109x768.ShapeCasts S1x109x768
  inb_S256x768_S1x768_148_0 : ∀ a, (![148, 0] : Fin 2 → Nat) a + S1x768.size a ≤ S256x768.size a
  inb_S256x768_S108x768_148_0 : ∀ a, (![148, 0] : Fin 2 → Nat) a + S108x768.size a ≤ S256x768.size a
  h_S108x768 : 0 < S108x768.numel
  broadcasts_S1x768_S108x768 : S1x768.Broadcasts S108x768
  inb_S2x3976x768_S1x108x768_1_442_0 : ∀ a, (![1, 442, 0] : Fin 3 → Nat) a + S1x108x768.size a ≤ S2x3976x768.size a
  h_S1x108x768 : 0 < S1x108x768.numel
  shapeCasts_S1x108x768_S108x768 : S1x108x768.ShapeCasts S108x768
  shapeCasts_S108x768_S1x108x768 : S108x768.ShapeCasts S1x108x768
  inb_S256x768_S1x768_149_0 : ∀ a, (![149, 0] : Fin 2 → Nat) a + S1x768.size a ≤ S256x768.size a
  inb_S256x768_S107x768_149_0 : ∀ a, (![149, 0] : Fin 2 → Nat) a + S107x768.size a ≤ S256x768.size a
  h_S107x768 : 0 < S107x768.numel
  broadcasts_S1x768_S107x768 : S1x768.Broadcasts S107x768
  inb_S2x3976x768_S1x107x768_1_550_0 : ∀ a, (![1, 550, 0] : Fin 3 → Nat) a + S1x107x768.size a ≤ S2x3976x768.size a
  h_S1x107x768 : 0 < S1x107x768.numel
  shapeCasts_S1x107x768_S107x768 : S1x107x768.ShapeCasts S107x768
  shapeCasts_S107x768_S1x107x768 : S107x768.ShapeCasts S1x107x768
  inb_S256x768_S1x768_150_0 : ∀ a, (![150, 0] : Fin 2 → Nat) a + S1x768.size a ≤ S256x768.size a
  inb_S256x768_S106x768_150_0 : ∀ a, (![150, 0] : Fin 2 → Nat) a + S106x768.size a ≤ S256x768.size a
  h_S106x768 : 0 < S106x768.numel
  broadcasts_S1x768_S106x768 : S1x768.Broadcasts S106x768
  inb_S2x3976x768_S1x106x768_1_657_0 : ∀ a, (![1, 657, 0] : Fin 3 → Nat) a + S1x106x768.size a ≤ S2x3976x768.size a
  h_S1x106x768 : 0 < S1x106x768.numel
  shapeCasts_S1x106x768_S106x768 : S1x106x768.ShapeCasts S106x768
  shapeCasts_S106x768_S1x106x768 : S106x768.ShapeCasts S1x106x768
  inb_S256x768_S1x768_151_0 : ∀ a, (![151, 0] : Fin 2 → Nat) a + S1x768.size a ≤ S256x768.size a
  inb_S256x768_S105x768_151_0 : ∀ a, (![151, 0] : Fin 2 → Nat) a + S105x768.size a ≤ S256x768.size a
  h_S105x768 : 0 < S105x768.numel
  broadcasts_S1x768_S105x768 : S1x768.Broadcasts S105x768
  inb_S2x3976x768_S1x105x768_1_763_0 : ∀ a, (![1, 763, 0] : Fin 3 → Nat) a + S1x105x768.size a ≤ S2x3976x768.size a
  h_S1x105x768 : 0 < S1x105x768.numel
  shapeCasts_S1x105x768_S105x768 : S1x105x768.ShapeCasts S105x768
  shapeCasts_S105x768_S1x105x768 : S105x768.ShapeCasts S1x105x768
  inb_S256x768_S1x768_152_0 : ∀ a, (![152, 0] : Fin 2 → Nat) a + S1x768.size a ≤ S256x768.size a
  inb_S256x768_S104x768_152_0 : ∀ a, (![152, 0] : Fin 2 → Nat) a + S104x768.size a ≤ S256x768.size a
  h_S104x768 : 0 < S104x768.numel
  broadcasts_S1x768_S104x768 : S1x768.Broadcasts S104x768
  inb_S2x3976x768_S1x104x768_1_868_0 : ∀ a, (![1, 868, 0] : Fin 3 → Nat) a + S1x104x768.size a ≤ S2x3976x768.size a
  h_S1x104x768 : 0 < S1x104x768.numel
  shapeCasts_S1x104x768_S104x768 : S1x104x768.ShapeCasts S104x768
  shapeCasts_S104x768_S1x104x768 : S104x768.ShapeCasts S1x104x768
  inb_S256x768_S1x768_153_0 : ∀ a, (![153, 0] : Fin 2 → Nat) a + S1x768.size a ≤ S256x768.size a
  inb_S256x768_S103x768_153_0 : ∀ a, (![153, 0] : Fin 2 → Nat) a + S103x768.size a ≤ S256x768.size a
  h_S103x768 : 0 < S103x768.numel
  broadcasts_S1x768_S103x768 : S1x768.Broadcasts S103x768
  inb_S2x3976x768_S1x103x768_1_972_0 : ∀ a, (![1, 972, 0] : Fin 3 → Nat) a + S1x103x768.size a ≤ S2x3976x768.size a
  h_S1x103x768 : 0 < S1x103x768.numel
  shapeCasts_S1x103x768_S103x768 : S1x103x768.ShapeCasts S103x768
  shapeCasts_S103x768_S1x103x768 : S103x768.ShapeCasts S1x103x768
  inb_S256x768_S1x768_154_0 : ∀ a, (![154, 0] : Fin 2 → Nat) a + S1x768.size a ≤ S256x768.size a
  inb_S256x768_S102x768_154_0 : ∀ a, (![154, 0] : Fin 2 → Nat) a + S102x768.size a ≤ S256x768.size a
  h_S102x768 : 0 < S102x768.numel
  broadcasts_S1x768_S102x768 : S1x768.Broadcasts S102x768
  inb_S2x3976x768_S1x102x768_1_1075_0 : ∀ a, (![1, 1075, 0] : Fin 3 → Nat) a + S1x102x768.size a ≤ S2x3976x768.size a
  h_S1x102x768 : 0 < S1x102x768.numel
  shapeCasts_S1x102x768_S102x768 : S1x102x768.ShapeCasts S102x768
  shapeCasts_S102x768_S1x102x768 : S102x768.ShapeCasts S1x102x768
  inb_S256x768_S1x768_155_0 : ∀ a, (![155, 0] : Fin 2 → Nat) a + S1x768.size a ≤ S256x768.size a
  inb_S256x768_S101x768_155_0 : ∀ a, (![155, 0] : Fin 2 → Nat) a + S101x768.size a ≤ S256x768.size a
  h_S101x768 : 0 < S101x768.numel
  broadcasts_S1x768_S101x768 : S1x768.Broadcasts S101x768
  inb_S2x3976x768_S1x101x768_1_1177_0 : ∀ a, (![1, 1177, 0] : Fin 3 → Nat) a + S1x101x768.size a ≤ S2x3976x768.size a
  h_S1x101x768 : 0 < S1x101x768.numel
  shapeCasts_S1x101x768_S101x768 : S1x101x768.ShapeCasts S101x768
  shapeCasts_S101x768_S1x101x768 : S101x768.ShapeCasts S1x101x768
  inb_S256x768_S1x768_156_0 : ∀ a, (![156, 0] : Fin 2 → Nat) a + S1x768.size a ≤ S256x768.size a
  inb_S256x768_S100x768_156_0 : ∀ a, (![156, 0] : Fin 2 → Nat) a + S100x768.size a ≤ S256x768.size a
  h_S100x768 : 0 < S100x768.numel
  broadcasts_S1x768_S100x768 : S1x768.Broadcasts S100x768
  inb_S2x3976x768_S1x100x768_1_1278_0 : ∀ a, (![1, 1278, 0] : Fin 3 → Nat) a + S1x100x768.size a ≤ S2x3976x768.size a
  h_S1x100x768 : 0 < S1x100x768.numel
  shapeCasts_S1x100x768_S100x768 : S1x100x768.ShapeCasts S100x768
  shapeCasts_S100x768_S1x100x768 : S100x768.ShapeCasts S1x100x768
  inb_S256x768_S1x768_157_0 : ∀ a, (![157, 0] : Fin 2 → Nat) a + S1x768.size a ≤ S256x768.size a
  inb_S256x768_S99x768_157_0 : ∀ a, (![157, 0] : Fin 2 → Nat) a + S99x768.size a ≤ S256x768.size a
  h_S99x768 : 0 < S99x768.numel
  broadcasts_S1x768_S99x768 : S1x768.Broadcasts S99x768
  inb_S2x3976x768_S1x99x768_1_1378_0 : ∀ a, (![1, 1378, 0] : Fin 3 → Nat) a + S1x99x768.size a ≤ S2x3976x768.size a
  h_S1x99x768 : 0 < S1x99x768.numel
  shapeCasts_S1x99x768_S99x768 : S1x99x768.ShapeCasts S99x768
  shapeCasts_S99x768_S1x99x768 : S99x768.ShapeCasts S1x99x768
  inb_S256x768_S1x768_158_0 : ∀ a, (![158, 0] : Fin 2 → Nat) a + S1x768.size a ≤ S256x768.size a
  inb_S256x768_S98x768_158_0 : ∀ a, (![158, 0] : Fin 2 → Nat) a + S98x768.size a ≤ S256x768.size a
  h_S98x768 : 0 < S98x768.numel
  broadcasts_S1x768_S98x768 : S1x768.Broadcasts S98x768
  inb_S2x3976x768_S1x98x768_1_1477_0 : ∀ a, (![1, 1477, 0] : Fin 3 → Nat) a + S1x98x768.size a ≤ S2x3976x768.size a
  h_S1x98x768 : 0 < S1x98x768.numel
  shapeCasts_S1x98x768_S98x768 : S1x98x768.ShapeCasts S98x768
  shapeCasts_S98x768_S1x98x768 : S98x768.ShapeCasts S1x98x768
  inb_S256x768_S1x768_159_0 : ∀ a, (![159, 0] : Fin 2 → Nat) a + S1x768.size a ≤ S256x768.size a
  inb_S256x768_S97x768_159_0 : ∀ a, (![159, 0] : Fin 2 → Nat) a + S97x768.size a ≤ S256x768.size a
  h_S97x768 : 0 < S97x768.numel
  broadcasts_S1x768_S97x768 : S1x768.Broadcasts S97x768
  inb_S2x3976x768_S1x97x768_1_1575_0 : ∀ a, (![1, 1575, 0] : Fin 3 → Nat) a + S1x97x768.size a ≤ S2x3976x768.size a
  h_S1x97x768 : 0 < S1x97x768.numel
  shapeCasts_S1x97x768_S97x768 : S1x97x768.ShapeCasts S97x768
  shapeCasts_S97x768_S1x97x768 : S97x768.ShapeCasts S1x97x768
  squeezes_S1x1672x768_S1672x768 : S1x1672x768.Squeezes S1672x768
  inb_S2x3976x768_S1x1672x768_1_0_0 : ∀ a, (![1, 0, 0] : Fin 3 → Nat) a + S1x1672x768.size a ≤ S2x3976x768.size a
  inb_S256x768_S1x768_160_0 : ∀ a, (![160, 0] : Fin 2 → Nat) a + S1x768.size a ≤ S256x768.size a
  inb_S256x768_S96x768_160_0 : ∀ a, (![160, 0] : Fin 2 → Nat) a + S96x768.size a ≤ S256x768.size a
  h_S96x768 : 0 < S96x768.numel
  broadcasts_S1x768_S96x768 : S1x768.Broadcasts S96x768
  inb_S2x3976x768_S1x96x768_0_0_0 : ∀ a, (![0, 0, 0] : Fin 3 → Nat) a + S1x96x768.size a ≤ S2x3976x768.size a
  h_S1x96x768 : 0 < S1x96x768.numel
  shapeCasts_S1x96x768_S96x768 : S1x96x768.ShapeCasts S96x768
  shapeCasts_S96x768_S1x96x768 : S96x768.ShapeCasts S1x96x768
  inb_S256x768_S1x768_161_0 : ∀ a, (![161, 0] : Fin 2 → Nat) a + S1x768.size a ≤ S256x768.size a
  inb_S256x768_S95x768_161_0 : ∀ a, (![161, 0] : Fin 2 → Nat) a + S95x768.size a ≤ S256x768.size a
  h_S95x768 : 0 < S95x768.numel
  broadcasts_S1x768_S95x768 : S1x768.Broadcasts S95x768
  inb_S2x3976x768_S1x95x768_0_96_0 : ∀ a, (![0, 96, 0] : Fin 3 → Nat) a + S1x95x768.size a ≤ S2x3976x768.size a
  h_S1x95x768 : 0 < S1x95x768.numel
  shapeCasts_S1x95x768_S95x768 : S1x95x768.ShapeCasts S95x768
  shapeCasts_S95x768_S1x95x768 : S95x768.ShapeCasts S1x95x768
  inb_S256x768_S1x768_162_0 : ∀ a, (![162, 0] : Fin 2 → Nat) a + S1x768.size a ≤ S256x768.size a
  inb_S256x768_S94x768_162_0 : ∀ a, (![162, 0] : Fin 2 → Nat) a + S94x768.size a ≤ S256x768.size a
  h_S94x768 : 0 < S94x768.numel
  broadcasts_S1x768_S94x768 : S1x768.Broadcasts S94x768
  inb_S2x3976x768_S1x94x768_0_191_0 : ∀ a, (![0, 191, 0] : Fin 3 → Nat) a + S1x94x768.size a ≤ S2x3976x768.size a
  h_S1x94x768 : 0 < S1x94x768.numel
  shapeCasts_S1x94x768_S94x768 : S1x94x768.ShapeCasts S94x768
  shapeCasts_S94x768_S1x94x768 : S94x768.ShapeCasts S1x94x768
  inb_S256x768_S1x768_163_0 : ∀ a, (![163, 0] : Fin 2 → Nat) a + S1x768.size a ≤ S256x768.size a
  inb_S256x768_S93x768_163_0 : ∀ a, (![163, 0] : Fin 2 → Nat) a + S93x768.size a ≤ S256x768.size a
  h_S93x768 : 0 < S93x768.numel
  broadcasts_S1x768_S93x768 : S1x768.Broadcasts S93x768
  inb_S2x3976x768_S1x93x768_0_285_0 : ∀ a, (![0, 285, 0] : Fin 3 → Nat) a + S1x93x768.size a ≤ S2x3976x768.size a
  h_S1x93x768 : 0 < S1x93x768.numel
  shapeCasts_S1x93x768_S93x768 : S1x93x768.ShapeCasts S93x768
  shapeCasts_S93x768_S1x93x768 : S93x768.ShapeCasts S1x93x768
  inb_S256x768_S1x768_164_0 : ∀ a, (![164, 0] : Fin 2 → Nat) a + S1x768.size a ≤ S256x768.size a
  inb_S256x768_S92x768_164_0 : ∀ a, (![164, 0] : Fin 2 → Nat) a + S92x768.size a ≤ S256x768.size a
  h_S92x768 : 0 < S92x768.numel
  broadcasts_S1x768_S92x768 : S1x768.Broadcasts S92x768
  inb_S2x3976x768_S1x92x768_0_378_0 : ∀ a, (![0, 378, 0] : Fin 3 → Nat) a + S1x92x768.size a ≤ S2x3976x768.size a
  h_S1x92x768 : 0 < S1x92x768.numel
  shapeCasts_S1x92x768_S92x768 : S1x92x768.ShapeCasts S92x768
  shapeCasts_S92x768_S1x92x768 : S92x768.ShapeCasts S1x92x768
  inb_S256x768_S1x768_165_0 : ∀ a, (![165, 0] : Fin 2 → Nat) a + S1x768.size a ≤ S256x768.size a
  inb_S256x768_S91x768_165_0 : ∀ a, (![165, 0] : Fin 2 → Nat) a + S91x768.size a ≤ S256x768.size a
  h_S91x768 : 0 < S91x768.numel
  broadcasts_S1x768_S91x768 : S1x768.Broadcasts S91x768
  inb_S2x3976x768_S1x91x768_0_470_0 : ∀ a, (![0, 470, 0] : Fin 3 → Nat) a + S1x91x768.size a ≤ S2x3976x768.size a
  h_S1x91x768 : 0 < S1x91x768.numel
  shapeCasts_S1x91x768_S91x768 : S1x91x768.ShapeCasts S91x768
  shapeCasts_S91x768_S1x91x768 : S91x768.ShapeCasts S1x91x768
  inb_S256x768_S1x768_166_0 : ∀ a, (![166, 0] : Fin 2 → Nat) a + S1x768.size a ≤ S256x768.size a
  inb_S256x768_S90x768_166_0 : ∀ a, (![166, 0] : Fin 2 → Nat) a + S90x768.size a ≤ S256x768.size a
  h_S90x768 : 0 < S90x768.numel
  broadcasts_S1x768_S90x768 : S1x768.Broadcasts S90x768
  inb_S2x3976x768_S1x90x768_0_561_0 : ∀ a, (![0, 561, 0] : Fin 3 → Nat) a + S1x90x768.size a ≤ S2x3976x768.size a
  h_S1x90x768 : 0 < S1x90x768.numel
  shapeCasts_S1x90x768_S90x768 : S1x90x768.ShapeCasts S90x768
  shapeCasts_S90x768_S1x90x768 : S90x768.ShapeCasts S1x90x768
  inb_S256x768_S1x768_167_0 : ∀ a, (![167, 0] : Fin 2 → Nat) a + S1x768.size a ≤ S256x768.size a
  inb_S256x768_S89x768_167_0 : ∀ a, (![167, 0] : Fin 2 → Nat) a + S89x768.size a ≤ S256x768.size a
  h_S89x768 : 0 < S89x768.numel
  broadcasts_S1x768_S89x768 : S1x768.Broadcasts S89x768
  inb_S2x3976x768_S1x89x768_0_651_0 : ∀ a, (![0, 651, 0] : Fin 3 → Nat) a + S1x89x768.size a ≤ S2x3976x768.size a
  h_S1x89x768 : 0 < S1x89x768.numel
  shapeCasts_S1x89x768_S89x768 : S1x89x768.ShapeCasts S89x768
  shapeCasts_S89x768_S1x89x768 : S89x768.ShapeCasts S1x89x768
  inb_S256x768_S1x768_168_0 : ∀ a, (![168, 0] : Fin 2 → Nat) a + S1x768.size a ≤ S256x768.size a
  inb_S256x768_S88x768_168_0 : ∀ a, (![168, 0] : Fin 2 → Nat) a + S88x768.size a ≤ S256x768.size a
  h_S88x768 : 0 < S88x768.numel
  broadcasts_S1x768_S88x768 : S1x768.Broadcasts S88x768
  inb_S2x3976x768_S1x88x768_0_740_0 : ∀ a, (![0, 740, 0] : Fin 3 → Nat) a + S1x88x768.size a ≤ S2x3976x768.size a
  h_S1x88x768 : 0 < S1x88x768.numel
  shapeCasts_S1x88x768_S88x768 : S1x88x768.ShapeCasts S88x768
  shapeCasts_S88x768_S1x88x768 : S88x768.ShapeCasts S1x88x768
  inb_S256x768_S1x768_169_0 : ∀ a, (![169, 0] : Fin 2 → Nat) a + S1x768.size a ≤ S256x768.size a
  inb_S256x768_S87x768_169_0 : ∀ a, (![169, 0] : Fin 2 → Nat) a + S87x768.size a ≤ S256x768.size a
  h_S87x768 : 0 < S87x768.numel
  broadcasts_S1x768_S87x768 : S1x768.Broadcasts S87x768
  inb_S2x3976x768_S1x87x768_0_828_0 : ∀ a, (![0, 828, 0] : Fin 3 → Nat) a + S1x87x768.size a ≤ S2x3976x768.size a
  h_S1x87x768 : 0 < S1x87x768.numel
  shapeCasts_S1x87x768_S87x768 : S1x87x768.ShapeCasts S87x768
  shapeCasts_S87x768_S1x87x768 : S87x768.ShapeCasts S1x87x768
  inb_S256x768_S1x768_170_0 : ∀ a, (![170, 0] : Fin 2 → Nat) a + S1x768.size a ≤ S256x768.size a
  inb_S256x768_S86x768_170_0 : ∀ a, (![170, 0] : Fin 2 → Nat) a + S86x768.size a ≤ S256x768.size a
  h_S86x768 : 0 < S86x768.numel
  broadcasts_S1x768_S86x768 : S1x768.Broadcasts S86x768
  inb_S2x3976x768_S1x86x768_0_915_0 : ∀ a, (![0, 915, 0] : Fin 3 → Nat) a + S1x86x768.size a ≤ S2x3976x768.size a
  h_S1x86x768 : 0 < S1x86x768.numel
  shapeCasts_S1x86x768_S86x768 : S1x86x768.ShapeCasts S86x768
  shapeCasts_S86x768_S1x86x768 : S86x768.ShapeCasts S1x86x768
  inb_S256x768_S1x768_171_0 : ∀ a, (![171, 0] : Fin 2 → Nat) a + S1x768.size a ≤ S256x768.size a
  inb_S256x768_S85x768_171_0 : ∀ a, (![171, 0] : Fin 2 → Nat) a + S85x768.size a ≤ S256x768.size a
  h_S85x768 : 0 < S85x768.numel
  broadcasts_S1x768_S85x768 : S1x768.Broadcasts S85x768
  inb_S2x3976x768_S1x85x768_0_1001_0 : ∀ a, (![0, 1001, 0] : Fin 3 → Nat) a + S1x85x768.size a ≤ S2x3976x768.size a
  h_S1x85x768 : 0 < S1x85x768.numel
  shapeCasts_S1x85x768_S85x768 : S1x85x768.ShapeCasts S85x768
  shapeCasts_S85x768_S1x85x768 : S85x768.ShapeCasts S1x85x768
  inb_S256x768_S1x768_172_0 : ∀ a, (![172, 0] : Fin 2 → Nat) a + S1x768.size a ≤ S256x768.size a
  inb_S256x768_S84x768_172_0 : ∀ a, (![172, 0] : Fin 2 → Nat) a + S84x768.size a ≤ S256x768.size a
  h_S84x768 : 0 < S84x768.numel
  broadcasts_S1x768_S84x768 : S1x768.Broadcasts S84x768
  inb_S2x3976x768_S1x84x768_0_1086_0 : ∀ a, (![0, 1086, 0] : Fin 3 → Nat) a + S1x84x768.size a ≤ S2x3976x768.size a
  h_S1x84x768 : 0 < S1x84x768.numel
  shapeCasts_S1x84x768_S84x768 : S1x84x768.ShapeCasts S84x768
  shapeCasts_S84x768_S1x84x768 : S84x768.ShapeCasts S1x84x768
  inb_S256x768_S1x768_173_0 : ∀ a, (![173, 0] : Fin 2 → Nat) a + S1x768.size a ≤ S256x768.size a
  inb_S256x768_S83x768_173_0 : ∀ a, (![173, 0] : Fin 2 → Nat) a + S83x768.size a ≤ S256x768.size a
  h_S83x768 : 0 < S83x768.numel
  broadcasts_S1x768_S83x768 : S1x768.Broadcasts S83x768
  inb_S2x3976x768_S1x83x768_0_1170_0 : ∀ a, (![0, 1170, 0] : Fin 3 → Nat) a + S1x83x768.size a ≤ S2x3976x768.size a
  h_S1x83x768 : 0 < S1x83x768.numel
  shapeCasts_S1x83x768_S83x768 : S1x83x768.ShapeCasts S83x768
  shapeCasts_S83x768_S1x83x768 : S83x768.ShapeCasts S1x83x768
  inb_S256x768_S1x768_174_0 : ∀ a, (![174, 0] : Fin 2 → Nat) a + S1x768.size a ≤ S256x768.size a
  inb_S256x768_S82x768_174_0 : ∀ a, (![174, 0] : Fin 2 → Nat) a + S82x768.size a ≤ S256x768.size a
  h_S82x768 : 0 < S82x768.numel
  broadcasts_S1x768_S82x768 : S1x768.Broadcasts S82x768
  inb_S2x3976x768_S1x82x768_0_1253_0 : ∀ a, (![0, 1253, 0] : Fin 3 → Nat) a + S1x82x768.size a ≤ S2x3976x768.size a
  h_S1x82x768 : 0 < S1x82x768.numel
  shapeCasts_S1x82x768_S82x768 : S1x82x768.ShapeCasts S82x768
  shapeCasts_S82x768_S1x82x768 : S82x768.ShapeCasts S1x82x768
  inb_S256x768_S1x768_175_0 : ∀ a, (![175, 0] : Fin 2 → Nat) a + S1x768.size a ≤ S256x768.size a
  inb_S256x768_S81x768_175_0 : ∀ a, (![175, 0] : Fin 2 → Nat) a + S81x768.size a ≤ S256x768.size a
  h_S81x768 : 0 < S81x768.numel
  broadcasts_S1x768_S81x768 : S1x768.Broadcasts S81x768
  inb_S2x3976x768_S1x81x768_0_1335_0 : ∀ a, (![0, 1335, 0] : Fin 3 → Nat) a + S1x81x768.size a ≤ S2x3976x768.size a
  h_S1x81x768 : 0 < S1x81x768.numel
  shapeCasts_S1x81x768_S81x768 : S1x81x768.ShapeCasts S81x768
  shapeCasts_S81x768_S1x81x768 : S81x768.ShapeCasts S1x81x768
  squeezes_S1x1416x768_S1416x768 : S1x1416x768.Squeezes S1416x768
  inb_S2x3976x768_S1x1416x768_0_0_0 : ∀ a, (![0, 0, 0] : Fin 3 → Nat) a + S1x1416x768.size a ≤ S2x3976x768.size a
  inb_S256x768_S1x768_176_0 : ∀ a, (![176, 0] : Fin 2 → Nat) a + S1x768.size a ≤ S256x768.size a
  inb_S256x768_S80x768_176_0 : ∀ a, (![176, 0] : Fin 2 → Nat) a + S80x768.size a ≤ S256x768.size a
  h_S80x768 : 0 < S80x768.numel
  broadcasts_S1x768_S80x768 : S1x768.Broadcasts S80x768
  inb_S2x3976x768_S1x80x768_1_0_0 : ∀ a, (![1, 0, 0] : Fin 3 → Nat) a + S1x80x768.size a ≤ S2x3976x768.size a
  h_S1x80x768 : 0 < S1x80x768.numel
  shapeCasts_S1x80x768_S80x768 : S1x80x768.ShapeCasts S80x768
  shapeCasts_S80x768_S1x80x768 : S80x768.ShapeCasts S1x80x768
  inb_S256x768_S1x768_177_0 : ∀ a, (![177, 0] : Fin 2 → Nat) a + S1x768.size a ≤ S256x768.size a
  inb_S256x768_S79x768_177_0 : ∀ a, (![177, 0] : Fin 2 → Nat) a + S79x768.size a ≤ S256x768.size a
  h_S79x768 : 0 < S79x768.numel
  broadcasts_S1x768_S79x768 : S1x768.Broadcasts S79x768
  inb_S2x3976x768_S1x79x768_1_80_0 : ∀ a, (![1, 80, 0] : Fin 3 → Nat) a + S1x79x768.size a ≤ S2x3976x768.size a
  h_S1x79x768 : 0 < S1x79x768.numel
  shapeCasts_S1x79x768_S79x768 : S1x79x768.ShapeCasts S79x768
  shapeCasts_S79x768_S1x79x768 : S79x768.ShapeCasts S1x79x768
  inb_S256x768_S1x768_178_0 : ∀ a, (![178, 0] : Fin 2 → Nat) a + S1x768.size a ≤ S256x768.size a
  inb_S256x768_S78x768_178_0 : ∀ a, (![178, 0] : Fin 2 → Nat) a + S78x768.size a ≤ S256x768.size a
  h_S78x768 : 0 < S78x768.numel
  broadcasts_S1x768_S78x768 : S1x768.Broadcasts S78x768
  inb_S2x3976x768_S1x78x768_1_159_0 : ∀ a, (![1, 159, 0] : Fin 3 → Nat) a + S1x78x768.size a ≤ S2x3976x768.size a
  h_S1x78x768 : 0 < S1x78x768.numel
  shapeCasts_S1x78x768_S78x768 : S1x78x768.ShapeCasts S78x768
  shapeCasts_S78x768_S1x78x768 : S78x768.ShapeCasts S1x78x768
  inb_S256x768_S1x768_179_0 : ∀ a, (![179, 0] : Fin 2 → Nat) a + S1x768.size a ≤ S256x768.size a
  inb_S256x768_S77x768_179_0 : ∀ a, (![179, 0] : Fin 2 → Nat) a + S77x768.size a ≤ S256x768.size a
  h_S77x768 : 0 < S77x768.numel
  broadcasts_S1x768_S77x768 : S1x768.Broadcasts S77x768
  inb_S2x3976x768_S1x77x768_1_237_0 : ∀ a, (![1, 237, 0] : Fin 3 → Nat) a + S1x77x768.size a ≤ S2x3976x768.size a
  h_S1x77x768 : 0 < S1x77x768.numel
  shapeCasts_S1x77x768_S77x768 : S1x77x768.ShapeCasts S77x768
  shapeCasts_S77x768_S1x77x768 : S77x768.ShapeCasts S1x77x768
  inb_S256x768_S1x768_180_0 : ∀ a, (![180, 0] : Fin 2 → Nat) a + S1x768.size a ≤ S256x768.size a
  inb_S256x768_S76x768_180_0 : ∀ a, (![180, 0] : Fin 2 → Nat) a + S76x768.size a ≤ S256x768.size a
  h_S76x768 : 0 < S76x768.numel
  broadcasts_S1x768_S76x768 : S1x768.Broadcasts S76x768
  inb_S2x3976x768_S1x76x768_1_314_0 : ∀ a, (![1, 314, 0] : Fin 3 → Nat) a + S1x76x768.size a ≤ S2x3976x768.size a
  h_S1x76x768 : 0 < S1x76x768.numel
  shapeCasts_S1x76x768_S76x768 : S1x76x768.ShapeCasts S76x768
  shapeCasts_S76x768_S1x76x768 : S76x768.ShapeCasts S1x76x768
  inb_S256x768_S1x768_181_0 : ∀ a, (![181, 0] : Fin 2 → Nat) a + S1x768.size a ≤ S256x768.size a
  inb_S256x768_S75x768_181_0 : ∀ a, (![181, 0] : Fin 2 → Nat) a + S75x768.size a ≤ S256x768.size a
  h_S75x768 : 0 < S75x768.numel
  broadcasts_S1x768_S75x768 : S1x768.Broadcasts S75x768
  inb_S2x3976x768_S1x75x768_1_390_0 : ∀ a, (![1, 390, 0] : Fin 3 → Nat) a + S1x75x768.size a ≤ S2x3976x768.size a
  h_S1x75x768 : 0 < S1x75x768.numel
  shapeCasts_S1x75x768_S75x768 : S1x75x768.ShapeCasts S75x768
  shapeCasts_S75x768_S1x75x768 : S75x768.ShapeCasts S1x75x768
  inb_S256x768_S1x768_182_0 : ∀ a, (![182, 0] : Fin 2 → Nat) a + S1x768.size a ≤ S256x768.size a
  inb_S256x768_S74x768_182_0 : ∀ a, (![182, 0] : Fin 2 → Nat) a + S74x768.size a ≤ S256x768.size a
  h_S74x768 : 0 < S74x768.numel
  broadcasts_S1x768_S74x768 : S1x768.Broadcasts S74x768
  inb_S2x3976x768_S1x74x768_1_465_0 : ∀ a, (![1, 465, 0] : Fin 3 → Nat) a + S1x74x768.size a ≤ S2x3976x768.size a
  h_S1x74x768 : 0 < S1x74x768.numel
  shapeCasts_S1x74x768_S74x768 : S1x74x768.ShapeCasts S74x768
  shapeCasts_S74x768_S1x74x768 : S74x768.ShapeCasts S1x74x768
  inb_S256x768_S1x768_183_0 : ∀ a, (![183, 0] : Fin 2 → Nat) a + S1x768.size a ≤ S256x768.size a
  inb_S256x768_S73x768_183_0 : ∀ a, (![183, 0] : Fin 2 → Nat) a + S73x768.size a ≤ S256x768.size a
  h_S73x768 : 0 < S73x768.numel
  broadcasts_S1x768_S73x768 : S1x768.Broadcasts S73x768
  inb_S2x3976x768_S1x73x768_1_539_0 : ∀ a, (![1, 539, 0] : Fin 3 → Nat) a + S1x73x768.size a ≤ S2x3976x768.size a
  h_S1x73x768 : 0 < S1x73x768.numel
  shapeCasts_S1x73x768_S73x768 : S1x73x768.ShapeCasts S73x768
  shapeCasts_S73x768_S1x73x768 : S73x768.ShapeCasts S1x73x768
  inb_S256x768_S1x768_184_0 : ∀ a, (![184, 0] : Fin 2 → Nat) a + S1x768.size a ≤ S256x768.size a
  inb_S256x768_S72x768_184_0 : ∀ a, (![184, 0] : Fin 2 → Nat) a + S72x768.size a ≤ S256x768.size a
  h_S72x768 : 0 < S72x768.numel
  broadcasts_S1x768_S72x768 : S1x768.Broadcasts S72x768
  inb_S2x3976x768_S1x72x768_1_612_0 : ∀ a, (![1, 612, 0] : Fin 3 → Nat) a + S1x72x768.size a ≤ S2x3976x768.size a
  h_S1x72x768 : 0 < S1x72x768.numel
  shapeCasts_S1x72x768_S72x768 : S1x72x768.ShapeCasts S72x768
  shapeCasts_S72x768_S1x72x768 : S72x768.ShapeCasts S1x72x768
  inb_S256x768_S1x768_185_0 : ∀ a, (![185, 0] : Fin 2 → Nat) a + S1x768.size a ≤ S256x768.size a
  inb_S256x768_S71x768_185_0 : ∀ a, (![185, 0] : Fin 2 → Nat) a + S71x768.size a ≤ S256x768.size a
  h_S71x768 : 0 < S71x768.numel
  broadcasts_S1x768_S71x768 : S1x768.Broadcasts S71x768
  inb_S2x3976x768_S1x71x768_1_684_0 : ∀ a, (![1, 684, 0] : Fin 3 → Nat) a + S1x71x768.size a ≤ S2x3976x768.size a
  h_S1x71x768 : 0 < S1x71x768.numel
  shapeCasts_S1x71x768_S71x768 : S1x71x768.ShapeCasts S71x768
  shapeCasts_S71x768_S1x71x768 : S71x768.ShapeCasts S1x71x768
  inb_S256x768_S1x768_186_0 : ∀ a, (![186, 0] : Fin 2 → Nat) a + S1x768.size a ≤ S256x768.size a
  inb_S256x768_S70x768_186_0 : ∀ a, (![186, 0] : Fin 2 → Nat) a + S70x768.size a ≤ S256x768.size a
  h_S70x768 : 0 < S70x768.numel
  broadcasts_S1x768_S70x768 : S1x768.Broadcasts S70x768
  inb_S2x3976x768_S1x70x768_1_755_0 : ∀ a, (![1, 755, 0] : Fin 3 → Nat) a + S1x70x768.size a ≤ S2x3976x768.size a
  h_S1x70x768 : 0 < S1x70x768.numel
  shapeCasts_S1x70x768_S70x768 : S1x70x768.ShapeCasts S70x768
  shapeCasts_S70x768_S1x70x768 : S70x768.ShapeCasts S1x70x768
  inb_S256x768_S1x768_187_0 : ∀ a, (![187, 0] : Fin 2 → Nat) a + S1x768.size a ≤ S256x768.size a
  inb_S256x768_S69x768_187_0 : ∀ a, (![187, 0] : Fin 2 → Nat) a + S69x768.size a ≤ S256x768.size a
  h_S69x768 : 0 < S69x768.numel
  broadcasts_S1x768_S69x768 : S1x768.Broadcasts S69x768
  inb_S2x3976x768_S1x69x768_1_825_0 : ∀ a, (![1, 825, 0] : Fin 3 → Nat) a + S1x69x768.size a ≤ S2x3976x768.size a
  h_S1x69x768 : 0 < S1x69x768.numel
  shapeCasts_S1x69x768_S69x768 : S1x69x768.ShapeCasts S69x768
  shapeCasts_S69x768_S1x69x768 : S69x768.ShapeCasts S1x69x768
  inb_S256x768_S1x768_188_0 : ∀ a, (![188, 0] : Fin 2 → Nat) a + S1x768.size a ≤ S256x768.size a
  inb_S256x768_S68x768_188_0 : ∀ a, (![188, 0] : Fin 2 → Nat) a + S68x768.size a ≤ S256x768.size a
  h_S68x768 : 0 < S68x768.numel
  broadcasts_S1x768_S68x768 : S1x768.Broadcasts S68x768
  inb_S2x3976x768_S1x68x768_1_894_0 : ∀ a, (![1, 894, 0] : Fin 3 → Nat) a + S1x68x768.size a ≤ S2x3976x768.size a
  h_S1x68x768 : 0 < S1x68x768.numel
  shapeCasts_S1x68x768_S68x768 : S1x68x768.ShapeCasts S68x768
  shapeCasts_S68x768_S1x68x768 : S68x768.ShapeCasts S1x68x768
  inb_S256x768_S1x768_189_0 : ∀ a, (![189, 0] : Fin 2 → Nat) a + S1x768.size a ≤ S256x768.size a
  inb_S256x768_S67x768_189_0 : ∀ a, (![189, 0] : Fin 2 → Nat) a + S67x768.size a ≤ S256x768.size a
  h_S67x768 : 0 < S67x768.numel
  broadcasts_S1x768_S67x768 : S1x768.Broadcasts S67x768
  inb_S2x3976x768_S1x67x768_1_962_0 : ∀ a, (![1, 962, 0] : Fin 3 → Nat) a + S1x67x768.size a ≤ S2x3976x768.size a
  h_S1x67x768 : 0 < S1x67x768.numel
  shapeCasts_S1x67x768_S67x768 : S1x67x768.ShapeCasts S67x768
  shapeCasts_S67x768_S1x67x768 : S67x768.ShapeCasts S1x67x768
  inb_S256x768_S1x768_190_0 : ∀ a, (![190, 0] : Fin 2 → Nat) a + S1x768.size a ≤ S256x768.size a
  inb_S256x768_S66x768_190_0 : ∀ a, (![190, 0] : Fin 2 → Nat) a + S66x768.size a ≤ S256x768.size a
  h_S66x768 : 0 < S66x768.numel
  broadcasts_S1x768_S66x768 : S1x768.Broadcasts S66x768
  inb_S2x3976x768_S1x66x768_1_1029_0 : ∀ a, (![1, 1029, 0] : Fin 3 → Nat) a + S1x66x768.size a ≤ S2x3976x768.size a
  h_S1x66x768 : 0 < S1x66x768.numel
  shapeCasts_S1x66x768_S66x768 : S1x66x768.ShapeCasts S66x768
  shapeCasts_S66x768_S1x66x768 : S66x768.ShapeCasts S1x66x768
  inb_S256x768_S1x768_191_0 : ∀ a, (![191, 0] : Fin 2 → Nat) a + S1x768.size a ≤ S256x768.size a
  inb_S256x768_S65x768_191_0 : ∀ a, (![191, 0] : Fin 2 → Nat) a + S65x768.size a ≤ S256x768.size a
  h_S65x768 : 0 < S65x768.numel
  broadcasts_S1x768_S65x768 : S1x768.Broadcasts S65x768
  inb_S2x3976x768_S1x65x768_1_1095_0 : ∀ a, (![1, 1095, 0] : Fin 3 → Nat) a + S1x65x768.size a ≤ S2x3976x768.size a
  h_S1x65x768 : 0 < S1x65x768.numel
  shapeCasts_S1x65x768_S65x768 : S1x65x768.ShapeCasts S65x768
  shapeCasts_S65x768_S1x65x768 : S65x768.ShapeCasts S1x65x768
  squeezes_S1x1160x768_S1160x768 : S1x1160x768.Squeezes S1160x768
  inb_S2x3976x768_S1x1160x768_1_0_0 : ∀ a, (![1, 0, 0] : Fin 3 → Nat) a + S1x1160x768.size a ≤ S2x3976x768.size a
  inb_S256x768_S1x768_192_0 : ∀ a, (![192, 0] : Fin 2 → Nat) a + S1x768.size a ≤ S256x768.size a
  inb_S256x768_S64x768_192_0 : ∀ a, (![192, 0] : Fin 2 → Nat) a + S64x768.size a ≤ S256x768.size a
  h_S64x768 : 0 < S64x768.numel
  broadcasts_S1x768_S64x768 : S1x768.Broadcasts S64x768
  inb_S2x3976x768_S1x64x768_0_0_0 : ∀ a, (![0, 0, 0] : Fin 3 → Nat) a + S1x64x768.size a ≤ S2x3976x768.size a
  h_S1x64x768 : 0 < S1x64x768.numel
  shapeCasts_S1x64x768_S64x768 : S1x64x768.ShapeCasts S64x768
  shapeCasts_S64x768_S1x64x768 : S64x768.ShapeCasts S1x64x768
  inb_S256x768_S1x768_193_0 : ∀ a, (![193, 0] : Fin 2 → Nat) a + S1x768.size a ≤ S256x768.size a
  inb_S256x768_S63x768_193_0 : ∀ a, (![193, 0] : Fin 2 → Nat) a + S63x768.size a ≤ S256x768.size a
  h_S63x768 : 0 < S63x768.numel
  broadcasts_S1x768_S63x768 : S1x768.Broadcasts S63x768
  inb_S2x3976x768_S1x63x768_0_64_0 : ∀ a, (![0, 64, 0] : Fin 3 → Nat) a + S1x63x768.size a ≤ S2x3976x768.size a
  h_S1x63x768 : 0 < S1x63x768.numel
  shapeCasts_S1x63x768_S63x768 : S1x63x768.ShapeCasts S63x768
  shapeCasts_S63x768_S1x63x768 : S63x768.ShapeCasts S1x63x768
  inb_S256x768_S1x768_194_0 : ∀ a, (![194, 0] : Fin 2 → Nat) a + S1x768.size a ≤ S256x768.size a
  inb_S256x768_S62x768_194_0 : ∀ a, (![194, 0] : Fin 2 → Nat) a + S62x768.size a ≤ S256x768.size a
  h_S62x768 : 0 < S62x768.numel
  broadcasts_S1x768_S62x768 : S1x768.Broadcasts S62x768
  inb_S2x3976x768_S1x62x768_0_127_0 : ∀ a, (![0, 127, 0] : Fin 3 → Nat) a + S1x62x768.size a ≤ S2x3976x768.size a
  h_S1x62x768 : 0 < S1x62x768.numel
  shapeCasts_S1x62x768_S62x768 : S1x62x768.ShapeCasts S62x768
  shapeCasts_S62x768_S1x62x768 : S62x768.ShapeCasts S1x62x768
  inb_S256x768_S1x768_195_0 : ∀ a, (![195, 0] : Fin 2 → Nat) a + S1x768.size a ≤ S256x768.size a
  inb_S256x768_S61x768_195_0 : ∀ a, (![195, 0] : Fin 2 → Nat) a + S61x768.size a ≤ S256x768.size a
  h_S61x768 : 0 < S61x768.numel
  broadcasts_S1x768_S61x768 : S1x768.Broadcasts S61x768
  inb_S2x3976x768_S1x61x768_0_189_0 : ∀ a, (![0, 189, 0] : Fin 3 → Nat) a + S1x61x768.size a ≤ S2x3976x768.size a
  h_S1x61x768 : 0 < S1x61x768.numel
  shapeCasts_S1x61x768_S61x768 : S1x61x768.ShapeCasts S61x768
  shapeCasts_S61x768_S1x61x768 : S61x768.ShapeCasts S1x61x768
  inb_S256x768_S1x768_196_0 : ∀ a, (![196, 0] : Fin 2 → Nat) a + S1x768.size a ≤ S256x768.size a
  inb_S256x768_S60x768_196_0 : ∀ a, (![196, 0] : Fin 2 → Nat) a + S60x768.size a ≤ S256x768.size a
  h_S60x768 : 0 < S60x768.numel
  broadcasts_S1x768_S60x768 : S1x768.Broadcasts S60x768
  inb_S2x3976x768_S1x60x768_0_250_0 : ∀ a, (![0, 250, 0] : Fin 3 → Nat) a + S1x60x768.size a ≤ S2x3976x768.size a
  h_S1x60x768 : 0 < S1x60x768.numel
  shapeCasts_S1x60x768_S60x768 : S1x60x768.ShapeCasts S60x768
  shapeCasts_S60x768_S1x60x768 : S60x768.ShapeCasts S1x60x768
  inb_S256x768_S1x768_197_0 : ∀ a, (![197, 0] : Fin 2 → Nat) a + S1x768.size a ≤ S256x768.size a
  inb_S256x768_S59x768_197_0 : ∀ a, (![197, 0] : Fin 2 → Nat) a + S59x768.size a ≤ S256x768.size a
  h_S59x768 : 0 < S59x768.numel
  broadcasts_S1x768_S59x768 : S1x768.Broadcasts S59x768
  inb_S2x3976x768_S1x59x768_0_310_0 : ∀ a, (![0, 310, 0] : Fin 3 → Nat) a + S1x59x768.size a ≤ S2x3976x768.size a
  h_S1x59x768 : 0 < S1x59x768.numel
  shapeCasts_S1x59x768_S59x768 : S1x59x768.ShapeCasts S59x768
  shapeCasts_S59x768_S1x59x768 : S59x768.ShapeCasts S1x59x768
  inb_S256x768_S1x768_198_0 : ∀ a, (![198, 0] : Fin 2 → Nat) a + S1x768.size a ≤ S256x768.size a
  inb_S256x768_S58x768_198_0 : ∀ a, (![198, 0] : Fin 2 → Nat) a + S58x768.size a ≤ S256x768.size a
  h_S58x768 : 0 < S58x768.numel
  broadcasts_S1x768_S58x768 : S1x768.Broadcasts S58x768
  inb_S2x3976x768_S1x58x768_0_369_0 : ∀ a, (![0, 369, 0] : Fin 3 → Nat) a + S1x58x768.size a ≤ S2x3976x768.size a
  h_S1x58x768 : 0 < S1x58x768.numel
  shapeCasts_S1x58x768_S58x768 : S1x58x768.ShapeCasts S58x768
  shapeCasts_S58x768_S1x58x768 : S58x768.ShapeCasts S1x58x768
  inb_S256x768_S1x768_199_0 : ∀ a, (![199, 0] : Fin 2 → Nat) a + S1x768.size a ≤ S256x768.size a
  inb_S256x768_S57x768_199_0 : ∀ a, (![199, 0] : Fin 2 → Nat) a + S57x768.size a ≤ S256x768.size a
  h_S57x768 : 0 < S57x768.numel
  broadcasts_S1x768_S57x768 : S1x768.Broadcasts S57x768
  inb_S2x3976x768_S1x57x768_0_427_0 : ∀ a, (![0, 427, 0] : Fin 3 → Nat) a + S1x57x768.size a ≤ S2x3976x768.size a
  h_S1x57x768 : 0 < S1x57x768.numel
  shapeCasts_S1x57x768_S57x768 : S1x57x768.ShapeCasts S57x768
  shapeCasts_S57x768_S1x57x768 : S57x768.ShapeCasts S1x57x768
  inb_S256x768_S1x768_200_0 : ∀ a, (![200, 0] : Fin 2 → Nat) a + S1x768.size a ≤ S256x768.size a
  inb_S256x768_S56x768_200_0 : ∀ a, (![200, 0] : Fin 2 → Nat) a + S56x768.size a ≤ S256x768.size a
  h_S56x768 : 0 < S56x768.numel
  broadcasts_S1x768_S56x768 : S1x768.Broadcasts S56x768
  inb_S2x3976x768_S1x56x768_0_484_0 : ∀ a, (![0, 484, 0] : Fin 3 → Nat) a + S1x56x768.size a ≤ S2x3976x768.size a
  h_S1x56x768 : 0 < S1x56x768.numel
  shapeCasts_S1x56x768_S56x768 : S1x56x768.ShapeCasts S56x768
  shapeCasts_S56x768_S1x56x768 : S56x768.ShapeCasts S1x56x768
  inb_S256x768_S1x768_201_0 : ∀ a, (![201, 0] : Fin 2 → Nat) a + S1x768.size a ≤ S256x768.size a
  inb_S256x768_S55x768_201_0 : ∀ a, (![201, 0] : Fin 2 → Nat) a + S55x768.size a ≤ S256x768.size a
  h_S55x768 : 0 < S55x768.numel
  broadcasts_S1x768_S55x768 : S1x768.Broadcasts S55x768
  inb_S2x3976x768_S1x55x768_0_540_0 : ∀ a, (![0, 540, 0] : Fin 3 → Nat) a + S1x55x768.size a ≤ S2x3976x768.size a
  h_S1x55x768 : 0 < S1x55x768.numel
  shapeCasts_S1x55x768_S55x768 : S1x55x768.ShapeCasts S55x768
  shapeCasts_S55x768_S1x55x768 : S55x768.ShapeCasts S1x55x768
  inb_S256x768_S1x768_202_0 : ∀ a, (![202, 0] : Fin 2 → Nat) a + S1x768.size a ≤ S256x768.size a
  inb_S256x768_S54x768_202_0 : ∀ a, (![202, 0] : Fin 2 → Nat) a + S54x768.size a ≤ S256x768.size a
  h_S54x768 : 0 < S54x768.numel
  broadcasts_S1x768_S54x768 : S1x768.Broadcasts S54x768
  inb_S2x3976x768_S1x54x768_0_595_0 : ∀ a, (![0, 595, 0] : Fin 3 → Nat) a + S1x54x768.size a ≤ S2x3976x768.size a
  h_S1x54x768 : 0 < S1x54x768.numel
  shapeCasts_S1x54x768_S54x768 : S1x54x768.ShapeCasts S54x768
  shapeCasts_S54x768_S1x54x768 : S54x768.ShapeCasts S1x54x768
  inb_S256x768_S1x768_203_0 : ∀ a, (![203, 0] : Fin 2 → Nat) a + S1x768.size a ≤ S256x768.size a
  inb_S256x768_S53x768_203_0 : ∀ a, (![203, 0] : Fin 2 → Nat) a + S53x768.size a ≤ S256x768.size a
  h_S53x768 : 0 < S53x768.numel
  broadcasts_S1x768_S53x768 : S1x768.Broadcasts S53x768
  inb_S2x3976x768_S1x53x768_0_649_0 : ∀ a, (![0, 649, 0] : Fin 3 → Nat) a + S1x53x768.size a ≤ S2x3976x768.size a
  h_S1x53x768 : 0 < S1x53x768.numel
  shapeCasts_S1x53x768_S53x768 : S1x53x768.ShapeCasts S53x768
  shapeCasts_S53x768_S1x53x768 : S53x768.ShapeCasts S1x53x768
  inb_S256x768_S1x768_204_0 : ∀ a, (![204, 0] : Fin 2 → Nat) a + S1x768.size a ≤ S256x768.size a
  inb_S256x768_S52x768_204_0 : ∀ a, (![204, 0] : Fin 2 → Nat) a + S52x768.size a ≤ S256x768.size a
  h_S52x768 : 0 < S52x768.numel
  broadcasts_S1x768_S52x768 : S1x768.Broadcasts S52x768
  inb_S2x3976x768_S1x52x768_0_702_0 : ∀ a, (![0, 702, 0] : Fin 3 → Nat) a + S1x52x768.size a ≤ S2x3976x768.size a
  h_S1x52x768 : 0 < S1x52x768.numel
  shapeCasts_S1x52x768_S52x768 : S1x52x768.ShapeCasts S52x768
  shapeCasts_S52x768_S1x52x768 : S52x768.ShapeCasts S1x52x768
  inb_S256x768_S1x768_205_0 : ∀ a, (![205, 0] : Fin 2 → Nat) a + S1x768.size a ≤ S256x768.size a
  inb_S256x768_S51x768_205_0 : ∀ a, (![205, 0] : Fin 2 → Nat) a + S51x768.size a ≤ S256x768.size a
  h_S51x768 : 0 < S51x768.numel
  broadcasts_S1x768_S51x768 : S1x768.Broadcasts S51x768
  inb_S2x3976x768_S1x51x768_0_754_0 : ∀ a, (![0, 754, 0] : Fin 3 → Nat) a + S1x51x768.size a ≤ S2x3976x768.size a
  h_S1x51x768 : 0 < S1x51x768.numel
  shapeCasts_S1x51x768_S51x768 : S1x51x768.ShapeCasts S51x768
  shapeCasts_S51x768_S1x51x768 : S51x768.ShapeCasts S1x51x768
  inb_S256x768_S1x768_206_0 : ∀ a, (![206, 0] : Fin 2 → Nat) a + S1x768.size a ≤ S256x768.size a
  inb_S256x768_S50x768_206_0 : ∀ a, (![206, 0] : Fin 2 → Nat) a + S50x768.size a ≤ S256x768.size a
  h_S50x768 : 0 < S50x768.numel
  broadcasts_S1x768_S50x768 : S1x768.Broadcasts S50x768
  inb_S2x3976x768_S1x50x768_0_805_0 : ∀ a, (![0, 805, 0] : Fin 3 → Nat) a + S1x50x768.size a ≤ S2x3976x768.size a
  h_S1x50x768 : 0 < S1x50x768.numel
  shapeCasts_S1x50x768_S50x768 : S1x50x768.ShapeCasts S50x768
  shapeCasts_S50x768_S1x50x768 : S50x768.ShapeCasts S1x50x768
  inb_S256x768_S1x768_207_0 : ∀ a, (![207, 0] : Fin 2 → Nat) a + S1x768.size a ≤ S256x768.size a
  inb_S256x768_S49x768_207_0 : ∀ a, (![207, 0] : Fin 2 → Nat) a + S49x768.size a ≤ S256x768.size a
  h_S49x768 : 0 < S49x768.numel
  broadcasts_S1x768_S49x768 : S1x768.Broadcasts S49x768
  inb_S2x3976x768_S1x49x768_0_855_0 : ∀ a, (![0, 855, 0] : Fin 3 → Nat) a + S1x49x768.size a ≤ S2x3976x768.size a
  h_S1x49x768 : 0 < S1x49x768.numel
  shapeCasts_S1x49x768_S49x768 : S1x49x768.ShapeCasts S49x768
  shapeCasts_S49x768_S1x49x768 : S49x768.ShapeCasts S1x49x768
  squeezes_S1x904x768_S904x768 : S1x904x768.Squeezes S904x768
  inb_S2x3976x768_S1x904x768_0_0_0 : ∀ a, (![0, 0, 0] : Fin 3 → Nat) a + S1x904x768.size a ≤ S2x3976x768.size a
  inb_S256x768_S1x768_208_0 : ∀ a, (![208, 0] : Fin 2 → Nat) a + S1x768.size a ≤ S256x768.size a
  inb_S256x768_S48x768_208_0 : ∀ a, (![208, 0] : Fin 2 → Nat) a + S48x768.size a ≤ S256x768.size a
  h_S48x768 : 0 < S48x768.numel
  broadcasts_S1x768_S48x768 : S1x768.Broadcasts S48x768
  inb_S2x3976x768_S1x48x768_1_0_0 : ∀ a, (![1, 0, 0] : Fin 3 → Nat) a + S1x48x768.size a ≤ S2x3976x768.size a
  h_S1x48x768 : 0 < S1x48x768.numel
  shapeCasts_S1x48x768_S48x768 : S1x48x768.ShapeCasts S48x768
  shapeCasts_S48x768_S1x48x768 : S48x768.ShapeCasts S1x48x768
  inb_S256x768_S1x768_209_0 : ∀ a, (![209, 0] : Fin 2 → Nat) a + S1x768.size a ≤ S256x768.size a
  inb_S256x768_S47x768_209_0 : ∀ a, (![209, 0] : Fin 2 → Nat) a + S47x768.size a ≤ S256x768.size a
  h_S47x768 : 0 < S47x768.numel
  broadcasts_S1x768_S47x768 : S1x768.Broadcasts S47x768
  inb_S2x3976x768_S1x47x768_1_48_0 : ∀ a, (![1, 48, 0] : Fin 3 → Nat) a + S1x47x768.size a ≤ S2x3976x768.size a
  h_S1x47x768 : 0 < S1x47x768.numel
  shapeCasts_S1x47x768_S47x768 : S1x47x768.ShapeCasts S47x768
  shapeCasts_S47x768_S1x47x768 : S47x768.ShapeCasts S1x47x768
  inb_S256x768_S1x768_210_0 : ∀ a, (![210, 0] : Fin 2 → Nat) a + S1x768.size a ≤ S256x768.size a
  inb_S256x768_S46x768_210_0 : ∀ a, (![210, 0] : Fin 2 → Nat) a + S46x768.size a ≤ S256x768.size a
  h_S46x768 : 0 < S46x768.numel
  broadcasts_S1x768_S46x768 : S1x768.Broadcasts S46x768
  inb_S2x3976x768_S1x46x768_1_95_0 : ∀ a, (![1, 95, 0] : Fin 3 → Nat) a + S1x46x768.size a ≤ S2x3976x768.size a
  h_S1x46x768 : 0 < S1x46x768.numel
  shapeCasts_S1x46x768_S46x768 : S1x46x768.ShapeCasts S46x768
  shapeCasts_S46x768_S1x46x768 : S46x768.ShapeCasts S1x46x768
  inb_S256x768_S1x768_211_0 : ∀ a, (![211, 0] : Fin 2 → Nat) a + S1x768.size a ≤ S256x768.size a
  inb_S256x768_S45x768_211_0 : ∀ a, (![211, 0] : Fin 2 → Nat) a + S45x768.size a ≤ S256x768.size a
  h_S45x768 : 0 < S45x768.numel
  broadcasts_S1x768_S45x768 : S1x768.Broadcasts S45x768
  inb_S2x3976x768_S1x45x768_1_141_0 : ∀ a, (![1, 141, 0] : Fin 3 → Nat) a + S1x45x768.size a ≤ S2x3976x768.size a
  h_S1x45x768 : 0 < S1x45x768.numel
  shapeCasts_S1x45x768_S45x768 : S1x45x768.ShapeCasts S45x768
  shapeCasts_S45x768_S1x45x768 : S45x768.ShapeCasts S1x45x768
  inb_S256x768_S1x768_212_0 : ∀ a, (![212, 0] : Fin 2 → Nat) a + S1x768.size a ≤ S256x768.size a
  inb_S256x768_S44x768_212_0 : ∀ a, (![212, 0] : Fin 2 → Nat) a + S44x768.size a ≤ S256x768.size a
  h_S44x768 : 0 < S44x768.numel
  broadcasts_S1x768_S44x768 : S1x768.Broadcasts S44x768
  inb_S2x3976x768_S1x44x768_1_186_0 : ∀ a, (![1, 186, 0] : Fin 3 → Nat) a + S1x44x768.size a ≤ S2x3976x768.size a
  h_S1x44x768 : 0 < S1x44x768.numel
  shapeCasts_S1x44x768_S44x768 : S1x44x768.ShapeCasts S44x768
  shapeCasts_S44x768_S1x44x768 : S44x768.ShapeCasts S1x44x768
  inb_S256x768_S1x768_213_0 : ∀ a, (![213, 0] : Fin 2 → Nat) a + S1x768.size a ≤ S256x768.size a
  inb_S256x768_S43x768_213_0 : ∀ a, (![213, 0] : Fin 2 → Nat) a + S43x768.size a ≤ S256x768.size a
  h_S43x768 : 0 < S43x768.numel
  broadcasts_S1x768_S43x768 : S1x768.Broadcasts S43x768
  inb_S2x3976x768_S1x43x768_1_230_0 : ∀ a, (![1, 230, 0] : Fin 3 → Nat) a + S1x43x768.size a ≤ S2x3976x768.size a
  h_S1x43x768 : 0 < S1x43x768.numel
  shapeCasts_S1x43x768_S43x768 : S1x43x768.ShapeCasts S43x768
  shapeCasts_S43x768_S1x43x768 : S43x768.ShapeCasts S1x43x768
  inb_S256x768_S1x768_214_0 : ∀ a, (![214, 0] : Fin 2 → Nat) a + S1x768.size a ≤ S256x768.size a
  inb_S256x768_S42x768_214_0 : ∀ a, (![214, 0] : Fin 2 → Nat) a + S42x768.size a ≤ S256x768.size a
  h_S42x768 : 0 < S42x768.numel
  broadcasts_S1x768_S42x768 : S1x768.Broadcasts S42x768
  inb_S2x3976x768_S1x42x768_1_273_0 : ∀ a, (![1, 273, 0] : Fin 3 → Nat) a + S1x42x768.size a ≤ S2x3976x768.size a
  h_S1x42x768 : 0 < S1x42x768.numel
  shapeCasts_S1x42x768_S42x768 : S1x42x768.ShapeCasts S42x768
  shapeCasts_S42x768_S1x42x768 : S42x768.ShapeCasts S1x42x768
  inb_S256x768_S1x768_215_0 : ∀ a, (![215, 0] : Fin 2 → Nat) a + S1x768.size a ≤ S256x768.size a
  inb_S256x768_S41x768_215_0 : ∀ a, (![215, 0] : Fin 2 → Nat) a + S41x768.size a ≤ S256x768.size a
  h_S41x768 : 0 < S41x768.numel
  broadcasts_S1x768_S41x768 : S1x768.Broadcasts S41x768
  inb_S2x3976x768_S1x41x768_1_315_0 : ∀ a, (![1, 315, 0] : Fin 3 → Nat) a + S1x41x768.size a ≤ S2x3976x768.size a
  h_S1x41x768 : 0 < S1x41x768.numel
  shapeCasts_S1x41x768_S41x768 : S1x41x768.ShapeCasts S41x768
  shapeCasts_S41x768_S1x41x768 : S41x768.ShapeCasts S1x41x768
  inb_S256x768_S1x768_216_0 : ∀ a, (![216, 0] : Fin 2 → Nat) a + S1x768.size a ≤ S256x768.size a
  inb_S256x768_S40x768_216_0 : ∀ a, (![216, 0] : Fin 2 → Nat) a + S40x768.size a ≤ S256x768.size a
  h_S40x768 : 0 < S40x768.numel
  broadcasts_S1x768_S40x768 : S1x768.Broadcasts S40x768
  inb_S2x3976x768_S1x40x768_1_356_0 : ∀ a, (![1, 356, 0] : Fin 3 → Nat) a + S1x40x768.size a ≤ S2x3976x768.size a
  h_S1x40x768 : 0 < S1x40x768.numel
  shapeCasts_S1x40x768_S40x768 : S1x40x768.ShapeCasts S40x768
  shapeCasts_S40x768_S1x40x768 : S40x768.ShapeCasts S1x40x768
  inb_S256x768_S1x768_217_0 : ∀ a, (![217, 0] : Fin 2 → Nat) a + S1x768.size a ≤ S256x768.size a
  inb_S256x768_S39x768_217_0 : ∀ a, (![217, 0] : Fin 2 → Nat) a + S39x768.size a ≤ S256x768.size a
  h_S39x768 : 0 < S39x768.numel
  broadcasts_S1x768_S39x768 : S1x768.Broadcasts S39x768
  inb_S2x3976x768_S1x39x768_1_396_0 : ∀ a, (![1, 396, 0] : Fin 3 → Nat) a + S1x39x768.size a ≤ S2x3976x768.size a
  h_S1x39x768 : 0 < S1x39x768.numel
  shapeCasts_S1x39x768_S39x768 : S1x39x768.ShapeCasts S39x768
  shapeCasts_S39x768_S1x39x768 : S39x768.ShapeCasts S1x39x768
  inb_S256x768_S1x768_218_0 : ∀ a, (![218, 0] : Fin 2 → Nat) a + S1x768.size a ≤ S256x768.size a
  inb_S256x768_S38x768_218_0 : ∀ a, (![218, 0] : Fin 2 → Nat) a + S38x768.size a ≤ S256x768.size a
  h_S38x768 : 0 < S38x768.numel
  broadcasts_S1x768_S38x768 : S1x768.Broadcasts S38x768
  inb_S2x3976x768_S1x38x768_1_435_0 : ∀ a, (![1, 435, 0] : Fin 3 → Nat) a + S1x38x768.size a ≤ S2x3976x768.size a
  h_S1x38x768 : 0 < S1x38x768.numel
  shapeCasts_S1x38x768_S38x768 : S1x38x768.ShapeCasts S38x768
  shapeCasts_S38x768_S1x38x768 : S38x768.ShapeCasts S1x38x768
  inb_S256x768_S1x768_219_0 : ∀ a, (![219, 0] : Fin 2 → Nat) a + S1x768.size a ≤ S256x768.size a
  inb_S256x768_S37x768_219_0 : ∀ a, (![219, 0] : Fin 2 → Nat) a + S37x768.size a ≤ S256x768.size a
  h_S37x768 : 0 < S37x768.numel
  broadcasts_S1x768_S37x768 : S1x768.Broadcasts S37x768
  inb_S2x3976x768_S1x37x768_1_473_0 : ∀ a, (![1, 473, 0] : Fin 3 → Nat) a + S1x37x768.size a ≤ S2x3976x768.size a
  h_S1x37x768 : 0 < S1x37x768.numel
  shapeCasts_S1x37x768_S37x768 : S1x37x768.ShapeCasts S37x768
  shapeCasts_S37x768_S1x37x768 : S37x768.ShapeCasts S1x37x768
  inb_S256x768_S1x768_220_0 : ∀ a, (![220, 0] : Fin 2 → Nat) a + S1x768.size a ≤ S256x768.size a
  inb_S256x768_S36x768_220_0 : ∀ a, (![220, 0] : Fin 2 → Nat) a + S36x768.size a ≤ S256x768.size a
  h_S36x768 : 0 < S36x768.numel
  broadcasts_S1x768_S36x768 : S1x768.Broadcasts S36x768
  inb_S2x3976x768_S1x36x768_1_510_0 : ∀ a, (![1, 510, 0] : Fin 3 → Nat) a + S1x36x768.size a ≤ S2x3976x768.size a
  h_S1x36x768 : 0 < S1x36x768.numel
  shapeCasts_S1x36x768_S36x768 : S1x36x768.ShapeCasts S36x768
  shapeCasts_S36x768_S1x36x768 : S36x768.ShapeCasts S1x36x768
  inb_S256x768_S1x768_221_0 : ∀ a, (![221, 0] : Fin 2 → Nat) a + S1x768.size a ≤ S256x768.size a
  inb_S256x768_S35x768_221_0 : ∀ a, (![221, 0] : Fin 2 → Nat) a + S35x768.size a ≤ S256x768.size a
  h_S35x768 : 0 < S35x768.numel
  broadcasts_S1x768_S35x768 : S1x768.Broadcasts S35x768
  inb_S2x3976x768_S1x35x768_1_546_0 : ∀ a, (![1, 546, 0] : Fin 3 → Nat) a + S1x35x768.size a ≤ S2x3976x768.size a
  h_S1x35x768 : 0 < S1x35x768.numel
  shapeCasts_S1x35x768_S35x768 : S1x35x768.ShapeCasts S35x768
  shapeCasts_S35x768_S1x35x768 : S35x768.ShapeCasts S1x35x768
  inb_S256x768_S1x768_222_0 : ∀ a, (![222, 0] : Fin 2 → Nat) a + S1x768.size a ≤ S256x768.size a
  inb_S256x768_S34x768_222_0 : ∀ a, (![222, 0] : Fin 2 → Nat) a + S34x768.size a ≤ S256x768.size a
  h_S34x768 : 0 < S34x768.numel
  broadcasts_S1x768_S34x768 : S1x768.Broadcasts S34x768
  inb_S2x3976x768_S1x34x768_1_581_0 : ∀ a, (![1, 581, 0] : Fin 3 → Nat) a + S1x34x768.size a ≤ S2x3976x768.size a
  h_S1x34x768 : 0 < S1x34x768.numel
  shapeCasts_S1x34x768_S34x768 : S1x34x768.ShapeCasts S34x768
  shapeCasts_S34x768_S1x34x768 : S34x768.ShapeCasts S1x34x768
  inb_S256x768_S1x768_223_0 : ∀ a, (![223, 0] : Fin 2 → Nat) a + S1x768.size a ≤ S256x768.size a
  inb_S256x768_S33x768_223_0 : ∀ a, (![223, 0] : Fin 2 → Nat) a + S33x768.size a ≤ S256x768.size a
  h_S33x768 : 0 < S33x768.numel
  broadcasts_S1x768_S33x768 : S1x768.Broadcasts S33x768
  inb_S2x3976x768_S1x33x768_1_615_0 : ∀ a, (![1, 615, 0] : Fin 3 → Nat) a + S1x33x768.size a ≤ S2x3976x768.size a
  h_S1x33x768 : 0 < S1x33x768.numel
  shapeCasts_S1x33x768_S33x768 : S1x33x768.ShapeCasts S33x768
  shapeCasts_S33x768_S1x33x768 : S33x768.ShapeCasts S1x33x768
  squeezes_S1x648x768_S648x768 : S1x648x768.Squeezes S648x768
  inb_S2x3976x768_S1x648x768_1_0_0 : ∀ a, (![1, 0, 0] : Fin 3 → Nat) a + S1x648x768.size a ≤ S2x3976x768.size a
  inb_S256x768_S1x768_224_0 : ∀ a, (![224, 0] : Fin 2 → Nat) a + S1x768.size a ≤ S256x768.size a
  inb_S256x768_S32x768_224_0 : ∀ a, (![224, 0] : Fin 2 → Nat) a + S32x768.size a ≤ S256x768.size a
  h_S32x768 : 0 < S32x768.numel
  broadcasts_S1x768_S32x768 : S1x768.Broadcasts S32x768
  inb_S2x3976x768_S1x32x768_0_0_0 : ∀ a, (![0, 0, 0] : Fin 3 → Nat) a + S1x32x768.size a ≤ S2x3976x768.size a
  h_S1x32x768 : 0 < S1x32x768.numel
  shapeCasts_S1x32x768_S32x768 : S1x32x768.ShapeCasts S32x768
  shapeCasts_S32x768_S1x32x768 : S32x768.ShapeCasts S1x32x768
  inb_S256x768_S1x768_225_0 : ∀ a, (![225, 0] : Fin 2 → Nat) a + S1x768.size a ≤ S256x768.size a
  inb_S256x768_S31x768_225_0 : ∀ a, (![225, 0] : Fin 2 → Nat) a + S31x768.size a ≤ S256x768.size a
  h_S31x768 : 0 < S31x768.numel
  broadcasts_S1x768_S31x768 : S1x768.Broadcasts S31x768
  inb_S2x3976x768_S1x31x768_0_32_0 : ∀ a, (![0, 32, 0] : Fin 3 → Nat) a + S1x31x768.size a ≤ S2x3976x768.size a
  h_S1x31x768 : 0 < S1x31x768.numel
  shapeCasts_S1x31x768_S31x768 : S1x31x768.ShapeCasts S31x768
  shapeCasts_S31x768_S1x31x768 : S31x768.ShapeCasts S1x31x768
  inb_S256x768_S1x768_226_0 : ∀ a, (![226, 0] : Fin 2 → Nat) a + S1x768.size a ≤ S256x768.size a
  inb_S256x768_S30x768_226_0 : ∀ a, (![226, 0] : Fin 2 → Nat) a + S30x768.size a ≤ S256x768.size a
  h_S30x768 : 0 < S30x768.numel
  broadcasts_S1x768_S30x768 : S1x768.Broadcasts S30x768
  inb_S2x3976x768_S1x30x768_0_63_0 : ∀ a, (![0, 63, 0] : Fin 3 → Nat) a + S1x30x768.size a ≤ S2x3976x768.size a
  h_S1x30x768 : 0 < S1x30x768.numel
  shapeCasts_S1x30x768_S30x768 : S1x30x768.ShapeCasts S30x768
  shapeCasts_S30x768_S1x30x768 : S30x768.ShapeCasts S1x30x768
  inb_S256x768_S1x768_227_0 : ∀ a, (![227, 0] : Fin 2 → Nat) a + S1x768.size a ≤ S256x768.size a
  inb_S256x768_S29x768_227_0 : ∀ a, (![227, 0] : Fin 2 → Nat) a + S29x768.size a ≤ S256x768.size a
  h_S29x768 : 0 < S29x768.numel
  broadcasts_S1x768_S29x768 : S1x768.Broadcasts S29x768
  inb_S2x3976x768_S1x29x768_0_93_0 : ∀ a, (![0, 93, 0] : Fin 3 → Nat) a + S1x29x768.size a ≤ S2x3976x768.size a
  h_S1x29x768 : 0 < S1x29x768.numel
  shapeCasts_S1x29x768_S29x768 : S1x29x768.ShapeCasts S29x768
  shapeCasts_S29x768_S1x29x768 : S29x768.ShapeCasts S1x29x768
  inb_S256x768_S1x768_228_0 : ∀ a, (![228, 0] : Fin 2 → Nat) a + S1x768.size a ≤ S256x768.size a
  inb_S256x768_S28x768_228_0 : ∀ a, (![228, 0] : Fin 2 → Nat) a + S28x768.size a ≤ S256x768.size a
  h_S28x768 : 0 < S28x768.numel
  broadcasts_S1x768_S28x768 : S1x768.Broadcasts S28x768
  inb_S2x3976x768_S1x28x768_0_122_0 : ∀ a, (![0, 122, 0] : Fin 3 → Nat) a + S1x28x768.size a ≤ S2x3976x768.size a
  h_S1x28x768 : 0 < S1x28x768.numel
  shapeCasts_S1x28x768_S28x768 : S1x28x768.ShapeCasts S28x768
  shapeCasts_S28x768_S1x28x768 : S28x768.ShapeCasts S1x28x768
  inb_S256x768_S1x768_229_0 : ∀ a, (![229, 0] : Fin 2 → Nat) a + S1x768.size a ≤ S256x768.size a
  inb_S256x768_S27x768_229_0 : ∀ a, (![229, 0] : Fin 2 → Nat) a + S27x768.size a ≤ S256x768.size a
  h_S27x768 : 0 < S27x768.numel
  broadcasts_S1x768_S27x768 : S1x768.Broadcasts S27x768
  inb_S2x3976x768_S1x27x768_0_150_0 : ∀ a, (![0, 150, 0] : Fin 3 → Nat) a + S1x27x768.size a ≤ S2x3976x768.size a
  h_S1x27x768 : 0 < S1x27x768.numel
  shapeCasts_S1x27x768_S27x768 : S1x27x768.ShapeCasts S27x768
  shapeCasts_S27x768_S1x27x768 : S27x768.ShapeCasts S1x27x768
  inb_S256x768_S1x768_230_0 : ∀ a, (![230, 0] : Fin 2 → Nat) a + S1x768.size a ≤ S256x768.size a
  inb_S256x768_S26x768_230_0 : ∀ a, (![230, 0] : Fin 2 → Nat) a + S26x768.size a ≤ S256x768.size a
  h_S26x768 : 0 < S26x768.numel
  broadcasts_S1x768_S26x768 : S1x768.Broadcasts S26x768
  inb_S2x3976x768_S1x26x768_0_177_0 : ∀ a, (![0, 177, 0] : Fin 3 → Nat) a + S1x26x768.size a ≤ S2x3976x768.size a
  h_S1x26x768 : 0 < S1x26x768.numel
  shapeCasts_S1x26x768_S26x768 : S1x26x768.ShapeCasts S26x768
  shapeCasts_S26x768_S1x26x768 : S26x768.ShapeCasts S1x26x768
  inb_S256x768_S1x768_231_0 : ∀ a, (![231, 0] : Fin 2 → Nat) a + S1x768.size a ≤ S256x768.size a
  inb_S256x768_S25x768_231_0 : ∀ a, (![231, 0] : Fin 2 → Nat) a + S25x768.size a ≤ S256x768.size a
  h_S25x768 : 0 < S25x768.numel
  broadcasts_S1x768_S25x768 : S1x768.Broadcasts S25x768
  inb_S2x3976x768_S1x25x768_0_203_0 : ∀ a, (![0, 203, 0] : Fin 3 → Nat) a + S1x25x768.size a ≤ S2x3976x768.size a
  h_S1x25x768 : 0 < S1x25x768.numel
  shapeCasts_S1x25x768_S25x768 : S1x25x768.ShapeCasts S25x768
  shapeCasts_S25x768_S1x25x768 : S25x768.ShapeCasts S1x25x768
  inb_S256x768_S1x768_232_0 : ∀ a, (![232, 0] : Fin 2 → Nat) a + S1x768.size a ≤ S256x768.size a
  inb_S256x768_S24x768_232_0 : ∀ a, (![232, 0] : Fin 2 → Nat) a + S24x768.size a ≤ S256x768.size a
  h_S24x768 : 0 < S24x768.numel
  broadcasts_S1x768_S24x768 : S1x768.Broadcasts S24x768
  inb_S2x3976x768_S1x24x768_0_228_0 : ∀ a, (![0, 228, 0] : Fin 3 → Nat) a + S1x24x768.size a ≤ S2x3976x768.size a
  h_S1x24x768 : 0 < S1x24x768.numel
  shapeCasts_S1x24x768_S24x768 : S1x24x768.ShapeCasts S24x768
  shapeCasts_S24x768_S1x24x768 : S24x768.ShapeCasts S1x24x768
  inb_S256x768_S1x768_233_0 : ∀ a, (![233, 0] : Fin 2 → Nat) a + S1x768.size a ≤ S256x768.size a
  inb_S256x768_S23x768_233_0 : ∀ a, (![233, 0] : Fin 2 → Nat) a + S23x768.size a ≤ S256x768.size a
  h_S23x768 : 0 < S23x768.numel
  broadcasts_S1x768_S23x768 : S1x768.Broadcasts S23x768
  inb_S2x3976x768_S1x23x768_0_252_0 : ∀ a, (![0, 252, 0] : Fin 3 → Nat) a + S1x23x768.size a ≤ S2x3976x768.size a
  h_S1x23x768 : 0 < S1x23x768.numel
  shapeCasts_S1x23x768_S23x768 : S1x23x768.ShapeCasts S23x768
  shapeCasts_S23x768_S1x23x768 : S23x768.ShapeCasts S1x23x768
  inb_S256x768_S1x768_234_0 : ∀ a, (![234, 0] : Fin 2 → Nat) a + S1x768.size a ≤ S256x768.size a
  inb_S256x768_S22x768_234_0 : ∀ a, (![234, 0] : Fin 2 → Nat) a + S22x768.size a ≤ S256x768.size a
  h_S22x768 : 0 < S22x768.numel
  broadcasts_S1x768_S22x768 : S1x768.Broadcasts S22x768
  inb_S2x3976x768_S1x22x768_0_275_0 : ∀ a, (![0, 275, 0] : Fin 3 → Nat) a + S1x22x768.size a ≤ S2x3976x768.size a
  h_S1x22x768 : 0 < S1x22x768.numel
  shapeCasts_S1x22x768_S22x768 : S1x22x768.ShapeCasts S22x768
  shapeCasts_S22x768_S1x22x768 : S22x768.ShapeCasts S1x22x768
  inb_S256x768_S1x768_235_0 : ∀ a, (![235, 0] : Fin 2 → Nat) a + S1x768.size a ≤ S256x768.size a
  inb_S256x768_S21x768_235_0 : ∀ a, (![235, 0] : Fin 2 → Nat) a + S21x768.size a ≤ S256x768.size a
  h_S21x768 : 0 < S21x768.numel
  broadcasts_S1x768_S21x768 : S1x768.Broadcasts S21x768
  inb_S2x3976x768_S1x21x768_0_297_0 : ∀ a, (![0, 297, 0] : Fin 3 → Nat) a + S1x21x768.size a ≤ S2x3976x768.size a
  h_S1x21x768 : 0 < S1x21x768.numel
  shapeCasts_S1x21x768_S21x768 : S1x21x768.ShapeCasts S21x768
  shapeCasts_S21x768_S1x21x768 : S21x768.ShapeCasts S1x21x768
  inb_S256x768_S1x768_236_0 : ∀ a, (![236, 0] : Fin 2 → Nat) a + S1x768.size a ≤ S256x768.size a
  inb_S256x768_S20x768_236_0 : ∀ a, (![236, 0] : Fin 2 → Nat) a + S20x768.size a ≤ S256x768.size a
  h_S20x768 : 0 < S20x768.numel
  broadcasts_S1x768_S20x768 : S1x768.Broadcasts S20x768
  inb_S2x3976x768_S1x20x768_0_318_0 : ∀ a, (![0, 318, 0] : Fin 3 → Nat) a + S1x20x768.size a ≤ S2x3976x768.size a
  h_S1x20x768 : 0 < S1x20x768.numel
  shapeCasts_S1x20x768_S20x768 : S1x20x768.ShapeCasts S20x768
  shapeCasts_S20x768_S1x20x768 : S20x768.ShapeCasts S1x20x768
  inb_S256x768_S1x768_237_0 : ∀ a, (![237, 0] : Fin 2 → Nat) a + S1x768.size a ≤ S256x768.size a
  inb_S256x768_S19x768_237_0 : ∀ a, (![237, 0] : Fin 2 → Nat) a + S19x768.size a ≤ S256x768.size a
  h_S19x768 : 0 < S19x768.numel
  broadcasts_S1x768_S19x768 : S1x768.Broadcasts S19x768
  inb_S2x3976x768_S1x19x768_0_338_0 : ∀ a, (![0, 338, 0] : Fin 3 → Nat) a + S1x19x768.size a ≤ S2x3976x768.size a
  h_S1x19x768 : 0 < S1x19x768.numel
  shapeCasts_S1x19x768_S19x768 : S1x19x768.ShapeCasts S19x768
  shapeCasts_S19x768_S1x19x768 : S19x768.ShapeCasts S1x19x768
  inb_S256x768_S1x768_238_0 : ∀ a, (![238, 0] : Fin 2 → Nat) a + S1x768.size a ≤ S256x768.size a
  inb_S256x768_S18x768_238_0 : ∀ a, (![238, 0] : Fin 2 → Nat) a + S18x768.size a ≤ S256x768.size a
  h_S18x768 : 0 < S18x768.numel
  broadcasts_S1x768_S18x768 : S1x768.Broadcasts S18x768
  inb_S2x3976x768_S1x18x768_0_357_0 : ∀ a, (![0, 357, 0] : Fin 3 → Nat) a + S1x18x768.size a ≤ S2x3976x768.size a
  h_S1x18x768 : 0 < S1x18x768.numel
  shapeCasts_S1x18x768_S18x768 : S1x18x768.ShapeCasts S18x768
  shapeCasts_S18x768_S1x18x768 : S18x768.ShapeCasts S1x18x768
  inb_S256x768_S1x768_239_0 : ∀ a, (![239, 0] : Fin 2 → Nat) a + S1x768.size a ≤ S256x768.size a
  inb_S256x768_S17x768_239_0 : ∀ a, (![239, 0] : Fin 2 → Nat) a + S17x768.size a ≤ S256x768.size a
  h_S17x768 : 0 < S17x768.numel
  broadcasts_S1x768_S17x768 : S1x768.Broadcasts S17x768
  inb_S2x3976x768_S1x17x768_0_375_0 : ∀ a, (![0, 375, 0] : Fin 3 → Nat) a + S1x17x768.size a ≤ S2x3976x768.size a
  h_S1x17x768 : 0 < S1x17x768.numel
  shapeCasts_S1x17x768_S17x768 : S1x17x768.ShapeCasts S17x768
  shapeCasts_S17x768_S1x17x768 : S17x768.ShapeCasts S1x17x768
  squeezes_S1x392x768_S392x768 : S1x392x768.Squeezes S392x768
  inb_S2x3976x768_S1x392x768_0_0_0 : ∀ a, (![0, 0, 0] : Fin 3 → Nat) a + S1x392x768.size a ≤ S2x3976x768.size a
  inb_S256x768_S1x768_240_0 : ∀ a, (![240, 0] : Fin 2 → Nat) a + S1x768.size a ≤ S256x768.size a
  inb_S256x768_S16x768_240_0 : ∀ a, (![240, 0] : Fin 2 → Nat) a + S16x768.size a ≤ S256x768.size a
  h_S16x768 : 0 < S16x768.numel
  broadcasts_S1x768_S16x768 : S1x768.Broadcasts S16x768
  inb_S2x3976x768_S1x16x768_1_0_0 : ∀ a, (![1, 0, 0] : Fin 3 → Nat) a + S1x16x768.size a ≤ S2x3976x768.size a
  h_S1x16x768 : 0 < S1x16x768.numel
  shapeCasts_S1x16x768_S16x768 : S1x16x768.ShapeCasts S16x768
  shapeCasts_S16x768_S1x16x768 : S16x768.ShapeCasts S1x16x768
  inb_S256x768_S1x768_241_0 : ∀ a, (![241, 0] : Fin 2 → Nat) a + S1x768.size a ≤ S256x768.size a
  inb_S256x768_S15x768_241_0 : ∀ a, (![241, 0] : Fin 2 → Nat) a + S15x768.size a ≤ S256x768.size a
  h_S15x768 : 0 < S15x768.numel
  broadcasts_S1x768_S15x768 : S1x768.Broadcasts S15x768
  inb_S2x3976x768_S1x15x768_1_16_0 : ∀ a, (![1, 16, 0] : Fin 3 → Nat) a + S1x15x768.size a ≤ S2x3976x768.size a
  h_S1x15x768 : 0 < S1x15x768.numel
  shapeCasts_S1x15x768_S15x768 : S1x15x768.ShapeCasts S15x768
  shapeCasts_S15x768_S1x15x768 : S15x768.ShapeCasts S1x15x768
  inb_S256x768_S1x768_242_0 : ∀ a, (![242, 0] : Fin 2 → Nat) a + S1x768.size a ≤ S256x768.size a
  inb_S256x768_S14x768_242_0 : ∀ a, (![242, 0] : Fin 2 → Nat) a + S14x768.size a ≤ S256x768.size a
  h_S14x768 : 0 < S14x768.numel
  broadcasts_S1x768_S14x768 : S1x768.Broadcasts S14x768
  inb_S2x3976x768_S1x14x768_1_31_0 : ∀ a, (![1, 31, 0] : Fin 3 → Nat) a + S1x14x768.size a ≤ S2x3976x768.size a
  h_S1x14x768 : 0 < S1x14x768.numel
  shapeCasts_S1x14x768_S14x768 : S1x14x768.ShapeCasts S14x768
  shapeCasts_S14x768_S1x14x768 : S14x768.ShapeCasts S1x14x768
  inb_S256x768_S1x768_243_0 : ∀ a, (![243, 0] : Fin 2 → Nat) a + S1x768.size a ≤ S256x768.size a
  inb_S256x768_S13x768_243_0 : ∀ a, (![243, 0] : Fin 2 → Nat) a + S13x768.size a ≤ S256x768.size a
  h_S13x768 : 0 < S13x768.numel
  broadcasts_S1x768_S13x768 : S1x768.Broadcasts S13x768
  inb_S2x3976x768_S1x13x768_1_45_0 : ∀ a, (![1, 45, 0] : Fin 3 → Nat) a + S1x13x768.size a ≤ S2x3976x768.size a
  h_S1x13x768 : 0 < S1x13x768.numel
  shapeCasts_S1x13x768_S13x768 : S1x13x768.ShapeCasts S13x768
  shapeCasts_S13x768_S1x13x768 : S13x768.ShapeCasts S1x13x768
  inb_S256x768_S1x768_244_0 : ∀ a, (![244, 0] : Fin 2 → Nat) a + S1x768.size a ≤ S256x768.size a
  inb_S256x768_S12x768_244_0 : ∀ a, (![244, 0] : Fin 2 → Nat) a + S12x768.size a ≤ S256x768.size a
  h_S12x768 : 0 < S12x768.numel
  broadcasts_S1x768_S12x768 : S1x768.Broadcasts S12x768

class Shapes3.Facts₀ : Prop where
  inb_S2x3976x768_S1x12x768_1_58_0 : ∀ a, (![1, 58, 0] : Fin 3 → Nat) a + S1x12x768.size a ≤ S2x3976x768.size a
  h_S1x12x768 : 0 < S1x12x768.numel
  shapeCasts_S1x12x768_S12x768 : S1x12x768.ShapeCasts S12x768
  shapeCasts_S12x768_S1x12x768 : S12x768.ShapeCasts S1x12x768
  inb_S256x768_S1x768_245_0 : ∀ a, (![245, 0] : Fin 2 → Nat) a + S1x768.size a ≤ S256x768.size a
  inb_S256x768_S11x768_245_0 : ∀ a, (![245, 0] : Fin 2 → Nat) a + S11x768.size a ≤ S256x768.size a
  h_S11x768 : 0 < S11x768.numel
  broadcasts_S1x768_S11x768 : S1x768.Broadcasts S11x768
  inb_S2x3976x768_S1x11x768_1_70_0 : ∀ a, (![1, 70, 0] : Fin 3 → Nat) a + S1x11x768.size a ≤ S2x3976x768.size a
  h_S1x11x768 : 0 < S1x11x768.numel
  shapeCasts_S1x11x768_S11x768 : S1x11x768.ShapeCasts S11x768
  shapeCasts_S11x768_S1x11x768 : S11x768.ShapeCasts S1x11x768
  inb_S256x768_S1x768_246_0 : ∀ a, (![246, 0] : Fin 2 → Nat) a + S1x768.size a ≤ S256x768.size a
  inb_S256x768_S10x768_246_0 : ∀ a, (![246, 0] : Fin 2 → Nat) a + S10x768.size a ≤ S256x768.size a
  h_S10x768 : 0 < S10x768.numel
  broadcasts_S1x768_S10x768 : S1x768.Broadcasts S10x768
  inb_S2x3976x768_S1x10x768_1_81_0 : ∀ a, (![1, 81, 0] : Fin 3 → Nat) a + S1x10x768.size a ≤ S2x3976x768.size a
  h_S1x10x768 : 0 < S1x10x768.numel
  shapeCasts_S1x10x768_S10x768 : S1x10x768.ShapeCasts S10x768
  shapeCasts_S10x768_S1x10x768 : S10x768.ShapeCasts S1x10x768
  inb_S256x768_S1x768_247_0 : ∀ a, (![247, 0] : Fin 2 → Nat) a + S1x768.size a ≤ S256x768.size a
  inb_S256x768_S9x768_247_0 : ∀ a, (![247, 0] : Fin 2 → Nat) a + S9x768.size a ≤ S256x768.size a
  h_S9x768 : 0 < S9x768.numel
  broadcasts_S1x768_S9x768 : S1x768.Broadcasts S9x768
  inb_S2x3976x768_S1x9x768_1_91_0 : ∀ a, (![1, 91, 0] : Fin 3 → Nat) a + S1x9x768.size a ≤ S2x3976x768.size a
  h_S1x9x768 : 0 < S1x9x768.numel
  shapeCasts_S1x9x768_S9x768 : S1x9x768.ShapeCasts S9x768
  shapeCasts_S9x768_S1x9x768 : S9x768.ShapeCasts S1x9x768
  inb_S256x768_S1x768_248_0 : ∀ a, (![248, 0] : Fin 2 → Nat) a + S1x768.size a ≤ S256x768.size a
  inb_S256x768_S8x768_248_0 : ∀ a, (![248, 0] : Fin 2 → Nat) a + S8x768.size a ≤ S256x768.size a
  h_S8x768 : 0 < S8x768.numel
  broadcasts_S1x768_S8x768 : S1x768.Broadcasts S8x768
  inb_S2x3976x768_S1x8x768_1_100_0 : ∀ a, (![1, 100, 0] : Fin 3 → Nat) a + S1x8x768.size a ≤ S2x3976x768.size a
  h_S1x8x768 : 0 < S1x8x768.numel
  shapeCasts_S1x8x768_S8x768 : S1x8x768.ShapeCasts S8x768
  shapeCasts_S8x768_S1x8x768 : S8x768.ShapeCasts S1x8x768
  inb_S256x768_S1x768_249_0 : ∀ a, (![249, 0] : Fin 2 → Nat) a + S1x768.size a ≤ S256x768.size a
  inb_S256x768_S7x768_249_0 : ∀ a, (![249, 0] : Fin 2 → Nat) a + S7x768.size a ≤ S256x768.size a
  h_S7x768 : 0 < S7x768.numel
  broadcasts_S1x768_S7x768 : S1x768.Broadcasts S7x768
  inb_S2x3976x768_S1x7x768_1_108_0 : ∀ a, (![1, 108, 0] : Fin 3 → Nat) a + S1x7x768.size a ≤ S2x3976x768.size a
  h_S1x7x768 : 0 < S1x7x768.numel
  shapeCasts_S1x7x768_S7x768 : S1x7x768.ShapeCasts S7x768
  shapeCasts_S7x768_S1x7x768 : S7x768.ShapeCasts S1x7x768
  inb_S256x768_S1x768_250_0 : ∀ a, (![250, 0] : Fin 2 → Nat) a + S1x768.size a ≤ S256x768.size a
  inb_S256x768_S6x768_250_0 : ∀ a, (![250, 0] : Fin 2 → Nat) a + S6x768.size a ≤ S256x768.size a
  h_S6x768 : 0 < S6x768.numel
  broadcasts_S1x768_S6x768 : S1x768.Broadcasts S6x768
  inb_S2x3976x768_S1x6x768_1_115_0 : ∀ a, (![1, 115, 0] : Fin 3 → Nat) a + S1x6x768.size a ≤ S2x3976x768.size a
  h_S1x6x768 : 0 < S1x6x768.numel
  shapeCasts_S1x6x768_S6x768 : S1x6x768.ShapeCasts S6x768
  shapeCasts_S6x768_S1x6x768 : S6x768.ShapeCasts S1x6x768
  inb_S256x768_S1x768_251_0 : ∀ a, (![251, 0] : Fin 2 → Nat) a + S1x768.size a ≤ S256x768.size a
  inb_S256x768_S5x768_251_0 : ∀ a, (![251, 0] : Fin 2 → Nat) a + S5x768.size a ≤ S256x768.size a
  h_S5x768 : 0 < S5x768.numel
  broadcasts_S1x768_S5x768 : S1x768.Broadcasts S5x768
  inb_S2x3976x768_S1x5x768_1_121_0 : ∀ a, (![1, 121, 0] : Fin 3 → Nat) a + S1x5x768.size a ≤ S2x3976x768.size a
  h_S1x5x768 : 0 < S1x5x768.numel
  shapeCasts_S1x5x768_S5x768 : S1x5x768.ShapeCasts S5x768
  shapeCasts_S5x768_S1x5x768 : S5x768.ShapeCasts S1x5x768
  inb_S256x768_S1x768_252_0 : ∀ a, (![252, 0] : Fin 2 → Nat) a + S1x768.size a ≤ S256x768.size a
  inb_S256x768_S4x768_252_0 : ∀ a, (![252, 0] : Fin 2 → Nat) a + S4x768.size a ≤ S256x768.size a
  h_S4x768 : 0 < S4x768.numel
  broadcasts_S1x768_S4x768 : S1x768.Broadcasts S4x768
  inb_S2x3976x768_S1x4x768_1_126_0 : ∀ a, (![1, 126, 0] : Fin 3 → Nat) a + S1x4x768.size a ≤ S2x3976x768.size a
  h_S1x4x768 : 0 < S1x4x768.numel
  shapeCasts_S1x4x768_S4x768 : S1x4x768.ShapeCasts S4x768
  shapeCasts_S4x768_S1x4x768 : S4x768.ShapeCasts S1x4x768
  inb_S256x768_S1x768_253_0 : ∀ a, (![253, 0] : Fin 2 → Nat) a + S1x768.size a ≤ S256x768.size a
  inb_S256x768_S3x768_253_0 : ∀ a, (![253, 0] : Fin 2 → Nat) a + S3x768.size a ≤ S256x768.size a
  h_S3x768 : 0 < S3x768.numel
  broadcasts_S1x768_S3x768 : S1x768.Broadcasts S3x768
  inb_S2x3976x768_S1x3x768_1_130_0 : ∀ a, (![1, 130, 0] : Fin 3 → Nat) a + S1x3x768.size a ≤ S2x3976x768.size a
  h_S1x3x768 : 0 < S1x3x768.numel
  shapeCasts_S1x3x768_S3x768 : S1x3x768.ShapeCasts S3x768
  shapeCasts_S3x768_S1x3x768 : S3x768.ShapeCasts S1x3x768
  inb_S256x768_S1x768_254_0 : ∀ a, (![254, 0] : Fin 2 → Nat) a + S1x768.size a ≤ S256x768.size a
  inb_S256x768_S2x768_254_0 : ∀ a, (![254, 0] : Fin 2 → Nat) a + S2x768.size a ≤ S256x768.size a
  h_S2x768 : 0 < S2x768.numel
  broadcasts_S1x768_S2x768 : S1x768.Broadcasts S2x768
  inb_S2x3976x768_S1x2x768_1_133_0 : ∀ a, (![1, 133, 0] : Fin 3 → Nat) a + S1x2x768.size a ≤ S2x3976x768.size a
  h_S1x2x768 : 0 < S1x2x768.numel
  shapeCasts_S1x2x768_S2x768 : S1x2x768.ShapeCasts S2x768
  shapeCasts_S2x768_S1x2x768 : S2x768.ShapeCasts S1x2x768
  inb_S256x768_S1x768_255_0 : ∀ a, (![255, 0] : Fin 2 → Nat) a + S1x768.size a ≤ S256x768.size a
  inb_S2x3976x768_S1x1x768_1_135_0 : ∀ a, (![1, 135, 0] : Fin 3 → Nat) a + S1x1x768.size a ≤ S2x3976x768.size a
  h_S1x1x768 : 0 < S1x1x768.numel
  shapeCasts_S1x1x768_S1x768 : S1x1x768.ShapeCasts S1x768
  shapeCasts_S1x768_S1x1x768 : S1x768.ShapeCasts S1x1x768
  squeezes_S1x136x768_S136x768 : S1x136x768.Squeezes S136x768
  inb_S2x3976x768_S1x136x768_1_0_0 : ∀ a, (![1, 0, 0] : Fin 3 → Nat) a + S1x136x768.size a ≤ S2x3976x768.size a
  dot_S256x768_S768x768_S256x768_1_1_0_0_n_n_wf : DotDims.WF S256x768 S768x768 S256x768 [1] [1] [0] [0] [] []
  hcc0_scratch3 : 4 + S2.numel ≤ 6

class Facts₀ : Prop where
  k0 : K0.Facts₀
  shapes1 : Shapes1.Facts₀
  shapes2 : Shapes2.Facts₀
  shapes3 : Shapes3.Facts₀
attribute [instance] Facts₀.k0 Facts₀.shapes1 Facts₀.shapes2 Facts₀.shapes3

variable [Facts₀]

abbrev cc0_scratch3 : DmaSems sig S2 := SemArray.consecutive 4 S2 hcc0_scratch3
def dot_S256x768_S768x768_S256x768_1_1_0_0_n_n : DotDims S256x768 S768x768 S256x768 where
  lhsContracting := [1]
  rhsContracting := [1]
  lhsNonContracting := [0]
  rhsNonContracting := [0]
  lhsBatch := []
  rhsBatch := []
  wf := dot_S256x768_S768x768_S256x768_1_1_0_0_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x256x768 : Shape := ⟨3, ![4, 256, 768]⟩
abbrev S768x1536 : Shape := ⟨2, ![768, 1536]⟩
abbrev S768 : Shape := ⟨1, ![768]⟩
abbrev S768x768 : Shape := ⟨2, ![768, 768]⟩
abbrev S_ : Shape := ⟨0, ![]⟩
abbrev S256x256 : Shape := ⟨2, ![256, 256]⟩
abbrev S65536 : Shape := ⟨1, ![65536]⟩
abbrev S32896 : Shape := ⟨1, ![32896]⟩
abbrev S65536x1 : Shape := ⟨2, ![65536, 1]⟩
abbrev S32896x1 : Shape := ⟨2, ![32896, 1]⟩
abbrev S4x32896x768 : Shape := ⟨3, ![4, 32896, 768]⟩
abbrev S1x1x768 : Shape := ⟨3, ![1, 1, 768]⟩

abbrev nBuf : Space → Nat
  | .hbm => 147
  | .vmem => 0
  | .smem => 0
  | _ => 0

abbrev hbmTy0_0 (i : Nat) : BufTy := match i % 128 with
  | 0 => ⟨S4x256x768, .f32⟩
  | 1 => ⟨S768x1536, .f32⟩
  | 2 => ⟨S768, .f32⟩
  | 3 => ⟨S768x768, .f32⟩
  | 4 => ⟨S768x768, .f32⟩
  | 5 => ⟨S4x256x768, .f32⟩
  | 6 => ⟨S4x256x768, .f32⟩
  | 7 => ⟨S_, .f32⟩
  | 8 => ⟨S256x256, .f32⟩
  | 9 => ⟨S256x256, .i32⟩
  | 10 => ⟨S_, .i32⟩
  | 11 => ⟨S256x256, .i32⟩
  | 12 => ⟨S256x256, .i32⟩
  | 13 => ⟨S256x256, .i32⟩
  | 14 => ⟨S256x256, .i1⟩
  | 15 => ⟨S_, .f32⟩
  | 16 => ⟨S256x256, .f32⟩
  | 17 => ⟨S256x256, .f32⟩
  | 18 => ⟨S_, .f32⟩
  | 19 => ⟨S256x256, .f32⟩
  | 20 => ⟨S256x256, .i1⟩
  | 21 => ⟨S65536, .i1⟩
  | 22 => ⟨S65536, .i32⟩
  | 23 => ⟨S_, .i32⟩
  | 24 => ⟨S_, .i32⟩
  | 25 => ⟨S65536, .i32⟩
  | 26 => ⟨S_, .i32⟩
  | 27 => ⟨S32896, .i32⟩
  | 28 => ⟨S_, .i32⟩
  | 29 => ⟨S_, .i32⟩
  | 30 => ⟨S65536, .i32⟩
  | 31 => ⟨S65536, .i32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S_, .i32⟩
  | 41 => ⟨S65536, .i32⟩
  | 42 => ⟨S32896, .i32⟩
  | 43 => ⟨S_, .i32⟩
  | 44 => ⟨S_, .i32⟩
  | 45 => ⟨S32896, .i32⟩
  | 46 => ⟨S_, .i32⟩
  | 47 => ⟨S32896, .i32⟩
  | 48 => ⟨S32896, .i32⟩
  | 49 => ⟨S32896, .i32⟩
  | 50 => ⟨S_, .i32⟩
  | 51 => ⟨S32896, .i32⟩
  | 52 => ⟨S32896, .i1⟩
  | 53 => ⟨S32896, .i32⟩
  | 54 => ⟨S32896, .i32⟩
  | 55 => ⟨S_, .i32⟩
  | 56 => ⟨S32896, .i32⟩
  | 57 => ⟨S32896, .i1⟩
  | 58 => ⟨S32896, .i1⟩
  | 59 => ⟨S_, .i32⟩
  | 60 => ⟨S32896, .i32⟩
  | 61 => ⟨S32896, .i32⟩
  | 62 => ⟨S32896, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S32896, .i32⟩
  | 70 => ⟨S32896, .i32⟩
  | 71 => ⟨S_, .i32⟩
  | 72 => ⟨S32896, .i32⟩
  | 73 => ⟨S32896, .i1⟩
  | 74 => ⟨S_, .i32⟩
  | 75 => ⟨S32896, .i32⟩
  | 76 => ⟨S32896, .i1⟩
  | 77 => ⟨S_, .i32⟩
  | 78 => ⟨S_, .i1⟩
  | 79 => ⟨S32896, .i1⟩
  | 80 => ⟨S32896, .i1⟩
  | 81 => ⟨S32896, .i1⟩
  | 82 => ⟨S32896, .i32⟩
  | 83 => ⟨S32896, .i32⟩
  | 84 => ⟨S32896, .i32⟩
  | 85 => ⟨S_, .i32⟩
  | 86 => ⟨S32896, .i32⟩
  | 87 => ⟨S32896, .i32⟩
  | 88 => ⟨S32896, .i32⟩
  | 89 => ⟨S_, .i32⟩
  | 90 => ⟨S32896, .i32⟩
  | 91 => ⟨S32896, .i1⟩
  | 92 => ⟨S32896, .i32⟩
  | 93 => ⟨S32896, .i32⟩
  | 94 => ⟨S_, .i32⟩
  | 95 => ⟨S32896, .i32⟩
  | 96 => ⟨S32896, .i1⟩
  | 97 => ⟨S32896, .i1⟩
  | 98 => ⟨S_, .i32⟩
  | 99 => ⟨S32896, .i32⟩
  | 100 => ⟨S32896, .i32⟩
  | 101 => ⟨S32896, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S32896, .i32⟩
  | 109 => ⟨S32896, .i32⟩
  | 110 => ⟨S_, .i32⟩
  | 111 => ⟨S32896, .i32⟩
  | 112 => ⟨S32896, .i1⟩
  | 113 => ⟨S_, .i32⟩
  | 114 => ⟨S32896, .i32⟩
  | 115 => ⟨S32896, .i1⟩
  | 116 => ⟨S_, .i32⟩
  | 117 => ⟨S_, .i1⟩
  | 118 => ⟨S32896, .i1⟩
  | 119 => ⟨S32896, .i1⟩
  | 120 => ⟨S32896, .i1⟩
  | 121 => ⟨S32896, .i32⟩
  | 122 => ⟨S32896, .i32⟩
  | 123 => ⟨S32896, .i32⟩
  | 124 => ⟨S_, .i32⟩
  | 125 => ⟨S32896, .i32⟩
  | 126 => ⟨S32896, .i1⟩
  | 127 => ⟨S_, .i32⟩
  | _ => ⟨S4x256x768, .f32⟩

abbrev hbmTy0_1 (i : Nat) : BufTy := match i % 128 with
  | 0 => ⟨S32896, .i32⟩
  | 1 => ⟨S32896, .i32⟩
  | 2 => ⟨S32896, .i32⟩
  | 3 => ⟨S32896x1, .i32⟩
  | 4 => ⟨S4x32896x768, .f32⟩
  | 5 => ⟨S_, .i32⟩
  | 6 => ⟨S32896, .i32⟩
  | 7 => ⟨S32896, .i1⟩
  | 8 => ⟨S_, .i32⟩
  | 9 => ⟨S32896, .i32⟩
  | 10 => ⟨S32896, .i32⟩
  | 11 => ⟨S32896, .i32⟩
  | 12 => ⟨S32896x1, .i32⟩
  | 13 => ⟨S4x32896x768, .f32⟩
  | 14 => ⟨S4x32896x768, .f32⟩
  | 15 => ⟨S1x1x768, .f32⟩
  | 16 => ⟨S4x32896x768, .f32⟩
  | 17 => ⟨S4x32896x768, .f32⟩
  | 18 => ⟨S4x32896x768, .f32⟩
  | _ => ⟨S4x256x768, .f32⟩

abbrev hbmTy (i : Nat) : BufTy := match i / 128 with
  | 0 => hbmTy0_0 i
  | 1 => hbmTy0_1 i
  | _ => ⟨S4x256x768, .f32⟩

abbrev bufTy : (tb : Table) → Fin (tcTables nBuf tb) → BufTy
  | .hbm, ⟨i, _⟩ => hbmTy i
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_call1_v0 : Ref sig .tc := ⟨.hbm, 21, rfl⟩
abbrev main_call1_v1 : Ref sig .tc := ⟨.hbm, 22, rfl⟩
abbrev main_call1_call0_c : Ref sig .tc := ⟨.hbm, 23, rfl⟩
abbrev main_call1_call0_v0 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_v10 : Ref sig .tc := ⟨.hbm, 31, rfl⟩
abbrev main_c_2 : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_call3_call0_c : Ref sig .tc := ⟨.hbm, 43, rfl⟩
abbrev main_call3_call0_v0 : Ref sig .tc := ⟨.hbm, 44, rfl⟩
abbrev main_v19 : Ref sig .tc := ⟨.hbm, 45, rfl⟩
abbrev main_c_5 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_v6 : Ref sig .tc := ⟨.hbm, 53, rfl⟩
abbrev main_call4_v7 : Ref sig .tc := ⟨.hbm, 54, rfl⟩
abbrev main_call4_c : Ref sig .tc := ⟨.hbm, 55, rfl⟩
abbrev main_call4_v8 : Ref sig .tc := ⟨.hbm, 56, rfl⟩
abbrev main_call4_v9 : Ref sig .tc := ⟨.hbm, 57, rfl⟩
abbrev main_call4_v10 : Ref sig .tc := ⟨.hbm, 58, rfl⟩
abbrev main_call4_c_0 : Ref sig .tc := ⟨.hbm, 59, rfl⟩
abbrev main_call4_v11 : Ref sig .tc := ⟨.hbm, 60, rfl⟩
abbrev main_call4_v12 : Ref sig .tc := ⟨.hbm, 61, rfl⟩
abbrev main_v20 : Ref sig .tc := ⟨.hbm, 62, rfl⟩
abbrev main_c_6 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_c_0 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_call5_c_1 : Ref sig .tc := ⟨.hbm, 71, rfl⟩
abbrev main_call5_v5 : Ref sig .tc := ⟨.hbm, 72, rfl⟩
abbrev main_call5_v6 : Ref sig .tc := ⟨.hbm, 73, rfl⟩
abbrev main_call5_c_2 : Ref sig .tc := ⟨.hbm, 74, rfl⟩
abbrev main_call5_v7 : Ref sig .tc := ⟨.hbm, 75, rfl⟩
abbrev main_call5_v8 : Ref sig .tc := ⟨.hbm, 76, rfl⟩
abbrev main_call5_c_3 : Ref sig .tc := ⟨.hbm, 77, rfl⟩
abbrev main_call5_v9 : Ref sig .tc := ⟨.hbm, 78, rfl⟩
abbrev main_call5_v10 : Ref sig .tc := ⟨.hbm, 79, rfl⟩
abbrev main_call5_v11 : Ref sig .tc := ⟨.hbm, 80, rfl⟩
abbrev main_call5_v12 : Ref sig .tc := ⟨.hbm, 81, rfl⟩
abbrev main_call5_v13 : Ref sig .tc := ⟨.hbm, 82, rfl⟩
abbrev main_call5_v14 : Ref sig .tc := ⟨.hbm, 83, rfl⟩
abbrev main_v21 : Ref sig .tc := ⟨.hbm, 84, rfl⟩
abbrev main_c_7 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_call6_v5 : Ref sig .tc := ⟨.hbm, 91, rfl⟩
abbrev main_call6_v6 : Ref sig .tc := ⟨.hbm, 92, rfl⟩
abbrev main_call6_v7 : Ref sig .tc := ⟨.hbm, 93, rfl⟩
abbrev main_call6_c : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_c_0 : Ref sig .tc := ⟨.hbm, 98, rfl⟩
abbrev main_call6_v11 : Ref sig .tc := ⟨.hbm, 99, rfl⟩
abbrev main_call6_v12 : Ref sig .tc := ⟨.hbm, 100, rfl⟩
abbrev main_v22 : Ref sig .tc := ⟨.hbm, 101, rfl⟩
abbrev main_c_8 : Ref sig .tc := ⟨.hbm, 102, rfl⟩
abbrev main_call7_v0 : Ref sig .tc := ⟨.hbm, 103, rfl⟩
abbrev main_call7_c : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_c_1 : Ref sig .tc := ⟨.hbm, 110, rfl⟩
abbrev main_call7_v5 : Ref sig .tc := ⟨.hbm, 111, rfl⟩
abbrev main_call7_v6 : Ref sig .tc := ⟨.hbm, 112, rfl⟩
abbrev main_call7_c_2 : Ref sig .tc := ⟨.hbm, 113, rfl⟩
abbrev main_call7_v7 : Ref sig .tc := ⟨.hbm, 114, rfl⟩
abbrev main_call7_v8 : Ref sig .tc := ⟨.hbm, 115, rfl⟩
abbrev main_call7_c_3 : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_v23 : Ref sig .tc := ⟨.hbm, 123, rfl⟩
abbrev main_c_9 : Ref sig .tc := ⟨.hbm, 124, rfl⟩
abbrev main_v24 : Ref sig .tc := ⟨.hbm, 125, rfl⟩
abbrev main_v25 : Ref sig .tc := ⟨.hbm, 126, rfl⟩
abbrev main_c_10 : Ref sig .tc := ⟨.hbm, 127, rfl⟩
abbrev main_v26 : Ref sig .tc := ⟨.hbm, 128, rfl⟩
abbrev main_v27 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_c_11 : Ref sig .tc := ⟨.hbm, 133, rfl⟩
abbrev main_v31 : Ref sig .tc := ⟨.hbm, 134, rfl⟩
abbrev main_v32 : Ref sig .tc := ⟨.hbm, 135, rfl⟩
abbrev main_c_12 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩

abbrev nD : Nat := 1
abbrev τ : Topo := Topo.v7x

variable {F : FTy → Type} [FloatOps F]

class Facts₀ : Prop where
  slices_S768x1536_S768x768_0_0 : S768x1536.Slices ![0, 0] S768x768
  slices_S768x1536_S768x768_0_768 : S768x1536.Slices ![0, 768] S768x768
  bcast_S_S256x256 : S_.BroadcastsInDim S256x256 (![] : Fin 0 → Fin S256x256.rank)
  shapeCasts_S256x256_S65536 : S256x256.ShapeCasts S65536
  natLt_1_32 : 1 < 32
  bcast_S_S_ : S_.BroadcastsInDim S_ (![] : Fin 0 → Fin S_.rank)
  reduceWindows_S65536_S65536_w65536s1p65535_0 : S65536.ReduceWindows (![65536] : Fin 1 → Nat) ![1] ![65535] ![0] S65536
  h_S_ : 0 < S_.numel
  bcast_S_S32896 : S_.BroadcastsInDim S32896 (![] : Fin 0 → Fin S32896.rank)
  bcast_S_S65536 : S_.BroadcastsInDim S65536 (![] : Fin 0 → Fin S65536.rank)
  bcast_S65536_S65536x1_0 : S65536.BroadcastsInDim S65536x1 (![0] : Fin 1 → Fin S65536x1.rank)
  reduceWindows_S32896_S32896_w32896s1p32895_0 : S32896.ReduceWindows (![32896] : Fin 1 → Nat) ![1] ![32895] ![0] S32896
  bcast_S32896_S32896x1_0 : S32896.BroadcastsInDim S32896x1 (![0] : Fin 1 → Fin S32896x1.rank)
  bcast_S768_S1x1x768_2 : S768.BroadcastsInDim S1x1x768 (![2] : Fin 1 → Fin S1x1x768.rank)
  bcast_S1x1x768_S4x32896x768_0_1_2 : S1x1x768.BroadcastsInDim S4x32896x768 (![0, 1, 2] : Fin 3 → Fin S4x32896x768.rank)
  dot_S4x256x768_S768x768_S4x256x768_2_1_01_0_n_n_wf : DotDims.WF S4x256x768 S768x768 S4x256x768 [2] [1] [0, 1] [0] [] []
  scatter_S32896_S65536x1_S65536_n_0_0_1_wf : ScatterDims.WF S32896 S65536x1 S65536 [] [0] [0] 1
  gather_S4x256x768_S32896x1_S4x32896x768_02_1_n_n_1_1_41768_wf : GatherDims.WF S4x256x768 S32896x1 S4x32896x768 [0, 2] [1] [] [1] [] 1 ![4, 1, 768]

variable [Facts₀]

def dot_S4x256x768_S768x768_S4x256x768_2_1_01_0_n_n : DotDims S4x256x768 S768x768 S4x256x768 where
  lhsContracting := [2]
  rhsContracting := [1]
  lhsNonContracting := [0, 1]
  rhsNonContracting := [0]
  lhsBatch := []
  rhsBatch := []
  wf := dot_S4x256x768_S768x768_S4x256x768_2_1_01_0_n_n_wf
def scatter_S32896_S65536x1_S65536_n_0_0_1 : ScatterDims S32896 S65536x1 S65536 where
  updateWindowDims := []
  insertedWindowDims := [0]
  scatterDimsToOperandDims := [0]
  indexVectorDim := 1
  wf := scatter_S32896_S65536x1_S65536_n_0_0_1_wf
def gather_S4x256x768_S32896x1_S4x32896x768_02_1_n_n_1_1_41768 : GatherDims S4x256x768 S32896x1 S4x32896x768 where
  offsetDims := [0, 2]
  collapsedSliceDims := [1]
  operandBatchingDims := []
  startIndicesBatchingDims := []
  startIndexMap := [1]
  indexVectorDim := 1
  sliceSizes := ![4, 1, 768]
  wf := gather_S4x256x768_S32896x1_S4x32896x768_02_1_n_n_1_1_41768_wf

class Facts : Prop extends Facts₀ where

variable [Facts]
-- ==== Proof.LibRejoin.lean ====
import Idealize.ShloMosaic.Lib.Transfers
import Idealize.ShloMosaic.Lib.Writes
import Idealize.ShloMosaic.Lib.Tactic

noncomputable section

namespace Cert.LibRejoin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix]
variable {Val : EltTy → Type} {Name : Type} [DecidableEq Name] {U : Type} [URA U] {Lvl : Type}
local notation "𝕄g" => MT nD τ sig Ix Val Name U Lvl

theorem rejoin_apart {ℓ : Loc nD τ sig} {W0 W1 : Finset (Idx ℓ)} {q : PosShare TreeShare} {fs g : Buf Val ℓ}
    (hd : Disjoint W0 W1) (hfg : ∀ i ∈ W0, fs i = g i) :
    (iprop((ℓ ↦[(Finset.univ \ W0) \ W1]{q} g) ∗ (ℓ ↦[W0]{q} fs)) : sProp 𝕄g) ⊢ (ℓ ↦[Finset.univ \ W1]{q} g) := by
  rw [pointsTo_congr hfg, sdiff_sdiff_comm]
  have hI : W0 ⊆ Finset.univ \ W1 := fun i hi => Finset.mem_sdiff.mpr ⟨Finset.mem_univ _, fun h => Finset.disjoint_left.mp hd hi h⟩
  refine .trans ?_ (pointsTo_split_subset hI).2
  iintro ⟨Hr, Hw⟩
  isplitl [Hw] <;> iassumption

theorem rejoin_wand {ℓ : Loc nD τ sig} {W0 W1 : Finset (Idx ℓ)} {q : PosShare TreeShare} {fs g : Buf Val ℓ} {Q : sProp 𝕄g}
    (hd : Disjoint W0 W1) (hfg : ∀ i ∈ W0, fs i = g i) :
    (iprop((ℓ ↦[Finset.univ \ W1]{q} g) -∗ Q) : sProp 𝕄g) ⊢ iprop((ℓ ↦[(Finset.univ \ W0) \ W1]{q} g) -∗ (ℓ ↦[W0]{q} fs) -∗ Q) := by
  iintro Hk Hr Hw
  iapply Hk
  iapply (rejoin_apart hd hfg)
  isplitl [Hr] <;> iassumption

theorem rejoin_last {ℓ : Loc nD τ sig} {W0 : Finset (Idx ℓ)} {q : PosShare TreeShare} {fs g : Buf Val ℓ}
    (hfg : ∀ i ∈ W0, fs i = g i) :
    (iprop((ℓ ↦[Finset.univ \ W0]{q} g) ∗ (ℓ ↦[W0]{q} fs)) : sProp 𝕄g) ⊢ (ℓ ↦[Finset.univ]{q} g) := by
  rw [pointsTo_congr hfg]
  refine .trans ?_ (pointsTo_split_subset (Finset.subset_univ W0)).2
  iintro ⟨Hr, Hw⟩
  isplitl [Hw] <;> iassumption

theorem rejoin_last_wand {ℓ : Loc nD τ sig} {W0 : Finset (Idx ℓ)} {q : PosShare TreeShare} {fs g : Buf Val ℓ} {Q : sProp 𝕄g}
    (hfg : ∀ i ∈ W0, fs i = g i) :
    (iprop((ℓ ↦[Finset.univ]{q} g) -∗ Q) : sProp 𝕄g) ⊢ iprop((ℓ ↦[Finset.univ \ W0]{q} g) -∗ (ℓ ↦[W0]{q} fs) -∗ Q) := by
  iintro Hk Hr Hw
  iapply Hk
  iapply (rejoin_last hfg)
  isplitl [Hr] <;> iassumption

theorem writes_cons_eq_on {κ : Kind} {sp : Space} {s : Shape} {e : EltTy} (v : View sig κ sp s e)
    (g : v.ty.Contents Val) (r : Rect s) (w : r.shape.Idx → Val e) (L : List (View.Piece Val s e)) (I : Finset v.ty.Idx) (A : v.ty.Contents Val)
    (hd : Disjoint I (v.slice r).set) (ih : ∀ i ∈ I, A i = v.writes Val g L i) :
    ∀ i ∈ I, A i = v.writes Val g (⟨r, w⟩ :: L) i := by
  intro i hi
  rw [ih i hi]
  exact (write_eq_on_disjoint (v := v.slice r) hd (v.writes Val g L) w i hi).symm

theorem disj_sq_sq {κ : Kind} {sp : Space} {s : Shape} {e : EltTy} (M : Memref sig κ sp s e) (r₁ r₂ : Rect s) (h₁ : ∀ a, r₁.stride a = 1) (h₂ : ∀ a, r₂.stride a = 1)
    (s₁ s₂ : Shape) (q₁ : r₁.shape.Squeezes s₁) (q₂ : r₂.shape.Squeezes s₂) (a : Fin s.rank)
    (h : (r₁.toLoadRect.size a = 0 ∨ r₁.toLoadRect.off a + r₁.toLoadRect.stride a * (r₁.toLoadRect.size a - 1) < r₂.toLoadRect.off a)
      ∨ (r₂.toLoadRect.size a = 0 ∨ r₂.toLoadRect.off a + r₂.toLoadRect.stride a * (r₂.toLoadRect.size a - 1) < r₁.toLoadRect.off a)) :
    Disjoint ((M.slice r₁ h₁).squeeze s₁ q₁).view.set ((M.slice r₂ h₂).squeeze s₂ q₂).view.set := by
  rw [Memref.set_view_squeeze, Memref.set_view_squeeze]
  exact View.disjoint_of_boxes M.view r₁.toLoadRect r₂.toLoadRect (View.set_slice_subset_setOn _ _) (View.set_slice_subset_setOn _ _) a h

theorem disj_sq_slice {κ : Kind} {sp : Space} {s : Shape} {e : EltTy} (M : Memref sig κ sp s e) (r₁ r₂ : Rect s) (h₁ : ∀ a, r₁.stride a = 1)
    (s₁ : Shape) (q₁ : r₁.shape.Squeezes s₁) (a : Fin s.rank)
    (h : (r₁.toLoadRect.size a = 0 ∨ r₁.toLoadRect.off a + r₁.toLoadRect.stride a * (r₁.toLoadRect.size a - 1) < r₂.toLoadRect.off a)
      ∨ (r₂.toLoadRect.size a = 0 ∨ r₂.toLoadRect.off a + r₂.toLoadRect.stride a * (r₂.toLoadRect.size a - 1) < r₁.toLoadRect.off a)) :
    Disjoint ((M.slice r₁ h₁).squeeze s₁ q₁).view.set (M.view.slice r₂).set := by
  rw [Memref.set_view_squeeze]
  exact View.disjoint_of_boxes M.view r₁.toLoadRect r₂.toLoadRect (View.set_slice_subset_setOn _ _) (View.set_slice_subset_setOn _ _) a h
end

open Lean Elab Tactic Meta in

elab "unfold_run_lists " pre:str : tactic => do
  let g ← getMainGoal
  let p := pre.getString
  let isList (n : Name) : Bool :=
    n.components.dropLast.any (· == `sl) &&
      (match n with
        | .str _ s => s.startsWith p
        | _ => false)
  let mut t ← instantiateMVars (← g.getType)
  for _ in [0:256] do
    let t' ← Meta.deltaExpand t isList
    if t' == t then break
    t := t'
  replaceMainGoal [← g.replaceTargetDefEq t]

end Cert.LibRejoin

end
-- ==== Proof.KernelRun.lean ====
import proofs.«422836_j30605936951494_3_alg».proof.Proof.Gen.Kernel
import proofs.«422836_j30605936951494_3_alg».proof.Proof.Gen.Kernel.Skeleton
import proofs.«422836_j30605936951494_3_alg».proof.Proof.Gen.Kernel.Launch
import proofs.«422836_j30605936951494_3_alg».proof.Proof.LibRejoin
import Idealize.ShloMosaic.Lib.Transfers
import Idealize.ShloMosaic.Lib.Writes
import Idealize.ShloMosaic.Lib.Pipeline.FrameBody
import Idealize.ShloMosaic.Lib.Tactic

noncomputable section

namespace Cert.Kernel.Run

open Cert.Kernel Cert.Kernel.Gen Cert.LibRejoin
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UC : Type := UR sig nD τ × Counters
local notation "𝕄" => MT nD τ sig Unit (Elt F) ℕ UC ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 0 in
set_option sl_exec.dmaWindow true in

noncomputable def kernelRun (c : Dev nD) (i : grid0.Coords)
    (M0 : Memref sig .tc .vmem S1x256x768 .f32) (h0 : M0.IsWhole) (M1 : Memref sig .tc .vmem S768x1536 .f32) (h1 : M1.IsWhole)
    (M2 : Memref sig .tc .vmem S1x768 .f32) (h2 : M2.IsWhole)
    (f0 : Bf (F := F) c M0) (f1 : Bf (F := F) c M1) (f2 : Bf (F := F) c M2)
    (fv : Bf (F := F) c (Memref.whole main_v1)) (g2 : Bf (F := F) c (Memref.whole cc0_scratch2)) :
    { W : Bf (F := F) c (Memref.whole main_v1) //
      ∀ (g0 : Bf (F := F) c (Memref.whole cc0_scratch0)) (g1 : Bf (F := F) c (Memref.whole cc0_scratch1)) (Wt : Waits sig Unit) (Q : PUnit → sProp 𝕄),
        iprop((M0.view.loc (c : Thread nD τ) ↦[M0.view.set]{fullShare} f0) ∗ (M1.view.loc (c : Thread nD τ) ↦[M1.view.set]{fullShare} f1) ∗ (M2.view.loc (c : Thread nD τ) ↦[M2.view.set]{fullShare} f2)
          ∗ pt c (Memref.whole main_v1) fv ∗ pt c (Memref.whole cc0_scratch0) g0 ∗ pt c (Memref.whole cc0_scratch1) g1 ∗ pt c (Memref.whole cc0_scratch2) g2
          ∗ semVal ((c : Thread nD τ), SemLoc.dma (4 : DmaSem sig)) 0 ∗ semVal ((c : Thread nD τ), SemLoc.dma (5 : DmaSem sig)) 0 ∗ owes (c : Thread nD τ) 0 Wt
          ∗ (iprop((M0.view.loc (c : Thread nD τ) ↦[M0.view.set]{fullShare} f0) ∗ (M1.view.loc (c : Thread nD τ) ↦[M1.view.set]{fullShare} f1) ∗ (M2.view.loc (c : Thread nD τ) ↦[M2.view.set]{fullShare} f2)
              ∗ pt c (Memref.whole main_v1) W
              ∗ (∃ f, pt c (Memref.whole cc0_scratch0) f) ∗ (∃ f, pt c (Memref.whole cc0_scratch1) f) ∗ (∃ f, pt c (Memref.whole cc0_scratch2) f)
              ∗ semVal ((c : Thread nD τ), SemLoc.dma (4 : DmaSem sig)) 0 ∗ semVal ((c : Thread nD τ), SemLoc.dma (5 : DmaSem sig)) 0
              ∗ (∃ W', owes (c : Thread nD τ) 0 W')) -∗ Q ⟨⟩))
        ⊢ wp frame (wpE (defs₀ (F := F)) Variants.none c none) Set.univ
            (cc0__fused_kernel i M0 h0 M1 h1 M2 h2 (Memref.whole main_v1) (Memref.isWhole_whole _) (Memref.whole cc0_scratch0) (Memref.isWhole_whole _)
              (Memref.whole cc0_scratch1) (Memref.isWhole_whole _) (Memref.whole cc0_scratch2) (Memref.isWhole_whole _) cc0_scratch3) Q } := by
  refine ⟨?_, fun g0 g1 Wt Q => ?run⟩
  case run =>
    iintro ⟨H0, H1, H2, Hv, Hg0, Hg1, Hg2, Hs4, Hs5, HO, Hk⟩
    iterate 14
      sl_exec_parts (disch := decide)
      irevert Hg2_2
      irevert Hg2
      iapply (Cert.LibRejoin.rejoin_wand ?hd ?hfg)
      case hd => exact Cert.LibRejoin.disj_sq_sq _ _ _ _ _ _ _ _ _ 0 (by decide)
      case hfg =>
        unfold_run_lists "Hg2"
        iterate 16
          refine Cert.LibRejoin.writes_cons_eq_on (Memref.whole cc0_scratch2).view _ _ _ _ _ _ ?_ ?_
          · exact Cert.LibRejoin.disj_sq_slice (Memref.whole cc0_scratch2) _ _ _ _ _ 0 (by decide)
        exact fun _ _ => rfl
      iintro Hg2
    sl_exec_parts (disch := decide)
    irevert Hg2_2
    irevert Hg2
    iapply (Cert.LibRejoin.rejoin_last_wand ?hfg)
    case hfg =>
      unfold_run_lists "Hg2"
      iterate 16
        refine Cert.LibRejoin.writes_cons_eq_on (Memref.whole cc0_scratch2).view _ _ _ _ _ _ ?_ ?_
        · exact Cert.LibRejoin.disj_sq_slice (Memref.whole cc0_scratch2) _ _ _ _ _ 0 (by decide)
      exact fun _ _ => rfl
    iintro Hg2
    sl_step
    iapply Hk
    isplitl [H0]; · iexact H0
    isplitl [H1]; · iexact H1
    isplitl [H2]; · iexact H2
    isplitl [Hv]; · iexact Hv
    isplitl [Hg0]; · iexists _; iexact Hg0
    isplitl [Hg1]; · iexists _; iexact Hg1
    isplitl [Hg2]; · iexists _; iexact Hg2
    isplitl [Hs4]; · iexact Hs4
    isplitl [Hs5]; · iexact Hs5
    iexists _; iexact HO

end Cert.Kernel.Run

end
-- ==== Proof.Tri.lean ====
import Mathlib.Data.Nat.Find
import Mathlib.Data.Finset.Card
import Mathlib.Tactic.Ring

namespace Cert.Tri

/-- Where row i of the packed upper triangle starts: the number of pairs (i', j) with i' < i and i' ≤ j < 256. -/
def rowStart : ℕ → ℕ
  | 0 => 0
  | i + 1 => rowStart i + (256 - i)

/-- The row of the k-th pair, the rows taken in order. -/
def triRow (k : ℕ) : ℕ := Nat.findGreatest (fun i => rowStart i ≤ k) 255

/-- Its column. -/
def triCol (k : ℕ) : ℕ := triRow k + (k - rowStart (triRow k))

/-- Position p of the flattened 256 × 256 grid lies on or above the diagonal. -/
def mask (p : ℕ) : Prop := p / 256 ≤ p % 256

instance : DecidablePred mask := fun p => inferInstanceAs (Decidable (p / 256 ≤ p % 256))

/-- How many positions up to p, p included, lie on or above the diagonal. -/
def cnt (p : ℕ) : ℕ := ((Finset.range (p + 1)).filter mask).card

def cntLt (n : ℕ) : ℕ := ((Finset.range n).filter mask).card

theorem rowStart_succ (i : ℕ) : rowStart (i + 1) = rowStart i + (256 - i) := rfl

theorem two_mul_rowStart (i : ℕ) (hi : i ≤ 256) : 2 * rowStart i + i * i = 513 * i := by
  induction i with
  | zero => simp [rowStart]
  | succ i ih =>
    have h := ih (by omega)
    have e : (i + 1) * (i + 1) = i * i + 2 * i + 1 := by ring
    rw [rowStart_succ, e]
    omega

theorem rowStart_256 : rowStart 256 = 32896 := by
  have h := two_mul_rowStart 256 (le_refl _)
  generalize rowStart 256 = x at h ⊢
  omega

theorem rowStart_lt_succ (i : ℕ) (hi : i ≤ 255) : rowStart i < rowStart (i + 1) := by
  rw [rowStart_succ]
  omega

theorem rowStart_strictMono {i j : ℕ} (hij : i < j) (hj : j ≤ 256) : rowStart i < rowStart j := by
  induction j with
  | zero => omega
  | succ j ih =>
    have h1 := rowStart_lt_succ j (by omega)
    rcases Nat.lt_succ_iff_lt_or_eq.mp hij with h | h
    · exact lt_trans (ih h (by omega)) h1
    · subst h
      exact h1

theorem rowStart_mono {i j : ℕ} (hij : i ≤ j) (hj : j ≤ 256) : rowStart i ≤ rowStart j := by
  rcases Nat.eq_or_lt_of_le hij with h | h
  · subst h
    exact le_refl _
  · exact le_of_lt (rowStart_strictMono h hj)

theorem triRow_lt (k : ℕ) : triRow k < 256 :=
  Nat.lt_succ_of_le (Nat.findGreatest_le 255)

theorem rowStart_triRow_le (k : ℕ) : rowStart (triRow k) ≤ k := by
  have h : (fun i => rowStart i ≤ k) (Nat.findGreatest (fun i => rowStart i ≤ k) 255) :=
    Nat.findGreatest_spec (P := fun i => rowStart i ≤ k) (m := 0) (Nat.zero_le _) (Nat.zero_le _)
  exact h

theorem lt_rowStart_triRow_succ (k : ℕ) (hk : k < 32896) : k < rowStart (triRow k + 1) := by
  by_cases h : triRow k < 255
  · have h1 : ¬ rowStart (triRow k + 1) ≤ k :=
      Nat.findGreatest_is_greatest (P := fun i => rowStart i ≤ k) (k := triRow k + 1)
        (Nat.lt_succ_self _) (by omega)
    omega
  · have h2 : triRow k = 255 := by
      have := triRow_lt k
      omega
    rw [h2, rowStart_256]
    exact hk

theorem triRow_le_triCol (k : ℕ) : triRow k ≤ triCol k := Nat.le_add_right _ _

theorem triCol_lt (k : ℕ) (hk : k < 32896) : triCol k < 256 := by
  have h1 := lt_rowStart_triRow_succ k hk
  rw [rowStart_succ] at h1
  have h2 := rowStart_triRow_le k
  have h3 := triRow_lt k
  unfold triCol
  omega

theorem eq_rowStart_add (k : ℕ) : k = rowStart (triRow k) + (triCol k - triRow k) := by
  have h2 := rowStart_triRow_le k
  unfold triCol
  omega

theorem triRow_rowStart_add {i j : ℕ} (hij : i ≤ j) (hj : j < 256) :
    triRow (rowStart i + (j - i)) = i := by
  unfold triRow
  rw [Nat.findGreatest_eq_iff]
  refine ⟨by omega, fun _ => Nat.le_add_right _ _, fun n hn hn' => ?_⟩
  have h1 : rowStart (i + 1) ≤ rowStart n := rowStart_mono hn (by omega)
  rw [rowStart_succ] at h1
  show ¬ rowStart n ≤ rowStart i + (j - i)
  omega

theorem triCol_rowStart_add {i j : ℕ} (hij : i ≤ j) (hj : j < 256) :
    triCol (rowStart i + (j - i)) = j := by
  unfold triCol
  rw [triRow_rowStart_add hij hj]
  omega

theorem flat_div (k : ℕ) (hk : k < 32896) : (256 * triRow k + triCol k) / 256 = triRow k := by
  have h := triCol_lt k hk
  omega

theorem flat_mod (k : ℕ) (hk : k < 32896) : (256 * triRow k + triCol k) % 256 = triCol k := by
  have h := triCol_lt k hk
  omega

theorem flat_lt (k : ℕ) (hk : k < 32896) : 256 * triRow k + triCol k < 65536 := by
  have h := triCol_lt k hk
  have h' := triRow_lt k
  omega

theorem mask_lt {p : ℕ} (h : mask p) : p < 65536 := by
  unfold mask at h
  omega

theorem mask_row_iff (a b : ℕ) (hb : b < 256) : mask (256 * a + b) ↔ a ≤ b := by
  unfold mask
  omega

theorem cnt_eq_cntLt (p : ℕ) : cnt p = cntLt (p + 1) := rfl

theorem cntLt_succ (n : ℕ) : cntLt (n + 1) = cntLt n + (if mask n then 1 else 0) := by
  unfold cntLt
  rw [Finset.range_add_one, Finset.filter_insert]
  split_ifs with h
  · rw [Finset.card_insert_of_notMem]
    simp
  · simp

theorem cntLt_mono {n m : ℕ} (h : n ≤ m) : cntLt n ≤ cntLt m :=
  Finset.card_le_card (Finset.filter_subset_filter _ (Finset.range_mono h))

theorem cntLt_row_add (a b : ℕ) (hb : b ≤ 256) :
    cntLt (256 * a + b) = cntLt (256 * a) + (b - a) := by
  induction b with
  | zero => simp
  | succ b ih =>
    have h := ih (by omega)
    have hm := mask_row_iff a b (by omega)
    rw [← Nat.add_assoc, cntLt_succ, h]
    split_ifs with hmask
    · have := hm.mp hmask
      omega
    · have : ¬ a ≤ b := fun h' => hmask (hm.mpr h')
      omega

theorem cntLt_row (a : ℕ) (ha : a ≤ 256) : cntLt (256 * a) = rowStart a := by
  induction a with
  | zero => simp [cntLt, rowStart]
  | succ a ih =>
    have h := ih (by omega)
    have e : 256 * (a + 1) = 256 * a + 256 := by ring
    rw [e, cntLt_row_add a 256 (le_refl _), h, rowStart_succ]

theorem cntLt_flat (a b : ℕ) (ha : a ≤ 256) (hb : b ≤ 256) :
    cntLt (256 * a + b) = rowStart a + (b - a) := by
  rw [cntLt_row_add a b hb, cntLt_row a ha]

theorem cntLt_total : cntLt 65536 = 32896 := by
  have h := cntLt_row 256 (le_refl _)
  rw [rowStart_256] at h
  exact h

theorem cnt_mono {p q : ℕ} (h : p ≤ q) : cnt p ≤ cnt q :=
  cntLt_mono (Nat.succ_le_succ h)

theorem cnt_le (p : ℕ) : cnt p ≤ 32896 := by
  have hsub : (Finset.range (p + 1)).filter mask ⊆ (Finset.range 65536).filter mask := by
    intro q hq
    rw [Finset.mem_filter] at hq ⊢
    exact ⟨Finset.mem_range.mpr (mask_lt hq.2), hq.2⟩
  have h := Finset.card_le_card hsub
  have h' := cntLt_total
  unfold cntLt at h'
  unfold cnt
  omega

theorem cntLt_flat_tri (k : ℕ) (hk : k < 32896) : cntLt (256 * triRow k + triCol k) = k := by
  have h1 := triRow_lt k
  have h2 := triCol_lt k hk
  rw [cntLt_flat _ _ (by omega) (by omega)]
  exact (eq_rowStart_add k).symm

theorem cnt_flat (k : ℕ) (hk : k < 32896) : cnt (256 * triRow k + triCol k) = k + 1 := by
  have h1 := triRow_lt k
  have h2 := triCol_lt k hk
  have h3 := triRow_le_triCol k
  have h4 := eq_rowStart_add k
  rw [cnt_eq_cntLt, Nat.add_assoc, cntLt_flat _ _ (by omega) (by omega)]
  omega

theorem cnt_le_iff (k : ℕ) (hk : k < 32896) (p : ℕ) :
    cnt p ≤ k ↔ p < 256 * triRow k + triCol k := by
  constructor
  · intro h
    by_contra hge
    have h1 : cnt (256 * triRow k + triCol k) ≤ cnt p := cnt_mono (by omega)
    rw [cnt_flat k hk] at h1
    omega
  · intro h
    have h1 : cntLt (p + 1) ≤ cntLt (256 * triRow k + triCol k) := cntLt_mono (by omega)
    rw [cntLt_flat_tri k hk] at h1
    exact h1

theorem card_filter_cnt_le (k : ℕ) (hk : k < 32896) :
    ((Finset.range 65536).filter (fun p => cnt p ≤ k)).card = 256 * triRow k + triCol k := by
  have hlt := flat_lt k hk
  have hset : (Finset.range 65536).filter (fun p => cnt p ≤ k)
      = Finset.range (256 * triRow k + triCol k) := by
    ext p
    rw [Finset.mem_filter, Finset.mem_range, Finset.mem_range, cnt_le_iff k hk]
    omega
  rw [hset, Finset.card_range]

end Cert.Tri
-- ==== Proof.KernelSlab.lean ====
import proofs.«422836_j30605936951494_3_alg».proof.Proof.KernelRun
import proofs.«422836_j30605936951494_3_alg».proof.Proof.Tri
import Idealize.ShloMosaic.Lib.ValueIdx

noncomputable section

namespace Cert.Kernel.KValue

open Cert.Kernel Cert.Kernel.Gen Cert.Kernel.Run
open Idealize.ShloMosaic Idealize.ShloMosaic.TcCoe Idealize.ShloMosaic.ValueIdx
open Idealize.SL Idealize.SL.Sem

variable {F : FTy → Type} [FloatOps F]

def rowvec (A : Vec F S256x768 .f32) (s : Fin 256) : Vec F S1x768 .f32 := fun y => A (ix2 s (y 1))

/-- Entry (p, o) of one batch's packed result, as the body's whole-array operations on the three blocks. -/
def slab (x0 : Vec F S1x256x768 .f32) (x1 : Vec F S768x1536 .f32) (x2 : Vec F S1x768 .f32) (p : Fin 32896) (o : Fin 768) : Elt F .f32 :=
  tanh (F := F) (φ := .f32) (addf (F := F) (φ := .f32) (addf (F := F) (φ := .f32)
      (rowvec (k0_pay3 x0 x1) ⟨Cert.Tri.triRow p.val, Cert.Tri.triRow_lt _⟩)
      (rowvec (k0_pay4 x0 x1) ⟨Cert.Tri.triCol p.val, Cert.Tri.triCol_lt _ p.isLt⟩))
    (k0_pay5 x2)) (ix2 0 o)

/-- The result after one grid point: batch i₀ at slab, every other batch as before. -/
def pointResult (c : Dev nD) (i : grid0.Coords) (x0 : Vec F S1x256x768 .f32) (x1 : Vec F S768x1536 .f32) (x2 : Vec F S1x768 .f32)
    (fv : Bf (F := F) c (Memref.whole main_v1)) : Bf (F := F) c (Memref.whole main_v1) :=
  fun idx => if (idx 0).val = (i 0).val then slab x0 x1 x2 (idx 1) (idx 2) else fv idx

end Cert.Kernel.KValue

end
-- ==== Proof.KernelDst.lean ====
import proofs.«422836_j30605936951494_3_alg».proof.Proof.KernelRun
import Idealize.ShloMosaic.Lib.ValueIdx

noncomputable section

namespace Cert.Kernel.KDst

open Cert.Kernel Cert.Kernel.Gen Cert.Kernel.Run
open Idealize.ShloMosaic Idealize.ShloMosaic.TcCoe Idealize.ShloMosaic.ValueIdx
open Idealize.SL Idealize.SL.Sem

variable {F : FTy → Type} [FloatOps F]

/-- Writing the values R into rows [s, s + n) of batch i₀ extends "the rows below s hold R" to "the rows below s + n hold R". -/
theorem dst_step (c : Dev nD) (i : grid0.Coords) (n s : ℕ) (hsn : s + n ≤ 32896)
    (off : Fin 3 → ℕ) (hoff : off = ![(i 0).val, s, 0])
    (inb : ∀ a, off a + (⟨3, ![1, n, 768]⟩ : Shape).size a ≤ S4x32896x768.size a)
    (hs : ∀ a, (Rect.unit (s := S4x32896x768) off (⟨3, ![1, n, 768]⟩ : Shape).size inb).stride a = 1)
    (q : (Rect.unit (s := S4x32896x768) off (⟨3, ![1, n, 768]⟩ : Shape).size inb).shape.Squeezes ⟨2, ![n, 768]⟩)
    (fv Wprev : Bf (F := F) c (Memref.whole main_v1))
    (blk : (⟨2, ![n, 768]⟩ : Shape).Idx → Elt F .f32) (R : Fin 32896 → Fin 768 → Elt F .f32)
    (hprev : ∀ (b : Fin 4) (p : Fin 32896) (o : Fin 768),
      Wprev (ix3 b p o) = if b.val = (i 0).val ∧ p.val < s then R p o else fv (ix3 b p o))
    (hblk : ∀ (r : Fin n) (o : Fin 768), blk (ix2 r o) = R ⟨s + r.val, by have := r.isLt; omega⟩ o) :
    ∀ (b : Fin 4) (p : Fin 32896) (o : Fin 768),
      View.write (Elt F)
          (((Memref.whole main_v1).slice (Rect.unit (s := S4x32896x768) off (⟨3, ![1, n, 768]⟩ : Shape).size inb) hs).squeeze
            ⟨2, ![n, 768]⟩ q).view Wprev blk Finset.univ (ix3 b p o)
        = if b.val = (i 0).val ∧ p.val < s + n then R p o else fv (ix3 b p o) := by
  subst hoff
  have hi : (i 0).val < 4 := (i 0).isLt

  have hemb : ∀ (x0 : Fin n) (x1 : Fin 768),
      (((Memref.whole main_v1).slice (Rect.unit (s := S4x32896x768) ![(i 0).val, s, 0] (⟨3, ![1, n, 768]⟩ : Shape).size inb) hs).squeeze
          ⟨2, ![n, 768]⟩ q).view.emb (ix2 x0 x1)
        = ix3 (⟨(i 0).val, hi⟩ : Fin 4) (⟨s + x0.val, by have := x0.isLt; omega⟩ : Fin 32896) x1 := by
    intro x0 x1
    have hx0 := x0.isLt
    have hre : Shape.reshapeEquiv q.numel_eq (ix2 x0 x1) = ix3 (⟨0, Nat.one_pos⟩ : Fin 1) x0 x1 := by
      apply Shape.reshapeEquiv_eq_of_rowMajor
      rw [Shape.rowMajor_val_three, Shape.rowMajor_val_two]
      show (0 * n + x0.val) * 768 + x1.val = x0.val * 768 + x1.val
      omega
    show (Rect.unit (s := S4x32896x768) ![(i 0).val, s, 0] (⟨3, ![1, n, 768]⟩ : Shape).size inb).emb
        (Shape.reshapeEquiv q.numel_eq (ix2 x0 x1)) = _
    rw [hre]
    funext a
    apply Fin.ext
    rw [Rect.emb_apply]
    match a with
    | ⟨0, _⟩ => show (i 0).val + 1 * 0 = (i 0).val; omega
    | ⟨1, _⟩ => show s + 1 * x0.val = s + x0.val; omega
    | ⟨2, _⟩ => show 0 + 1 * x1.val = x1.val; omega
  intro b p o
  have hp := p.isLt
  by_cases h : b.val = (i 0).val ∧ s ≤ p.val ∧ p.val < s + n
  · obtain ⟨hb, hps, hpn⟩ := h
    have hidx : ix3 b p o
        = (((Memref.whole main_v1).slice (Rect.unit (s := S4x32896x768) ![(i 0).val, s, 0] (⟨3, ![1, n, 768]⟩ : Shape).size inb) hs).squeeze
            ⟨2, ![n, 768]⟩ q).view.emb (ix2 (⟨p.val - s, by omega⟩ : Fin n) o) := by
      rw [hemb]
      have e0 : b = (⟨(i 0).val, hi⟩ : Fin 4) := Fin.ext hb
      have e1 : p = (⟨s + (p.val - s), by omega⟩ : Fin 32896) := Fin.ext (by show p.val = s + (p.val - s); omega)
      rw [← e0, ← e1]
    rw [hidx, View.write_emb_of_mem _ _ (Finset.mem_univ _), if_pos ⟨hb, hpn⟩]
    refine (cast_eq _ _).trans ?_
    rw [hblk]
    congr 1
    apply Fin.ext
    show s + (p.val - s) = p.val
    omega
  · have hnot : ix3 b p o ∉
        (((Memref.whole main_v1).slice (Rect.unit (s := S4x32896x768) ![(i 0).val, s, 0] (⟨3, ![1, n, 768]⟩ : Shape).size inb) hs).squeeze
            ⟨2, ![n, 768]⟩ q).view.setOn Finset.univ := by
      intro hm
      obtain ⟨x, _, hx⟩ := Finset.mem_map.mp hm
      have hxe : x = ix2 (n0 := n) (n1 := 768) (x 0) (x 1) := eq_ix2 x
      rw [hxe, hemb (x 0) (x 1)] at hx
      have h0 := congrArg Fin.val (congrFun hx 0)
      have h1 := congrArg Fin.val (congrFun hx 1)
      have hx0 : (x 0).val < n := (x 0).isLt
      change (i 0).val = b.val at h0
      change s + (x 0).val = p.val at h1
      exact h ⟨h0.symm, by omega, by omega⟩
    rw [View.write_of_not_mem _ _ _ hnot, hprev]
    by_cases h2 : b.val = (i 0).val ∧ p.val < s
    · rw [if_pos h2, if_pos ⟨h2.1, by omega⟩]
    · rw [if_neg h2, if_neg]
      intro h3
      exact h ⟨h3.1, by
        by_contra hlt
        exact h2 ⟨h3.1, by omega⟩, h3.2⟩

end Cert.Kernel.KDst

end
-- ==== Proof.VLib.lean ====
import proofs.«422836_j30605936951494_3_alg».proof.Proof.Tri
import Idealize.ShloMosaic.Lib.ValueIdx
import Idealize.ShloMosaic.Lib.Writes
import Idealize.ShloMosaic.Lib.WritesUnit
import Idealize.ShloMosaic.Lib.Pipeline.Value
import Idealize.ShloMosaic.Lib.Pipeline.FrameBody

noncomputable section

namespace Cert.VLib

open Idealize.ShloMosaic Idealize.ShloMosaic.TcCoe Idealize.ShloMosaic.ValueIdx
open Idealize.SL Idealize.SL.Sem

variable {F : FTy → Type} [FloatOps F]

abbrev S256x768 : Shape := ⟨2, ![256, 768]⟩
abbrev S1x768 : Shape := ⟨2, ![1, 768]⟩
abbrev S2x3976x768 : Shape := ⟨3, ![2, 3976, 768]⟩

/-- tanh (P3[a, o] + P4[b, o] + B[0, o]). -/
def rowval (P3 P4 : Vec F S256x768 .f32) (B : Vec F S1x768 .f32) (a b : Fin 256) (o : Fin 768) : Elt F .f32 :=
  FloatOps.tanh (FloatOps.addf (FloatOps.addf (P3 (ix2 a o)) (P4 (ix2 b o))) (B (ix2 0 o)))

theorem broadcastRow_apply {α : Type} {n : Nat} (hb : (⟨2, ![1, 768]⟩ : Shape).Broadcasts ⟨2, ![n, 768]⟩)
    (x : (⟨2, ![1, 768]⟩ : Shape).Idx → α) (d : Fin n) (o : Fin 768) :
    broadcastTo ⟨2, ![n, 768]⟩ x hb (ix2 d o) = x (ix2 0 o) := by
  refine broadcastTo_apply x hb (ix2 d o) (ix2 0 o) fun a => ?_
  match a with
  | ⟨0, _⟩ => rfl
  | ⟨1, _⟩ => rfl

theorem row_F {n : Nat} (hb : (⟨2, ![1, 768]⟩ : Shape).Broadcasts ⟨2, ![n, 768]⟩)
    (hc : (⟨2, ![n, 768]⟩ : Shape).ShapeCasts ⟨3, ![1, n, 768]⟩)
    (bias p1row : Vec F ⟨2, ![1, 768]⟩ .f32) (p2rows : Vec F ⟨2, ![n, 768]⟩ .f32) (d : Fin n) (o : Fin 768) :
    shapeCast ⟨3, ![1, n, 768]⟩
        (tanh (F := F) (φ := .f32) (addf (F := F) (φ := .f32) (addf (F := F) (φ := .f32) (broadcastTo ⟨2, ![n, 768]⟩ p1row hb) p2rows)
          (broadcastTo ⟨2, ![n, 768]⟩ bias hb))) hc (ix3 0 d o)
      = FloatOps.tanh (FloatOps.addf (FloatOps.addf (p1row (ix2 0 o)) (p2rows (ix2 d o))) (bias (ix2 0 o))) := by
  refine (shapeCast_apply _ hc (ix3 0 d o) (ix2 d o) ?_).trans ?_
  · rw [Shape.rowMajor_val_two, Shape.rowMajor_val_three]
    show d.val * 768 + o.val = ((0 : Fin 1).val * n + d.val) * 768 + o.val
    rw [Fin.val_zero, Nat.zero_mul, Nat.zero_add]
  · show FloatOps.tanh (FloatOps.addf (FloatOps.addf (broadcastTo ⟨2, ![n, 768]⟩ p1row hb (ix2 d o)) (p2rows (ix2 d o)))
        (broadcastTo ⟨2, ![n, 768]⟩ bias hb (ix2 d o))) = _
    rw [broadcastRow_apply, broadcastRow_apply]

theorem rowload {sig : RefSig} {κ : Kind} {sp : Space} (v : View sig κ sp (⟨2, ![256, 768]⟩ : Shape) .f32) {n : Nat} (i : Nat)
    (inbP : ∀ a, (![0, 0] : Fin 2 → Nat) a + (⟨2, ![256, 768]⟩ : Shape).size a ≤ (⟨2, ![256, 768]⟩ : Shape).size a)
    (inb : ∀ a, (![i, 0] : Fin 2 → Nat) a + (⟨2, ![n, 768]⟩ : Shape).size a ≤ (⟨2, ![256, 768]⟩ : Shape).size a)
    (P : (⟨2, ![256, 768]⟩ : Shape).Idx → Elt F .f32) (L : List (View.Piece (Elt F) (⟨2, ![256, 768]⟩ : Shape) .f32))
    (d : Fin n) (o : Fin 768) (h : i + d.val < 256) :
    v.readCov (⟨Rect.unit ![0, 0] (⟨2, ![256, 768]⟩ : Shape).size inbP, P⟩ :: L)
        (Rect.unit (s := (⟨2, ![256, 768]⟩ : Shape)) ![i, 0] (⟨2, ![n, 768]⟩ : Shape).size inb).toLoadRect (ix2 d o)
      = P (ix2 ⟨i + d.val, h⟩ o) := by
  rw [View.readCov_eq_canon', View.canon_cons_unit_zero (by funext a; fin_cases a <;> rfl)]
  refine congrArg P ?_
  funext a
  apply Fin.ext
  match a with
  | ⟨0, _⟩ => show i + 1 * d.val = i + d.val; omega
  | ⟨1, _⟩ => show 0 + 1 * o.val = o.val; omega

theorem tri_at (i d : Nat) (h : i + d < 256) :
    Cert.Tri.triRow (Cert.Tri.rowStart i + d) = i ∧ Cert.Tri.triCol (Cert.Tri.rowStart i + d) = i + d := by
  have e : Cert.Tri.rowStart i + d = Cert.Tri.rowStart i + ((i + d) - i) := by omega
  rw [e]
  exact ⟨Cert.Tri.triRow_rowStart_add (Nat.le_add_right _ _) h, Cert.Tri.triCol_rowStart_add (Nat.le_add_right _ _) h⟩

theorem rowStart_eq (i v : Nat) (hi : i ≤ 256) (hv : 2 * v + i * i = 513 * i) : Cert.Tri.rowStart i = v := by
  have := Cert.Tri.two_mul_rowStart i hi
  omega

section Squeezed
variable {sig : RefSig} {κ : Kind} {sp : Space} {e : EltTy} {Val : EltTy → Type} {B N n σ s : Nat}

theorem emb_rows (inb : ∀ a, (![σ, s, 0] : Fin 3 → Nat) a + (⟨3, ![1, n, 768]⟩ : Shape).size a ≤ (⟨3, ![B, N, 768]⟩ : Shape).size a)
    (h : (⟨2, ![n, 768]⟩ : Shape).numel = (⟨3, ![1, n, 768]⟩ : Shape).numel)
    (r : Fin n) (o : Fin 768) (hσ : σ < B) (hr : s + r.val < N) :
    (Rect.unit (s := (⟨3, ![B, N, 768]⟩ : Shape)) ![σ, s, 0] (⟨3, ![1, n, 768]⟩ : Shape).size inb).emb
        (Shape.reshapeEquiv (s := (⟨3, ![1, n, 768]⟩ : Shape)) (s' := (⟨2, ![n, 768]⟩ : Shape)) h (ix2 r o))
      = ix3 (⟨σ, hσ⟩ : Fin B) (⟨s + r.val, hr⟩ : Fin N) o := by
  have e1 : Shape.reshapeEquiv (s := (⟨3, ![1, n, 768]⟩ : Shape)) (s' := (⟨2, ![n, 768]⟩ : Shape)) h (ix2 r o)
      = ix3 (0 : Fin 1) r o := by
    refine Shape.reshapeEquiv_eq_of_rowMajor h ?_
    rw [Shape.rowMajor_val_two, Shape.rowMajor_val_three]
    show ((0 : Fin 1).val * n + r.val) * 768 + o.val = r.val * 768 + o.val
    rw [Fin.val_zero, Nat.zero_mul, Nat.zero_add]
  rw [e1]
  funext a
  apply Fin.ext
  match a with
  | ⟨0, _⟩ => show σ + 1 * 0 = σ; omega
  | ⟨1, _⟩ => show s + 1 * r.val = s + r.val; omega
  | ⟨2, _⟩ => show 0 + 1 * o.val = o.val; omega

theorem read_rows (v : View sig κ sp (⟨3, ![B, N, 768]⟩ : Shape) e)
    (inb : ∀ a, (![σ, s, 0] : Fin 3 → Nat) a + (⟨3, ![1, n, 768]⟩ : Shape).size a ≤ (⟨3, ![B, N, 768]⟩ : Shape).size a)
    (h : (⟨2, ![n, 768]⟩ : Shape).numel = (⟨3, ![1, n, 768]⟩ : Shape).numel)
    (f : v.ty.Contents Val) (r : Fin n) (o : Fin 768) (hσ : σ < B) (hr : s + r.val < N) :
    ((v.slice (Rect.unit ![σ, s, 0] (⟨3, ![1, n, 768]⟩ : Shape).size inb)).reshape (⟨2, ![n, 768]⟩ : Shape) h).read Val f (ix2 r o)
      = v.read Val f (ix3 (⟨σ, hσ⟩ : Fin B) (⟨s + r.val, hr⟩ : Fin N) o) := by
  rw [View.read_apply, View.read_apply]
  show _root_.cast _ (f (v.emb ((Rect.unit (s := (⟨3, ![B, N, 768]⟩ : Shape)) ![σ, s, 0] (⟨3, ![1, n, 768]⟩ : Shape).size inb).emb
      (Shape.reshapeEquiv h (ix2 r o))))) = _
  rw [emb_rows inb h r o hσ hr]

end Squeezed

theorem readAt_unit_zero {sig : RefSig} {κ : Kind} {sp : Space} {S : Shape} {e : EltTy} {Val : EltTy → Type}
    (v : View sig κ sp S e) {off : Fin S.rank → Nat} (h : off = fun _ => 0)
    (inb : ∀ a, off a + S.size a ≤ S.size a) (f : v.ty.Contents Val) :
    v.readAt Val (Rect.unit off S.size inb).toLoadRect f = v.read Val f :=
  (View.readAt_eq_ld v f (Rect.unit off S.size inb)).trans (View.ld_unit_zero h inb _)

/-- The entry of packed position k: rowval at the pair (triRow k, triCol k). -/
def valAt (P3 P4 : Vec F S256x768 .f32) (B : Vec F S1x768 .f32) (k : Nat) (o : Fin 768) : Elt F .f32 :=
  rowval P3 P4 B ⟨Cert.Tri.triRow k, Cert.Tri.triRow_lt k⟩ ⟨Cert.Tri.triCol k % 256, Nat.mod_lt _ (by decide)⟩ o

theorem valAt_fin (P3 P4 : Vec F S256x768 .f32) (B : Vec F S1x768 .f32) (p : Fin 32896) (o : Fin 768) :
    valAt P3 P4 B p.val o
      = rowval P3 P4 B ⟨Cert.Tri.triRow p.val, Cert.Tri.triRow_lt _⟩ ⟨Cert.Tri.triCol p.val, Cert.Tri.triCol_lt _ p.isLt⟩ o := by
  unfold valAt
  congr 1
  exact Fin.ext (Nat.mod_eq_of_lt (Cert.Tri.triCol_lt _ p.isLt))

theorem valAt_row (P3 P4 : Vec F S256x768 .f32) (B : Vec F S1x768 .f32) (i d : Nat) (h : i + d < 256) (o : Fin 768) :
    valAt P3 P4 B (Cert.Tri.rowStart i + d) o = rowval P3 P4 B ⟨i, by omega⟩ ⟨i + d, h⟩ o := by
  obtain ⟨h1, h2⟩ := tri_at i d h
  unfold valAt
  congr 1
  · exact Fin.ext h1
  · refine Fin.ext ?_
    show Cert.Tri.triCol (Cert.Tri.rowStart i + d) % 256 = i + d
    rw [h2]
    exact Nat.mod_eq_of_lt h

open Lean Elab Tactic Meta in

elab "unfold_run_lists_above " pre:str n:num : tactic => do
  let g ← getMainGoal
  let p := pre.getString
  let bound := n.getNat
  let isList (nm : Name) : Bool :=
    nm.components.dropLast.any (· == `sl) &&
      (match nm with
        | .str _ s => s.startsWith p && (match (s.drop p.length).toNat? with | some k => k > bound | none => false)
        | _ => false)
  let mut t ← instantiateMVars (← g.getType)
  for _ in [0:256] do
    let t' ← Meta.deltaExpand t isList
    if t' == t then break
    t := t'
  replaceMainGoal [← g.replaceTargetDefEq t]

theorem valAt_at (P3 P4 : Vec F S256x768 .f32) (B : Vec F S1x768 .f32) (i v k d : Nat) (hk : k = v + d)
    (hv : 2 * v + i * i = 513 * i) (h : i + d < 256) (o : Fin 768) :
    valAt P3 P4 B k o = rowval P3 P4 B ⟨i, by omega⟩ ⟨i + d, h⟩ o := by
  rw [hk, ← rowStart_eq i v (by omega) hv]
  exact valAt_row P3 P4 B i d h o

/-- The row arithmetic on rows i … 255 of the second projection against row i of the first, read at (0, d, o): the pair (i, i + d). -/
theorem piece_val {sig0 sig1 : RefSig} {κ0 κ1 : Kind} {sp0 sp1 : Space}
    {v0 : View sig0 κ0 sp0 (⟨2, ![256, 768]⟩ : Shape) .f32} {v1 : View sig1 κ1 sp1 (⟨2, ![256, 768]⟩ : Shape) .f32} {n : Nat} (i : Nat)
    (hin : i + n = 256)
    {inbP0 inbP1 : ∀ a, (![0, 0] : Fin 2 → Nat) a + (⟨2, ![256, 768]⟩ : Shape).size a ≤ (⟨2, ![256, 768]⟩ : Shape).size a}
    {inb1 : ∀ a, (![i, 0] : Fin 2 → Nat) a + (⟨2, ![1, 768]⟩ : Shape).size a ≤ (⟨2, ![256, 768]⟩ : Shape).size a}
    {inb2 : ∀ a, (![i, 0] : Fin 2 → Nat) a + (⟨2, ![n, 768]⟩ : Shape).size a ≤ (⟨2, ![256, 768]⟩ : Shape).size a}
    {hb : (⟨2, ![1, 768]⟩ : Shape).Broadcasts ⟨2, ![n, 768]⟩} {hc : (⟨2, ![n, 768]⟩ : Shape).ShapeCasts ⟨3, ![1, n, 768]⟩}
    {P3 P4 : Vec F S256x768 .f32} {B : Vec F S1x768 .f32}
    {L0 L1 : List (View.Piece (Elt F) (⟨2, ![256, 768]⟩ : Shape) .f32)} (d : Fin n) (o : Fin 768) :
    shapeCast ⟨3, ![1, n, 768]⟩
        (tanh (F := F) (φ := .f32) (addf (F := F) (φ := .f32) (addf (F := F) (φ := .f32)
            (broadcastTo ⟨2, ![n, 768]⟩
              (v0.readCov (⟨Rect.unit ![0, 0] (⟨2, ![256, 768]⟩ : Shape).size inbP0, P3⟩ :: L0)
                (Rect.unit (s := (⟨2, ![256, 768]⟩ : Shape)) ![i, 0] (⟨2, ![1, 768]⟩ : Shape).size inb1).toLoadRect) hb)
            (v1.readCov (⟨Rect.unit ![0, 0] (⟨2, ![256, 768]⟩ : Shape).size inbP1, P4⟩ :: L1)
              (Rect.unit (s := (⟨2, ![256, 768]⟩ : Shape)) ![i, 0] (⟨2, ![n, 768]⟩ : Shape).size inb2).toLoadRect))
          (broadcastTo ⟨2, ![n, 768]⟩ B hb))) hc (ix3 0 d o)
      = rowval P3 P4 B ⟨i, by have := d.isLt; omega⟩ ⟨i + d.val, by have := d.isLt; omega⟩ o := by
  refine (row_F hb hc B _ _ d o).trans ?_
  rw [rowload v0 i inbP0 inb1 P3 L0 (0 : Fin 1) o (by have := d.isLt; show i + 0 < 256; omega), rowload v1 i inbP1 inb2 P4 L1 d o (by have := d.isLt; omega)]
  rfl

theorem piece_val_last {sig0 sig1 : RefSig} {κ0 κ1 : Kind} {sp0 sp1 : Space}
    {v0 : View sig0 κ0 sp0 (⟨2, ![256, 768]⟩ : Shape) .f32} {v1 : View sig1 κ1 sp1 (⟨2, ![256, 768]⟩ : Shape) .f32} (i : Nat)
    (hin : i + 1 = 256)
    {inbP0 inbP1 : ∀ a, (![0, 0] : Fin 2 → Nat) a + (⟨2, ![256, 768]⟩ : Shape).size a ≤ (⟨2, ![256, 768]⟩ : Shape).size a}
    {inb1 inb2 : ∀ a, (![i, 0] : Fin 2 → Nat) a + (⟨2, ![1, 768]⟩ : Shape).size a ≤ (⟨2, ![256, 768]⟩ : Shape).size a}
    {hc : (⟨2, ![1, 768]⟩ : Shape).ShapeCasts ⟨3, ![1, 1, 768]⟩}
    {P3 P4 : Vec F S256x768 .f32} {B : Vec F S1x768 .f32}
    {L0 L1 : List (View.Piece (Elt F) (⟨2, ![256, 768]⟩ : Shape) .f32)} (d : Fin 1) (o : Fin 768) :
    shapeCast ⟨3, ![1, 1, 768]⟩
        (tanh (F := F) (φ := .f32) (addf (F := F) (φ := .f32) (addf (F := F) (φ := .f32)
            (v0.readCov (⟨Rect.unit ![0, 0] (⟨2, ![256, 768]⟩ : Shape).size inbP0, P3⟩ :: L0)
              (Rect.unit (s := (⟨2, ![256, 768]⟩ : Shape)) ![i, 0] (⟨2, ![1, 768]⟩ : Shape).size inb1).toLoadRect)
            (v1.readCov (⟨Rect.unit ![0, 0] (⟨2, ![256, 768]⟩ : Shape).size inbP1, P4⟩ :: L1)
              (Rect.unit (s := (⟨2, ![256, 768]⟩ : Shape)) ![i, 0] (⟨2, ![1, 768]⟩ : Shape).size inb2).toLoadRect))
          B)) hc (ix3 0 d o)
      = rowval P3 P4 B ⟨i, by omega⟩ ⟨i + d.val, by have := d.isLt; omega⟩ o := by
  obtain rfl : d = 0 := Subsingleton.elim _ _
  refine (shapeCast_apply _ hc (ix3 0 (0 : Fin 1) o) (ix2 (0 : Fin 1) o) ?_).trans ?_
  · rw [Shape.rowMajor_val_two, Shape.rowMajor_val_three]
    show (0 : Fin 1).val * 768 + o.val = ((0 : Fin 1).val * 1 + (0 : Fin 1).val) * 768 + o.val
    rw [Fin.val_zero, Nat.zero_mul, Nat.zero_add]
  · show FloatOps.tanh (FloatOps.addf (FloatOps.addf
        (v0.readCov (⟨Rect.unit ![0, 0] (⟨2, ![256, 768]⟩ : Shape).size inbP0, P3⟩ :: L0)
          (Rect.unit (s := (⟨2, ![256, 768]⟩ : Shape)) ![i, 0] (⟨2, ![1, 768]⟩ : Shape).size inb1).toLoadRect (ix2 (0 : Fin 1) o))
        (v1.readCov (⟨Rect.unit ![0, 0] (⟨2, ![256, 768]⟩ : Shape).size inbP1, P4⟩ :: L1)
          (Rect.unit (s := (⟨2, ![256, 768]⟩ : Shape)) ![i, 0] (⟨2, ![1, 768]⟩ : Shape).size inb2).toLoadRect (ix2 (0 : Fin 1) o)))
        (B (ix2 (0 : Fin 1) o))) = _
    rw [rowload v0 i inbP0 inb1 P3 L0 (0 : Fin 1) o (by show i + 0 < 256; omega),
      rowload v1 i inbP1 inb2 P4 L1 (0 : Fin 1) o (by show i + 0 < 256; omega)]
    rfl

/-- The entry of packed position off + q, as a function of the index (·, q, o). -/
def stageVal (P3 P4 : Vec F S256x768 .f32) (B : Vec F S1x768 .f32) (off : Nat) : S2x3976x768.Idx → Elt F .f32 :=
  fun y => valAt P3 P4 B (off + (y 1).val) (y 2)

theorem stageVal_eq (P3 P4 : Vec F S256x768 .f32) (B : Vec F S1x768 .f32) (off : Nat) (b : Fin 2) (q : Nat) (hq : 0 + q < 3976)
    (o : Fin 768) : stageVal P3 P4 B off (ix3 b (⟨0 + q, hq⟩ : Fin 3976) o) = valAt P3 P4 B (off + q) o := by
  show valAt P3 P4 B (off + (0 + q)) o = _
  rw [Nat.zero_add]

theorem stageVal_at {P3 P4 : Vec F S256x768 .f32} {B : Vec F S1x768 .f32} (off i v σ oi d : Nat) (o : Fin 768)
    (hσ : σ < 2) (hq : oi + d < 3976) (hk : off + oi = v) (hv : 2 * v + i * i = 513 * i) (h : i + d < 256) :
    stageVal P3 P4 B off (ix3 (⟨σ, hσ⟩ : Fin 2) (⟨oi + d, hq⟩ : Fin 3976) o) = rowval P3 P4 B ⟨i, by omega⟩ ⟨i + d, h⟩ o :=
  valAt_at P3 P4 B i v (off + (oi + d)) d (by omega) hv h o

/-- A list of writes read newest first: inside the newest box the payload, which is row i of the triangle; below the box the older writes. -/
theorem step_of {sigv : RefSig} {κv : Kind} {spv : Space} {v : View sigv κv spv S2x3976x768 .f32}
    {f : v.ty.Contents (Elt F)} {L : List (View.Piece (Elt F) S2x3976x768 .f32)} {σ oi n i off q : Nat}
    {inb : ∀ a, (![σ, oi, 0] : Fin 3 → Nat) a + (⟨3, ![1, n, 768]⟩ : Shape).size a ≤ S2x3976x768.size a}
    {w : (⟨3, ![1, n, 768]⟩ : Shape).Idx → Elt F .f32} {P3 P4 : Vec F S256x768 .f32} {B : Vec F S1x768 .f32}
    {hσ : σ < 2} {hq' : q < 3976} {o : Fin 768} (hin : i + n = 256)
    (hw : ∀ (d : Fin n) (o : Fin 768), w (ix3 0 d o) = rowval P3 P4 B ⟨i, by have := d.isLt; omega⟩ ⟨i + d.val, by have := d.isLt; omega⟩ o)
    (hv : 2 * (off + oi) + i * i = 513 * i) (hq : q < oi + n)
    (hrest : q < oi → v.read (Elt F) (v.writes (Elt F) f L) (ix3 ⟨σ, hσ⟩ ⟨q, hq'⟩ o) = stageVal P3 P4 B off (ix3 ⟨σ, hσ⟩ ⟨q, hq'⟩ o)) :
    v.read (Elt F) (v.writes (Elt F) f (⟨Rect.unit ![σ, oi, 0] (⟨3, ![1, n, 768]⟩ : Shape).size inb, w⟩ :: L)) (ix3 ⟨σ, hσ⟩ ⟨q, hq'⟩ o)
      = stageVal P3 P4 B off (ix3 ⟨σ, hσ⟩ ⟨q, hq'⟩ o) := by
  rcases Nat.lt_or_ge q oi with h | h
  · exact (View.read_writes_cons_unit_of_not_mem v f inb w L _ rfl 1 (Or.inl h)).trans (hrest h)
  · have hd : q - oi < n := by omega
    have hqe : q = oi + (q - oi) := by omega
    refine (View.read_writes_cons_unit_of_mem v f inb w L _ (ix3 0 ⟨q - oi, hd⟩ o) rfl fun a => ?_).trans ?_
    · match a with
      | ⟨0, _⟩ => exact (Nat.add_zero σ).symm
      | ⟨1, _⟩ => exact hqe
      | ⟨2, _⟩ => exact (Nat.zero_add o.val).symm
    · rw [hw]
      have e : (⟨q, hq'⟩ : Fin 3976) = ⟨oi + (q - oi), hqe ▸ hq'⟩ := Fin.ext hqe
      rw [e]
      exact (stageVal_at off i (off + oi) σ oi (q - oi) o hσ _ rfl hv (by omega)).symm

end Cert.VLib

end
-- ==== Proof.KernelChunks.lean ====
import proofs.«422836_j30605936951494_3_alg».proof.Proof.KernelRun
import proofs.«422836_j30605936951494_3_alg».proof.Proof.VLib

noncomputable section

namespace Cert.Kernel.Chunks

open Cert.Kernel Cert.Kernel.Gen Cert.Kernel.Run Cert.LibRejoin
open Idealize.ShloMosaic Idealize.ShloMosaic.TcCoe Idealize.ShloMosaic.ValueIdx
open Idealize.SL Idealize.SL.Sem

variable {F : FTy → Type} [FloatOps F] (c : Dev nD) (M0 : Memref sig .tc .vmem S1x256x768 .f32)
  (M1 : Memref sig .tc .vmem S768x1536 .f32) (M2 : Memref sig .tc .vmem S1x768 .f32) (f0 : Bf (F := F) c M0)
  (f1 : Bf (F := F) c M1) (f2 : Bf (F := F) c M2) (g2 : Bf (F := F) c (Memref.whole cc0_scratch2))

/-- Entry (k, o) of the batch's packed result. -/
def vals (k : Nat) (o : Fin 768) : Elt F .f32 :=
  VLib.valAt
    (k0_pay3 (M0.view.readAt (Elt F) (Rect.unit ![0, 0, 0] S1x256x768.size inb_S1x256x768_S1x256x768_0_0_0).toLoadRect f0)
      (M1.view.readAt (Elt F) (Rect.unit ![0, 0] S768x1536.size inb_S768x1536_S768x1536_0_0).toLoadRect f1))
    (k0_pay4 (M0.view.readAt (Elt F) (Rect.unit ![0, 0, 0] S1x256x768.size inb_S1x256x768_S1x256x768_0_0_0).toLoadRect f0)
      (M1.view.readAt (Elt F) (Rect.unit ![0, 0] S768x1536.size inb_S768x1536_S768x1536_0_0).toLoadRect f1))
    (k0_pay5 (M2.view.readAt (Elt F) (Rect.unit ![0, 0] S1x768.size inb_S1x768_S1x768_0_0).toLoadRect f2)) k o

theorem vals_eq (k : Nat) (o : Fin 768) :
    vals c M0 M1 M2 f0 f1 f2 k o
      = VLib.valAt (k0_pay3 (M0.view.read (Elt F) f0) (M1.view.read (Elt F) f1))
          (k0_pay4 (M0.view.read (Elt F) f0) (M1.view.read (Elt F) f1)) (k0_pay5 (M2.view.read (Elt F) f2)) k o := by
  unfold vals
  rw [VLib.readAt_unit_zero M0.view (by funext a; fin_cases a <;> rfl), VLib.readAt_unit_zero M1.view (by funext a; fin_cases a <;> rfl),
    VLib.readAt_unit_zero M2.view (by funext a; fin_cases a <;> rfl)]

/-- The k-th copied block at (r, o) is the packed result at position off_k + r, by reading the sixteen newest writes (chunk1 … chunk15 likewise). -/
theorem chunk0 (r : Fin 3976) (o : Fin 768) :
    kernelRun.sl.dma71 c M0 M1 M2 f0 f1 f2 g2 (ix2 r o) = vals c M0 M1 M2 f0 f1 f2 (0 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 0 (⟨0, by decide⟩ : Fin 2) r.val (by have := r.isLt; omega) o)
  unfold_run_lists_above "Hg2_" 0
  unfold_run_lists "r"; unfold_run_lists "v"; unfold_run_lists "Hg0"; unfold_run_lists "Hg1"
  have hq : 0 + r.val < 3976 := by have := r.isLt; omega
  iterate 16 refine VLib.step_of (by decide) (VLib.piece_val _ (by decide)) (by decide) (by omega) fun hq => ?_
  exact absurd hq (Nat.not_lt_zero _)

theorem chunk1 (r : Fin 3720) (o : Fin 768) :
    kernelRun.sl.dma135 c M0 M1 M2 f0 f1 f2 g2 (ix2 r o) = vals c M0 M1 M2 f0 f1 f2 (3976 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 3976 (⟨1, by decide⟩ : Fin 2) r.val (by have := r.isLt; omega) o)
  unfold_run_lists_above "Hg2_" 16
  unfold_run_lists "r"; unfold_run_lists "v"; unfold_run_lists "Hg0"; unfold_run_lists "Hg1"
  have hq : 0 + r.val < 3720 := by have := r.isLt; omega
  iterate 16 refine VLib.step_of (by decide) (VLib.piece_val _ (by decide)) (by decide) (by omega) fun hq => ?_
  exact absurd hq (Nat.not_lt_zero _)

theorem chunk2 (r : Fin 3464) (o : Fin 768) :
    kernelRun.sl.dma62 c M0 M1 M2 f0 f1 f2 g2 (ix2 r o) = vals c M0 M1 M2 f0 f1 f2 (7696 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 7696 (⟨0, by decide⟩ : Fin 2) r.val (by have := r.isLt; omega) o)
  unfold_run_lists_above "Hg2_" 32
  unfold_run_lists "r"; unfold_run_lists "v"; unfold_run_lists "Hg0"; unfold_run_lists "Hg1"
  have hq : 0 + r.val < 3464 := by have := r.isLt; omega
  iterate 16 refine VLib.step_of (by decide) (VLib.piece_val _ (by decide)) (by decide) (by omega) fun hq => ?_
  exact absurd hq (Nat.not_lt_zero _)

theorem chunk3 (r : Fin 3208) (o : Fin 768) :
    kernelRun.sl.dma62_1 c M0 M1 M2 f0 f1 f2 g2 (ix2 r o) = vals c M0 M1 M2 f0 f1 f2 (11160 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 11160 (⟨1, by decide⟩ : Fin 2) r.val (by have := r.isLt; omega) o)
  unfold_run_lists_above "Hg2_" 48
  unfold_run_lists "r"; unfold_run_lists "v"; unfold_run_lists "Hg0"; unfold_run_lists "Hg1"
  have hq : 0 + r.val < 3208 := by have := r.isLt; omega
  iterate 16 refine VLib.step_of (by decide) (VLib.piece_val _ (by decide)) (by decide) (by omega) fun hq => ?_
  exact absurd hq (Nat.not_lt_zero _)

theorem chunk4 (r : Fin 2952) (o : Fin 768) :
    kernelRun.sl.dma62_2 c M0 M1 M2 f0 f1 f2 g2 (ix2 r o) = vals c M0 M1 M2 f0 f1 f2 (14368 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 14368 (⟨0, by decide⟩ : Fin 2) r.val (by have := r.isLt; omega) o)
  unfold_run_lists_above "Hg2_" 64
  unfold_run_lists "r"; unfold_run_lists "v"; unfold_run_lists "Hg0"; unfold_run_lists "Hg1"
  have hq : 0 + r.val < 2952 := by have := r.isLt; omega
  iterate 16 refine VLib.step_of (by decide) (VLib.piece_val _ (by decide)) (by decide) (by omega) fun hq => ?_
  exact absurd hq (Nat.not_lt_zero _)

theorem chunk5 (r : Fin 2696) (o : Fin 768) :
    kernelRun.sl.dma62_3 c M0 M1 M2 f0 f1 f2 g2 (ix2 r o) = vals c M0 M1 M2 f0 f1 f2 (17320 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 17320 (⟨1, by decide⟩ : Fin 2) r.val (by have := r.isLt; omega) o)
  unfold_run_lists_above "Hg2_" 80
  unfold_run_lists "r"; unfold_run_lists "v"; unfold_run_lists "Hg0"; unfold_run_lists "Hg1"
  have hq : 0 + r.val < 2696 := by have := r.isLt; omega
  iterate 16 refine VLib.step_of (by decide) (VLib.piece_val _ (by decide)) (by decide) (by omega) fun hq => ?_
  exact absurd hq (Nat.not_lt_zero _)

theorem chunk6 (r : Fin 2440) (o : Fin 768) :
    kernelRun.sl.dma62_4 c M0 M1 M2 f0 f1 f2 g2 (ix2 r o) = vals c M0 M1 M2 f0 f1 f2 (20016 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 20016 (⟨0, by decide⟩ : Fin 2) r.val (by have := r.isLt; omega) o)
  unfold_run_lists_above "Hg2_" 96
  unfold_run_lists "r"; unfold_run_lists "v"; unfold_run_lists "Hg0"; unfold_run_lists "Hg1"
  have hq : 0 + r.val < 2440 := by have := r.isLt; omega
  iterate 16 refine VLib.step_of (by decide) (VLib.piece_val _ (by decide)) (by decide) (by omega) fun hq => ?_
  exact absurd hq (Nat.not_lt_zero _)

theorem chunk7 (r : Fin 2184) (o : Fin 768) :
    kernelRun.sl.dma62_5 c M0 M1 M2 f0 f1 f2 g2 (ix2 r o) = vals c M0 M1 M2 f0 f1 f2 (22456 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 22456 (⟨1, by decide⟩ : Fin 2) r.val (by have := r.isLt; omega) o)
  unfold_run_lists_above "Hg2_" 112
  unfold_run_lists "r"; unfold_run_lists "v"; unfold_run_lists "Hg0"; unfold_run_lists "Hg1"
  have hq : 0 + r.val < 2184 := by have := r.isLt; omega
  iterate 16 refine VLib.step_of (by decide) (VLib.piece_val _ (by decide)) (by decide) (by omega) fun hq => ?_
  exact absurd hq (Nat.not_lt_zero _)

theorem chunk8 (r : Fin 1928) (o : Fin 768) :
    kernelRun.sl.dma62_6 c M0 M1 M2 f0 f1 f2 g2 (ix2 r o) = vals c M0 M1 M2 f0 f1 f2 (24640 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 24640 (⟨0, by decide⟩ : Fin 2) r.val (by have := r.isLt; omega) o)
  unfold_run_lists_above "Hg2_" 128
  unfold_run_lists "r"; unfold_run_lists "v"; unfold_run_lists "Hg0"; unfold_run_lists "Hg1"
  have hq : 0 + r.val < 1928 := by have := r.isLt; omega
  iterate 16 refine VLib.step_of (by decide) (VLib.piece_val _ (by decide)) (by decide) (by omega) fun hq => ?_
  exact absurd hq (Nat.not_lt_zero _)

theorem chunk9 (r : Fin 1672) (o : Fin 768) :
    kernelRun.sl.dma62_7 c M0 M1 M2 f0 f1 f2 g2 (ix2 r o) = vals c M0 M1 M2 f0 f1 f2 (26568 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 26568 (⟨1, by decide⟩ : Fin 2) r.val (by have := r.isLt; omega) o)
  unfold_run_lists_above "Hg2_" 144
  unfold_run_lists "r"; unfold_run_lists "v"; unfold_run_lists "Hg0"; unfold_run_lists "Hg1"
  have hq : 0 + r.val < 1672 := by have := r.isLt; omega
  iterate 16 refine VLib.step_of (by decide) (VLib.piece_val _ (by decide)) (by decide) (by omega) fun hq => ?_
  exact absurd hq (Nat.not_lt_zero _)

theorem chunk10 (r : Fin 1416) (o : Fin 768) :
    kernelRun.sl.dma62_8 c M0 M1 M2 f0 f1 f2 g2 (ix2 r o) = vals c M0 M1 M2 f0 f1 f2 (28240 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 28240 (⟨0, by decide⟩ : Fin 2) r.val (by have := r.isLt; omega) o)
  unfold_run_lists_above "Hg2_" 160
  unfold_run_lists "r"; unfold_run_lists "v"; unfold_run_lists "Hg0"; unfold_run_lists "Hg1"
  have hq : 0 + r.val < 1416 := by have := r.isLt; omega
  iterate 16 refine VLib.step_of (by decide) (VLib.piece_val _ (by decide)) (by decide) (by omega) fun hq => ?_
  exact absurd hq (Nat.not_lt_zero _)

theorem chunk11 (r : Fin 1160) (o : Fin 768) :
    kernelRun.sl.dma62_9 c M0 M1 M2 f0 f1 f2 g2 (ix2 r o) = vals c M0 M1 M2 f0 f1 f2 (29656 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 29656 (⟨1, by decide⟩ : Fin 2) r.val (by have := r.isLt; omega) o)
  unfold_run_lists_above "Hg2_" 176
  unfold_run_lists "r"; unfold_run_lists "v"; unfold_run_lists "Hg0"; unfold_run_lists "Hg1"
  have hq : 0 + r.val < 1160 := by have := r.isLt; omega
  iterate 16 refine VLib.step_of (by decide) (VLib.piece_val _ (by decide)) (by decide) (by omega) fun hq => ?_
  exact absurd hq (Nat.not_lt_zero _)

theorem chunk12 (r : Fin 904) (o : Fin 768) :
    kernelRun.sl.dma62_10 c M0 M1 M2 f0 f1 f2 g2 (ix2 r o) = vals c M0 M1 M2 f0 f1 f2 (30816 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 30816 (⟨0, by decide⟩ : Fin 2) r.val (by have := r.isLt; omega) o)
  unfold_run_lists_above "Hg2_" 192
  unfold_run_lists "r"; unfold_run_lists "v"; unfold_run_lists "Hg0"; unfold_run_lists "Hg1"
  have hq : 0 + r.val < 904 := by have := r.isLt; omega
  iterate 16 refine VLib.step_of (by decide) (VLib.piece_val _ (by decide)) (by decide) (by omega) fun hq => ?_
  exact absurd hq (Nat.not_lt_zero _)

theorem chunk13 (r : Fin 648) (o : Fin 768) :
    kernelRun.sl.dma62_11 c M0 M1 M2 f0 f1 f2 g2 (ix2 r o) = vals c M0 M1 M2 f0 f1 f2 (31720 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 31720 (⟨1, by decide⟩ : Fin 2) r.val (by have := r.isLt; omega) o)
  unfold_run_lists_above "Hg2_" 208
  unfold_run_lists "r"; unfold_run_lists "v"; unfold_run_lists "Hg0"; unfold_run_lists "Hg1"
  have hq : 0 + r.val < 648 := by have := r.isLt; omega
  iterate 16 refine VLib.step_of (by decide) (VLib.piece_val _ (by decide)) (by decide) (by omega) fun hq => ?_
  exact absurd hq (Nat.not_lt_zero _)

theorem chunk14 (r : Fin 392) (o : Fin 768) :
    kernelRun.sl.dma62_12 c M0 M1 M2 f0 f1 f2 g2 (ix2 r o) = vals c M0 M1 M2 f0 f1 f2 (32368 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 32368 (⟨0, by decide⟩ : Fin 2) r.val (by have := r.isLt; omega) o)
  unfold_run_lists_above "Hg2_" 224
  unfold_run_lists "r"; unfold_run_lists "v"; unfold_run_lists "Hg0"; unfold_run_lists "Hg1"
  have hq : 0 + r.val < 392 := by have := r.isLt; omega
  iterate 16 refine VLib.step_of (by decide) (VLib.piece_val _ (by decide)) (by decide) (by omega) fun hq => ?_
  exact absurd hq (Nat.not_lt_zero _)

theorem chunk15 (r : Fin 136) (o : Fin 768) :
    kernelRun.sl.dma62_13 c M0 M1 M2 f0 f1 f2 g2 (ix2 r o) = vals c M0 M1 M2 f0 f1 f2 (32760 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 32760 (⟨1, by decide⟩ : Fin 2) r.val (by have := r.isLt; omega) o)
  unfold_run_lists_above "Hg2_" 240
  unfold_run_lists "r"; unfold_run_lists "v"; unfold_run_lists "Hg0"; unfold_run_lists "Hg1"
  have hq : 0 + r.val < 136 := by have := r.isLt; omega
  refine VLib.step_of (by decide) (VLib.piece_val_last _ (by decide)) (by decide) (by omega) fun hq => ?_
  iterate 15 refine VLib.step_of (by decide) (VLib.piece_val _ (by decide)) (by decide) (by omega) fun hq => ?_
  exact absurd hq (Nat.not_lt_zero _)

end Cert.Kernel.Chunks

end
-- ==== Proof.KernelValue.lean ====
import proofs.«422836_j30605936951494_3_alg».proof.Proof.KernelSlab
import proofs.«422836_j30605936951494_3_alg».proof.Proof.KernelDst
import proofs.«422836_j30605936951494_3_alg».proof.Proof.KernelChunks

noncomputable section

namespace Cert.Kernel.KValue

open Cert.Kernel Cert.Kernel.Gen Cert.Kernel.Run
open Idealize.ShloMosaic Idealize.ShloMosaic.TcCoe Idealize.ShloMosaic.ValueIdx
open Idealize.SL Idealize.SL.Sem

variable {F : FTy → Type} [FloatOps F]

theorem slab_eq_valAt (x0 : Vec F S1x256x768 .f32) (x1 : Vec F S768x1536 .f32) (x2 : Vec F S1x768 .f32) (p : Fin 32896)
    (o : Fin 768) : slab x0 x1 x2 p o = VLib.valAt (k0_pay3 x0 x1) (k0_pay4 x0 x1) (k0_pay5 x2) p.val o := by
  rw [VLib.valAt_fin]
  rfl

/-- What one grid point leaves in the result: the sixteen copied chunks tile the batch's rows, each entry at its value. -/
theorem kernelRun_val (c : Dev nD) (i : grid0.Coords)
    (M0 : Memref sig .tc .vmem S1x256x768 .f32) (h0 : M0.IsWhole) (M1 : Memref sig .tc .vmem S768x1536 .f32) (h1 : M1.IsWhole)
    (M2 : Memref sig .tc .vmem S1x768 .f32) (h2 : M2.IsWhole)
    (f0 : Bf (F := F) c M0) (f1 : Bf (F := F) c M1) (f2 : Bf (F := F) c M2)
    (fv : Bf (F := F) c (Memref.whole main_v1)) (g2 : Bf (F := F) c (Memref.whole cc0_scratch2)) :
    (kernelRun c i M0 h0 M1 h1 M2 h2 f0 f1 f2 fv g2).1
      = pointResult c i (M0.view.read (Elt F) f0) (M1.view.read (Elt F) f1) (M2.view.read (Elt F) f2) fv := by
  have H : ∀ (b : Fin 4) (p : Fin 32896) (o : Fin 768), kernelRun.sl.Hv_w0_14 c i M0 M1 M2 f0 f1 f2 fv g2 (ix3 b p o)
      = if b.val = (i 0).val ∧ p.val < 32896 then Chunks.vals c M0 M1 M2 f0 f1 f2 p.val o else fv (ix3 b p o) := by
    refine KDst.dst_step c i 136 32760 (by omega) _ (Gen.k0_off16_eq i) _ _ _ fv _ _ (fun p o => Chunks.vals c M0 M1 M2 f0 f1 f2 p.val o) ?_ (Chunks.chunk15 c M0 M1 M2 f0 f1 f2 g2)
    refine KDst.dst_step c i 392 32368 (by omega) _ (Gen.k0_off15_eq i) _ _ _ fv _ _ _ ?_ (Chunks.chunk14 c M0 M1 M2 f0 f1 f2 g2)
    refine KDst.dst_step c i 648 31720 (by omega) _ (Gen.k0_off14_eq i) _ _ _ fv _ _ _ ?_ (Chunks.chunk13 c M0 M1 M2 f0 f1 f2 g2)
    refine KDst.dst_step c i 904 30816 (by omega) _ (Gen.k0_off13_eq i) _ _ _ fv _ _ _ ?_ (Chunks.chunk12 c M0 M1 M2 f0 f1 f2 g2)
    refine KDst.dst_step c i 1160 29656 (by omega) _ (Gen.k0_off12_eq i) _ _ _ fv _ _ _ ?_ (Chunks.chunk11 c M0 M1 M2 f0 f1 f2 g2)
    refine KDst.dst_step c i 1416 28240 (by omega) _ (Gen.k0_off11_eq i) _ _ _ fv _ _ _ ?_ (Chunks.chunk10 c M0 M1 M2 f0 f1 f2 g2)
    refine KDst.dst_step c i 1672 26568 (by omega) _ (Gen.k0_off10_eq i) _ _ _ fv _ _ _ ?_ (Chunks.chunk9 c M0 M1 M2 f0 f1 f2 g2)
    refine KDst.dst_step c i 1928 24640 (by omega) _ (Gen.k0_off9_eq i) _ _ _ fv _ _ _ ?_ (Chunks.chunk8 c M0 M1 M2 f0 f1 f2 g2)
    refine KDst.dst_step c i 2184 22456 (by omega) _ (Gen.k0_off8_eq i) _ _ _ fv _ _ _ ?_ (Chunks.chunk7 c M0 M1 M2 f0 f1 f2 g2)
    refine KDst.dst_step c i 2440 20016 (by omega) _ (Gen.k0_off7_eq i) _ _ _ fv _ _ _ ?_ (Chunks.chunk6 c M0 M1 M2 f0 f1 f2 g2)
    refine KDst.dst_step c i 2696 17320 (by omega) _ (Gen.k0_off6_eq i) _ _ _ fv _ _ _ ?_ (Chunks.chunk5 c M0 M1 M2 f0 f1 f2 g2)
    refine KDst.dst_step c i 2952 14368 (by omega) _ (Gen.k0_off5_eq i) _ _ _ fv _ _ _ ?_ (Chunks.chunk4 c M0 M1 M2 f0 f1 f2 g2)
    refine KDst.dst_step c i 3208 11160 (by omega) _ (Gen.k0_off4_eq i) _ _ _ fv _ _ _ ?_ (Chunks.chunk3 c M0 M1 M2 f0 f1 f2 g2)
    refine KDst.dst_step c i 3464 7696 (by omega) _ (Gen.k0_off3_eq i) _ _ _ fv _ _ _ ?_ (Chunks.chunk2 c M0 M1 M2 f0 f1 f2 g2)
    refine KDst.dst_step c i 3720 3976 (by omega) _ (Gen.k0_off2_eq i) _ _ _ fv _ _ _ ?_ (Chunks.chunk1 c M0 M1 M2 f0 f1 f2 g2)
    refine KDst.dst_step c i 3976 0 (by omega) _ (Gen.k0_off1_eq i) _ _ _ fv _ _ _ ?_ (Chunks.chunk0 c M0 M1 M2 f0 f1 f2 g2)
    exact fun b p o => (if_neg fun h => absurd h.2 (Nat.not_lt_zero _)).symm
  funext idx
  rw [eq_ix3 idx]
  refine (H _ _ _).trans ?_
  show _ = if (idx 0).val = (i 0).val
      then slab (M0.view.read (Elt F) f0) (M1.view.read (Elt F) f1) (M2.view.read (Elt F) f2) (idx 1) (idx 2)
      else fv (ix3 (idx 0) (idx 1) (idx 2))
  exact if_congr (and_iff_left (idx 1).isLt) ((Chunks.vals_eq c M0 M1 M2 f0 f1 f2 _ _).trans (slab_eq_valAt _ _ _ (idx 1) (idx 2)).symm) rfl

end Cert.Kernel.KValue

end
-- ==== Proof.KernelPoints.lean ====
import proofs.«422836_j30605936951494_3_alg».proof.Proof.KernelValue
import proofs.«422836_j30605936951494_3_alg».proof.Proof.Gen.Kernel.Frame

noncomputable section

namespace Cert.Kernel.KValue

open Cert.Kernel Cert.Kernel.Gen Cert.Kernel.Run
open Idealize.ShloMosaic Idealize.ShloMosaic.TcCoe
open Idealize.SL Idealize.SL.Sem

variable {F : FTy → Type} [FloatOps F]
variable (m : (ℓ : Loc nD τ sig) → Buf (Elt F) ℓ)

def res1 (c : Dev nD) : Bf (F := F) c (Memref.whole main_v1) :=
  pointResult c (grid0.coords t0_0) (iblk m c 0 t0_0) (iblk m c 1 t0_0) (iblk m c 2 t0_0) (V m c main_v1)

def res2 (c : Dev nD) : Bf (F := F) c (Memref.whole main_v1) :=
  pointResult c (grid0.coords t0_1) (iblk m c 0 t0_1) (iblk m c 1 t0_1) (iblk m c 2 t0_1) (res1 m c)

def res3 (c : Dev nD) : Bf (F := F) c (Memref.whole main_v1) :=
  pointResult c (grid0.coords t0_2) (iblk m c 0 t0_2) (iblk m c 1 t0_2) (iblk m c 2 t0_2) (res2 m c)

def res4 (c : Dev nD) : Bf (F := F) c (Memref.whole main_v1) :=
  pointResult c (grid0.coords t0_3) (iblk m c 0 t0_3) (iblk m c 1 t0_3) (iblk m c 2 t0_3) (res3 m c)

/-- The result after the first n grid points. -/
def resAt (c : Dev nD) : ℕ → Bf (F := F) c (Memref.whole main_v1)
  | 0 => V m c main_v1
  | 1 => res1 m c
  | 2 => res2 m c
  | 3 => res3 m c
  | _ + 4 => res4 m c

end Cert.Kernel.KValue

end
-- ==== Proof.KernelLaunch.lean ====
import proofs.«422836_j30605936951494_3_alg».proof.Proof.KernelValue
import proofs.«422836_j30605936951494_3_alg».proof.Proof.KernelPoints
import proofs.«422836_j30605936951494_3_alg».proof.Proof.Gen.Kernel.Frame
import proofs.«422836_j30605936951494_3_alg».proof.Proof.Gen.Kernel.Points
import Idealize.ShloMosaic.Lib.Pipeline.Routed
import Idealize.ShloMosaic.Lib.Pipeline.FrameBody

set_option maxRecDepth 16384

noncomputable section

namespace Cert.Kernel.Launch

open Cert.Kernel Cert.Kernel.Gen Cert.Kernel.Run Cert.Kernel.KValue
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed_singleton)

variable {F : FTy → Type} [FloatOps F]

local notation "𝕄" => MT nD τ sig Unit (Elt F) ℕ UC ℕ

variable (m : (ℓ : Loc nD τ sig) → Buf (Elt F) ℓ) (ρ : Dev nD → PrngReg)

abbrev osem : Fin 2 → SemLoc sig := fun | 0 => .dma 4 | 1 => .dma 5

theorem ownSemFacts : Pipeline.OwnSemFacts spec0 osem := by decide

omit [FloatOps F] in

theorem ownSems0_eq (c : Dev nD) :
    (Pipeline.ownSems0 (Ix := Unit) (Name := ℕ) (U := UC) (Lvl := ℕ) (Val := Elt F) (τ := τ) osem c : sProp 𝕄)
      = iprop(semVal ((c : Thread nD τ), SemLoc.dma (4 : DmaSem sig)) 0 ∗ semVal ((c : Thread nD τ), SemLoc.dma (5 : DmaSem sig)) 0) :=
  Pipeline.ownSems0_eq_of_list c osem [0, 1] (by decide) (by decide)

theorem ends_eq (c : Dev nD) (W : (b : Ref sig .tc) → Buf (Elt F) ((c : Thread nD τ).loc b)) :
    (Ends spec0 osem {main_v1} c W : sProp 𝕄)
      = iprop(pt c (Memref.whole main_v1) (W main_v1)
          ∗ (semVal ((c : Thread nD τ), SemLoc.dma (4 : DmaSem sig)) 0 ∗ semVal ((c : Thread nD τ), SemLoc.dma (5 : DmaSem sig)) 0)
          ∗ ((∃ f : Bf (F := F) c (Memref.whole cc0_scratch0), pt c (Memref.whole cc0_scratch0) f)
            ∗ (∃ f : Bf (F := F) c (Memref.whole cc0_scratch1), pt c (Memref.whole cc0_scratch1) f)
            ∗ (∃ f : Bf (F := F) c (Memref.whole cc0_scratch2), pt c (Memref.whole cc0_scratch2) f))
          ∗ ∃ r, prngReg c r) := by
  unfold Ends; rw [routed_singleton, ownSems0_eq, scopedRest0_eq]

theorem resAt_succ (c : Dev nD) (t : Fin cfg0.N) :
    resAt m c (t.val + 1) = pointResult c (grid0.coords t) (iblk m c 0 t) (iblk m c 1 t) (iblk m c 2 t) (resAt m c t.val) := by
  rcases fin_N0 t with rfl | rfl | rfl | rfl <;> rfl

theorem resAt_N (c : Dev nD) : resAt m c cfg0.N = res4 m c := rfl

def Y (c : Dev nD) (n : ℕ) : (b : Ref sig .tc) → Buf (Elt F) ((c : Thread nD τ).loc b) :=
  Function.update (V m c) main_v1 (resAt m c n)

theorem Y_main_v1 (c : Dev nD) (n : ℕ) : Y m c n main_v1 = resAt m c n := Function.update_self ..

theorem Y_zero (c : Dev nD) : Y m c 0 = V m c := Function.update_eq_self ..

def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Ends spec0 osem {main_v1} c (Y m c t.val)
  q _ := fullShare
  owed _ := 0

abbrev 𝒱₀ : Variants := Variants.none

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rfl) t d).trans (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rfl) t d).trans (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rfl) t d).trans (by unfold Dat.fetched Dat.blockOf iblk; rfl)

theorem point_run (c : Dev nD) (t : Fin cfg0.N) (x0 : Vec F S1x256x768 .f32) (x1 : Vec F S768x1536 .f32) (x2 : Vec F S1x768 .f32)
    (fv : Bf (F := F) c (Memref.whole main_v1)) (Wt : Waits sig Unit) (Q : PUnit → sProp 𝕄) :
    iprop(owns (c : Thread nD τ) (st0_0 t) fullShare x0 ∗ owns (c : Thread nD τ) (st0_1 t) fullShare x1 ∗ owns (c : Thread nD τ) (st0_2 t) fullShare x2
        ∗ pt c (Memref.whole main_v1) fv
        ∗ (∃ f : Bf (F := F) c (Memref.whole cc0_scratch0), pt c (Memref.whole cc0_scratch0) f)
        ∗ (∃ f : Bf (F := F) c (Memref.whole cc0_scratch1), pt c (Memref.whole cc0_scratch1) f)
        ∗ (∃ f : Bf (F := F) c (Memref.whole cc0_scratch2), pt c (Memref.whole cc0_scratch2) f)
        ∗ semVal ((c : Thread nD τ), SemLoc.dma (4 : DmaSem sig)) 0 ∗ semVal ((c : Thread nD τ), SemLoc.dma (5 : DmaSem sig)) 0
        ∗ owes (c : Thread nD τ) 0 Wt
        ∗ (iprop(owns (c : Thread nD τ) (st0_0 t) fullShare x0 ∗ owns (c : Thread nD τ) (st0_1 t) fullShare x1 ∗ owns (c : Thread nD τ) (st0_2 t) fullShare x2
            ∗ pt c (Memref.whole main_v1) (pointResult c (grid0.coords t) x0 x1 x2 fv)
            ∗ (∃ f : Bf (F := F) c (Memref.whole cc0_scratch0), pt c (Memref.whole cc0_scratch0) f)
            ∗ (∃ f : Bf (F := F) c (Memref.whole cc0_scratch1), pt c (Memref.whole cc0_scratch1) f)
            ∗ (∃ f : Bf (F := F) c (Memref.whole cc0_scratch2), pt c (Memref.whole cc0_scratch2) f)
            ∗ semVal ((c : Thread nD τ), SemLoc.dma (4 : DmaSem sig)) 0 ∗ semVal ((c : Thread nD τ), SemLoc.dma (5 : DmaSem sig)) 0
            ∗ (∃ W', owes (c : Thread nD τ) 0 W')) -∗ Q ⟨⟩))
      ⊢ wp frame (wpE (defs₀ (F := F)) Variants.none c none) Set.univ (bodyAt0 t) Q := by
  unfold owns
  iintro ⟨⟨%f0, %h0, H0⟩, ⟨%f1, %h1, H1⟩, ⟨%f2, %h2, H2⟩, Hv, ⟨%g0, Hg0⟩, ⟨%g1, Hg1⟩, ⟨%g2, Hg2⟩, Hs4, Hs5, HO, Hk⟩
  subst h0 h1 h2
  have e := kernelRun_val c (grid0.coords t) (st0_0 t) (stage_whole0 0 _) (st0_1 t) (stage_whole0 1 _) (st0_2 t) (stage_whole0 2 _) f0 f1 f2 fv g2
  iapply ((kernelRun c (grid0.coords t) (st0_0 t) (stage_whole0 0 _) (st0_1 t) (stage_whole0 1 _) (st0_2 t) (stage_whole0 2 _) f0 f1 f2 fv g2).2 g0 g1 Wt Q)
  isplitl [H0]; · iexact H0
  isplitl [H1]; · iexact H1
  isplitl [H2]; · iexact H2
  isplitl [Hv]; · iexact Hv
  isplitl [Hg0]; · iexact Hg0
  isplitl [Hg1]; · iexact Hg1
  isplitl [Hg2]; · iexact Hg2
  isplitl [Hs4]; · iexact Hs4
  isplitl [Hs5]; · iexact Hs5
  isplitl [HO]; · iexact HO
  iintro ⟨H0, H1, H2, Hv, Hg0, Hg1, Hg2, Hs4, Hs5, HO⟩
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [Hv]; · rw [← e]; iexact Hv
  isplitl [Hg0]; · iexact Hg0
  isplitl [Hg1]; · iexact Hg1
  isplitl [Hg2]; · iexact Hg2
  isplitl [Hs4]; · iexact Hs4
  isplitl [Hs5]; · iexact Hs5
  iexact HO

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [after_0, after_1, after_2]
  rw [show (dats m 0 c).Φ t.castSucc = Ends spec0 osem {main_v1} c (Y m c t.val) from rfl,
    show (dats m 0 c).Φ t.succ = Ends spec0 osem {main_v1} c (Y m c (t.val + 1)) from rfl,
    ends_eq, ends_eq, Y_main_v1, Y_main_v1, resAt_succ]
  unfold Dat.owesAt Pipeline.owesWithin
  rw [show (dats m 0 c).owed t.castSucc = 0 from rfl]
  iintro ⟨⟨Hv, ⟨Hs4, Hs5⟩, ⟨Hg0, Hg1, Hg2⟩, Hp⟩, ⟨%W, %hW, HO⟩, ⟨%d0, H0⟩, ⟨%d1, H1⟩, ⟨%d2, H2⟩⟩
  iapply (point_run c t (iblk m c 0 t) (iblk m c 1 t) (iblk m c 2 t) (resAt m c t.val) W _)
  isplitl [H0]; · iexact H0
  isplitl [H1]; · iexact H1
  isplitl [H2]; · iexact H2
  isplitl [Hv]; · iexact Hv
  isplitl [Hg0]; · iexact Hg0
  isplitl [Hg1]; · iexact Hg1
  isplitl [Hg2]; · iexact Hg2
  isplitl [Hs4]; · iexact Hs4
  isplitl [Hs5]; · iexact Hs5
  isplitl [HO]; · iexact HO
  iintro ⟨H0, H1, H2, Hv, Hg0, Hg1, Hg2, Hs4, Hs5, ⟨%W', HO⟩⟩
  isplitl [Hv Hs4 Hs5 Hg0 Hg1 Hg2 Hp]
  · isplitl [Hv]; · iexact Hv
    isplitl [Hs4 Hs5]; · isplitl [Hs4] <;> iassumption
    isplitl [Hg0 Hg1 Hg2]
    · isplitl [Hg0]; · iexact Hg0
      isplitl [Hg1] <;> iassumption
    iexact Hp
  isplitl [HO]; · iapply (owesAt_intro m c); iexact HO
  isplitl [H0]; · iexact H0
  isplitl [H1] <;> iassumption

set_option maxRecDepth 100000 in

theorem body_obligation (c : Dev nD) : BodyObligation (dats (F := F) m 0 c) (defs₀ (F := F)) 𝒱₀ () Set.univ := fun t => by
  rw [bigSep_W0, bigSep_W0]
  exact sound_body m c t

theorem hmain : Pipeline.HMain (Ix := Unit) (Name := ℕ) (U := UC) (Lvl := ℕ) cfgs 0 defs₀ 𝒱₀ m (main (F := F)) (V m) :=
  Pipeline.hmain_prefix cfgs 0 defs₀ 𝒱₀ m main hostOps0 hostOps0_sub hostOps0_fresh main_chain

/-- Every weakly fair execution terminates with the result at its contents after the four points and the arguments unchanged. -/
theorem run_main : θ_run defs (onTc (τ := τ) (main (F := F))) (s₀ m ρ)
    (RoutedPost cfgs (dats m) 0 {main_v1} (V m) (fun c => Y m c cfg0.N)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m) (hmain := hmain m) (hA := fun _ _ => rfl)
    (R := {main_v1}) (hR := Finset.singleton_subset_iff.mpr (Pipeline.mem_restRefs_of main_v1 (by decide) (by decide)))
    (Y := fun c => Y m c cfg0.N)
    (hin := fun c => by
      show (Ends spec0 osem {main_v1} c (V m c) : sProp 𝕄) ⊢ Ends spec0 osem {main_v1} c (Y m c 0)
      rw [Y_zero])
    (hout := fun _ => .rfl)

variable {m ρ}

theorem final_v1 {r : PUnit × MemSt nD τ sig (Elt F)} (h : RoutedPost cfgs (dats m) 0 {main_v1} (V m) (fun c => Y m c cfg0.N) r) (c : Dev nD) :
    r.2.mem ((c : Thread nD τ).loc main_v1) = resAt m c cfg0.N :=
  ((h c).2.1 main_v1 (Finset.mem_singleton_self _)).trans (Y_main_v1 m c cfg0.N)

theorem final_arg0 {r : PUnit × MemSt nD τ sig (Elt F)} (h : RoutedPost cfgs (dats m) 0 {main_v1} (V m) (fun c => Y m c cfg0.N) r) (c : Dev nD) :
    r.2.mem ((c : Thread nD τ).loc main_arg0) = m ((c : Thread nD τ).loc main_arg0) :=
  ((h c).1 0).trans (((dats m 0 c).arrAt_in 0 rfl _).trans (V_main_arg0 m c))

theorem final_arg1 {r : PUnit × MemSt nD τ sig (Elt F)} (h : RoutedPost cfgs (dats m) 0 {main_v1} (V m) (fun c => Y m c cfg0.N) r) (c : Dev nD) :
    r.2.mem ((c : Thread nD τ).loc main_arg1) = m ((c : Thread nD τ).loc main_arg1) :=
  ((h c).1 1).trans (((dats m 0 c).arrAt_in 1 rfl _).trans (V_main_arg1 m c))

theorem final_arg2 {r : PUnit × MemSt nD τ sig (Elt F)} (h : RoutedPost cfgs (dats m) 0 {main_v1} (V m) (fun c => Y m c cfg0.N) r) (c : Dev nD) :
    r.2.mem ((c : Thread nD τ).loc main_arg2) = m ((c : Thread nD τ).loc main_arg2) :=
  ((h c).2.2 main_arg2 (Finset.mem_sdiff.mpr ⟨Pipeline.mem_restRefs_of main_arg2 (by decide) (by decide), by decide⟩)).trans (V_main_arg2 m c)

variable (m ρ)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨final_arg0 h c, final_arg1 h c, final_arg2 h c⟩) (run_main m ρ)

theorem run_value : θ_run (defs (F := F)) (onTc (τ := τ) (main (F := F))) ⟨m, fun _ => 0, ρ⟩ (fun r => ∀ c : Dev nD,
      r.2.mem ((c.tc : Thread nD τ).loc main_v1) = resAt m c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨final_v1 h c, final_arg0 h c, final_arg1 h c, final_arg2 h c⟩) (run_main m ρ)

end Cert.Kernel.Launch

end
-- ==== Proof.KernelIdealRun.lean ====
import proofs.«422836_j30605936951494_3_alg».proof.Proof.Gen.KernelIdeal
import proofs.«422836_j30605936951494_3_alg».proof.Proof.Gen.KernelIdeal.Skeleton
import proofs.«422836_j30605936951494_3_alg».proof.Proof.Gen.KernelIdeal.Launch
import proofs.«422836_j30605936951494_3_alg».proof.Proof.LibRejoin
import Idealize.ShloMosaic.Lib.Transfers
import Idealize.ShloMosaic.Lib.Writes
import Idealize.ShloMosaic.Lib.Pipeline.FrameBody
import Idealize.ShloMosaic.Lib.Tactic

noncomputable section

namespace Cert.KernelIdeal.Run

open Cert.KernelIdeal Cert.KernelIdeal.Gen Cert.LibRejoin
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UC : Type := UR sig nD τ × Counters
local notation "𝕄" => MT nD τ sig Unit (Elt F) ℕ UC ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 0 in
set_option sl_exec.dmaWindow true in

noncomputable def kernelRun (c : Dev nD) (i : grid0.Coords)
    (M0 : Memref sig .tc .vmem S1x256x768 .f32) (h0 : M0.IsWhole) (M1 : Memref sig .tc .vmem S768x1536 .f32) (h1 : M1.IsWhole)
    (M2 : Memref sig .tc .vmem S1x768 .f32) (h2 : M2.IsWhole)
    (f0 : Bf (F := F) c M0) (f1 : Bf (F := F) c M1) (f2 : Bf (F := F) c M2)
    (fv : Bf (F := F) c (Memref.whole main_v1)) (g2 : Bf (F := F) c (Memref.whole cc0_scratch2)) :
    { W : Bf (F := F) c (Memref.whole main_v1) //
      ∀ (g0 : Bf (F := F) c (Memref.whole cc0_scratch0)) (g1 : Bf (F := F) c (Memref.whole cc0_scratch1)) (Wt : Waits sig Unit) (Q : PUnit → sProp 𝕄),
        iprop((M0.view.loc (c : Thread nD τ) ↦[M0.view.set]{fullShare} f0) ∗ (M1.view.loc (c : Thread nD τ) ↦[M1.view.set]{fullShare} f1) ∗ (M2.view.loc (c : Thread nD τ) ↦[M2.view.set]{fullShare} f2)
          ∗ pt c (Memref.whole main_v1) fv ∗ pt c (Memref.whole cc0_scratch0) g0 ∗ pt c (Memref.whole cc0_scratch1) g1 ∗ pt c (Memref.whole cc0_scratch2) g2
          ∗ semVal ((c : Thread nD τ), SemLoc.dma (4 : DmaSem sig)) 0 ∗ semVal ((c : Thread nD τ), SemLoc.dma (5 : DmaSem sig)) 0 ∗ owes (c : Thread nD τ) 0 Wt
          ∗ (iprop((M0.view.loc (c : Thread nD τ) ↦[M0.view.set]{fullShare} f0) ∗ (M1.view.loc (c : Thread nD τ) ↦[M1.view.set]{fullShare} f1) ∗ (M2.view.loc (c : Thread nD τ) ↦[M2.view.set]{fullShare} f2)
              ∗ pt c (Memref.whole main_v1) W
              ∗ (∃ f, pt c (Memref.whole cc0_scratch0) f) ∗ (∃ f, pt c (Memref.whole cc0_scratch1) f) ∗ (∃ f, pt c (Memref.whole cc0_scratch2) f)
              ∗ semVal ((c : Thread nD τ), SemLoc.dma (4 : DmaSem sig)) 0 ∗ semVal ((c : Thread nD τ), SemLoc.dma (5 : DmaSem sig)) 0
              ∗ (∃ W', owes (c : Thread nD τ) 0 W')) -∗ Q ⟨⟩))
        ⊢ wp frame (wpE (defs₀ (F := F)) Variants.none c none) Set.univ
            (cc0__fused_kernel i M0 h0 M1 h1 M2 h2 (Memref.whole main_v1) (Memref.isWhole_whole _) (Memref.whole cc0_scratch0) (Memref.isWhole_whole _)
              (Memref.whole cc0_scratch1) (Memref.isWhole_whole _) (Memref.whole cc0_scratch2) (Memref.isWhole_whole _) cc0_scratch3) Q } := by
  refine ⟨?_, fun g0 g1 Wt Q => ?run⟩
  case run =>
    iintro ⟨H0, H1, H2, Hv, Hg0, Hg1, Hg2, Hs4, Hs5, HO, Hk⟩
    iterate 14
      sl_exec_parts (disch := decide)
      irevert Hg2_2
      irevert Hg2
      iapply (Cert.LibRejoin.rejoin_wand ?hd ?hfg)
      case hd => exact Cert.LibRejoin.disj_sq_sq _ _ _ _ _ _ _ _ _ 0 (by decide)
      case hfg =>
        unfold_run_lists "Hg2"
        iterate 16
          refine Cert.LibRejoin.writes_cons_eq_on (Memref.whole cc0_scratch2).view _ _ _ _ _ _ ?_ ?_
          · exact Cert.LibRejoin.disj_sq_slice (Memref.whole cc0_scratch2) _ _ _ _ _ 0 (by decide)
        exact fun _ _ => rfl
      iintro Hg2
    sl_exec_parts (disch := decide)
    irevert Hg2_2
    irevert Hg2
    iapply (Cert.LibRejoin.rejoin_last_wand ?hfg)
    case hfg =>
      unfold_run_lists "Hg2"
      iterate 16
        refine Cert.LibRejoin.writes_cons_eq_on (Memref.whole cc0_scratch2).view _ _ _ _ _ _ ?_ ?_
        · exact Cert.LibRejoin.disj_sq_slice (Memref.whole cc0_scratch2) _ _ _ _ _ 0 (by decide)
      exact fun _ _ => rfl
    iintro Hg2
    sl_step
    iapply Hk
    isplitl [H0]; · iexact H0
    isplitl [H1]; · iexact H1
    isplitl [H2]; · iexact H2
    isplitl [Hv]; · iexact Hv
    isplitl [Hg0]; · iexists _; iexact Hg0
    isplitl [Hg1]; · iexists _; iexact Hg1
    isplitl [Hg2]; · iexists _; iexact Hg2
    isplitl [Hs4]; · iexact Hs4
    isplitl [Hs5]; · iexact Hs5
    iexists _; iexact HO

end Cert.KernelIdeal.Run

end
-- ==== Proof.KernelIdealSlab.lean ====
import proofs.«422836_j30605936951494_3_alg».proof.Proof.KernelIdealRun
import proofs.«422836_j30605936951494_3_alg».proof.Proof.Tri
import Idealize.ShloMosaic.Lib.ValueIdx

noncomputable section

namespace Cert.KernelIdeal.KValue

open Cert.KernelIdeal Cert.KernelIdeal.Gen Cert.KernelIdeal.Run
open Idealize.ShloMosaic Idealize.ShloMosaic.TcCoe Idealize.ShloMosaic.ValueIdx
open Idealize.SL Idealize.SL.Sem

variable {F : FTy → Type} [FloatOps F]

def rowvec (A : Vec F S256x768 .f32) (s : Fin 256) : Vec F S1x768 .f32 := fun y => A (ix2 s (y 1))

/-- Entry (p, o) of one batch's packed result, as the body's whole-array operations on the three blocks. -/
def slab (x0 : Vec F S1x256x768 .f32) (x1 : Vec F S768x1536 .f32) (x2 : Vec F S1x768 .f32) (p : Fin 32896) (o : Fin 768) : Elt F .f32 :=
  tanh (F := F) (φ := .f32) (addf (F := F) (φ := .f32) (addf (F := F) (φ := .f32)
      (rowvec (k0_pay3 x0 x1) ⟨Cert.Tri.triRow p.val, Cert.Tri.triRow_lt _⟩)
      (rowvec (k0_pay4 x0 x1) ⟨Cert.Tri.triCol p.val, Cert.Tri.triCol_lt _ p.isLt⟩))
    (k0_pay5 x2)) (ix2 0 o)

/-- The result after one grid point: batch i₀ at slab, every other batch as before. -/
def pointResult (c : Dev nD) (i : grid0.Coords) (x0 : Vec F S1x256x768 .f32) (x1 : Vec F S768x1536 .f32) (x2 : Vec F S1x768 .f32)
    (fv : Bf (F := F) c (Memref.whole main_v1)) : Bf (F := F) c (Memref.whole main_v1) :=
  fun idx => if (idx 0).val = (i 0).val then slab x0 x1 x2 (idx 1) (idx 2) else fv idx

end Cert.KernelIdeal.KValue

end
-- ==== Proof.KernelIdealDst.lean ====
import proofs.«422836_j30605936951494_3_alg».proof.Proof.KernelIdealRun
import Idealize.ShloMosaic.Lib.ValueIdx

noncomputable section

namespace Cert.KernelIdeal.KDst

open Cert.KernelIdeal Cert.KernelIdeal.Gen Cert.KernelIdeal.Run
open Idealize.ShloMosaic Idealize.ShloMosaic.TcCoe Idealize.ShloMosaic.ValueIdx
open Idealize.SL Idealize.SL.Sem

variable {F : FTy → Type} [FloatOps F]

/-- Writing the values R into rows [s, s + n) of batch i₀ extends "the rows below s hold R" to "the rows below s + n hold R". -/
theorem dst_step (c : Dev nD) (i : grid0.Coords) (n s : ℕ) (hsn : s + n ≤ 32896)
    (off : Fin 3 → ℕ) (hoff : off = ![(i 0).val, s, 0])
    (inb : ∀ a, off a + (⟨3, ![1, n, 768]⟩ : Shape).size a ≤ S4x32896x768.size a)
    (hs : ∀ a, (Rect.unit (s := S4x32896x768) off (⟨3, ![1, n, 768]⟩ : Shape).size inb).stride a = 1)
    (q : (Rect.unit (s := S4x32896x768) off (⟨3, ![1, n, 768]⟩ : Shape).size inb).shape.Squeezes ⟨2, ![n, 768]⟩)
    (fv Wprev : Bf (F := F) c (Memref.whole main_v1))
    (blk : (⟨2, ![n, 768]⟩ : Shape).Idx → Elt F .f32) (R : Fin 32896 → Fin 768 → Elt F .f32)
    (hprev : ∀ (b : Fin 4) (p : Fin 32896) (o : Fin 768),
      Wprev (ix3 b p o) = if b.val = (i 0).val ∧ p.val < s then R p o else fv (ix3 b p o))
    (hblk : ∀ (r : Fin n) (o : Fin 768), blk (ix2 r o) = R ⟨s + r.val, by have := r.isLt; omega⟩ o) :
    ∀ (b : Fin 4) (p : Fin 32896) (o : Fin 768),
      View.write (Elt F)
          (((Memref.whole main_v1).slice (Rect.unit (s := S4x32896x768) off (⟨3, ![1, n, 768]⟩ : Shape).size inb) hs).squeeze
            ⟨2, ![n, 768]⟩ q).view Wprev blk Finset.univ (ix3 b p o)
        = if b.val = (i 0).val ∧ p.val < s + n then R p o else fv (ix3 b p o) := by
  subst hoff
  have hi : (i 0).val < 4 := (i 0).isLt

  have hemb : ∀ (x0 : Fin n) (x1 : Fin 768),
      (((Memref.whole main_v1).slice (Rect.unit (s := S4x32896x768) ![(i 0).val, s, 0] (⟨3, ![1, n, 768]⟩ : Shape).size inb) hs).squeeze
          ⟨2, ![n, 768]⟩ q).view.emb (ix2 x0 x1)
        = ix3 (⟨(i 0).val, hi⟩ : Fin 4) (⟨s + x0.val, by have := x0.isLt; omega⟩ : Fin 32896) x1 := by
    intro x0 x1
    have hx0 := x0.isLt
    have hre : Shape.reshapeEquiv q.numel_eq (ix2 x0 x1) = ix3 (⟨0, Nat.one_pos⟩ : Fin 1) x0 x1 := by
      apply Shape.reshapeEquiv_eq_of_rowMajor
      rw [Shape.rowMajor_val_three, Shape.rowMajor_val_two]
      show (0 * n + x0.val) * 768 + x1.val = x0.val * 768 + x1.val
      omega
    show (Rect.unit (s := S4x32896x768) ![(i 0).val, s, 0] (⟨3, ![1, n, 768]⟩ : Shape).size inb).emb
        (Shape.reshapeEquiv q.numel_eq (ix2 x0 x1)) = _
    rw [hre]
    funext a
    apply Fin.ext
    rw [Rect.emb_apply]
    match a with
    | ⟨0, _⟩ => show (i 0).val + 1 * 0 = (i 0).val; omega
    | ⟨1, _⟩ => show s + 1 * x0.val = s + x0.val; omega
    | ⟨2, _⟩ => show 0 + 1 * x1.val = x1.val; omega
  intro b p o
  have hp := p.isLt
  by_cases h : b.val = (i 0).val ∧ s ≤ p.val ∧ p.val < s + n
  · obtain ⟨hb, hps, hpn⟩ := h
    have hidx : ix3 b p o
        = (((Memref.whole main_v1).slice (Rect.unit (s := S4x32896x768) ![(i 0).val, s, 0] (⟨3, ![1, n, 768]⟩ : Shape).size inb) hs).squeeze
            ⟨2, ![n, 768]⟩ q).view.emb (ix2 (⟨p.val - s, by omega⟩ : Fin n) o) := by
      rw [hemb]
      have e0 : b = (⟨(i 0).val, hi⟩ : Fin 4) := Fin.ext hb
      have e1 : p = (⟨s + (p.val - s), by omega⟩ : Fin 32896) := Fin.ext (by show p.val = s + (p.val - s); omega)
      rw [← e0, ← e1]
    rw [hidx, View.write_emb_of_mem _ _ (Finset.mem_univ _), if_pos ⟨hb, hpn⟩]
    refine (cast_eq _ _).trans ?_
    rw [hblk]
    congr 1
    apply Fin.ext
    show s + (p.val - s) = p.val
    omega
  · have hnot : ix3 b p o ∉
        (((Memref.whole main_v1).slice (Rect.unit (s := S4x32896x768) ![(i 0).val, s, 0] (⟨3, ![1, n, 768]⟩ : Shape).size inb) hs).squeeze
            ⟨2, ![n, 768]⟩ q).view.setOn Finset.univ := by
      intro hm
      obtain ⟨x, _, hx⟩ := Finset.mem_map.mp hm
      have hxe : x = ix2 (n0 := n) (n1 := 768) (x 0) (x 1) := eq_ix2 x
      rw [hxe, hemb (x 0) (x 1)] at hx
      have h0 := congrArg Fin.val (congrFun hx 0)
      have h1 := congrArg Fin.val (congrFun hx 1)
      have hx0 : (x 0).val < n := (x 0).isLt
      change (i 0).val = b.val at h0
      change s + (x 0).val = p.val at h1
      exact h ⟨h0.symm, by omega, by omega⟩
    rw [View.write_of_not_mem _ _ _ hnot, hprev]
    by_cases h2 : b.val = (i 0).val ∧ p.val < s
    · rw [if_pos h2, if_pos ⟨h2.1, by omega⟩]
    · rw [if_neg h2, if_neg]
      intro h3
      exact h ⟨h3.1, by
        by_contra hlt
        exact h2 ⟨h3.1, by omega⟩, h3.2⟩

end Cert.KernelIdeal.KDst

end
-- ==== Proof.KernelIdealChunks.lean ====
import proofs.«422836_j30605936951494_3_alg».proof.Proof.KernelIdealRun
import proofs.«422836_j30605936951494_3_alg».proof.Proof.VLib

noncomputable section

namespace Cert.KernelIdeal.Chunks

open Cert.KernelIdeal Cert.KernelIdeal.Gen Cert.KernelIdeal.Run Cert.LibRejoin
open Idealize.ShloMosaic Idealize.ShloMosaic.TcCoe Idealize.ShloMosaic.ValueIdx
open Idealize.SL Idealize.SL.Sem

variable {F : FTy → Type} [FloatOps F] (c : Dev nD) (M0 : Memref sig .tc .vmem S1x256x768 .f32)
  (M1 : Memref sig .tc .vmem S768x1536 .f32) (M2 : Memref sig .tc .vmem S1x768 .f32) (f0 : Bf (F := F) c M0)
  (f1 : Bf (F := F) c M1) (f2 : Bf (F := F) c M2) (g2 : Bf (F := F) c (Memref.whole cc0_scratch2))

/-- Entry (k, o) of the batch's packed result. -/
def vals (k : Nat) (o : Fin 768) : Elt F .f32 :=
  VLib.valAt
    (k0_pay3 (M0.view.readAt (Elt F) (Rect.unit ![0, 0, 0] S1x256x768.size inb_S1x256x768_S1x256x768_0_0_0).toLoadRect f0)
      (M1.view.readAt (Elt F) (Rect.unit ![0, 0] S768x1536.size inb_S768x1536_S768x1536_0_0).toLoadRect f1))
    (k0_pay4 (M0.view.readAt (Elt F) (Rect.unit ![0, 0, 0] S1x256x768.size inb_S1x256x768_S1x256x768_0_0_0).toLoadRect f0)
      (M1.view.readAt (Elt F) (Rect.unit ![0, 0] S768x1536.size inb_S768x1536_S768x1536_0_0).toLoadRect f1))
    (k0_pay5 (M2.view.readAt (Elt F) (Rect.unit ![0, 0] S1x768.size inb_S1x768_S1x768_0_0).toLoadRect f2)) k o

theorem vals_eq (k : Nat) (o : Fin 768) :
    vals c M0 M1 M2 f0 f1 f2 k o
      = VLib.valAt (k0_pay3 (M0.view.read (Elt F) f0) (M1.view.read (Elt F) f1))
          (k0_pay4 (M0.view.read (Elt F) f0) (M1.view.read (Elt F) f1)) (k0_pay5 (M2.view.read (Elt F) f2)) k o := by
  unfold vals
  rw [VLib.readAt_unit_zero M0.view (by funext a; fin_cases a <;> rfl), VLib.readAt_unit_zero M1.view (by funext a; fin_cases a <;> rfl),
    VLib.readAt_unit_zero M2.view (by funext a; fin_cases a <;> rfl)]

/-- The k-th copied block at (r, o) is the packed result at position off_k + r, by reading the sixteen newest writes (chunk1 … chunk15 likewise). -/
theorem chunk0 (r : Fin 3976) (o : Fin 768) :
    kernelRun.sl.dma71 c M0 M1 M2 f0 f1 f2 g2 (ix2 r o) = vals c M0 M1 M2 f0 f1 f2 (0 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 0 (⟨0, by decide⟩ : Fin 2) r.val (by have := r.isLt; omega) o)
  unfold_run_lists_above "Hg2_" 0
  unfold_run_lists "r"; unfold_run_lists "v"; unfold_run_lists "Hg0"; unfold_run_lists "Hg1"
  have hq : 0 + r.val < 3976 := by have := r.isLt; omega
  iterate 16 refine VLib.step_of (by decide) (VLib.piece_val _ (by decide)) (by decide) (by omega) fun hq => ?_
  exact absurd hq (Nat.not_lt_zero _)

theorem chunk1 (r : Fin 3720) (o : Fin 768) :
    kernelRun.sl.dma135 c M0 M1 M2 f0 f1 f2 g2 (ix2 r o) = vals c M0 M1 M2 f0 f1 f2 (3976 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 3976 (⟨1, by decide⟩ : Fin 2) r.val (by have := r.isLt; omega) o)
  unfold_run_lists_above "Hg2_" 16
  unfold_run_lists "r"; unfold_run_lists "v"; unfold_run_lists "Hg0"; unfold_run_lists "Hg1"
  have hq : 0 + r.val < 3720 := by have := r.isLt; omega
  iterate 16 refine VLib.step_of (by decide) (VLib.piece_val _ (by decide)) (by decide) (by omega) fun hq => ?_
  exact absurd hq (Nat.not_lt_zero _)

theorem chunk2 (r : Fin 3464) (o : Fin 768) :
    kernelRun.sl.dma62 c M0 M1 M2 f0 f1 f2 g2 (ix2 r o) = vals c M0 M1 M2 f0 f1 f2 (7696 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 7696 (⟨0, by decide⟩ : Fin 2) r.val (by have := r.isLt; omega) o)
  unfold_run_lists_above "Hg2_" 32
  unfold_run_lists "r"; unfold_run_lists "v"; unfold_run_lists "Hg0"; unfold_run_lists "Hg1"
  have hq : 0 + r.val < 3464 := by have := r.isLt; omega
  iterate 16 refine VLib.step_of (by decide) (VLib.piece_val _ (by decide)) (by decide) (by omega) fun hq => ?_
  exact absurd hq (Nat.not_lt_zero _)

theorem chunk3 (r : Fin 3208) (o : Fin 768) :
    kernelRun.sl.dma62_1 c M0 M1 M2 f0 f1 f2 g2 (ix2 r o) = vals c M0 M1 M2 f0 f1 f2 (11160 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 11160 (⟨1, by decide⟩ : Fin 2) r.val (by have := r.isLt; omega) o)
  unfold_run_lists_above "Hg2_" 48
  unfold_run_lists "r"; unfold_run_lists "v"; unfold_run_lists "Hg0"; unfold_run_lists "Hg1"
  have hq : 0 + r.val < 3208 := by have := r.isLt; omega
  iterate 16 refine VLib.step_of (by decide) (VLib.piece_val _ (by decide)) (by decide) (by omega) fun hq => ?_
  exact absurd hq (Nat.not_lt_zero _)

theorem chunk4 (r : Fin 2952) (o : Fin 768) :
    kernelRun.sl.dma62_2 c M0 M1 M2 f0 f1 f2 g2 (ix2 r o) = vals c M0 M1 M2 f0 f1 f2 (14368 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 14368 (⟨0, by decide⟩ : Fin 2) r.val (by have := r.isLt; omega) o)
  unfold_run_lists_above "Hg2_" 64
  unfold_run_lists "r"; unfold_run_lists "v"; unfold_run_lists "Hg0"; unfold_run_lists "Hg1"
  have hq : 0 + r.val < 2952 := by have := r.isLt; omega
  iterate 16 refine VLib.step_of (by decide) (VLib.piece_val _ (by decide)) (by decide) (by omega) fun hq => ?_
  exact absurd hq (Nat.not_lt_zero _)

theorem chunk5 (r : Fin 2696) (o : Fin 768) :
    kernelRun.sl.dma62_3 c M0 M1 M2 f0 f1 f2 g2 (ix2 r o) = vals c M0 M1 M2 f0 f1 f2 (17320 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 17320 (⟨1, by decide⟩ : Fin 2) r.val (by have := r.isLt; omega) o)
  unfold_run_lists_above "Hg2_" 80
  unfold_run_lists "r"; unfold_run_lists "v"; unfold_run_lists "Hg0"; unfold_run_lists "Hg1"
  have hq : 0 + r.val < 2696 := by have := r.isLt; omega
  iterate 16 refine VLib.step_of (by decide) (VLib.piece_val _ (by decide)) (by decide) (by omega) fun hq => ?_
  exact absurd hq (Nat.not_lt_zero _)

theorem chunk6 (r : Fin 2440) (o : Fin 768) :
    kernelRun.sl.dma62_4 c M0 M1 M2 f0 f1 f2 g2 (ix2 r o) = vals c M0 M1 M2 f0 f1 f2 (20016 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 20016 (⟨0, by decide⟩ : Fin 2) r.val (by have := r.isLt; omega) o)
  unfold_run_lists_above "Hg2_" 96
  unfold_run_lists "r"; unfold_run_lists "v"; unfold_run_lists "Hg0"; unfold_run_lists "Hg1"
  have hq : 0 + r.val < 2440 := by have := r.isLt; omega
  iterate 16 refine VLib.step_of (by decide) (VLib.piece_val _ (by decide)) (by decide) (by omega) fun hq => ?_
  exact absurd hq (Nat.not_lt_zero _)

theorem chunk7 (r : Fin 2184) (o : Fin 768) :
    kernelRun.sl.dma62_5 c M0 M1 M2 f0 f1 f2 g2 (ix2 r o) = vals c M0 M1 M2 f0 f1 f2 (22456 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 22456 (⟨1, by decide⟩ : Fin 2) r.val (by have := r.isLt; omega) o)
  unfold_run_lists_above "Hg2_" 112
  unfold_run_lists "r"; unfold_run_lists "v"; unfold_run_lists "Hg0"; unfold_run_lists "Hg1"
  have hq : 0 + r.val < 2184 := by have := r.isLt; omega
  iterate 16 refine VLib.step_of (by decide) (VLib.piece_val _ (by decide)) (by decide) (by omega) fun hq => ?_
  exact absurd hq (Nat.not_lt_zero _)

theorem chunk8 (r : Fin 1928) (o : Fin 768) :
    kernelRun.sl.dma62_6 c M0 M1 M2 f0 f1 f2 g2 (ix2 r o) = vals c M0 M1 M2 f0 f1 f2 (24640 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 24640 (⟨0, by decide⟩ : Fin 2) r.val (by have := r.isLt; omega) o)
  unfold_run_lists_above "Hg2_" 128
  unfold_run_lists "r"; unfold_run_lists "v"; unfold_run_lists "Hg0"; unfold_run_lists "Hg1"
  have hq : 0 + r.val < 1928 := by have := r.isLt; omega
  iterate 16 refine VLib.step_of (by decide) (VLib.piece_val _ (by decide)) (by decide) (by omega) fun hq => ?_
  exact absurd hq (Nat.not_lt_zero _)

theorem chunk9 (r : Fin 1672) (o : Fin 768) :
    kernelRun.sl.dma62_7 c M0 M1 M2 f0 f1 f2 g2 (ix2 r o) = vals c M0 M1 M2 f0 f1 f2 (26568 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 26568 (⟨1, by decide⟩ : Fin 2) r.val (by have := r.isLt; omega) o)
  unfold_run_lists_above "Hg2_" 144
  unfold_run_lists "r"; unfold_run_lists "v"; unfold_run_lists "Hg0"; unfold_run_lists "Hg1"
  have hq : 0 + r.val < 1672 := by have := r.isLt; omega
  iterate 16 refine VLib.step_of (by decide) (VLib.piece_val _ (by decide)) (by decide) (by omega) fun hq => ?_
  exact absurd hq (Nat.not_lt_zero _)

theorem chunk10 (r : Fin 1416) (o : Fin 768) :
    kernelRun.sl.dma62_8 c M0 M1 M2 f0 f1 f2 g2 (ix2 r o) = vals c M0 M1 M2 f0 f1 f2 (28240 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 28240 (⟨0, by decide⟩ : Fin 2) r.val (by have := r.isLt; omega) o)
  unfold_run_lists_above "Hg2_" 160
  unfold_run_lists "r"; unfold_run_lists "v"; unfold_run_lists "Hg0"; unfold_run_lists "Hg1"
  have hq : 0 + r.val < 1416 := by have := r.isLt; omega
  iterate 16 refine VLib.step_of (by decide) (VLib.piece_val _ (by decide)) (by decide) (by omega) fun hq => ?_
  exact absurd hq (Nat.not_lt_zero _)

theorem chunk11 (r : Fin 1160) (o : Fin 768) :
    kernelRun.sl.dma62_9 c M0 M1 M2 f0 f1 f2 g2 (ix2 r o) = vals c M0 M1 M2 f0 f1 f2 (29656 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 29656 (⟨1, by decide⟩ : Fin 2) r.val (by have := r.isLt; omega) o)
  unfold_run_lists_above "Hg2_" 176
  unfold_run_lists "r"; unfold_run_lists "v"; unfold_run_lists "Hg0"; unfold_run_lists "Hg1"
  have hq : 0 + r.val < 1160 := by have := r.isLt; omega
  iterate 16 refine VLib.step_of (by decide) (VLib.piece_val _ (by decide)) (by decide) (by omega) fun hq => ?_
  exact absurd hq (Nat.not_lt_zero _)

theorem chunk12 (r : Fin 904) (o : Fin 768) :
    kernelRun.sl.dma62_10 c M0 M1 M2 f0 f1 f2 g2 (ix2 r o) = vals c M0 M1 M2 f0 f1 f2 (30816 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 30816 (⟨0, by decide⟩ : Fin 2) r.val (by have := r.isLt; omega) o)
  unfold_run_lists_above "Hg2_" 192
  unfold_run_lists "r"; unfold_run_lists "v"; unfold_run_lists "Hg0"; unfold_run_lists "Hg1"
  have hq : 0 + r.val < 904 := by have := r.isLt; omega
  iterate 16 refine VLib.step_of (by decide) (VLib.piece_val _ (by decide)) (by decide) (by omega) fun hq => ?_
  exact absurd hq (Nat.not_lt_zero _)

theorem chunk13 (r : Fin 648) (o : Fin 768) :
    kernelRun.sl.dma62_11 c M0 M1 M2 f0 f1 f2 g2 (ix2 r o) = vals c M0 M1 M2 f0 f1 f2 (31720 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 31720 (⟨1, by decide⟩ : Fin 2) r.val (by have := r.isLt; omega) o)
  unfold_run_lists_above "Hg2_" 208
  unfold_run_lists "r"; unfold_run_lists "v"; unfold_run_lists "Hg0"; unfold_run_lists "Hg1"
  have hq : 0 + r.val < 648 := by have := r.isLt; omega
  iterate 16 refine VLib.step_of (by decide) (VLib.piece_val _ (by decide)) (by decide) (by omega) fun hq => ?_
  exact absurd hq (Nat.not_lt_zero _)

theorem chunk14 (r : Fin 392) (o : Fin 768) :
    kernelRun.sl.dma62_12 c M0 M1 M2 f0 f1 f2 g2 (ix2 r o) = vals c M0 M1 M2 f0 f1 f2 (32368 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 32368 (⟨0, by decide⟩ : Fin 2) r.val (by have := r.isLt; omega) o)
  unfold_run_lists_above "Hg2_" 224
  unfold_run_lists "r"; unfold_run_lists "v"; unfold_run_lists "Hg0"; unfold_run_lists "Hg1"
  have hq : 0 + r.val < 392 := by have := r.isLt; omega
  iterate 16 refine VLib.step_of (by decide) (VLib.piece_val _ (by decide)) (by decide) (by omega) fun hq => ?_
  exact absurd hq (Nat.not_lt_zero _)

theorem chunk15 (r : Fin 136) (o : Fin 768) :
    kernelRun.sl.dma62_13 c M0 M1 M2 f0 f1 f2 g2 (ix2 r o) = vals c M0 M1 M2 f0 f1 f2 (32760 + r.val) o := by
  unfold_run_lists "dma"
  rw [ReadAs.apply_same]
  refine (VLib.read_rows (Memref.whole cc0_scratch2).view _ _ _ r o (by decide) (by have := r.isLt; omega)).trans ?_
  refine Eq.trans ?_ (VLib.stageVal_eq _ _ _ 32760 (⟨1, by decide⟩ : Fin 2) r.val (by have := r.isLt; omega) o)
  unfold_run_lists_above "Hg2_" 240
  unfold_run_lists "r"; unfold_run_lists "v"; unfold_run_lists "Hg0"; unfold_run_lists "Hg1"
  have hq : 0 + r.val < 136 := by have := r.isLt; omega
  refine VLib.step_of (by decide) (VLib.piece_val_last _ (by decide)) (by decide) (by omega) fun hq => ?_
  iterate 15 refine VLib.step_of (by decide) (VLib.piece_val _ (by decide)) (by decide) (by omega) fun hq => ?_
  exact absurd hq (Nat.not_lt_zero _)

end Cert.KernelIdeal.Chunks

end
-- ==== Proof.KernelIdealValue.lean ====
import proofs.«422836_j30605936951494_3_alg».proof.Proof.KernelIdealSlab
import proofs.«422836_j30605936951494_3_alg».proof.Proof.KernelIdealDst
import proofs.«422836_j30605936951494_3_alg».proof.Proof.KernelIdealChunks

noncomputable section

namespace Cert.KernelIdeal.KValue

open Cert.KernelIdeal Cert.KernelIdeal.Gen Cert.KernelIdeal.Run
open Idealize.ShloMosaic Idealize.ShloMosaic.TcCoe Idealize.ShloMosaic.ValueIdx
open Idealize.SL Idealize.SL.Sem

variable {F : FTy → Type} [FloatOps F]

theorem slab_eq_valAt (x0 : Vec F S1x256x768 .f32) (x1 : Vec F S768x1536 .f32) (x2 : Vec F S1x768 .f32) (p : Fin 32896)
    (o : Fin 768) : slab x0 x1 x2 p o = VLib.valAt (k0_pay3 x0 x1) (k0_pay4 x0 x1) (k0_pay5 x2) p.val o := by
  rw [VLib.valAt_fin]
  rfl

/-- What one grid point leaves in the result: the sixteen copied chunks tile the batch's rows, each entry at its value. -/
theorem kernelRun_val (c : Dev nD) (i : grid0.Coords)
    (M0 : Memref sig .tc .vmem S1x256x768 .f32) (h0 : M0.IsWhole) (M1 : Memref sig .tc .vmem S768x1536 .f32) (h1 : M1.IsWhole)
    (M2 : Memref sig .tc .vmem S1x768 .f32) (h2 : M2.IsWhole)
    (f0 : Bf (F := F) c M0) (f1 : Bf (F := F) c M1) (f2 : Bf (F := F) c M2)
    (fv : Bf (F := F) c (Memref.whole main_v1)) (g2 : Bf (F := F) c (Memref.whole cc0_scratch2)) :
    (kernelRun c i M0 h0 M1 h1 M2 h2 f0 f1 f2 fv g2).1
      = pointResult c i (M0.view.read (Elt F) f0) (M1.view.read (Elt F) f1) (M2.view.read (Elt F) f2) fv := by
  have H : ∀ (b : Fin 4) (p : Fin 32896) (o : Fin 768), kernelRun.sl.Hv_w0_14 c i M0 M1 M2 f0 f1 f2 fv g2 (ix3 b p o)
      = if b.val = (i 0).val ∧ p.val < 32896 then Chunks.vals c M0 M1 M2 f0 f1 f2 p.val o else fv (ix3 b p o) := by
    refine KDst.dst_step c i 136 32760 (by omega) _ (Gen.k0_off16_eq i) _ _ _ fv _ _ (fun p o => Chunks.vals c M0 M1 M2 f0 f1 f2 p.val o) ?_ (Chunks.chunk15 c M0 M1 M2 f0 f1 f2 g2)
    refine KDst.dst_step c i 392 32368 (by omega) _ (Gen.k0_off15_eq i) _ _ _ fv _ _ _ ?_ (Chunks.chunk14 c M0 M1 M2 f0 f1 f2 g2)
    refine KDst.dst_step c i 648 31720 (by omega) _ (Gen.k0_off14_eq i) _ _ _ fv _ _ _ ?_ (Chunks.chunk13 c M0 M1 M2 f0 f1 f2 g2)
    refine KDst.dst_step c i 904 30816 (by omega) _ (Gen.k0_off13_eq i) _ _ _ fv _ _ _ ?_ (Chunks.chunk12 c M0 M1 M2 f0 f1 f2 g2)
    refine KDst.dst_step c i 1160 29656 (by omega) _ (Gen.k0_off12_eq i) _ _ _ fv _ _ _ ?_ (Chunks.chunk11 c M0 M1 M2 f0 f1 f2 g2)
    refine KDst.dst_step c i 1416 28240 (by omega) _ (Gen.k0_off11_eq i) _ _ _ fv _ _ _ ?_ (Chunks.chunk10 c M0 M1 M2 f0 f1 f2 g2)
    refine KDst.dst_step c i 1672 26568 (by omega) _ (Gen.k0_off10_eq i) _ _ _ fv _ _ _ ?_ (Chunks.chunk9 c M0 M1 M2 f0 f1 f2 g2)
    refine KDst.dst_step c i 1928 24640 (by omega) _ (Gen.k0_off9_eq i) _ _ _ fv _ _ _ ?_ (Chunks.chunk8 c M0 M1 M2 f0 f1 f2 g2)
    refine KDst.dst_step c i 2184 22456 (by omega) _ (Gen.k0_off8_eq i) _ _ _ fv _ _ _ ?_ (Chunks.chunk7 c M0 M1 M2 f0 f1 f2 g2)
    refine KDst.dst_step c i 2440 20016 (by omega) _ (Gen.k0_off7_eq i) _ _ _ fv _ _ _ ?_ (Chunks.chunk6 c M0 M1 M2 f0 f1 f2 g2)
    refine KDst.dst_step c i 2696 17320 (by omega) _ (Gen.k0_off6_eq i) _ _ _ fv _ _ _ ?_ (Chunks.chunk5 c M0 M1 M2 f0 f1 f2 g2)
    refine KDst.dst_step c i 2952 14368 (by omega) _ (Gen.k0_off5_eq i) _ _ _ fv _ _ _ ?_ (Chunks.chunk4 c M0 M1 M2 f0 f1 f2 g2)
    refine KDst.dst_step c i 3208 11160 (by omega) _ (Gen.k0_off4_eq i) _ _ _ fv _ _ _ ?_ (Chunks.chunk3 c M0 M1 M2 f0 f1 f2 g2)
    refine KDst.dst_step c i 3464 7696 (by omega) _ (Gen.k0_off3_eq i) _ _ _ fv _ _ _ ?_ (Chunks.chunk2 c M0 M1 M2 f0 f1 f2 g2)
    refine KDst.dst_step c i 3720 3976 (by omega) _ (Gen.k0_off2_eq i) _ _ _ fv _ _ _ ?_ (Chunks.chunk1 c M0 M1 M2 f0 f1 f2 g2)
    refine KDst.dst_step c i 3976 0 (by omega) _ (Gen.k0_off1_eq i) _ _ _ fv _ _ _ ?_ (Chunks.chunk0 c M0 M1 M2 f0 f1 f2 g2)
    exact fun b p o => (if_neg fun h => absurd h.2 (Nat.not_lt_zero _)).symm
  funext idx
  rw [eq_ix3 idx]
  refine (H _ _ _).trans ?_
  show _ = if (idx 0).val = (i 0).val
      then slab (M0.view.read (Elt F) f0) (M1.view.read (Elt F) f1) (M2.view.read (Elt F) f2) (idx 1) (idx 2)
      else fv (ix3 (idx 0) (idx 1) (idx 2))
  exact if_congr (and_iff_left (idx 1).isLt) ((Chunks.vals_eq c M0 M1 M2 f0 f1 f2 _ _).trans (slab_eq_valAt _ _ _ (idx 1) (idx 2)).symm) rfl

end Cert.KernelIdeal.KValue

end
-- ==== Proof.KernelIdealPoints.lean ====
import proofs.«422836_j30605936951494_3_alg».proof.Proof.KernelIdealValue
import proofs.«422836_j30605936951494_3_alg».proof.Proof.Gen.KernelIdeal.Frame

noncomputable section

namespace Cert.KernelIdeal.KValue

open Cert.KernelIdeal Cert.KernelIdeal.Gen Cert.KernelIdeal.Run
open Idealize.ShloMosaic Idealize.ShloMosaic.TcCoe
open Idealize.SL Idealize.SL.Sem

variable {F : FTy → Type} [FloatOps F]
variable (m : (ℓ : Loc nD τ sig) → Buf (Elt F) ℓ)

def res1 (c : Dev nD) : Bf (F := F) c (Memref.whole main_v1) :=
  pointResult c (grid0.coords t0_0) (iblk m c 0 t0_0) (iblk m c 1 t0_0) (iblk m c 2 t0_0) (V m c main_v1)

def res2 (c : Dev nD) : Bf (F := F) c (Memref.whole main_v1) :=
  pointResult c (grid0.coords t0_1) (iblk m c 0 t0_1) (iblk m c 1 t0_1) (iblk m c 2 t0_1) (res1 m c)

def res3 (c : Dev nD) : Bf (F := F) c (Memref.whole main_v1) :=
  pointResult c (grid0.coords t0_2) (iblk m c 0 t0_2) (iblk m c 1 t0_2) (iblk m c 2 t0_2) (res2 m c)

def res4 (c : Dev nD) : Bf (F := F) c (Memref.whole main_v1) :=
  pointResult c (grid0.coords t0_3) (iblk m c 0 t0_3) (iblk m c 1 t0_3) (iblk m c 2 t0_3) (res3 m c)

/-- The result after the first n grid points. -/
def resAt (c : Dev nD) : ℕ → Bf (F := F) c (Memref.whole main_v1)
  | 0 => V m c main_v1
  | 1 => res1 m c
  | 2 => res2 m c
  | 3 => res3 m c
  | _ + 4 => res4 m c

end Cert.KernelIdeal.KValue

end
-- ==== Proof.KernelIdealLaunch.lean ====
import proofs.«422836_j30605936951494_3_alg».proof.Proof.KernelIdealValue
import proofs.«422836_j30605936951494_3_alg».proof.Proof.KernelIdealPoints
import proofs.«422836_j30605936951494_3_alg».proof.Proof.Gen.KernelIdeal.Frame
import proofs.«422836_j30605936951494_3_alg».proof.Proof.Gen.KernelIdeal.Points
import Idealize.ShloMosaic.Lib.Pipeline.Routed
import Idealize.ShloMosaic.Lib.Pipeline.FrameBody

set_option maxRecDepth 16384

noncomputable section

namespace Cert.KernelIdeal.Launch

open Cert.KernelIdeal Cert.KernelIdeal.Gen Cert.KernelIdeal.Run Cert.KernelIdeal.KValue
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed_singleton)

variable {F : FTy → Type} [FloatOps F]

local notation "𝕄" => MT nD τ sig Unit (Elt F) ℕ UC ℕ

variable (m : (ℓ : Loc nD τ sig) → Buf (Elt F) ℓ) (ρ : Dev nD → PrngReg)

abbrev osem : Fin 2 → SemLoc sig := fun | 0 => .dma 4 | 1 => .dma 5

theorem ownSemFacts : Pipeline.OwnSemFacts spec0 osem := by decide

omit [FloatOps F] in

theorem ownSems0_eq (c : Dev nD) :
    (Pipeline.ownSems0 (Ix := Unit) (Name := ℕ) (U := UC) (Lvl := ℕ) (Val := Elt F) (τ := τ) osem c : sProp 𝕄)
      = iprop(semVal ((c : Thread nD τ), SemLoc.dma (4 : DmaSem sig)) 0 ∗ semVal ((c : Thread nD τ), SemLoc.dma (5 : DmaSem sig)) 0) :=
  Pipeline.ownSems0_eq_of_list c osem [0, 1] (by decide) (by decide)

theorem ends_eq (c : Dev nD) (W : (b : Ref sig .tc) → Buf (Elt F) ((c : Thread nD τ).loc b)) :
    (Ends spec0 osem {main_v1} c W : sProp 𝕄)
      = iprop(pt c (Memref.whole main_v1) (W main_v1)
          ∗ (semVal ((c : Thread nD τ), SemLoc.dma (4 : DmaSem sig)) 0 ∗ semVal ((c : Thread nD τ), SemLoc.dma (5 : DmaSem sig)) 0)
          ∗ ((∃ f : Bf (F := F) c (Memref.whole cc0_scratch0), pt c (Memref.whole cc0_scratch0) f)
            ∗ (∃ f : Bf (F := F) c (Memref.whole cc0_scratch1), pt c (Memref.whole cc0_scratch1) f)
            ∗ (∃ f : Bf (F := F) c (Memref.whole cc0_scratch2), pt c (Memref.whole cc0_scratch2) f))
          ∗ ∃ r, prngReg c r) := by
  unfold Ends; rw [routed_singleton, ownSems0_eq, scopedRest0_eq]

theorem resAt_succ (c : Dev nD) (t : Fin cfg0.N) :
    resAt m c (t.val + 1) = pointResult c (grid0.coords t) (iblk m c 0 t) (iblk m c 1 t) (iblk m c 2 t) (resAt m c t.val) := by
  rcases fin_N0 t with rfl | rfl | rfl | rfl <;> rfl

theorem resAt_N (c : Dev nD) : resAt m c cfg0.N = res4 m c := rfl

def Y (c : Dev nD) (n : ℕ) : (b : Ref sig .tc) → Buf (Elt F) ((c : Thread nD τ).loc b) :=
  Function.update (V m c) main_v1 (resAt m c n)

theorem Y_main_v1 (c : Dev nD) (n : ℕ) : Y m c n main_v1 = resAt m c n := Function.update_self ..

theorem Y_zero (c : Dev nD) : Y m c 0 = V m c := Function.update_eq_self ..

def dats (_ : Fin 1) (c : Dev nD) : Dat τ (Elt F) Unit ℕ UC ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Ends spec0 osem {main_v1} c (Y m c t.val)
  q _ := fullShare
  owed _ := 0

abbrev 𝒱₀ : Variants := Variants.none

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rfl) t d).trans (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rfl) t d).trans (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rfl) t d).trans (by unfold Dat.fetched Dat.blockOf iblk; rfl)

theorem point_run (c : Dev nD) (t : Fin cfg0.N) (x0 : Vec F S1x256x768 .f32) (x1 : Vec F S768x1536 .f32) (x2 : Vec F S1x768 .f32)
    (fv : Bf (F := F) c (Memref.whole main_v1)) (Wt : Waits sig Unit) (Q : PUnit → sProp 𝕄) :
    iprop(owns (c : Thread nD τ) (st0_0 t) fullShare x0 ∗ owns (c : Thread nD τ) (st0_1 t) fullShare x1 ∗ owns (c : Thread nD τ) (st0_2 t) fullShare x2
        ∗ pt c (Memref.whole main_v1) fv
        ∗ (∃ f : Bf (F := F) c (Memref.whole cc0_scratch0), pt c (Memref.whole cc0_scratch0) f)
        ∗ (∃ f : Bf (F := F) c (Memref.whole cc0_scratch1), pt c (Memref.whole cc0_scratch1) f)
        ∗ (∃ f : Bf (F := F) c (Memref.whole cc0_scratch2), pt c (Memref.whole cc0_scratch2) f)
        ∗ semVal ((c : Thread nD τ), SemLoc.dma (4 : DmaSem sig)) 0 ∗ semVal ((c : Thread nD τ), SemLoc.dma (5 : DmaSem sig)) 0
        ∗ owes (c : Thread nD τ) 0 Wt
        ∗ (iprop(owns (c : Thread nD τ) (st0_0 t) fullShare x0 ∗ owns (c : Thread nD τ) (st0_1 t) fullShare x1 ∗ owns (c : Thread nD τ) (st0_2 t) fullShare x2
            ∗ pt c (Memref.whole main_v1) (pointResult c (grid0.coords t) x0 x1 x2 fv)
            ∗ (∃ f : Bf (F := F) c (Memref.whole cc0_scratch0), pt c (Memref.whole cc0_scratch0) f)
            ∗ (∃ f : Bf (F := F) c (Memref.whole cc0_scratch1), pt c (Memref.whole cc0_scratch1) f)
            ∗ (∃ f : Bf (F := F) c (Memref.whole cc0_scratch2), pt c (Memref.whole cc0_scratch2) f)
            ∗ semVal ((c : Thread nD τ), SemLoc.dma (4 : DmaSem sig)) 0 ∗ semVal ((c : Thread nD τ), SemLoc.dma (5 : DmaSem sig)) 0
            ∗ (∃ W', owes (c : Thread nD τ) 0 W')) -∗ Q ⟨⟩))
      ⊢ wp frame (wpE (defs₀ (F := F)) Variants.none c none) Set.univ (bodyAt0 t) Q := by
  unfold owns
  iintro ⟨⟨%f0, %h0, H0⟩, ⟨%f1, %h1, H1⟩, ⟨%f2, %h2, H2⟩, Hv, ⟨%g0, Hg0⟩, ⟨%g1, Hg1⟩, ⟨%g2, Hg2⟩, Hs4, Hs5, HO, Hk⟩
  subst h0 h1 h2
  have e := kernelRun_val c (grid0.coords t) (st0_0 t) (stage_whole0 0 _) (st0_1 t) (stage_whole0 1 _) (st0_2 t) (stage_whole0 2 _) f0 f1 f2 fv g2
  iapply ((kernelRun c (grid0.coords t) (st0_0 t) (stage_whole0 0 _) (st0_1 t) (stage_whole0 1 _) (st0_2 t) (stage_whole0 2 _) f0 f1 f2 fv g2).2 g0 g1 Wt Q)
  isplitl [H0]; · iexact H0
  isplitl [H1]; · iexact H1
  isplitl [H2]; · iexact H2
  isplitl [Hv]; · iexact Hv
  isplitl [Hg0]; · iexact Hg0
  isplitl [Hg1]; · iexact Hg1
  isplitl [Hg2]; · iexact Hg2
  isplitl [Hs4]; · iexact Hs4
  isplitl [Hs5]; · iexact Hs5
  isplitl [HO]; · iexact HO
  iintro ⟨H0, H1, H2, Hv, Hg0, Hg1, Hg2, Hs4, Hs5, HO⟩
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [Hv]; · rw [← e]; iexact Hv
  isplitl [Hg0]; · iexact Hg0
  isplitl [Hg1]; · iexact Hg1
  isplitl [Hg2]; · iexact Hg2
  isplitl [Hs4]; · iexact Hs4
  isplitl [Hs5]; · iexact Hs5
  iexact HO

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [after_0, after_1, after_2]
  rw [show (dats m 0 c).Φ t.castSucc = Ends spec0 osem {main_v1} c (Y m c t.val) from rfl,
    show (dats m 0 c).Φ t.succ = Ends spec0 osem {main_v1} c (Y m c (t.val + 1)) from rfl,
    ends_eq, ends_eq, Y_main_v1, Y_main_v1, resAt_succ]
  unfold Dat.owesAt Pipeline.owesWithin
  rw [show (dats m 0 c).owed t.castSucc = 0 from rfl]
  iintro ⟨⟨Hv, ⟨Hs4, Hs5⟩, ⟨Hg0, Hg1, Hg2⟩, Hp⟩, ⟨%W, %hW, HO⟩, ⟨%d0, H0⟩, ⟨%d1, H1⟩, ⟨%d2, H2⟩⟩
  iapply (point_run c t (iblk m c 0 t) (iblk m c 1 t) (iblk m c 2 t) (resAt m c t.val) W _)
  isplitl [H0]; · iexact H0
  isplitl [H1]; · iexact H1
  isplitl [H2]; · iexact H2
  isplitl [Hv]; · iexact Hv
  isplitl [Hg0]; · iexact Hg0
  isplitl [Hg1]; · iexact Hg1
  isplitl [Hg2]; · iexact Hg2
  isplitl [Hs4]; · iexact Hs4
  isplitl [Hs5]; · iexact Hs5
  isplitl [HO]; · iexact HO
  iintro ⟨H0, H1, H2, Hv, Hg0, Hg1, Hg2, Hs4, Hs5, ⟨%W', HO⟩⟩
  isplitl [Hv Hs4 Hs5 Hg0 Hg1 Hg2 Hp]
  · isplitl [Hv]; · iexact Hv
    isplitl [Hs4 Hs5]; · isplitl [Hs4] <;> iassumption
    isplitl [Hg0 Hg1 Hg2]
    · isplitl [Hg0]; · iexact Hg0
      isplitl [Hg1] <;> iassumption
    iexact Hp
  isplitl [HO]; · iapply (owesAt_intro m c); iexact HO
  isplitl [H0]; · iexact H0
  isplitl [H1] <;> iassumption

set_option maxRecDepth 100000 in

theorem body_obligation (c : Dev nD) : BodyObligation (dats (F := F) m 0 c) (defs₀ (F := F)) 𝒱₀ () Set.univ := fun t => by
  rw [bigSep_W0, bigSep_W0]
  exact sound_body m c t

theorem hmain : Pipeline.HMain (Ix := Unit) (Name := ℕ) (U := UC) (Lvl := ℕ) cfgs 0 defs₀ 𝒱₀ m (main (F := F)) (V m) :=
  Pipeline.hmain_prefix cfgs 0 defs₀ 𝒱₀ m main hostOps0 hostOps0_sub hostOps0_fresh main_chain

/-- Every weakly fair execution terminates with the result at its contents after the four points and the arguments unchanged. -/
theorem run_main : θ_run defs (onTc (τ := τ) (main (F := F))) (s₀ m ρ)
    (RoutedPost cfgs (dats m) 0 {main_v1} (V m) (fun c => Y m c cfg0.N)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m) (hmain := hmain m) (hA := fun _ _ => rfl)
    (R := {main_v1}) (hR := Finset.singleton_subset_iff.mpr (Pipeline.mem_restRefs_of main_v1 (by decide) (by decide)))
    (Y := fun c => Y m c cfg0.N)
    (hin := fun c => by
      show (Ends spec0 osem {main_v1} c (V m c) : sProp 𝕄) ⊢ Ends spec0 osem {main_v1} c (Y m c 0)
      rw [Y_zero])
    (hout := fun _ => .rfl)

variable {m ρ}

theorem final_v1 {r : PUnit × MemSt nD τ sig (Elt F)} (h : RoutedPost cfgs (dats m) 0 {main_v1} (V m) (fun c => Y m c cfg0.N) r) (c : Dev nD) :
    r.2.mem ((c : Thread nD τ).loc main_v1) = resAt m c cfg0.N :=
  ((h c).2.1 main_v1 (Finset.mem_singleton_self _)).trans (Y_main_v1 m c cfg0.N)

theorem final_arg0 {r : PUnit × MemSt nD τ sig (Elt F)} (h : RoutedPost cfgs (dats m) 0 {main_v1} (V m) (fun c => Y m c cfg0.N) r) (c : Dev nD) :
    r.2.mem ((c : Thread nD τ).loc main_arg0) = m ((c : Thread nD τ).loc main_arg0) :=
  ((h c).1 0).trans (((dats m 0 c).arrAt_in 0 rfl _).trans (V_main_arg0 m c))

theorem final_arg1 {r : PUnit × MemSt nD τ sig (Elt F)} (h : RoutedPost cfgs (dats m) 0 {main_v1} (V m) (fun c => Y m c cfg0.N) r) (c : Dev nD) :
    r.2.mem ((c : Thread nD τ).loc main_arg1) = m ((c : Thread nD τ).loc main_arg1) :=
  ((h c).1 1).trans (((dats m 0 c).arrAt_in 1 rfl _).trans (V_main_arg1 m c))

theorem final_arg2 {r : PUnit × MemSt nD τ sig (Elt F)} (h : RoutedPost cfgs (dats m) 0 {main_v1} (V m) (fun c => Y m c cfg0.N) r) (c : Dev nD) :
    r.2.mem ((c : Thread nD τ).loc main_arg2) = m ((c : Thread nD τ).loc main_arg2) :=
  ((h c).2.2 main_arg2 (Finset.mem_sdiff.mpr ⟨Pipeline.mem_restRefs_of main_arg2 (by decide) (by decide), by decide⟩)).trans (V_main_arg2 m c)

variable (m ρ)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨final_arg0 h c, final_arg1 h c, final_arg2 h c⟩) (run_main m ρ)

theorem run_value : θ_run (defs (F := F)) (onTc (τ := τ) (main (F := F))) ⟨m, fun _ => 0, ρ⟩ (fun r => ∀ c : Dev nD,
      r.2.mem ((c.tc : Thread nD τ).loc main_v1) = resAt m c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨final_v1 h c, final_arg0 h c, final_arg1 h c, final_arg2 h c⟩) (run_main m ρ)

end Cert.KernelIdeal.Launch

end
-- ==== Proof.Spec.lean ====
import Idealize.ShloMosaic.PureOps.Ideal
import Idealize.ShloMosaic.Lib.ValueIdx
import proofs.«422836_j30605936951494_3_alg».proof.Proof.Tri

noncomputable section

namespace Cert.Spec

open Idealize.ShloMosaic Idealize.ShloMosaic.ValueIdx

/-- ⟨h[b, s, ·], w[o, off + ·]⟩, one entry of a projection of the hidden block. -/
def proj (h : (⟨3, ![4, 256, 768]⟩ : Shape).Idx → EReal) (w : (⟨2, ![768, 1536]⟩ : Shape).Idx → EReal)
    (off : ℕ) (hoff : off + 768 ≤ 1536) (b : Fin 4) (s : Fin 256) (o : Fin 768) : EReal :=
  ∑ k : Fin 768, h (ix3 b s k) * w (ix2 o (⟨off + k.val, by omega⟩ : Fin 1536))

/-- At batch b, pair p = (i, j) with i ≤ j, column o: tanh (⟨h[b,i,·], w[o, 0:768]⟩ + ⟨h[b,j,·], w[o, 768:1536]⟩ + bias[o]). -/
def Gc (h : (⟨3, ![4, 256, 768]⟩ : Shape).Idx → EReal) (w : (⟨2, ![768, 1536]⟩ : Shape).Idx → EReal)
    (bias : (⟨1, ![768]⟩ : Shape).Idx → EReal) (b : Fin 4) (p : Fin 32896) (o : Fin 768) : EReal :=
  Ideal.tanh (proj h w 0 (by omega) b ⟨Cert.Tri.triRow p.val, Cert.Tri.triRow_lt _⟩ o
    + proj h w 768 (by omega) b ⟨Cert.Tri.triCol p.val, Cert.Tri.triCol_lt _ p.isLt⟩ o
    + bias (ix1 o))

/-- The function both programs compute. -/
def G (h : (⟨3, ![4, 256, 768]⟩ : Shape).Idx → EReal) (w : (⟨2, ![768, 1536]⟩ : Shape).Idx → EReal)
    (bias : (⟨1, ![768]⟩ : Shape).Idx → EReal) : (⟨3, ![4, 32896, 768]⟩ : Shape).Idx → EReal :=
  fun i => Gc h w bias (i 0) (i 1) (i 2)

theorem G_ix3 (h : (⟨3, ![4, 256, 768]⟩ : Shape).Idx → EReal) (w : (⟨2, ![768, 1536]⟩ : Shape).Idx → EReal)
    (bias : (⟨1, ![768]⟩ : Shape).Idx → EReal) (b : Fin 4) (p : Fin 32896) (o : Fin 768) :
    G h w bias (ix3 b p o) = Gc h w bias b p o := rfl

end Cert.Spec

end
-- ==== Proof.KernelMatmul.lean ====
import proofs.«422836_j30605936951494_3_alg».proof.Proof.Gen.KernelIdeal.Skeleton
import proofs.«422836_j30605936951494_3_alg».proof.Proof.Spec
import proofs.«422836_j30605936951494_3_alg».proof.Proof.Tri
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.KMatmul

open Idealize.ShloMosaic Idealize.SL.Sem Cert.KernelIdeal
open Idealize.ShloMosaic.ValueIdx

private theorem pay1_apply (v0 : Vec Ideal S1x256x768 .f32) (s : Fin 256) (k : Fin 768) :
    Gen.k0_pay1 (F := Ideal) v0 (ix2 s k) = v0 (ix3 0 s k) := by
  refine shapeCast_apply v0 Gen.shapeCasts_S1x256x768_S256x768 (ix2 s k) (ix3 0 s k) ?_
  rw [Shape.rowMajor_val_two, Shape.rowMajor_val_three]
  show ((0 : Fin 1).val * 256 + s.val) * 768 + k.val = s.val * 768 + k.val
  rw [Fin.val_zero, Nat.zero_mul, Nat.zero_add]

private theorem left_apply (v3 : Vec Ideal S768x1536 .f32) (o k : Fin 768) :
    extractStridedSlice S768x768 ![0, 0] (Gen.k0_pay2 (F := Ideal) v3) Gen.slices_S768x1536_o0_0_S768x768 (ix2 o k)
      = v3 (ix2 o (⟨0 + k.val, by omega⟩ : Fin 1536)) := by
  refine extractStridedSlice_apply _ (Gen.k0_pay2 (F := Ideal) v3) _ (ix2 o k) _ fun a => ?_
  match a with
  | ⟨0, _⟩ => exact (Nat.zero_add _).symm
  | ⟨1, _⟩ => rfl

private theorem right_apply (v3 : Vec Ideal S768x1536 .f32) (o k : Fin 768) :
    extractStridedSlice S768x768 ![0, 768] (Gen.k0_pay2 (F := Ideal) v3) Gen.slices_S768x1536_o0_768_S768x768 (ix2 o k)
      = v3 (ix2 o (⟨768 + k.val, by omega⟩ : Fin 1536)) := by
  refine extractStridedSlice_apply _ (Gen.k0_pay2 (F := Ideal) v3) _ (ix2 o k) _ fun a => ?_
  match a with
  | ⟨0, _⟩ => exact (Nat.zero_add _).symm
  | ⟨1, _⟩ => rfl

private theorem lhs_0 (j : S256x768.Idx) (k : dot_S256x768_S768x768_S256x768_1_1_0_0_n_n.contr.Idx) :
    (dot_S256x768_S768x768_S256x768_1_1_0_0_n_n.lhsIdx j k 0).val = (j 0).val := by
  simp [DotDims.lhsIdx, dot_S256x768_S768x768_S256x768_1_1_0_0_n_n]
  rfl

private theorem lhs_1 (j : S256x768.Idx) (k : dot_S256x768_S768x768_S256x768_1_1_0_0_n_n.contr.Idx) :
    (dot_S256x768_S768x768_S256x768_1_1_0_0_n_n.lhsIdx j k 1).val = (k ⟨0, Nat.one_pos⟩).val :=
  dot_S256x768_S768x768_S256x768_1_1_0_0_n_n.lhsIdx_val_of_single rfl j k

private theorem rhs_0 (j : S256x768.Idx) (k : dot_S256x768_S768x768_S256x768_1_1_0_0_n_n.contr.Idx) :
    (dot_S256x768_S768x768_S256x768_1_1_0_0_n_n.rhsIdx j k 0).val = (j 1).val := by
  simp [DotDims.rhsIdx, dot_S256x768_S768x768_S256x768_1_1_0_0_n_n]
  rfl

private theorem rhs_1 (j : S256x768.Idx) (k : dot_S256x768_S768x768_S256x768_1_1_0_0_n_n.contr.Idx) :
    (dot_S256x768_S768x768_S256x768_1_1_0_0_n_n.rhsIdx j k 1).val = (k ⟨0, Nat.one_pos⟩).val :=
  dot_S256x768_S768x768_S256x768_1_1_0_0_n_n.rhsIdx_val_of_single rfl j k

theorem matmul_apply {φ₁ φ₂ : FTy} (x : FVec Ideal S256x768 φ₁) (y : FVec Ideal S768x768 φ₂) (s : Fin 256) (o : Fin 768) :
    FloatOps.matmul dot_S256x768_S768x768_S256x768_1_1_0_0_n_n none x y (constant S256x768 .f32 0x00000000#32) (ix2 s o)
      = ∑ k : Fin 768, x (ix2 s k) * y (ix2 o k) := by
  rw [Ideal.matmul_constant_zero_apply, ← Equiv.sum_comp (contrEquiv1 dot_S256x768_S768x768_S256x768_1_1_0_0_n_n 768 rfl rfl).symm]
  refine Finset.sum_congr rfl fun c _ => ?_
  have hc := contrEquiv1_symm_val dot_S256x768_S768x768_S256x768_1_1_0_0_n_n 768 rfl rfl c

  have hl : dot_S256x768_S768x768_S256x768_1_1_0_0_n_n.lhsIdx (ix2 s o) ((contrEquiv1 dot_S256x768_S768x768_S256x768_1_1_0_0_n_n 768 rfl rfl).symm c) = ix2 s c := by
    funext a
    apply Fin.ext
    match a with
    | ⟨0, _⟩ => exact lhs_0 _ _
    | ⟨1, _⟩ => exact (lhs_1 _ _).trans hc

  have hr : dot_S256x768_S768x768_S256x768_1_1_0_0_n_n.rhsIdx (ix2 s o) ((contrEquiv1 dot_S256x768_S768x768_S256x768_1_1_0_0_n_n 768 rfl rfl).symm c) = ix2 o c := by
    funext a
    apply Fin.ext
    match a with
    | ⟨0, _⟩ => exact rhs_0 _ _
    | ⟨1, _⟩ => exact (rhs_1 _ _).trans hc
  rw [hl, hr]

private theorem pay3_eq (v0 : Vec Ideal S1x256x768 .f32) (v3 : Vec Ideal S768x1536 .f32) :
    Gen.k0_pay3 (F := Ideal) v0 v3
      = FloatOps.matmul dot_S256x768_S768x768_S256x768_1_1_0_0_n_n none (Gen.k0_pay1 (F := Ideal) v0)
          (extractStridedSlice S768x768 ![0, 0] (Gen.k0_pay2 (F := Ideal) v3) Gen.slices_S768x1536_o0_0_S768x768)
          (constant S256x768 .f32 0x00000000#32) :=
  shapeCast_self _ _

private theorem pay4_eq (v0 : Vec Ideal S1x256x768 .f32) (v3 : Vec Ideal S768x1536 .f32) :
    Gen.k0_pay4 (F := Ideal) v0 v3
      = FloatOps.matmul dot_S256x768_S768x768_S256x768_1_1_0_0_n_n none (Gen.k0_pay1 (F := Ideal) v0)
          (extractStridedSlice S768x768 ![0, 768] (Gen.k0_pay2 (F := Ideal) v3) Gen.slices_S768x1536_o0_768_S768x768)
          (constant S256x768 .f32 0x00000000#32) :=
  shapeCast_self _ _

/-- The first projection at (s, o) is the sum over k of h[s, k] · w[o, k]. -/
theorem pay3_apply (v0 : Vec Ideal S1x256x768 .f32) (v3 : Vec Ideal S768x1536 .f32) (s : Fin 256) (o : Fin 768) :
    Gen.k0_pay3 (F := Ideal) v0 v3 (ix2 s o)
      = ∑ k : Fin 768, v0 (ix3 0 s k) * v3 (ix2 o (⟨0 + k.val, by omega⟩ : Fin 1536)) := by
  rw [pay3_eq, matmul_apply]
  refine Finset.sum_congr rfl fun k _ => ?_
  rw [pay1_apply, left_apply]

/-- The second, against the weight's columns 768 … 1535. -/
theorem pay4_apply (v0 : Vec Ideal S1x256x768 .f32) (v3 : Vec Ideal S768x1536 .f32) (s : Fin 256) (o : Fin 768) :
    Gen.k0_pay4 (F := Ideal) v0 v3 (ix2 s o)
      = ∑ k : Fin 768, v0 (ix3 0 s k) * v3 (ix2 o (⟨768 + k.val, by omega⟩ : Fin 1536)) := by
  rw [pay4_eq, matmul_apply]
  refine Finset.sum_congr rfl fun k _ => ?_
  rw [pay1_apply, right_apply]

theorem broadcastRow_apply {n : Nat} (hb : (⟨2, ![1, 768]⟩ : Shape).Broadcasts ⟨2, ![n, 768]⟩)
    (x : Vec Ideal ⟨2, ![1, 768]⟩ .f32) (d : Fin n) (o : Fin 768) :
    broadcastTo ⟨2, ![n, 768]⟩ x hb (ix2 d o) = x (ix2 0 o) := by
  refine broadcastTo_apply x hb (ix2 d o) (ix2 0 o) fun a => ?_
  match a with
  | ⟨0, _⟩ => rfl
  | ⟨1, _⟩ => rfl

end Cert.KernelIdeal.KMatmul

end
-- ==== Proof.KernelIdealFinal.lean ====
import proofs.«422836_j30605936951494_3_alg».proof.Proof.KernelIdealPoints
import proofs.«422836_j30605936951494_3_alg».proof.Proof.KernelMatmul
import proofs.«422836_j30605936951494_3_alg».proof.Proof.Spec
import proofs.«422836_j30605936951494_3_alg».proof.Proof.Tri
import Idealize.ShloMosaic.Lib.Pipeline.Value
import Idealize.ShloMosaic.Lib.ValueIdx
import Idealize.ShloMosaic.Lib.Tactic

noncomputable section

namespace Cert.KernelIdeal.KFinal

open Cert.KernelIdeal Cert.KernelIdeal.Gen Cert.KernelIdeal.Run Cert.KernelIdeal.KValue Cert.KernelIdeal.KMatmul
open Idealize.ShloMosaic Idealize.ShloMosaic.TcCoe Idealize.ShloMosaic.ValueIdx Idealize.ShloMosaic.Tactic
open Idealize.SL Idealize.SL.Sem

theorem slab_ideal (x0 : Vec Ideal S1x256x768 .f32) (x1 : Vec Ideal S768x1536 .f32) (x2 : Vec Ideal S1x768 .f32) (p : Fin 32896) (o : Fin 768) :
    KValue.slab (F := Ideal) x0 x1 x2 p o
      = Ideal.tanh ((∑ k : Fin 768, x0 (ix3 0 ⟨Cert.Tri.triRow p.val, Cert.Tri.triRow_lt _⟩ k) * x1 (ix2 o (⟨0 + k.val, by omega⟩ : Fin 1536)))
          + (∑ k : Fin 768, x0 (ix3 0 ⟨Cert.Tri.triCol p.val, Cert.Tri.triCol_lt _ p.isLt⟩ k) * x1 (ix2 o (⟨768 + k.val, by omega⟩ : Fin 1536)))
          + x2 (ix2 0 o)) := by

  have h5 : Gen.k0_pay5 (F := Ideal) x2 = x2 := shapeCast_self _ _

  show Ideal.tanh (Gen.k0_pay3 (F := Ideal) x0 x1 (ix2 ⟨Cert.Tri.triRow p.val, Cert.Tri.triRow_lt _⟩ o)
      + Gen.k0_pay4 (F := Ideal) x0 x1 (ix2 ⟨Cert.Tri.triCol p.val, Cert.Tri.triCol_lt _ p.isLt⟩ o)
      + Gen.k0_pay5 (F := Ideal) x2 (ix2 0 o)) = _
  rw [pay3_apply, pay4_apply, h5]

section blocks

variable {F : FTy → Type} [FloatOps F]
variable (m : (ℓ : Loc nD τ sig) → Buf (Elt F) ℓ)

theorem index0 (t : Fin cfg0.N) : win0_0.index t 0 = t.val ∧ win0_0.index t 1 = 0 ∧ win0_0.index t 2 = 0 := by
  rcases fin_N0 t with rfl | rfl | rfl | rfl <;> decide

theorem index1 (t : Fin cfg0.N) : win0_1.index t 0 = 0 ∧ win0_1.index t 1 = 0 := by
  rcases fin_N0 t with rfl | rfl | rfl | rfl <;> decide

theorem index2 (t : Fin cfg0.N) : win0_2.index t 0 = 0 ∧ win0_2.index t 1 = 0 := by
  rcases fin_N0 t with rfl | rfl | rfl | rfl <;> decide

theorem iblk0_apply (c : Dev nD) (t : Fin cfg0.N) (b : Fin 4) (hb : b.val = t.val) (s : Fin 256) (k : Fin 768) :
    (iblk m c 0 t : Vec F S1x256x768 .f32) (ix3 0 s k)
      = (m ((c.tc : Thread nD τ).loc main_arg0) : S4x256x768.Idx → Elt F .f32) (ix3 b s k) := by
  obtain ⟨i0, i1, i2⟩ := index0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * (0 : Fin 1).val = b.val; rw [i0, hb, Fin.val_zero]; omega
  | ⟨1, _⟩ => show win0_0.index t 1 * 256 + 1 * s.val = s.val; rw [i1]; omega
  | ⟨2, _⟩ => show win0_0.index t 2 * 768 + 1 * k.val = k.val; rw [i2]; omega

theorem iblk1_apply (c : Dev nD) (t : Fin cfg0.N) (o : Fin 768) (j : Fin 1536) :
    (iblk m c 1 t : Vec F S768x1536 .f32) (ix2 o j)
      = (m ((c.tc : Thread nD τ).loc main_arg1) : S768x1536.Idx → Elt F .f32) (ix2 o j) := by
  obtain ⟨i0, i1⟩ := index1 t
  unfold iblk
  rw [View.read_apply]
  show V m c main_arg1 _ = m (c.tc.loc main_arg1) _
  rw [V_main_arg1]
  congr 1
  funext a
  apply Fin.ext
  match a with
  | ⟨0, _⟩ => show win0_1.index t 0 * 768 + 1 * o.val = o.val; rw [i0]; omega
  | ⟨1, _⟩ => show win0_1.index t 1 * 1536 + 1 * j.val = j.val; rw [i1]; omega

theorem V_main_v0 (c : Dev nD) :
    (V m c main_v0 : S1x768.Idx → Elt F .f32)
      = shapeCast S1x768 (m ((c.tc : Thread nD τ).loc main_arg2) : S768.Idx → Elt F .f32) shapeCasts_S768_S1x768 := by
  dsimp only [Gen.V, Gen.hostOps0]
  after_results
  rfl

theorem iblk2_apply (c : Dev nD) (t : Fin cfg0.N) (o : Fin 768) :
    (iblk m c 2 t : Vec F S1x768 .f32) (ix2 0 o)
      = (m ((c.tc : Thread nD τ).loc main_arg2) : S768.Idx → Elt F .f32) (ix1 o) := by
  obtain ⟨i0, i1⟩ := index2 t
  unfold iblk
  rw [View.read_apply]
  show (V m c main_v0 : S1x768.Idx → Elt F .f32) _ = _
  rw [V_main_v0]
  refine shapeCast_apply _ shapeCasts_S768_S1x768 _ (ix1 o) ?_
  rw [Shape.rowMajor_val_one, Shape.rowMajor_val_two]
  show o.val = (win0_2.index t 0 * 1 + 1 * (0 : Fin 1).val) * 768 + (win0_2.index t 1 * 768 + 1 * o.val)
  rw [i0, i1, Fin.val_zero]
  omega

end blocks

theorem slab_blocks (m : (ℓ : Loc nD τ sig) → Buf (Elt Ideal) ℓ) (c : Dev nD) (t : Fin cfg0.N) (b : Fin 4) (hb : b.val = t.val)
    (p : Fin 32896) (o : Fin 768) :
    KValue.slab (F := Ideal) (iblk m c 0 t) (iblk m c 1 t) (iblk m c 2 t) p o
      = Cert.Spec.Gc (m ((c.tc : Thread nD τ).loc main_arg0)) (m ((c.tc : Thread nD τ).loc main_arg1)) (m ((c.tc : Thread nD τ).loc main_arg2)) b p o := by
  rw [slab_ideal]
  unfold Cert.Spec.Gc Cert.Spec.proj
  congr 1
  congr 1
  · congr 1
    · refine Finset.sum_congr rfl fun k _ => ?_
      rw [iblk0_apply m c t b hb, iblk1_apply m c t]
    · refine Finset.sum_congr rfl fun k _ => ?_
      rw [iblk0_apply m c t b hb, iblk1_apply m c t]
  · exact iblk2_apply m c t o

/-- After the four grid points every batch holds the specification. -/
theorem res4_eq_G (m : (ℓ : Loc nD τ sig) → Buf (Elt Ideal) ℓ) (c : Dev nD) :
    KValue.res4 (F := Ideal) m c
      = Cert.Spec.G (m ((c.tc : Thread nD τ).loc main_arg0)) (m ((c.tc : Thread nD τ).loc main_arg1)) (m ((c.tc : Thread nD τ).loc main_arg2)) := by
  funext idx
  have hlt : (idx 0).val < 4 := (idx 0).isLt
  have g0 : (grid0.coords t0_0 0).val = 0 := by decide
  have g1 : (grid0.coords t0_1 0).val = 1 := by decide
  have g2 : (grid0.coords t0_2 0).val = 2 := by decide
  have g3 : (grid0.coords t0_3 0).val = 3 := by decide
  show _ = Cert.Spec.Gc _ _ _ (idx 0) (idx 1) (idx 2)
  unfold KValue.res4 KValue.pointResult
  by_cases h3 : (idx 0).val = (grid0.coords t0_3 0).val
  · rw [if_pos h3]
    exact slab_blocks m c t0_3 (idx 0) (h3.trans g3) (idx 1) (idx 2)
  rw [if_neg h3]
  unfold KValue.res3 KValue.pointResult
  by_cases h2 : (idx 0).val = (grid0.coords t0_2 0).val
  · rw [if_pos h2]
    exact slab_blocks m c t0_2 (idx 0) (h2.trans g2) (idx 1) (idx 2)
  rw [if_neg h2]
  unfold KValue.res2 KValue.pointResult
  by_cases h1 : (idx 0).val = (grid0.coords t0_1 0).val
  · rw [if_pos h1]
    exact slab_blocks m c t0_1 (idx 0) (h1.trans g1) (idx 1) (idx 2)
  rw [if_neg h1]
  unfold KValue.res1 KValue.pointResult
  by_cases h0 : (idx 0).val = (grid0.coords t0_0 0).val
  · rw [if_pos h0]
    exact slab_blocks m c t0_0 (idx 0) (h0.trans g0) (idx 1) (idx 2)
  exfalso
  omega

end Cert.KernelIdeal.KFinal

end
-- ==== Proof.RefTerms.lean ====
import proofs.«422836_j30605936951494_3_alg».proof.ReferenceIdeal

noncomputable section

namespace Cert.ReferenceIdeal.RefTerms

open Idealize.ShloMosaic Idealize.SL.Sem Cert.ReferenceIdeal
open Cert.ReferenceIdeal.Facts₀ Cert.ReferenceIdeal.Facts

variable {F : FTy → Type} [FloatOps F] [Facts]

local notation "T[" S ", " e "]" => (BufTy.Contents (Elt F) (⟨S, e⟩ : BufTy))

def w1 (w : T[S768x1536, .f32]) : T[S768x768, .f32] :=
  extractStridedSlice S768x768 ![0, 0] w slices_S768x1536_S768x768_0_0

def w2 (w : T[S768x1536, .f32]) : T[S768x768, .f32] :=
  extractStridedSlice S768x768 ![0, 768] w slices_S768x1536_S768x768_0_768

def p1 (h : T[S4x256x768, .f32]) (w : T[S768x1536, .f32]) : T[S4x256x768, .f32] :=
  Host.dotGeneral dot_S4x256x768_S768x768_S4x256x768_2_1_01_0_n_n none h ((w1 (F := F)) w)

def p2 (h : T[S4x256x768, .f32]) (w : T[S768x1536, .f32]) : T[S4x256x768, .f32] :=
  Host.dotGeneral dot_S4x256x768_S768x768_S4x256x768_2_1_01_0_n_n none h ((w2 (F := F)) w)

def ones256 : T[S256x256, .f32] :=
  broadcastInDim S256x256 ![] bcast_S_S256x256 (constant S_ .f32 0x3F800000#32)

def triuRowM1 : T[S256x256, .i32] :=
  addi (iotaInDim S256x256 32 0) (broadcastInDim S256x256 ![] bcast_S_S256x256 (constantI S_ 32 4294967295#32))

def triuBelow : T[S256x256, .i1] :=
  cmpi .sge (triuRowM1 (F := F)) (iotaInDim S256x256 32 1)

def triu (x : T[S256x256, .f32]) : T[S256x256, .f32] :=
  select (triuBelow (F := F)) (broadcastInDim S256x256 ![] bcast_S_S256x256 (constant S_ .f32 0x00000000#32)) x

def triuOnes : T[S256x256, .f32] := (triu (F := F)) (ones256 (F := F))

def zeros256 : T[S256x256, .f32] :=
  broadcastInDim S256x256 ![] bcast_S_S256x256 (constant S_ .f32 0x00000000#32)

def mask : T[S256x256, .i1] := cmpf .une (triuOnes (F := F)) (zeros256 (F := F))

def sumInit : T[S_, .i32] := broadcastInDim S_ ![] bcast_S_S_ (constantI S_ 32 0#32)

def cumsum0 (x : T[S65536, .i32]) : T[S65536, .i32] :=
  Host.reduceWindow IntOp.addi ![65536] ![1] ![65535] ![0] x (sumInit (F := F)) reduceWindows_S65536_S65536_w65536s1p65535_0 h_S_

def maskFlat (x : T[S256x256, .i1]) : T[S65536, .i1] :=
  shapeCast S65536 x shapeCasts_S256x256_S65536

def cumsum (x : T[S256x256, .i1]) : T[S65536, .i32] :=
  (cumsum0 (F := F)) (extui 32 ((maskFlat (F := F)) x) natLt_1_32)

def cnt : T[S65536, .i32] := (cumsum (F := F)) (mask (F := F))

def zeros32896 : T[S32896, .i32] :=
  broadcastInDim S32896 ![] bcast_S_S32896 (constantI S_ 32 0#32)

def clip (x : T[S65536, .i32]) (lo : T[S_, .i32]) : T[S65536, .i32] :=
  maxsi (broadcastInDim S65536 ![] bcast_S_S65536 lo) x

def clipped : T[S65536, .i32] := (clip (F := F)) (cnt (F := F)) (constantI S_ 32 0#32)

def clippedNeg : T[S65536, .i1] :=
  cmpi .slt (clipped (F := F)) (broadcastInDim S65536 ![] bcast_S_S65536 (constantI S_ 32 0#32))

def clippedPlus : T[S65536, .i32] :=
  addi (clipped (F := F)) (broadcastInDim S65536 ![] bcast_S_S65536 (constantI S_ 32 32896#32))

def wrapped : T[S65536, .i32] := select (clippedNeg (F := F)) (clippedPlus (F := F)) (clipped (F := F))

def scatIdx : T[S65536x1, .i32] :=
  broadcastInDim S65536x1 ![0] bcast_S65536_S65536x1_0 (wrapped (F := F))

def ones65536 : T[S65536, .i32] :=
  broadcastInDim S65536 ![] bcast_S_S65536 (constantI S_ 32 1#32)

def binc : T[S32896, .i32] :=
  Host.scatter scatter_S32896_S65536x1_S65536_n_0_0_1 IntOp.addi (zeros32896 (F := F)) (scatIdx (F := F)) (ones65536 (F := F))

def cumsum1 (x : T[S32896, .i32]) : T[S32896, .i32] :=
  Host.reduceWindow IntOp.addi ![32896] ![1] ![32895] ![0] x (sumInit (F := F)) reduceWindows_S32896_S32896_w32896s1p32895_0 h_S_

def flatIdx : T[S32896, .i32] := (cumsum1 (F := F)) (binc (F := F))

def bc (d : T[S_, .i32]) : T[S32896, .i32] := broadcastInDim S32896 ![] bcast_S_S32896 d

def fdQuot (x : T[S32896, .i32]) (d : T[S_, .i32]) : T[S32896, .i32] := Host.divsi x ((bc (F := F)) d)

def fdSignsDiffer (x : T[S32896, .i32]) (d : T[S_, .i32]) : T[S32896, .i1] :=
  cmpi .ne (signi x) ((bc (F := F)) (signi d))

def fdRemNonzero (x : T[S32896, .i32]) (d : T[S_, .i32]) : T[S32896, .i1] :=
  cmpi .ne (Host.remsi x ((bc (F := F)) d)) ((bc (F := F)) (constantI S_ 32 0#32))

def fdAdjust (x : T[S32896, .i32]) (d : T[S_, .i32]) : T[S32896, .i1] :=
  andi ((fdSignsDiffer (F := F)) x d) ((fdRemNonzero (F := F)) x d)

def floorDivide (x : T[S32896, .i32]) (d : T[S_, .i32]) : T[S32896, .i32] :=
  select ((fdAdjust (F := F)) x d) (subi ((fdQuot (F := F)) x d) ((bc (F := F)) (constantI S_ 32 1#32))) ((fdQuot (F := F)) x d)

def remDivZero (d : T[S_, .i32]) : T[S_, .i1] := cmpi .eq d (constantI S_ 32 0#32)

def remDivisor (d : T[S_, .i32]) : T[S_, .i32] := select ((remDivZero (F := F)) d) (constantI S_ 32 1#32) d

def remTrunc (x : T[S32896, .i32]) (d : T[S_, .i32]) : T[S32896, .i32] :=
  Host.remsi x ((bc (F := F)) ((remDivisor (F := F)) d))

def remNonzero (x : T[S32896, .i32]) (d : T[S_, .i32]) : T[S32896, .i1] :=
  cmpi .ne ((remTrunc (F := F)) x d) ((bc (F := F)) (constantI S_ 32 0#32))

def remNeg (x : T[S32896, .i32]) (d : T[S_, .i32]) : T[S32896, .i1] :=
  cmpi .slt ((remTrunc (F := F)) x d) ((bc (F := F)) (constantI S_ 32 0#32))

def remDivNeg (d : T[S_, .i32]) : T[S32896, .i1] :=
  broadcastInDim S32896 ![] bcast_S_S32896 (cmpi .slt ((remDivisor (F := F)) d) (constantI S_ 32 0#32))

def remAdjust (x : T[S32896, .i32]) (d : T[S_, .i32]) : T[S32896, .i1] :=
  andi (cmpi .ne ((remNeg (F := F)) x d) ((remDivNeg (F := F)) d)) ((remNonzero (F := F)) x d)

def remainder (x : T[S32896, .i32]) (d : T[S_, .i32]) : T[S32896, .i32] :=
  select ((remAdjust (F := F)) x d) (addi ((remTrunc (F := F)) x d) ((bc (F := F)) ((remDivisor (F := F)) d))) ((remTrunc (F := F)) x d)

def quot256 : T[S32896, .i32] := (floorDivide (F := F)) (flatIdx (F := F)) (constantI S_ 32 256#32)

def rowRaw : T[S32896, .i32] := (remainder (F := F)) (quot256 (F := F)) (constantI S_ 32 256#32)

def quot1 : T[S32896, .i32] := (floorDivide (F := F)) (flatIdx (F := F)) (constantI S_ 32 1#32)

def colRaw : T[S32896, .i32] := (remainder (F := F)) (quot1 (F := F)) (constantI S_ 32 256#32)

def wrap256 (x : T[S32896, .i32]) : T[S32896, .i32] :=
  select (cmpi .slt x ((bc (F := F)) (constantI S_ 32 0#32))) (addi x ((bc (F := F)) (constantI S_ 32 256#32))) x

def rowIdx : T[S32896x1, .i32] :=
  broadcastInDim S32896x1 ![0] bcast_S32896_S32896x1_0 ((wrap256 (F := F)) (rowRaw (F := F)))

def colIdx : T[S32896x1, .i32] :=
  broadcastInDim S32896x1 ![0] bcast_S32896_S32896x1_0 ((wrap256 (F := F)) (colRaw (F := F)))

def g1 (h : T[S4x256x768, .f32]) (w : T[S768x1536, .f32]) : T[S4x32896x768, .f32] :=
  Host.gather gather_S4x256x768_S32896x1_S4x32896x768_02_1_n_n_1_1_41768 ((p1 (F := F)) h w) (rowIdx (F := F))

def g2 (h : T[S4x256x768, .f32]) (w : T[S768x1536, .f32]) : T[S4x32896x768, .f32] :=
  Host.gather gather_S4x256x768_S32896x1_S4x32896x768_02_1_n_n_1_1_41768 ((p2 (F := F)) h w) (colIdx (F := F))

def biasB (b : T[S768, .f32]) : T[S4x32896x768, .f32] :=
  broadcastInDim S4x32896x768 ![0, 1, 2] bcast_S1x1x768_S4x32896x768_0_1_2
    (broadcastInDim S1x1x768 ![2] bcast_S768_S1x1x768_2 b)

def out (h : T[S4x256x768, .f32]) (w : T[S768x1536, .f32]) (b : T[S768, .f32]) : T[S4x32896x768, .f32] :=
  Host.tanh (addf (addf ((g1 (F := F)) h w) ((g2 (F := F)) h w)) ((biasB (F := F)) b))

end Cert.ReferenceIdeal.RefTerms

end
-- ==== Proof.RefRun.lean ====
import proofs.«422836_j30605936951494_3_alg».proof.Proof.Gen.ReferenceIdeal
import proofs.«422836_j30605936951494_3_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def sA : List (HloOp τ sig (Elt F)) :=
  [ unary main_arg1 main_v0 ((extractStridedSlice S768x768 ![0, 0] · slices_S768x1536_S768x768_0_0)),
    unary main_arg1 main_v1 ((extractStridedSlice S768x768 ![0, 768] · slices_S768x1536_S768x768_0_768)),
    binary main_arg0 main_v0 main_v2 ((fun l r => Host.dotGeneral dot_S4x256x768_S768x768_S4x256x768_2_1_01_0_n_n none l r)),
    binary main_arg0 main_v1 main_v3 ((fun l r => Host.dotGeneral dot_S4x256x768_S768x768_S4x256x768_2_1_01_0_n_n none l r)),
    nullary main_cst (constant S_ .f32 0x3F800000#32),
    unary main_cst main_v4 (broadcastInDim S256x256 ![] bcast_S_S256x256),
    nullary main_call0_v0 ((iotaInDim S256x256 32 0)),
    nullary main_call0_c ((constantI S_ 32 4294967295#32)),
    unary main_call0_c main_call0_v1 ((broadcastInDim S256x256 ![] bcast_S_S256x256)),
    binary main_call0_v0 main_call0_v1 main_call0_v2 ((addi)),
    nullary main_call0_v3 ((iotaInDim S256x256 32 1)),
    binary main_call0_v2 main_call0_v3 main_call0_v4 ((cmpi .sge)),
    nullary main_call0_cst ((constant S_ .f32 0x00000000#32)),
    unary main_call0_cst main_call0_v5 ((broadcastInDim S256x256 ![] bcast_S_S256x256)),
    ternary main_call0_v4 main_call0_v5 main_v4 main_v5 ((select)),
    nullary main_cst_0 (constant S_ .f32 0x00000000#32),
    unary main_cst_0 main_v6 (broadcastInDim S256x256 ![] bcast_S_S256x256),
    binary main_v5 main_v6 main_v7 (cmpf .une) ]

def sB : List (HloOp τ sig (Elt F)) :=
  [ reshape main_v7 main_call1_v0 rfl shapeCasts_S256x256_S65536,
    unary main_call1_v0 main_call1_v1 ((extui 32 · natLt_1_32)),
    nullary main_call1_call0_c ((constantI S_ 32 0#32)),
    unary main_call1_call0_c main_call1_call0_v0 ((broadcastInDim S_ ![] bcast_S_S_)),
    binary main_call1_v1 main_call1_call0_v0 main_v8 ((fun x v => Host.reduceWindow IntOp.addi ![65536] ![1] ![65535] ![0] x v reduceWindows_S65536_S65536_w65536s1p65535_0 h_S_)),
    nullary main_c (constantI S_ 32 0#32),
    unary main_c main_v9 (broadcastInDim S32896 ![] bcast_S_S32896),
    nullary main_c_1 (constantI S_ 32 0#32),
    unary main_c_1 main_call2_v0 ((id)),
    unary main_call2_v0 main_call2_v1 ((broadcastInDim S65536 ![] bcast_S_S65536)),
    binary main_call2_v1 main_v8 main_v10 ((maxsi)),
    nullary main_c_2 (constantI S_ 32 0#32),
    unary main_c_2 main_v11 (broadcastInDim S65536 ![] bcast_S_S65536),
    binary main_v10 main_v11 main_v12 (cmpi .slt),
    nullary main_c_3 (constantI S_ 32 32896#32),
    unary main_c_3 main_v13 (broadcastInDim S65536 ![] bcast_S_S65536),
    binary main_v10 main_v13 main_v14 (addi),
    ternary main_v12 main_v14 main_v10 main_v15 (select),
    unary main_v15 main_v16 (broadcastInDim S65536x1 ![0] bcast_S65536_S65536x1_0),
    nullary main_c_4 (constantI S_ 32 1#32),
    unary main_c_4 main_v17 (broadcastInDim S65536 ![] bcast_S_S65536),
    ternary main_v9 main_v16 main_v17 main_v18 ((fun x i u => Host.scatter scatter_S32896_S65536x1_S65536_n_0_0_1 IntOp.addi x i u)),
    nullary main_call3_call0_c ((constantI S_ 32 0#32)),
    unary main_call3_call0_c main_call3_call0_v0 ((broadcastInDim S_ ![] bcast_S_S_)),
    binary main_v18 main_call3_call0_v0 main_v19 ((fun x v => Host.reduceWindow IntOp.addi ![32896] ![1] ![32895] ![0] x v reduceWindows_S32896_S32896_w32896s1p32895_0 h_S_)) ]

def sC : List (HloOp τ sig (Elt F)) :=
  [ nullary main_c_5 (constantI S_ 32 256#32),
    unary main_c_5 main_call4_v0 ((broadcastInDim S32896 ![] bcast_S_S32896)),
    binary main_v19 main_call4_v0 main_call4_v1 ((Host.divsi)),
    unary main_v19 main_call4_v2 ((signi)),
    unary main_c_5 main_call4_v3 ((signi)),
    unary main_call4_v3 main_call4_v4 ((broadcastInDim S32896 ![] bcast_S_S32896)),
    binary main_call4_v2 main_call4_v4 main_call4_v5 ((cmpi .ne)),
    unary main_c_5 main_call4_v6 ((broadcastInDim S32896 ![] bcast_S_S32896)),
    binary main_v19 main_call4_v6 main_call4_v7 ((Host.remsi)),
    nullary main_call4_c ((constantI S_ 32 0#32)),
    unary main_call4_c main_call4_v8 ((broadcastInDim S32896 ![] bcast_S_S32896)),
    binary main_call4_v7 main_call4_v8 main_call4_v9 ((cmpi .ne)),
    binary main_call4_v5 main_call4_v9 main_call4_v10 ((andi)),
    nullary main_call4_c_0 ((constantI S_ 32 1#32)),
    unary main_call4_c_0 main_call4_v11 ((broadcastInDim S32896 ![] bcast_S_S32896)),
    binary main_call4_v1 main_call4_v11 main_call4_v12 ((subi)),
    ternary main_call4_v10 main_call4_v12 main_call4_v1 main_v20 ((select)) ]

def sD : List (HloOp τ sig (Elt F)) :=
  [ nullary main_c_6 (constantI S_ 32 256#32),
    unary main_c_6 main_call5_v0 ((id)),
    nullary main_call5_c ((constantI S_ 32 0#32)),
    binary main_call5_v0 main_call5_c main_call5_v1 ((cmpi .eq)),
    nullary main_call5_c_0 ((constantI S_ 32 1#32)),
    ternary main_call5_v1 main_call5_c_0 main_call5_v0 main_call5_v2 ((select)),
    unary main_call5_v2 main_call5_v3 ((broadcastInDim S32896 ![] bcast_S_S32896)),
    binary main_v20 main_call5_v3 main_call5_v4 ((Host.remsi)),
    nullary main_call5_c_1 ((constantI S_ 32 0#32)),
    unary main_call5_c_1 main_call5_v5 ((broadcastInDim S32896 ![] bcast_S_S32896)),
    binary main_call5_v4 main_call5_v5 main_call5_v6 ((cmpi .ne)),
    nullary main_call5_c_2 ((constantI S_ 32 0#32)),
    unary main_call5_c_2 main_call5_v7 ((broadcastInDim S32896 ![] bcast_S_S32896)),
    binary main_call5_v4 main_call5_v7 main_call5_v8 ((cmpi .slt)),
    nullary main_call5_c_3 ((constantI S_ 32 0#32)),
    binary main_call5_v2 main_call5_c_3 main_call5_v9 ((cmpi .slt)),
    unary main_call5_v9 main_call5_v10 ((broadcastInDim S32896 ![] bcast_S_S32896)),
    binary main_call5_v8 main_call5_v10 main_call5_v11 ((cmpi .ne)),
    binary main_call5_v11 main_call5_v6 main_call5_v12 ((andi)),
    unary main_call5_v2 main_call5_v13 ((broadcastInDim S32896 ![] bcast_S_S32896)),
    binary main_call5_v4 main_call5_v13 main_call5_v14 ((addi)),
    ternary main_call5_v12 main_call5_v14 main_call5_v4 main_v21 ((select)) ]

def sE : List (HloOp τ sig (Elt F)) :=
  [ nullary main_c_7 (constantI S_ 32 1#32),
    unary main_c_7 main_call6_v0 ((broadcastInDim S32896 ![] bcast_S_S32896)),
    binary main_v19 main_call6_v0 main_call6_v1 ((Host.divsi)),
    unary main_v19 main_call6_v2 ((signi)),
    unary main_c_7 main_call6_v3 ((signi)),
    unary main_call6_v3 main_call6_v4 ((broadcastInDim S32896 ![] bcast_S_S32896)),
    binary main_call6_v2 main_call6_v4 main_call6_v5 ((cmpi .ne)),
    unary main_c_7 main_call6_v6 ((broadcastInDim S32896 ![] bcast_S_S32896)),
    binary main_v19 main_call6_v6 main_call6_v7 ((Host.remsi)),
    nullary main_call6_c ((constantI S_ 32 0#32)),
    unary main_call6_c main_call6_v8 ((broadcastInDim S32896 ![] bcast_S_S32896)),
    binary main_call6_v7 main_call6_v8 main_call6_v9 ((cmpi .ne)),
    binary main_call6_v5 main_call6_v9 main_call6_v10 ((andi)),
    nullary main_call6_c_0 ((constantI S_ 32 1#32)),
    unary main_call6_c_0 main_call6_v11 ((broadcastInDim S32896 ![] bcast_S_S32896)),
    binary main_call6_v1 main_call6_v11 main_call6_v12 ((subi)),
    ternary main_call6_v10 main_call6_v12 main_call6_v1 main_v22 ((select)) ]

def sF : List (HloOp τ sig (Elt F)) :=
  [ nullary main_c_8 (constantI S_ 32 256#32),
    unary main_c_8 main_call7_v0 ((id)),
    nullary main_call7_c ((constantI S_ 32 0#32)),
    binary main_call7_v0 main_call7_c main_call7_v1 ((cmpi .eq)),
    nullary main_call7_c_0 ((constantI S_ 32 1#32)),
    ternary main_call7_v1 main_call7_c_0 main_call7_v0 main_call7_v2 ((select)),
    unary main_call7_v2 main_call7_v3 ((broadcastInDim S32896 ![] bcast_S_S32896)),
    binary main_v22 main_call7_v3 main_call7_v4 ((Host.remsi)),
    nullary main_call7_c_1 ((constantI S_ 32 0#32)),
    unary main_call7_c_1 main_call7_v5 ((broadcastInDim S32896 ![] bcast_S_S32896)),
    binary main_call7_v4 main_call7_v5 main_call7_v6 ((cmpi .ne)),
    nullary main_call7_c_2 ((constantI S_ 32 0#32)),
    unary main_call7_c_2 main_call7_v7 ((broadcastInDim S32896 ![] bcast_S_S32896)),
    binary main_call7_v4 main_call7_v7 main_call7_v8 ((cmpi .slt)),
    nullary main_call7_c_3 ((constantI S_ 32 0#32)),
    binary main_call7_v2 main_call7_c_3 main_call7_v9 ((cmpi .slt)),
    unary main_call7_v9 main_call7_v10 ((broadcastInDim S32896 ![] bcast_S_S32896)),
    binary main_call7_v8 main_call7_v10 main_call7_v11 ((cmpi .ne)),
    binary main_call7_v11 main_call7_v6 main_call7_v12 ((andi)),
    unary main_call7_v2 main_call7_v13 ((broadcastInDim S32896 ![] bcast_S_S32896)),
    binary main_call7_v4 main_call7_v13 main_call7_v14 ((addi)),
    ternary main_call7_v12 main_call7_v14 main_call7_v4 main_v23 ((select)) ]

def sG : List (HloOp τ sig (Elt F)) :=
  [ nullary main_c_9 (constantI S_ 32 0#32),
    unary main_c_9 main_v24 (broadcastInDim S32896 ![] bcast_S_S32896),
    binary main_v21 main_v24 main_v25 (cmpi .slt),
    nullary main_c_10 (constantI S_ 32 256#32),
    unary main_c_10 main_v26 (broadcastInDim S32896 ![] bcast_S_S32896),
    binary main_v21 main_v26 main_v27 (addi),
    ternary main_v25 main_v27 main_v21 main_v28 (select),
    unary main_v28 main_v29 (broadcastInDim S32896x1 ![0] bcast_S32896_S32896x1_0),
    binary main_v2 main_v29 main_v30 ((fun x i => Host.gather gather_S4x256x768_S32896x1_S4x32896x768_02_1_n_n_1_1_41768 x i)),
    nullary main_c_11 (constantI S_ 32 0#32),
    unary main_c_11 main_v31 (broadcastInDim S32896 ![] bcast_S_S32896),
    binary main_v23 main_v31 main_v32 (cmpi .slt),
    nullary main_c_12 (constantI S_ 32 256#32),
    unary main_c_12 main_v33 (broadcastInDim S32896 ![] bcast_S_S32896),
    binary main_v23 main_v33 main_v34 (addi),
    ternary main_v32 main_v34 main_v23 main_v35 (select),
    unary main_v35 main_v36 (broadcastInDim S32896x1 ![0] bcast_S32896_S32896x1_0),
    binary main_v3 main_v36 main_v37 ((fun x i => Host.gather gather_S4x256x768_S32896x1_S4x32896x768_02_1_n_n_1_1_41768 x i)),
    binary main_v30 main_v37 main_v38 (addf),
    unary main_arg2 main_v39 (broadcastInDim S1x1x768 ![2] bcast_S768_S1x1x768_2),
    unary main_v39 main_v40 (broadcastInDim S4x32896x768 ![0, 1, 2] bcast_S1x1x768_S4x32896x768_0_1_2),
    binary main_v38 main_v40 main_v41 (addf),
    unary main_v41 main_v42 (Host.tanh) ]

abbrev ops : List (HloOp τ sig (Elt F)) := sA ++ (sB ++ (sC ++ (sD ++ (sE ++ (sF ++ sG)))))

abbrev opsT : List (HloOp τ sig (Elt F)) :=
  [ unary main_arg1 main_v0 ((extractStridedSlice S768x768 ![0, 0] · slices_S768x1536_S768x768_0_0) : (⟨S768x1536, .f32⟩ : BufTy).Contents (Elt F) → (⟨S768x768, .f32⟩ : BufTy).Contents (Elt F)),
    unary main_arg1 main_v1 ((extractStridedSlice S768x768 ![0, 768] · slices_S768x1536_S768x768_0_768) : (⟨S768x1536, .f32⟩ : BufTy).Contents (Elt F) → (⟨S768x768, .f32⟩ : BufTy).Contents (Elt F)),
    binary main_arg0 main_v0 main_v2 ((fun l r => Host.dotGeneral dot_S4x256x768_S768x768_S4x256x768_2_1_01_0_n_n none l r) : (⟨S4x256x768, .f32⟩ : BufTy).Contents (Elt F) → (⟨S768x768, .f32⟩ : BufTy).Contents (Elt F) → (⟨S4x256x768, .f32⟩ : BufTy).Contents (Elt F)),
    binary main_arg0 main_v1 main_v3 ((fun l r => Host.dotGeneral dot_S4x256x768_S768x768_S4x256x768_2_1_01_0_n_n none l r) : (⟨S4x256x768, .f32⟩ : BufTy).Contents (Elt F) → (⟨S768x768, .f32⟩ : BufTy).Contents (Elt F) → (⟨S4x256x768, .f32⟩ : BufTy).Contents (Elt F)),
    nullary main_cst (constant S_ .f32 0x3F800000#32),
    unary main_cst main_v4 (broadcastInDim S256x256 ![] bcast_S_S256x256 : (⟨S_, .f32⟩ : BufTy).Contents (Elt F) → (⟨S256x256, .f32⟩ : BufTy).Contents (Elt F)),
    TRef.nullary main_call0.v0 (iotaInDim S256x256 32 0),
    TRef.nullary main_call0.c (constantI S_ 32 4294967295#32),
    TRef.unary main_call0.c main_call0.v1 (broadcastInDim S256x256 ![] bcast_S_S256x256),
    TRef.binary main_call0.v0 main_call0.v1 main_call0.v2 addi,
    TRef.nullary main_call0.v3 (iotaInDim S256x256 32 1),
    TRef.binary main_call0.v2 main_call0.v3 main_call0.v4 (cmpi .sge),
    TRef.nullary main_call0.cst (constant S_ .f32 0x00000000#32),
    TRef.unary main_call0.cst main_call0.v5 (broadcastInDim S256x256 ![] bcast_S_S256x256),
    TRef.ternary main_call0.v4 main_call0.v5 (TRef.of (T := ⟨S256x256, .f32⟩) main_v4) main_call0.v6 select,
    nullary main_cst_0 (constant S_ .f32 0x00000000#32),
    unary main_cst_0 main_v6 (broadcastInDim S256x256 ![] bcast_S_S256x256 : (⟨S_, .f32⟩ : BufTy).Contents (Elt F) → (⟨S256x256, .f32⟩ : BufTy).Contents (Elt F)),
    binary main_v5 main_v6 main_v7 (cmpf .une : (⟨S256x256, .f32⟩ : BufTy).Contents (Elt F) → (⟨S256x256, .f32⟩ : BufTy).Contents (Elt F) → (⟨S256x256, .i1⟩ : BufTy).Contents (Elt F)),
    TRef.reshape (TRef.of (T := ⟨S256x256, .i1⟩) main_v7) main_call1.v0 rfl shapeCasts_S256x256_S65536,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![65536] ![1] ![65535] ![0] x v reduceWindows_S65536_S65536_w65536s1p65535_0 h_S_),
    nullary main_c (constantI S_ 32 0#32),
    unary main_c main_v9 (broadcastInDim S32896 ![] bcast_S_S32896 : (⟨S_, .i32⟩ : BufTy).Contents (Elt F) → (⟨S32896, .i32⟩ : BufTy).Contents (Elt F)),
    nullary main_c_1 (constantI S_ 32 0#32),
    TRef.unary (TRef.of (T := ⟨S_, .i32⟩) main_c_1) main_call2.v0 id,
    TRef.unary main_call2.v0 main_call2.v1 (broadcastInDim S65536 ![] bcast_S_S65536),
    TRef.binary main_call2.v1 (TRef.of (T := ⟨S65536, .i32⟩) main_v8) main_call2.v2 maxsi,
    nullary main_c_2 (constantI S_ 32 0#32),
    unary main_c_2 main_v11 (broadcastInDim S65536 ![] bcast_S_S65536 : (⟨S_, .i32⟩ : BufTy).Contents (Elt F) → (⟨S65536, .i32⟩ : BufTy).Contents (Elt F)),
    binary main_v10 main_v11 main_v12 (cmpi .slt : (⟨S65536, .i32⟩ : BufTy).Contents (Elt F) → (⟨S65536, .i32⟩ : BufTy).Contents (Elt F) → (⟨S65536, .i1⟩ : BufTy).Contents (Elt F)),
    nullary main_c_3 (constantI S_ 32 32896#32),
    unary main_c_3 main_v13 (broadcastInDim S65536 ![] bcast_S_S65536 : (⟨S_, .i32⟩ : BufTy).Contents (Elt F) → (⟨S65536, .i32⟩ : BufTy).Contents (Elt F)),
    binary main_v10 main_v13 main_v14 (addi : (⟨S65536, .i32⟩ : BufTy).Contents (Elt F) → (⟨S65536, .i32⟩ : BufTy).Contents (Elt F) → (⟨S65536, .i32⟩ : BufTy).Contents (Elt F)),
    ternary main_v12 main_v14 main_v10 main_v15 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v15 main_v16 (broadcastInDim S65536x1 ![0] bcast_S65536_S65536x1_0 : (⟨S65536, .i32⟩ : BufTy).Contents (Elt F) → (⟨S65536x1, .i32⟩ : BufTy).Contents (Elt F)),
    nullary main_c_4 (constantI S_ 32 1#32),
    unary main_c_4 main_v17 (broadcastInDim S65536 ![] bcast_S_S65536 : (⟨S_, .i32⟩ : BufTy).Contents (Elt F) → (⟨S65536, .i32⟩ : BufTy).Contents (Elt F)),
    ternary main_v9 main_v16 main_v17 main_v18 ((fun x i u => Host.scatter scatter_S32896_S65536x1_S65536_n_0_0_1 IntOp.addi x i u) : (⟨S32896, .i32⟩ : BufTy).Contents (Elt F) → (⟨S65536x1, .i32⟩ : BufTy).Contents (Elt F) → (⟨S65536, .i32⟩ : BufTy).Contents (Elt F) → (⟨S32896, .i32⟩ : BufTy).Contents (Elt F)),
    TRef.nullary main_call3.call0.c (constantI S_ 32 0#32),
    TRef.unary main_call3.call0.c main_call3.call0.v0 (broadcastInDim S_ ![] bcast_S_S_),
    TRef.binary (TRef.of (T := ⟨S32896, .i32⟩) main_v18) main_call3.call0.v0 main_call3.call0.v1 (fun x v => Host.reduceWindow IntOp.addi ![32896] ![1] ![32895] ![0] x v reduceWindows_S32896_S32896_w32896s1p32895_0 h_S_),
    nullary main_c_5 (constantI S_ 32 256#32),
    TRef.unary (TRef.of (T := ⟨S_, .i32⟩) main_c_5) main_call4.v0 (broadcastInDim S32896 ![] bcast_S_S32896),
    TRef.binary (TRef.of (T := ⟨S32896, .i32⟩) main_v19) main_call4.v0 main_call4.v1 Host.divsi,
    TRef.unary (TRef.of (T := ⟨S32896, .i32⟩) main_v19) main_call4.v2 signi,
    TRef.unary (TRef.of (T := ⟨S_, .i32⟩) main_c_5) main_call4.v3 signi,
    TRef.unary main_call4.v3 main_call4.v4 (broadcastInDim S32896 ![] bcast_S_S32896),
    TRef.binary main_call4.v2 main_call4.v4 main_call4.v5 (cmpi .ne),
    TRef.unary (TRef.of (T := ⟨S_, .i32⟩) main_c_5) main_call4.v6 (broadcastInDim S32896 ![] bcast_S_S32896),
    TRef.binary (TRef.of (T := ⟨S32896, .i32⟩) main_v19) main_call4.v6 main_call4.v7 Host.remsi,
    TRef.nullary main_call4.c (constantI S_ 32 0#32),
    TRef.unary main_call4.c main_call4.v8 (broadcastInDim S32896 ![] bcast_S_S32896),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S32896 ![] bcast_S_S32896),
    TRef.binary main_call4.v1 main_call4.v11 main_call4.v12 subi,
    TRef.ternary main_call4.v10 main_call4.v12 main_call4.v1 main_call4.call0.v0 select,
    nullary main_c_6 (constantI S_ 32 256#32),
    TRef.unary (TRef.of (T := ⟨S_, .i32⟩) main_c_6) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S32896 ![] bcast_S_S32896),
    TRef.binary (TRef.of (T := ⟨S32896, .i32⟩) main_v20) main_call5.v3 main_call5.v4 Host.remsi,
    TRef.nullary main_call5.c_1 (constantI S_ 32 0#32),
    TRef.unary main_call5.c_1 main_call5.v5 (broadcastInDim S32896 ![] bcast_S_S32896),
    TRef.binary main_call5.v4 main_call5.v5 main_call5.v6 (cmpi .ne),
    TRef.nullary main_call5.c_2 (constantI S_ 32 0#32),
    TRef.unary main_call5.c_2 main_call5.v7 (broadcastInDim S32896 ![] bcast_S_S32896),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S32896 ![] bcast_S_S32896),
    TRef.binary main_call5.v8 main_call5.v10 main_call5.v11 (cmpi .ne),
    TRef.binary main_call5.v11 main_call5.v6 main_call5.v12 andi,
    TRef.unary main_call5.call0.v0 main_call5.v13 (broadcastInDim S32896 ![] bcast_S_S32896),
    TRef.binary main_call5.v4 main_call5.v13 main_call5.v14 addi,
    TRef.ternary main_call5.v12 main_call5.v14 main_call5.v4 main_call5.v15 select,
    nullary main_c_7 (constantI S_ 32 1#32),
    TRef.unary (TRef.of (T := ⟨S_, .i32⟩) main_c_7) main_call6.v0 (broadcastInDim S32896 ![] bcast_S_S32896),
    TRef.binary (TRef.of (T := ⟨S32896, .i32⟩) main_v19) main_call6.v0 main_call6.v1 Host.divsi,
    TRef.unary (TRef.of (T := ⟨S32896, .i32⟩) main_v19) main_call6.v2 signi,
    TRef.unary (TRef.of (T := ⟨S_, .i32⟩) main_c_7) main_call6.v3 signi,
    TRef.unary main_call6.v3 main_call6.v4 (broadcastInDim S32896 ![] bcast_S_S32896),
    TRef.binary main_call6.v2 main_call6.v4 main_call6.v5 (cmpi .ne),
    TRef.unary (TRef.of (T := ⟨S_, .i32⟩) main_c_7) main_call6.v6 (broadcastInDim S32896 ![] bcast_S_S32896),
    TRef.binary (TRef.of (T := ⟨S32896, .i32⟩) main_v19) main_call6.v6 main_call6.v7 Host.remsi,
    TRef.nullary main_call6.c (constantI S_ 32 0#32),
    TRef.unary main_call6.c main_call6.v8 (broadcastInDim S32896 ![] bcast_S_S32896),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S32896 ![] bcast_S_S32896),
    TRef.binary main_call6.v1 main_call6.v11 main_call6.v12 subi,
    TRef.ternary main_call6.v10 main_call6.v12 main_call6.v1 main_call6.call0.v0 select,
    nullary main_c_8 (constantI S_ 32 256#32),
    TRef.unary (TRef.of (T := ⟨S_, .i32⟩) main_c_8) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S32896 ![] bcast_S_S32896),
    TRef.binary (TRef.of (T := ⟨S32896, .i32⟩) main_v22) main_call7.v3 main_call7.v4 Host.remsi,
    TRef.nullary main_call7.c_1 (constantI S_ 32 0#32),
    TRef.unary main_call7.c_1 main_call7.v5 (broadcastInDim S32896 ![] bcast_S_S32896),
    TRef.binary main_call7.v4 main_call7.v5 main_call7.v6 (cmpi .ne),
    TRef.nullary main_call7.c_2 (constantI S_ 32 0#32),
    TRef.unary main_call7.c_2 main_call7.v7 (broadcastInDim S32896 ![] bcast_S_S32896),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S32896 ![] bcast_S_S32896),
    TRef.binary main_call7.v8 main_call7.v10 main_call7.v11 (cmpi .ne),
    TRef.binary main_call7.v11 main_call7.v6 main_call7.v12 andi,
    TRef.unary main_call7.call0.v0 main_call7.v13 (broadcastInDim S32896 ![] bcast_S_S32896),
    TRef.binary main_call7.v4 main_call7.v13 main_call7.v14 addi,
    TRef.ternary main_call7.v12 main_call7.v14 main_call7.v4 main_call7.v15 select,
    nullary main_c_9 (constantI S_ 32 0#32),
    unary main_c_9 main_v24 (broadcastInDim S32896 ![] bcast_S_S32896 : (⟨S_, .i32⟩ : BufTy).Contents (Elt F) → (⟨S32896, .i32⟩ : BufTy).Contents (Elt F)),
    binary main_v21 main_v24 main_v25 (cmpi .slt : (⟨S32896, .i32⟩ : BufTy).Contents (Elt F) → (⟨S32896, .i32⟩ : BufTy).Contents (Elt F) → (⟨S32896, .i1⟩ : BufTy).Contents (Elt F)),
    nullary main_c_10 (constantI S_ 32 256#32),
    unary main_c_10 main_v26 (broadcastInDim S32896 ![] bcast_S_S32896 : (⟨S_, .i32⟩ : BufTy).Contents (Elt F) → (⟨S32896, .i32⟩ : BufTy).Contents (Elt F)),
    binary main_v21 main_v26 main_v27 (addi : (⟨S32896, .i32⟩ : BufTy).Contents (Elt F) → (⟨S32896, .i32⟩ : BufTy).Contents (Elt F) → (⟨S32896, .i32⟩ : BufTy).Contents (Elt F)),
    ternary main_v25 main_v27 main_v21 main_v28 (select : (⟨S32896, .i1⟩ : BufTy).Contents (Elt F) → (⟨S32896, .i32⟩ : BufTy).Contents (Elt F) → (⟨S32896, .i32⟩ : BufTy).Contents (Elt F) → (⟨S32896, .i32⟩ : BufTy).Contents (Elt F)),
    unary main_v28 main_v29 (broadcastInDim S32896x1 ![0] bcast_S32896_S32896x1_0 : (⟨S32896, .i32⟩ : BufTy).Contents (Elt F) → (⟨S32896x1, .i32⟩ : BufTy).Contents (Elt F)),
    binary main_v2 main_v29 main_v30 ((fun x i => Host.gather gather_S4x256x768_S32896x1_S4x32896x768_02_1_n_n_1_1_41768 x i) : (⟨S4x256x768, .f32⟩ : BufTy).Contents (Elt F) → (⟨S32896x1, .i32⟩ : BufTy).Contents (Elt F) → (⟨S4x32896x768, .f32⟩ : BufTy).Contents (Elt F)),
    nullary main_c_11 (constantI S_ 32 0#32),
    unary main_c_11 main_v31 (broadcastInDim S32896 ![] bcast_S_S32896 : (⟨S_, .i32⟩ : BufTy).Contents (Elt F) → (⟨S32896, .i32⟩ : BufTy).Contents (Elt F)),
    binary main_v23 main_v31 main_v32 (cmpi .slt : (⟨S32896, .i32⟩ : BufTy).Contents (Elt F) → (⟨S32896, .i32⟩ : BufTy).Contents (Elt F) → (⟨S32896, .i1⟩ : BufTy).Contents (Elt F)),
    nullary main_c_12 (constantI S_ 32 256#32),
    unary main_c_12 main_v33 (broadcastInDim S32896 ![] bcast_S_S32896 : (⟨S_, .i32⟩ : BufTy).Contents (Elt F) → (⟨S32896, .i32⟩ : BufTy).Contents (Elt F)),
    binary main_v23 main_v33 main_v34 (addi : (⟨S32896, .i32⟩ : BufTy).Contents (Elt F) → (⟨S32896, .i32⟩ : BufTy).Contents (Elt F) → (⟨S32896, .i32⟩ : BufTy).Contents (Elt F)),
    ternary main_v32 main_v34 main_v23 main_v35 (select : (⟨S32896, .i1⟩ : BufTy).Contents (Elt F) → (⟨S32896, .i32⟩ : BufTy).Contents (Elt F) → (⟨S32896, .i32⟩ : BufTy).Contents (Elt F) → (⟨S32896, .i32⟩ : BufTy).Contents (Elt F)),
    unary main_v35 main_v36 (broadcastInDim S32896x1 ![0] bcast_S32896_S32896x1_0 : (⟨S32896, .i32⟩ : BufTy).Contents (Elt F) → (⟨S32896x1, .i32⟩ : BufTy).Contents (Elt F)),
    binary main_v3 main_v36 main_v37 ((fun x i => Host.gather gather_S4x256x768_S32896x1_S4x32896x768_02_1_n_n_1_1_41768 x i) : (⟨S4x256x768, .f32⟩ : BufTy).Contents (Elt F) → (⟨S32896x1, .i32⟩ : BufTy).Contents (Elt F) → (⟨S4x32896x768, .f32⟩ : BufTy).Contents (Elt F)),
    binary main_v30 main_v37 main_v38 (addf : (⟨S4x32896x768, .f32⟩ : BufTy).Contents (Elt F) → (⟨S4x32896x768, .f32⟩ : BufTy).Contents (Elt F) → (⟨S4x32896x768, .f32⟩ : BufTy).Contents (Elt F)),
    unary main_arg2 main_v39 (broadcastInDim S1x1x768 ![2] bcast_S768_S1x1x768_2 : (⟨S768, .f32⟩ : BufTy).Contents (Elt F) → (⟨S1x1x768, .f32⟩ : BufTy).Contents (Elt F)),
    unary main_v39 main_v40 (broadcastInDim S4x32896x768 ![0, 1, 2] bcast_S1x1x768_S4x32896x768_0_1_2 : (⟨S1x1x768, .f32⟩ : BufTy).Contents (Elt F) → (⟨S4x32896x768, .f32⟩ : BufTy).Contents (Elt F)),
    binary main_v38 main_v40 main_v41 (addf : (⟨S4x32896x768, .f32⟩ : BufTy).Contents (Elt F) → (⟨S4x32896x768, .f32⟩ : BufTy).Contents (Elt F) → (⟨S4x32896x768, .f32⟩ : BufTy).Contents (Elt F)),
    unary main_v41 main_v42 (Host.tanh : (⟨S4x32896x768, .f32⟩ : BufTy).Contents (Elt F) → (⟨S4x32896x768, .f32⟩ : BufTy).Contents (Elt F)) ]

attribute [local irreducible] Host.reduceWindow in
set_option maxRecDepth 8192 in

theorem opsT_eq : (opsT : List (HloOp τ sig (Elt F))) = ops := rfl

set_option maxRecDepth 8192 in
set_option maxHeartbeats 4000000 in

theorem main_eqT (c : Dev nD) : main (F := F) c = seq opsT := by
  simp only [main, fn_triu.body, fn_cumsum.body, fn_cumsum_0.body, fn_clip.body, fn_cumsum_1.body, fn_cumsum_2.body,
    fn_floor_divide.body, fn_where.body, fn_remainder.body, fn_where_3.body, seq, bind_assoc, pure_bind]

theorem main_eq (c : Dev nD) : main (F := F) c = seq ops := by
  rw [main_eqT c, opsT_eq]
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig := by
  simp only [ops, sA, sB, sC, sD, sE, sF, sG, List.cons_append, List.nil_append]
  exact ⟨unary_bufs_sub .., unary_bufs_sub .., binary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., unary_bufs_sub ..⟩

set_option maxRecDepth 8192 in

theorem ops_fresh : ∀ op ∈ (ops : List (HloOp τ sig (Elt F))), op.fresh = ∅ :=
  List.forall_iff_forall_mem.mp (by
    simp only [ops, sA, sB, sC, sD, sE, sF, sG, List.cons_append, List.nil_append]
    exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ :
    (ops : List (HloOp τ sig (Elt F))).Forall fun op => op.fresh = ∅)

theorem ops_split : (ops : List (HloOp τ sig (Elt F))) = sA ++ (sB ++ (sC ++ (sD ++ (sE ++ (sF ++ sG))))) := rfl

theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons]; exact ih _

theorem sA_keep_arg0 (V : Valuation τ sig (Elt F)) : after sA V (Proc.devRef .tc main_arg0) = V (Proc.devRef .tc main_arg0) := by
  simp only [sA]
  after_results_simp

theorem sA_keep_arg1 (V : Valuation τ sig (Elt F)) : after sA V (Proc.devRef .tc main_arg1) = V (Proc.devRef .tc main_arg1) := by
  simp only [sA]
  after_results_simp

theorem sA_keep_arg2 (V : Valuation τ sig (Elt F)) : after sA V (Proc.devRef .tc main_arg2) = V (Proc.devRef .tc main_arg2) := by
  simp only [sA]
  after_results_simp

theorem sB_keep_arg0 (V : Valuation τ sig (Elt F)) : after sB V (Proc.devRef .tc main_arg0) = V (Proc.devRef .tc main_arg0) := by
  simp only [sB]
  after_results_simp

theorem sB_keep_arg1 (V : Valuation τ sig (Elt F)) : after sB V (Proc.devRef .tc main_arg1) = V (Proc.devRef .tc main_arg1) := by
  simp only [sB]
  after_results_simp

theorem sB_keep_arg2 (V : Valuation τ sig (Elt F)) : after sB V (Proc.devRef .tc main_arg2) = V (Proc.devRef .tc main_arg2) := by
  simp only [sB]
  after_results_simp

theorem sB_keep_v2 (V : Valuation τ sig (Elt F)) : after sB V (Proc.devRef .tc main_v2) = V (Proc.devRef .tc main_v2) := by
  simp only [sB]
  after_results_simp

theorem sB_keep_v3 (V : Valuation τ sig (Elt F)) : after sB V (Proc.devRef .tc main_v3) = V (Proc.devRef .tc main_v3) := by
  simp only [sB]
  after_results_simp

theorem sC_keep_arg0 (V : Valuation τ sig (Elt F)) : after sC V (Proc.devRef .tc main_arg0) = V (Proc.devRef .tc main_arg0) := by
  simp only [sC]
  after_results_simp

theorem sC_keep_arg1 (V : Valuation τ sig (Elt F)) : after sC V (Proc.devRef .tc main_arg1) = V (Proc.devRef .tc main_arg1) := by
  simp only [sC]
  after_results_simp

theorem sC_keep_arg2 (V : Valuation τ sig (Elt F)) : after sC V (Proc.devRef .tc main_arg2) = V (Proc.devRef .tc main_arg2) := by
  simp only [sC]
  after_results_simp

theorem sC_keep_v2 (V : Valuation τ sig (Elt F)) : after sC V (Proc.devRef .tc main_v2) = V (Proc.devRef .tc main_v2) := by
  simp only [sC]
  after_results_simp

theorem sC_keep_v3 (V : Valuation τ sig (Elt F)) : after sC V (Proc.devRef .tc main_v3) = V (Proc.devRef .tc main_v3) := by
  simp only [sC]
  after_results_simp

theorem sC_keep_v19 (V : Valuation τ sig (Elt F)) : after sC V (Proc.devRef .tc main_v19) = V (Proc.devRef .tc main_v19) := by
  simp only [sC]
  after_results_simp

theorem sD_keep_arg0 (V : Valuation τ sig (Elt F)) : after sD V (Proc.devRef .tc main_arg0) = V (Proc.devRef .tc main_arg0) := by
  simp only [sD]
  after_results_simp

theorem sD_keep_arg1 (V : Valuation τ sig (Elt F)) : after sD V (Proc.devRef .tc main_arg1) = V (Proc.devRef .tc main_arg1) := by
  simp only [sD]
  after_results_simp

theorem sD_keep_arg2 (V : Valuation τ sig (Elt F)) : after sD V (Proc.devRef .tc main_arg2) = V (Proc.devRef .tc main_arg2) := by
  simp only [sD]
  after_results_simp

theorem sD_keep_v2 (V : Valuation τ sig (Elt F)) : after sD V (Proc.devRef .tc main_v2) = V (Proc.devRef .tc main_v2) := by
  simp only [sD]
  after_results_simp

theorem sD_keep_v3 (V : Valuation τ sig (Elt F)) : after sD V (Proc.devRef .tc main_v3) = V (Proc.devRef .tc main_v3) := by
  simp only [sD]
  after_results_simp

theorem sD_keep_v19 (V : Valuation τ sig (Elt F)) : after sD V (Proc.devRef .tc main_v19) = V (Proc.devRef .tc main_v19) := by
  simp only [sD]
  after_results_simp

theorem sE_keep_arg0 (V : Valuation τ sig (Elt F)) : after sE V (Proc.devRef .tc main_arg0) = V (Proc.devRef .tc main_arg0) := by
  simp only [sE]
  after_results_simp

theorem sE_keep_arg1 (V : Valuation τ sig (Elt F)) : after sE V (Proc.devRef .tc main_arg1) = V (Proc.devRef .tc main_arg1) := by
  simp only [sE]
  after_results_simp

theorem sE_keep_arg2 (V : Valuation τ sig (Elt F)) : after sE V (Proc.devRef .tc main_arg2) = V (Proc.devRef .tc main_arg2) := by
  simp only [sE]
  after_results_simp

theorem sE_keep_v2 (V : Valuation τ sig (Elt F)) : after sE V (Proc.devRef .tc main_v2) = V (Proc.devRef .tc main_v2) := by
  simp only [sE]
  after_results_simp

theorem sE_keep_v3 (V : Valuation τ sig (Elt F)) : after sE V (Proc.devRef .tc main_v3) = V (Proc.devRef .tc main_v3) := by
  simp only [sE]
  after_results_simp

theorem sE_keep_v21 (V : Valuation τ sig (Elt F)) : after sE V (Proc.devRef .tc main_v21) = V (Proc.devRef .tc main_v21) := by
  simp only [sE]
  after_results_simp

theorem sF_keep_arg0 (V : Valuation τ sig (Elt F)) : after sF V (Proc.devRef .tc main_arg0) = V (Proc.devRef .tc main_arg0) := by
  simp only [sF]
  after_results_simp

theorem sF_keep_arg1 (V : Valuation τ sig (Elt F)) : after sF V (Proc.devRef .tc main_arg1) = V (Proc.devRef .tc main_arg1) := by
  simp only [sF]
  after_results_simp

theorem sF_keep_arg2 (V : Valuation τ sig (Elt F)) : after sF V (Proc.devRef .tc main_arg2) = V (Proc.devRef .tc main_arg2) := by
  simp only [sF]
  after_results_simp

theorem sF_keep_v2 (V : Valuation τ sig (Elt F)) : after sF V (Proc.devRef .tc main_v2) = V (Proc.devRef .tc main_v2) := by
  simp only [sF]
  after_results_simp

theorem sF_keep_v3 (V : Valuation τ sig (Elt F)) : after sF V (Proc.devRef .tc main_v3) = V (Proc.devRef .tc main_v3) := by
  simp only [sF]
  after_results_simp

theorem sF_keep_v21 (V : Valuation τ sig (Elt F)) : after sF V (Proc.devRef .tc main_v21) = V (Proc.devRef .tc main_v21) := by
  simp only [sF]
  after_results_simp

theorem sG_keep_arg0 (V : Valuation τ sig (Elt F)) : after sG V (Proc.devRef .tc main_arg0) = V (Proc.devRef .tc main_arg0) := by
  simp only [sG]
  after_results_simp

theorem sG_keep_arg1 (V : Valuation τ sig (Elt F)) : after sG V (Proc.devRef .tc main_arg1) = V (Proc.devRef .tc main_arg1) := by
  simp only [sG]
  after_results_simp

theorem sG_keep_arg2 (V : Valuation τ sig (Elt F)) : after sG V (Proc.devRef .tc main_arg2) = V (Proc.devRef .tc main_arg2) := by
  simp only [sG]
  after_results_simp

attribute [local irreducible] Host.reduceWindow Host.scatter Host.gather

set_option maxRecDepth 8192 in
set_option maxHeartbeats 1600000 in
theorem sA_v2 (V : Valuation τ sig (Elt F)) :
    after sA V (Proc.devRef .tc main_v2) = RefTerms.p1 (V (Proc.devRef .tc main_arg0)) (V (Proc.devRef .tc main_arg1)) := by
  simp only [sA]
  after_results_simp
  all_goals rfl

set_option maxRecDepth 8192 in
set_option maxHeartbeats 1600000 in
theorem sA_v3 (V : Valuation τ sig (Elt F)) :
    after sA V (Proc.devRef .tc main_v3) = RefTerms.p2 (V (Proc.devRef .tc main_arg0)) (V (Proc.devRef .tc main_arg1)) := by
  simp only [sA]
  after_results_simp
  all_goals rfl

set_option maxRecDepth 8192 in
set_option maxHeartbeats 1600000 in
theorem sA_v7 (V : Valuation τ sig (Elt F)) :
    after sA V (Proc.devRef .tc main_v7) = RefTerms.mask (F := F) := by
  simp only [sA]
  after_results_simp
  all_goals rfl

set_option maxRecDepth 8192 in
set_option maxHeartbeats 1600000 in
theorem sB_v19 (V : Valuation τ sig (Elt F)) (h7 : V (Proc.devRef .tc main_v7) = RefTerms.mask (F := F)) :
    after sB V (Proc.devRef .tc main_v19) = RefTerms.flatIdx (F := F) := by
  simp only [sB]
  after_results_simp
  simp only [h7]
  all_goals rfl

set_option maxRecDepth 8192 in
set_option maxHeartbeats 1600000 in
theorem sC_v20 (V : Valuation τ sig (Elt F)) (h19 : V (Proc.devRef .tc main_v19) = RefTerms.flatIdx (F := F)) :
    after sC V (Proc.devRef .tc main_v20) = RefTerms.quot256 (F := F) := by
  simp only [sC]
  after_results_simp
  simp only [h19]
  all_goals rfl

set_option maxRecDepth 8192 in
set_option maxHeartbeats 1600000 in
theorem sD_v21 (V : Valuation τ sig (Elt F)) (h20 : V (Proc.devRef .tc main_v20) = RefTerms.quot256 (F := F)) :
    after sD V (Proc.devRef .tc main_v21) = RefTerms.rowRaw (F := F) := by
  simp only [sD]
  after_results_simp
  simp only [h20]
  all_goals rfl

set_option maxRecDepth 8192 in
set_option maxHeartbeats 1600000 in
theorem sE_v22 (V : Valuation τ sig (Elt F)) (h19 : V (Proc.devRef .tc main_v19) = RefTerms.flatIdx (F := F)) :
    after sE V (Proc.devRef .tc main_v22) = RefTerms.quot1 (F := F) := by
  simp only [sE]
  after_results_simp
  simp only [h19]
  all_goals rfl

set_option maxRecDepth 8192 in
set_option maxHeartbeats 1600000 in
theorem sF_v23 (V : Valuation τ sig (Elt F)) (h22 : V (Proc.devRef .tc main_v22) = RefTerms.quot1 (F := F)) :
    after sF V (Proc.devRef .tc main_v23) = RefTerms.colRaw (F := F) := by
  simp only [sF]
  after_results_simp
  simp only [h22]
  all_goals rfl

set_option maxRecDepth 8192 in
set_option maxHeartbeats 1600000 in
theorem sG_v42 (V : Valuation τ sig (Elt F))
    (a : (⟨S4x256x768, .f32⟩ : BufTy).Contents (Elt F)) (w : (⟨S768x1536, .f32⟩ : BufTy).Contents (Elt F)) (b : (⟨S768, .f32⟩ : BufTy).Contents (Elt F))
    (h2 : V (Proc.devRef .tc main_v2) = RefTerms.p1 a w) (h3 : V (Proc.devRef .tc main_v3) = RefTerms.p2 a w)
    (h21 : V (Proc.devRef .tc main_v21) = RefTerms.rowRaw (F := F)) (h23 : V (Proc.devRef .tc main_v23) = RefTerms.colRaw (F := F))
    (hb : V (Proc.devRef .tc main_arg2) = b) :
    after sG V (Proc.devRef .tc main_v42) = RefTerms.out a w b := by
  simp only [sG]
  after_results_simp
  simp only [h2, h3, h21, h23, hb]
  all_goals rfl

theorem out_eq (V : Valuation τ sig (Elt F)) :
    after ops V (Proc.devRef .tc main_v42)
      = RefTerms.out (V (Proc.devRef .tc main_arg0)) (V (Proc.devRef .tc main_arg1)) (V (Proc.devRef .tc main_arg2)) := by
  rw [ops_split]
  simp only [after_app]
  have e19 : after sB (after sA V) (Proc.devRef .tc main_v19) = RefTerms.flatIdx (F := F) := sB_v19 _ (sA_v7 V)
  have e20 : after sC (after sB (after sA V)) (Proc.devRef .tc main_v20) = RefTerms.quot256 (F := F) := sC_v20 _ e19
  have e21 : after sD (after sC (after sB (after sA V))) (Proc.devRef .tc main_v21) = RefTerms.rowRaw (F := F) := sD_v21 _ e20
  have e19' : after sD (after sC (after sB (after sA V))) (Proc.devRef .tc main_v19) = RefTerms.flatIdx (F := F) := (sD_keep_v19 _).trans ((sC_keep_v19 _).trans (e19))
  have e22 : after sE (after sD (after sC (after sB (after sA V)))) (Proc.devRef .tc main_v22) = RefTerms.quot1 (F := F) := sE_v22 _ e19'
  have e23 : after sF (after sE (after sD (after sC (after sB (after sA V))))) (Proc.devRef .tc main_v23) = RefTerms.colRaw (F := F) := sF_v23 _ e22
  have e21' : after sF (after sE (after sD (after sC (after sB (after sA V))))) (Proc.devRef .tc main_v21) = RefTerms.rowRaw (F := F) := (sF_keep_v21 _).trans ((sE_keep_v21 _).trans (e21))
  have e2 : after sF (after sE (after sD (after sC (after sB (after sA V))))) (Proc.devRef .tc main_v2) = RefTerms.p1 (V (Proc.devRef .tc main_arg0)) (V (Proc.devRef .tc main_arg1)) := (sF_keep_v2 _).trans ((sE_keep_v2 _).trans ((sD_keep_v2 _).trans ((sC_keep_v2 _).trans ((sB_keep_v2 _).trans (sA_v2 V)))))
  have e3 : after sF (after sE (after sD (after sC (after sB (after sA V))))) (Proc.devRef .tc main_v3) = RefTerms.p2 (V (Proc.devRef .tc main_arg0)) (V (Proc.devRef .tc main_arg1)) := (sF_keep_v3 _).trans ((sE_keep_v3 _).trans ((sD_keep_v3 _).trans ((sC_keep_v3 _).trans ((sB_keep_v3 _).trans (sA_v3 V)))))
  have eb : after sF (after sE (after sD (after sC (after sB (after sA V))))) (Proc.devRef .tc main_arg2) = V (Proc.devRef .tc main_arg2) := (sF_keep_arg2 _).trans ((sE_keep_arg2 _).trans ((sD_keep_arg2 _).trans ((sC_keep_arg2 _).trans ((sB_keep_arg2 _).trans (sA_keep_arg2 V)))))
  exact sG_v42 _ _ _ _ e2 e3 e21' e23 eb

theorem arg0_eq (V : Valuation τ sig (Elt F)) : after ops V (Proc.devRef .tc main_arg0) = V (Proc.devRef .tc main_arg0) := by
  rw [ops_split]
  simp only [after_app]
  exact (sG_keep_arg0 _).trans ((sF_keep_arg0 _).trans ((sE_keep_arg0 _).trans ((sD_keep_arg0 _).trans ((sC_keep_arg0 _).trans ((sB_keep_arg0 _).trans (sA_keep_arg0 V))))))

theorem arg1_eq (V : Valuation τ sig (Elt F)) : after ops V (Proc.devRef .tc main_arg1) = V (Proc.devRef .tc main_arg1) := by
  rw [ops_split]
  simp only [after_app]
  exact (sG_keep_arg1 _).trans ((sF_keep_arg1 _).trans ((sE_keep_arg1 _).trans ((sD_keep_arg1 _).trans ((sC_keep_arg1 _).trans ((sB_keep_arg1 _).trans (sA_keep_arg1 V))))))

theorem arg2_eq (V : Valuation τ sig (Elt F)) : after ops V (Proc.devRef .tc main_arg2) = V (Proc.devRef .tc main_arg2) := by
  rw [ops_split]
  simp only [after_app]
  exact (sG_keep_arg2 _).trans ((sF_keep_arg2 _).trans ((sE_keep_arg2 _).trans ((sD_keep_arg2 _).trans ((sC_keep_arg2 _).trans ((sB_keep_arg2 _).trans (sA_keep_arg2 V))))))

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v42) = RefTerms.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v42).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ (fun _ => ops_fresh))

end Cert.ReferenceIdeal.RefRun

end
-- ==== Proof.LibHostRead.lean ====
import Idealize.ShloMosaic.PureOps.Ideal
import Idealize.ShloMosaic.PureOps.Reduce
import Idealize.ShloMosaic.Lib.ValueIdx
import Idealize.ShloMosaic.Lib.StableHlo.Predicate
import Idealize.ShloMosaic.Lib.Pipeline.Value
import Mathlib.Data.BitVec
import Mathlib.Algebra.BigOperators.Fin

noncomputable section

namespace Cert.HostRead

open Idealize.ShloMosaic Idealize.ShloMosaic.ValueIdx

section Fold
variable {s si u : Shape} {α : Type} {w : Nat} (d : ScatterDims s si u) (f : α → α → α) (idx : IVec si w) (upd : u.Idx → α)

private def step (r : s.Idx → α) (n : Fin u.numel) : s.Idx → α :=
  match d.resultIdx? (u.rowMajor.symm n) idx with
  | some i => fun i' => if i' = i then f (r i) (upd (u.rowMajor.symm n)) else r i'
  | none => r

private theorem scatter_eq_foldl (x : s.Idx → α) :
    Host.scatter d f x idx upd = (List.finRange u.numel).foldl (step d f idx upd) x := rfl

private theorem step_some (r : s.Idx → α) (n : Fin u.numel) (i : s.Idx)
    (h : d.resultIdx? (u.rowMajor.symm n) idx = some i) (i' : s.Idx) :
    step d f idx upd r n i' = if i' = i then f (r i) (upd (u.rowMajor.symm n)) else r i' := by
  unfold step
  rw [h]

private theorem step_none (r : s.Idx → α) (n : Fin u.numel) (h : d.resultIdx? (u.rowMajor.symm n) idx = none) :
    step d f idx upd r n = r := by
  unfold step
  rw [h]

private theorem step_miss (r : s.Idx → α) (n : Fin u.numel) (i : s.Idx)
    (h : d.resultIdx? (u.rowMajor.symm n) idx ≠ some i) : step d f idx upd r n i = r i := by
  cases hr : d.resultIdx? (u.rowMajor.symm n) idx with
  | none => rw [step_none d f idx upd r n hr]
  | some i0 =>
    rw [step_some d f idx upd r n i0 hr, if_neg]
    intro e
    exact h (hr.trans (congrArg some e.symm))

end Fold

private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

private theorem vec_window (j : (⟨1, ![E]⟩ : Shape).Idx) : d.window j 0 = 0 := by
  obtain ⟨uw, iw, sd, iv, wf⟩ := d
  simp only at h1 h2 h3 h4
  subst h1 h2 h3 h4
  rfl

private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

section Gather
variable {N E : Nat} (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
include h1 h2 h3 h4 h5 h6 h7

private theorem gather_start (idx : (⟨2, ![E, 1]⟩ : Shape).Idx → BitVec 32) (j : (⟨1, ![E]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

private theorem gather_batch (j : (⟨1, ![E]⟩ : Shape).Idx) (a : Fin 1) : d.batchCoord j a = 0 :=
  d.batchCoord_eq_zero j a (by rw [h3]; exact List.not_mem_nil)

private theorem gather_off (j : (⟨1, ![E]⟩ : Shape).Idx) : d.offCoord j 0 = 0 :=
  d.offCoord_eq_zero j 0 fun h => ((d.mem_sKept 0).mp h).1 (by rw [h2]; exact List.mem_singleton.mpr rfl)

end Gather

private theorem fold_addi_eq_sum {ι : Type} (S : Finset ι) (f : ι → BitVec 32) :
    S.fold IntOp.addi 0#32 f = ∑ i ∈ S, f i := by
  induction S using Finset.cons_induction with
  | empty => rfl
  | cons a S ha ih => rw [Finset.fold_cons, Finset.sum_cons, ih]; rfl

private theorem foldl_addi_eq {ι : Type} (L : List ι) (g : ι → BitVec 32) (v : BitVec 32) :
    L.foldl (fun r n => IntOp.addi r (g n)) v = v + (L.map g).sum := by
  induction L generalizing v with
  | nil => exact (add_zero v).symm
  | cons n L ih =>
    rw [List.foldl_cons, ih, List.map_cons, List.sum_cons]
    show v + g n + _ = v + (g n + _)
    rw [add_assoc]

private def idxEquiv1 (n : Nat) : (⟨1, ![n]⟩ : Shape).Idx ≃ Fin n where
  toFun i := i 0
  invFun k := ix1 k
  left_inv i := (eq_ix1 i).symm
  right_inv _ := rfl

private theorem sum_ite_zero {ι : Type} (S : Finset ι) (p : ι → Prop) [DecidablePred p] (f : ι → BitVec 32) :
    (∑ k ∈ S, if p k then f k else 0#32) = ∑ k ∈ S.filter p, f k :=
  (Finset.sum_filter p f).symm

theorem cumsum_window {E : Nat} (h : (⟨1, ![E]⟩ : Shape).ReduceWindows (![E] : Fin 1 → Nat) ![1] ![E - 1] ![0] ⟨1, ![E]⟩)
    (hu : 0 < (⟨0, ![]⟩ : Shape).numel)
    (x : (⟨1, ![E]⟩ : Shape).Idx → BitVec 32) (z : (⟨0, ![]⟩ : Shape).Idx → BitVec 32) (hz : ∀ i, z i = 0#32) (j : Fin E) :
    Host.reduceWindow IntOp.addi ![E] ![1] ![E - 1] ![0] x z h hu (ix1 j)
      = ∑ a ∈ Finset.univ.filter (fun a : Fin E => a.val ≤ j.val), x (ix1 a) := by
  have hj := j.isLt

  unfold Host.reduceWindow
  dsimp only
  rw [hz, foldl_addi_eq, BitVec.zero_add, ← Fin.sum_univ_def]
  rw [← Equiv.sum_comp ((⟨1, ![E]⟩ : Shape).rowMajor), ← Equiv.sum_comp (idxEquiv1 E).symm]
  simp only [Equiv.symm_apply_apply]

  refine (Finset.sum_congr rfl (g := fun k : Fin E =>
      if E - 1 ≤ j.val + k.val then x (ix1 ⟨min (j.val + k.val - (E - 1)) j.val, by omega⟩) else 0#32)
      fun k _ => ?_).trans ?_
  · have hk := k.isLt
    by_cases hc : E - 1 ≤ j.val + k.val
    · rw [if_pos hc, dif_pos]
      · congr 1
        funext a
        obtain rfl : a = 0 := Subsingleton.elim _ _
        apply Fin.ext
        show j.val * 1 + k.val - (E - 1) = min (j.val + k.val - (E - 1)) j.val
        omega
      · intro a
        obtain rfl : a = 0 := Subsingleton.elim _ _
        show E - 1 ≤ j.val * 1 + k.val ∧ j.val * 1 + k.val - (E - 1) < E
        omega
    · rw [if_neg hc]
      refine dif_neg fun hin => hc ?_
      have h0 := (hin 0).1
      change E - 1 ≤ j.val * 1 + k.val at h0
      omega
  ·
    rw [sum_ite_zero]
    refine Finset.sum_nbij' (fun k : Fin E => (⟨min (j.val + k.val - (E - 1)) j.val, by omega⟩ : Fin E))
      (fun a : Fin E => (⟨min (a.val + (E - 1) - j.val) (E - 1), by omega⟩ : Fin E)) ?_ ?_ ?_ ?_ ?_
    · intro k _
      exact Finset.mem_filter.mpr ⟨Finset.mem_univ _, Nat.min_le_right _ _⟩
    · intro a ha
      have ha' : a.val ≤ j.val := (Finset.mem_filter.mp ha).2
      refine Finset.mem_filter.mpr ⟨Finset.mem_univ _, ?_⟩
      show E - 1 ≤ j.val + min (a.val + (E - 1) - j.val) (E - 1)
      omega
    · intro k hk
      have hk' : E - 1 ≤ j.val + k.val := (Finset.mem_filter.mp hk).2
      have := k.isLt
      apply Fin.ext
      show min (min (j.val + k.val - (E - 1)) j.val + (E - 1) - j.val) (E - 1) = k.val
      omega
    · intro a ha
      have ha' : a.val ≤ j.val := (Finset.mem_filter.mp ha).2
      apply Fin.ext
      show min (j.val + min (a.val + (E - 1) - j.val) (E - 1) - (E - 1)) j.val = a.val
      omega
    · intro k _
      rfl

end Cert.HostRead

end
-- ==== Proof.RefIdx.lean ====
import proofs.«422836_j30605936951494_3_alg».proof.Proof.RefTerms
import proofs.«422836_j30605936951494_3_alg».proof.Proof.Tri
import proofs.«422836_j30605936951494_3_alg».proof.Proof.LibHostRead
import Idealize.ShloMosaic.Lib.StableHlo.Predicate
import Idealize.ShloMosaic.PureOps.Ideal

noncomputable section

namespace Cert.ReferenceIdeal.RefIdx

open Idealize.ShloMosaic Idealize.SL.Sem Cert.ReferenceIdeal
open Cert.ReferenceIdeal.Facts₀ Cert.ReferenceIdeal.Facts
open Idealize.ShloMosaic.ValueIdx

variable {F : FTy → Type} [FloatOps F] [Facts]

local notation "T[" S ", " e "]" => (BufTy.Contents (Elt F) (⟨S, e⟩ : BufTy))

theorem msb_false_of_lt {a : BitVec 32} (ha : a.toNat < 2 ^ 31) : a.msb = false :=
  BitVec.msb_eq_false_iff_two_mul_lt.mpr (by omega)

theorem divsi_small (u : ArithUnit) (x d : BitVec 32) (hx : x.toNat < 2 ^ 31) (hd0 : 0 < d.toNat)
    (hd : d.toNat < 2 ^ 31) : IntOp.divsi u x d = BitVec.ofNat 32 (x.toNat / d.toNat) := by
  have hcorner : ¬ IntOp.SDivCorner x d := by
    intro hc
    rcases hc with hc | ⟨_, hc⟩
    · rw [hc] at hd0
      exact absurd hd0 (by decide)
    · rw [hc] at hd
      exact absurd hd (by decide)
  have hq : x.toNat / d.toNat < 2 ^ 32 := lt_of_le_of_lt (Nat.div_le_self _ _) (by omega)
  apply BitVec.eq_of_toNat_eq
  simp only [IntOp.divsi, if_neg hcorner, BitVec.sdiv_eq, msb_false_of_lt hx, msb_false_of_lt hd, BitVec.udiv_eq,
    BitVec.toNat_udiv, BitVec.toNat_ofNat]
  exact (Nat.mod_eq_of_lt hq).symm

theorem remsi_small (u : ArithUnit) (x d : BitVec 32) (hx : x.toNat < 2 ^ 31) (hd0 : 0 < d.toNat)
    (hd : d.toNat < 2 ^ 31) : IntOp.remsi u x d = BitVec.ofNat 32 (x.toNat % d.toNat) := by
  have hcorner : ¬ IntOp.SDivCorner x d := by
    intro hc
    rcases hc with hc | ⟨_, hc⟩
    · rw [hc] at hd0
      exact absurd hd0 (by decide)
    · rw [hc] at hd
      exact absurd hd (by decide)
  have hq : x.toNat % d.toNat < 2 ^ 32 := lt_of_le_of_lt (Nat.mod_le _ _) (by omega)
  apply BitVec.eq_of_toNat_eq
  simp only [IntOp.remsi, if_neg hcorner, BitVec.srem_eq, msb_false_of_lt hx, msb_false_of_lt hd, BitVec.umod_eq,
    BitVec.toNat_umod, BitVec.toNat_ofNat]
  exact (Nat.mod_eq_of_lt hq).symm

theorem cmpi_slt_zero_small (x : BitVec 32) (hx : x.toNat < 2 ^ 31) : IntOp.cmpi .slt x 0#32 = 0#1 := by
  have h : ¬ (IntOp.cmpi .slt x 0#32 = 1#1) := by
    rw [StableHlo.Predicate.slt_iff_toNat hx (by decide)]
    simp
  rcases BitVec.eq_zero_or_eq_one (IntOp.cmpi .slt x 0#32) with h0 | h1
  · exact h0
  · exact absurd h1 h

theorem select_zero {α : Type} (a b : α) : Scalar.select 0#1 a b = b := by
  unfold Scalar.select
  exact if_neg (by decide)

theorem select_one {α : Type} (a b : α) : Scalar.select 1#1 a b = a := by
  unfold Scalar.select
  exact if_pos rfl

theorem bc_apply (d : T[S_, .i32]) (k : S32896.Idx) :
    (RefTerms.bc (F := F)) d k = d (Shape.Idx.first h_S_) :=
  StableHlo.Predicate.bcast_scalar bcast_S_S32896 h_S_ d k

theorem cmpi_ne_self {w : Nat} (a : BitVec w) : IntOp.cmpi .ne a a = 0#1 := by
  simp [IntOp.cmpi]

theorem floorDivide_apply (x : T[S32896, .i32]) (D : BitVec 32) (k : S32896.Idx) (hx : (x k).toNat < 2 ^ 31)
    (hD0 : 0 < D.toNat) (hD : D.toNat < 2 ^ 31) :
    (RefTerms.floorDivide (F := F)) x (constantI S_ 32 D) k = BitVec.ofNat 32 ((x k).toNat / D.toNat) := by
  have hDne : D ≠ 0 := by
    intro h
    rw [h] at hD0
    exact absurd hD0 (by decide)
  have hq : (RefTerms.fdQuot (F := F)) x (constantI S_ 32 D) k = BitVec.ofNat 32 ((x k).toNat / D.toNat) := by
    show IntOp.divsi .host (x k) ((RefTerms.bc (F := F)) (constantI S_ 32 D) k) = _
    rw [bc_apply]
    exact divsi_small .host (x k) D hx hD0 hD
  have hadj : (RefTerms.fdAdjust (F := F)) x (constantI S_ 32 D) k = 0#1 := by
    show IntOp.andi (IntOp.cmpi .ne (signi x k) ((RefTerms.bc (F := F)) (signi (constantI S_ 32 D)) k))
      (IntOp.cmpi .ne (IntOp.remsi .host (x k) ((RefTerms.bc (F := F)) (constantI S_ 32 D) k))
        ((RefTerms.bc (F := F)) (constantI S_ 32 0#32) k)) = 0#1
    rw [bc_apply, bc_apply, bc_apply]
    show IntOp.andi (IntOp.cmpi .ne (if x k = 0 then 0 else if (x k).msb then -1 else 1)
        (if D = 0 then 0 else if D.msb then -1 else 1))
      (IntOp.cmpi .ne (IntOp.remsi .host (x k) D) 0#32) = 0#1
    by_cases h0 : x k = 0
    · rw [remsi_small .host (x k) D hx hD0 hD, h0]
      have : BitVec.ofNat 32 ((0 : BitVec 32).toNat % D.toNat) = 0#32 := by simp
      rw [this, cmpi_ne_self]
      exact BitVec.and_zero
    · rw [if_neg h0, if_neg hDne, msb_false_of_lt hx, msb_false_of_lt hD]
      simp only [Bool.false_eq_true, if_false]
      rw [cmpi_ne_self]
      exact BitVec.zero_and
  show Scalar.select ((RefTerms.fdAdjust (F := F)) x (constantI S_ 32 D) k) _ ((RefTerms.fdQuot (F := F)) x (constantI S_ 32 D) k) = _
  rw [hadj, select_zero, hq]

theorem remainder_apply (x : T[S32896, .i32]) (D : BitVec 32) (k : S32896.Idx) (hx : (x k).toNat < 2 ^ 31)
    (hD0 : 0 < D.toNat) (hD : D.toNat < 2 ^ 31) :
    (RefTerms.remainder (F := F)) x (constantI S_ 32 D) k = BitVec.ofNat 32 ((x k).toNat % D.toNat) := by
  have hDne : D ≠ 0 := by
    intro h
    rw [h] at hD0
    exact absurd hD0 (by decide)
  have hdiv : (RefTerms.remDivisor (F := F)) (constantI S_ 32 D) = constantI S_ 32 D := by
    funext j
    show Scalar.select (IntOp.cmpi .eq D 0#32) 1#32 D = D
    have : IntOp.cmpi .eq D 0#32 = 0#1 := by
      rcases BitVec.eq_zero_or_eq_one (IntOp.cmpi .eq D 0#32) with h | h
      · exact h
      · exact absurd (StableHlo.Predicate.cmpi_eq_iff.mp h) hDne
    rw [this, select_zero]
  have hr : (x k).toNat % D.toNat < 2 ^ 31 := lt_of_le_of_lt (Nat.mod_le _ _) hx
  have hr' : (BitVec.ofNat 32 ((x k).toNat % D.toNat)).toNat < 2 ^ 31 := by
    rw [BitVec.toNat_ofNat, Nat.mod_eq_of_lt (by omega)]
    exact hr
  have ht : (RefTerms.remTrunc (F := F)) x (constantI S_ 32 D) k = BitVec.ofNat 32 ((x k).toNat % D.toNat) := by
    show IntOp.remsi .host (x k) ((RefTerms.bc (F := F)) ((RefTerms.remDivisor (F := F)) (constantI S_ 32 D)) k) = _
    rw [hdiv, bc_apply]
    exact remsi_small .host (x k) D hx hD0 hD
  have hadj : (RefTerms.remAdjust (F := F)) x (constantI S_ 32 D) k = 0#1 := by
    show IntOp.andi (IntOp.cmpi .ne
        (IntOp.cmpi .slt ((RefTerms.remTrunc (F := F)) x (constantI S_ 32 D) k) ((RefTerms.bc (F := F)) (constantI S_ 32 0#32) k))
        ((RefTerms.remDivNeg (F := F)) (constantI S_ 32 D) k))
      ((RefTerms.remNonzero (F := F)) x (constantI S_ 32 D) k) = 0#1
    have hneg : (RefTerms.remDivNeg (F := F)) (constantI S_ 32 D) k = 0#1 := by
      unfold RefTerms.remDivNeg
      rw [StableHlo.Predicate.bcast_scalar bcast_S_S32896 h_S_, hdiv]
      exact cmpi_slt_zero_small D hD
    rw [ht, bc_apply, hneg]
    show IntOp.andi (IntOp.cmpi .ne (IntOp.cmpi .slt (BitVec.ofNat 32 ((x k).toNat % D.toNat)) 0#32) 0#1) _ = 0#1
    rw [cmpi_slt_zero_small _ hr', cmpi_ne_self]
    exact BitVec.zero_and
  show Scalar.select ((RefTerms.remAdjust (F := F)) x (constantI S_ 32 D) k) _ ((RefTerms.remTrunc (F := F)) x (constantI S_ 32 D) k) = _
  rw [hadj, select_zero, ht]

theorem wrap256_apply (x : T[S32896, .i32]) (k : S32896.Idx) (hx : (x k).toNat < 2 ^ 31) :
    (RefTerms.wrap256 (F := F)) x k = x k := by
  show Scalar.select (IntOp.cmpi .slt (x k) ((RefTerms.bc (F := F)) (constantI S_ 32 0#32) k)) _ (x k) = x k
  rw [bc_apply]
  show Scalar.select (IntOp.cmpi .slt (x k) 0#32) _ (x k) = x k
  rw [cmpi_slt_zero_small _ hx, select_zero]

theorem col_apply (v : T[S32896, .i32]) (i : S32896x1.Idx) :
    broadcastInDim S32896x1 ![0] bcast_S32896_S32896x1_0 v i = v (ix1 (i 0)) := by
  simp only [broadcastInDim]
  congr 1
  funext a
  match a with
  | ⟨0, _⟩ =>
    apply Fin.ext
    split
    · next h1 =>
      change (32896 : ℕ) = 1 at h1
      omega
    · rfl

section FromFlat
variable (hflat : ∀ k : S32896.Idx, (RefTerms.flatIdx (F := F)) k
    = BitVec.ofNat 32 (256 * Cert.Tri.triRow (k 0).val + Cert.Tri.triCol (k 0).val))
include hflat

theorem flat_toNat (k : S32896.Idx) :
    ((RefTerms.flatIdx (F := F)) k).toNat = 256 * Cert.Tri.triRow (k 0).val + Cert.Tri.triCol (k 0).val := by
  have hk : (k 0).val < 32896 := (k 0).isLt
  have hlt := Cert.Tri.flat_lt _ hk
  rw [hflat, BitVec.toNat_ofNat, Nat.mod_eq_of_lt (by omega)]

theorem quot256_apply (k : S32896.Idx) :
    (RefTerms.quot256 (F := F)) k = BitVec.ofNat 32 (Cert.Tri.triRow (k 0).val) := by
  have hk : (k 0).val < 32896 := (k 0).isLt
  have hlt := Cert.Tri.flat_lt _ hk
  have ht := flat_toNat hflat k
  unfold RefTerms.quot256
  rw [floorDivide_apply _ 256#32 k (by rw [ht]; omega) (by decide) (by decide), ht]
  show BitVec.ofNat 32 ((256 * Cert.Tri.triRow (k 0).val + Cert.Tri.triCol (k 0).val) / 256) = _
  rw [Cert.Tri.flat_div _ hk]

theorem rowRaw_apply (k : S32896.Idx) :
    (RefTerms.rowRaw (F := F)) k = BitVec.ofNat 32 (Cert.Tri.triRow (k 0).val) := by
  have hr := Cert.Tri.triRow_lt (k 0).val
  have hq : ((RefTerms.quot256 (F := F)) k).toNat = Cert.Tri.triRow (k 0).val := by
    rw [quot256_apply hflat, BitVec.toNat_ofNat, Nat.mod_eq_of_lt (by omega)]
  unfold RefTerms.rowRaw
  rw [remainder_apply _ 256#32 k (by rw [hq]; omega) (by decide) (by decide), hq]
  show BitVec.ofNat 32 (Cert.Tri.triRow (k 0).val % 256) = _
  rw [Nat.mod_eq_of_lt hr]

theorem quot1_apply (k : S32896.Idx) :
    (RefTerms.quot1 (F := F)) k
      = BitVec.ofNat 32 (256 * Cert.Tri.triRow (k 0).val + Cert.Tri.triCol (k 0).val) := by
  have hk : (k 0).val < 32896 := (k 0).isLt
  have hlt := Cert.Tri.flat_lt _ hk
  have ht := flat_toNat hflat k
  unfold RefTerms.quot1
  rw [floorDivide_apply _ 1#32 k (by rw [ht]; omega) (by decide) (by decide), ht]
  show BitVec.ofNat 32 ((256 * Cert.Tri.triRow (k 0).val + Cert.Tri.triCol (k 0).val) / 1) = _
  rw [Nat.div_one]

theorem colRaw_apply (k : S32896.Idx) :
    (RefTerms.colRaw (F := F)) k = BitVec.ofNat 32 (Cert.Tri.triCol (k 0).val) := by
  have hk : (k 0).val < 32896 := (k 0).isLt
  have hlt := Cert.Tri.flat_lt _ hk
  have hq : ((RefTerms.quot1 (F := F)) k).toNat
      = 256 * Cert.Tri.triRow (k 0).val + Cert.Tri.triCol (k 0).val := by
    rw [quot1_apply hflat, BitVec.toNat_ofNat, Nat.mod_eq_of_lt (by omega)]
  unfold RefTerms.colRaw
  rw [remainder_apply _ 256#32 k (by rw [hq]; omega) (by decide) (by decide), hq]
  show BitVec.ofNat 32 ((256 * Cert.Tri.triRow (k 0).val + Cert.Tri.triCol (k 0).val) % 256) = _
  rw [Cert.Tri.flat_mod _ hk]

theorem rowIdx_of_flat (i : S32896x1.Idx) :
    (RefTerms.rowIdx (F := F)) i = BitVec.ofNat 32 (Cert.Tri.triRow (i 0).val) := by
  have hr := Cert.Tri.triRow_lt (i 0).val
  unfold RefTerms.rowIdx
  rw [col_apply, wrap256_apply _ _ (by
    rw [rowRaw_apply hflat, BitVec.toNat_ofNat, Nat.mod_eq_of_lt (by
      show Cert.Tri.triRow (i 0).val < 2 ^ 32
      omega)]
    show Cert.Tri.triRow (i 0).val < 2 ^ 31
    omega), rowRaw_apply hflat]

theorem colIdx_of_flat (i : S32896x1.Idx) :
    (RefTerms.colIdx (F := F)) i = BitVec.ofNat 32 (Cert.Tri.triCol (i 0).val) := by
  have hi : (i 0).val < 32896 := (i 0).isLt
  have hc := Cert.Tri.triCol_lt (i 0).val hi
  unfold RefTerms.colIdx
  rw [col_apply, wrap256_apply _ _ (by
    rw [colRaw_apply hflat, BitVec.toNat_ofNat, Nat.mod_eq_of_lt (by
      show Cert.Tri.triCol (i 0).val < 2 ^ 32
      omega)]
    show Cert.Tri.triCol (i 0).val < 2 ^ 31
    omega), colRaw_apply hflat]

end FromFlat

theorem sum_ofNat {ι : Type} (S : Finset ι) (g : ι → ℕ) :
    ∑ i ∈ S, BitVec.ofNat 32 (g i) = BitVec.ofNat 32 (∑ i ∈ S, g i) := by
  induction S using Finset.cons_induction with
  | empty => simp
  | cons a S ha ih => rw [Finset.sum_cons, Finset.sum_cons, ih, BitVec.ofNat_add]

theorem sum_fin_le {M : Type} [AddCommMonoid M] (n j : ℕ) (hj : j < n) (g : ℕ → M) :
    ∑ a ∈ Finset.univ.filter (fun a : Fin n => a.val ≤ j), g a.val = ∑ a ∈ Finset.range (j + 1), g a := by
  rw [Finset.sum_filter, Fin.sum_univ_eq_sum_range (fun i => if i ≤ j then g i else 0) n, ← Finset.sum_filter]
  congr 1
  ext x
  simp only [Finset.mem_filter, Finset.mem_range]
  omega

theorem card_fin_filter (n : ℕ) (P : ℕ → Prop) [DecidablePred P] :
    (Finset.univ.filter (fun a : Fin n => P a.val)).card = ((Finset.range n).filter P).card := by
  rw [Finset.card_filter, Finset.card_filter, Fin.sum_univ_eq_sum_range (fun i => if P i then 1 else 0) n]

theorem slt_zero_false (x : BitVec 32) (hx : x.toNat < 2 ^ 31) : x.slt 0#32 = false := by
  have h : BitVec.ofBool (x.slt 0#32) = 0#1 := cmpi_slt_zero_small x hx
  cases hb : x.slt 0#32 with
  | false => rfl
  | true =>
    rw [hb] at h
    exact absurd h (by decide)

theorem toNat_ofNat_small (n : ℕ) (hn : n < 2 ^ 32) : (BitVec.ofNat 32 n).toNat = n := by
  rw [BitVec.toNat_ofNat, Nat.mod_eq_of_lt hn]

theorem maskFlat_apply (x : T[S256x256, .i1]) (p : Fin 65536) :
    (RefTerms.maskFlat (F := F)) x (ix1 p)
      = x (ix2 (⟨p.val / 256, by have := p.isLt; omega⟩ : Fin 256) (⟨p.val % 256, by omega⟩ : Fin 256)) := by
  unfold RefTerms.maskFlat shapeCast
  congr 1
  apply Shape.reshapeEquiv_eq_of_rowMajor
  rw [Shape.rowMajor_val_two, Shape.rowMajor_val_one]
  show p.val / 256 * 256 + p.val % 256 = p.val
  omega

theorem col65536_apply (v : T[S65536, .i32]) (i : S65536x1.Idx) :
    broadcastInDim S65536x1 ![0] bcast_S65536_S65536x1_0 v i = v (ix1 (i 0)) := by
  simp only [broadcastInDim]
  congr 1
  funext a
  match a with
  | ⟨0, _⟩ =>
    apply Fin.ext
    split
    · next h1 =>
      change (65536 : ℕ) = 1 at h1
      omega
    · rfl

section FromMask
variable (hmask : ∀ r c : Fin 256, (RefTerms.mask (F := F)) (ix2 r c) = if r.val ≤ c.val then 1#1 else 0#1)
include hmask

theorem cnt_apply (p : Fin 65536) :
    (RefTerms.cnt (F := F)) (ix1 p) = BitVec.ofNat 32 (Cert.Tri.cnt p.val) := by
  have hterm : ∀ a : Fin 65536,
      extui 32 ((RefTerms.maskFlat (F := F)) (RefTerms.mask (F := F))) natLt_1_32 (ix1 a)
        = BitVec.ofNat 32 (if Cert.Tri.mask a.val then 1 else 0) := by
    intro a
    show ((RefTerms.maskFlat (F := F)) (RefTerms.mask (F := F)) (ix1 a)).setWidth 32 = _
    rw [maskFlat_apply, hmask]
    show (if a.val / 256 ≤ a.val % 256 then 1#1 else 0#1).setWidth 32
      = BitVec.ofNat 32 (if a.val / 256 ≤ a.val % 256 then 1 else 0)
    split <;> rfl
  unfold RefTerms.cnt RefTerms.cumsum RefTerms.cumsum0
  refine (Cert.HostRead.cumsum_window (E := 65536) reduceWindows_S65536_S65536_w65536s1p65535_0 h_S_
    (extui 32 ((RefTerms.maskFlat (F := F)) (RefTerms.mask (F := F))) natLt_1_32) (RefTerms.sumInit (F := F))
    (fun _ => rfl) p).trans ?_
  refine ((Finset.sum_congr rfl fun a _ => hterm a).trans
    (sum_fin_le 65536 p.val p.isLt (fun n => BitVec.ofNat 32 (if Cert.Tri.mask n then 1 else 0)))).trans ?_
  rw [sum_ofNat, ← Finset.card_filter]
  rfl

theorem cnt_toNat_lt (p : Fin 65536) : ((RefTerms.cnt (F := F)) (ix1 p)).toNat < 2 ^ 31 := by
  have h := Cert.Tri.cnt_le p.val
  rw [cnt_apply hmask, toNat_ofNat_small _ (by omega)]
  omega

theorem wrapped_apply (p : Fin 65536) :
    (RefTerms.wrapped (F := F)) (ix1 p) = BitVec.ofNat 32 (Cert.Tri.cnt p.val) := by
  have hlt := cnt_toNat_lt hmask p
  have hclip : (RefTerms.clipped (F := F)) (ix1 p) = (RefTerms.cnt (F := F)) (ix1 p) := by
    show IntOp.maxsi 0#32 ((RefTerms.cnt (F := F)) (ix1 p)) = _
    unfold IntOp.maxsi
    rw [slt_zero_false _ hlt]
    rfl
  have hneg : (RefTerms.clippedNeg (F := F)) (ix1 p) = 0#1 := by
    show IntOp.cmpi .slt ((RefTerms.clipped (F := F)) (ix1 p)) 0#32 = 0#1
    rw [hclip]
    exact cmpi_slt_zero_small _ hlt
  have hsel : (RefTerms.wrapped (F := F)) (ix1 p)
      = Scalar.select ((RefTerms.clippedNeg (F := F)) (ix1 p)) ((RefTerms.clippedPlus (F := F)) (ix1 p))
          ((RefTerms.clipped (F := F)) (ix1 p)) := rfl
  rw [hsel, hneg, select_zero, hclip, cnt_apply hmask]

theorem scatIdx_apply (j : S65536x1.Idx) :
    (RefTerms.scatIdx (F := F)) j = BitVec.ofNat 32 (Cert.Tri.cnt (j 0).val) := by
  unfold RefTerms.scatIdx
  rw [col65536_apply]
  exact wrapped_apply hmask (j 0)

end FromMask

section ScatterAdd
variable {s si u : Shape} {w : Nat} (d : ScatterDims s si u) (idx : IVec si w) (upd : u.Idx → BitVec 32)

def addStep (r : s.Idx → BitVec 32) (n : Fin u.numel) : s.Idx → BitVec 32 :=
  match d.resultIdx? (u.rowMajor.symm n) idx with
  | some i => fun i' => if i' = i then IntOp.addi (r i) (upd (u.rowMajor.symm n)) else r i'
  | none => r

theorem scatter_addi_eq_foldl (x : s.Idx → BitVec 32) :
    Host.scatter d IntOp.addi x idx upd = (List.finRange u.numel).foldl (addStep d idx upd) x := rfl

theorem addStep_apply (r : s.Idx → BitVec 32) (n : Fin u.numel) (i : s.Idx) :
    addStep d idx upd r n i
      = r i + (if d.resultIdx? (u.rowMajor.symm n) idx = some i then upd (u.rowMajor.symm n) else 0#32) := by
  unfold addStep
  cases h : d.resultIdx? (u.rowMajor.symm n) idx with
  | none => simp
  | some i0 =>
    by_cases e : i = i0
    · subst e
      simp [IntOp.addi]
    · have e' : ¬ (some i0 = some i) := fun h' => e (Option.some.inj h').symm
      simp only [if_neg e, if_neg e']
      simp

theorem foldl_addStep (L : List (Fin u.numel)) (r : s.Idx → BitVec 32) (i : s.Idx) :
    L.foldl (addStep d idx upd) r i
      = r i + (L.map fun n => if d.resultIdx? (u.rowMajor.symm n) idx = some i then upd (u.rowMajor.symm n) else 0#32).sum := by
  induction L generalizing r with
  | nil => simp
  | cons n L ih => rw [List.foldl_cons, ih, addStep_apply, List.map_cons, List.sum_cons, add_assoc]

theorem scatter_addi_apply (x : s.Idx → BitVec 32) (i : s.Idx) :
    Host.scatter d IntOp.addi x idx upd i
      = x i + ∑ j ∈ Finset.univ.filter (fun j : u.Idx => d.resultIdx? j idx = some i), upd j := by
  rw [scatter_addi_eq_foldl, foldl_addStep, ← Fin.sum_univ_def,
    ← Equiv.sum_comp u.rowMajor (fun n => if d.resultIdx? (u.rowMajor.symm n) idx = some i then upd (u.rowMajor.symm n) else 0#32)]
  simp only [Equiv.symm_apply_apply]
  rw [Finset.sum_filter]
  rfl

end ScatterAdd

theorem lands_iff (idx : T[S65536x1, .i32]) (j : S65536.Idx) (v : S32896.Idx) :
    scatter_S32896_S65536x1_S65536_n_0_0_1.resultIdx? j idx = some v
      ↔ (idx (ix2 (j 0) 0)).toInt = ((v 0).val : Int) := by
  have hstart : scatter_S32896_S65536x1_S65536_n_0_0_1.start j idx 0 = (idx (ix2 (j 0) 0)).toInt := by
    unfold ScatterDims.start
    rw [dif_pos (show (0 : Fin S32896.rank) ∈ scatter_S32896_S65536x1_S65536_n_0_0_1.scatterDimsToOperandDims from
      List.mem_singleton.mpr rfl)]
    congr 2
    funext b
    match b with
    | ⟨0, _⟩ => rfl
    | ⟨1, _⟩ => rfl
  have hwin : scatter_S32896_S65536x1_S65536_n_0_0_1.window j 0 = 0 := rfl
  have hv : (v 0).val < 32896 := (v 0).isLt
  unfold ScatterDims.resultIdx?
  split
  · rename_i h
    have h0 := h 0
    rw [hstart, hwin] at h0
    rw [Option.some.injEq]
    constructor
    · intro e
      have e0 : ((v 0).val : Int) = ((scatter_S32896_S65536x1_S65536_n_0_0_1.start j idx 0
          + (scatter_S32896_S65536x1_S65536_n_0_0_1.window j 0 : Int)).toNat : Int) := by
        rw [← e]
      rw [hstart, hwin] at e0
      omega
    · intro e
      funext a
      obtain rfl : a = 0 := Subsingleton.elim _ _
      apply Fin.ext
      show (scatter_S32896_S65536x1_S65536_n_0_0_1.start j idx 0
          + (scatter_S32896_S65536x1_S65536_n_0_0_1.window j 0 : Int)).toNat = (v 0).val
      rw [hstart, hwin]
      omega
  · rename_i h
    constructor
    · intro e
      cases e
    · intro e
      refine absurd (fun a => ?_) h
      obtain rfl : a = 0 := Subsingleton.elim _ _
      rw [hstart, hwin]
      show 0 ≤ (idx (ix2 (j 0) 0)).toInt + ((0 : ℕ) : Int) ∧ (idx (ix2 (j 0) 0)).toInt + ((0 : ℕ) : Int) < ((32896 : ℕ) : Int)
      omega

section FromMask2
variable (hmask : ∀ r c : Fin 256, (RefTerms.mask (F := F)) (ix2 r c) = if r.val ≤ c.val then 1#1 else 0#1)
include hmask

theorem lands_cnt_iff (j : S65536.Idx) (v : Fin 32896) :
    scatter_S32896_S65536x1_S65536_n_0_0_1.resultIdx? j (RefTerms.scatIdx (F := F)) = some (ix1 v)
      ↔ Cert.Tri.cnt (j 0).val = v.val := by
  have hc := Cert.Tri.cnt_le (j 0).val
  rw [lands_iff, scatIdx_apply hmask]
  show (BitVec.ofNat 32 (Cert.Tri.cnt (j 0).val)).toInt = ((v.val : ℕ) : Int) ↔ _
  rw [StableHlo.Predicate.toInt_ofNat_small _ (by omega)]
  omega

theorem binc_apply (v : Fin 32896) :
    (RefTerms.binc (F := F)) (ix1 v)
      = BitVec.ofNat 32 ((Finset.range 65536).filter (fun e => Cert.Tri.cnt e = v.val)).card := by
  have hz : (RefTerms.zeros32896 (F := F)) (ix1 v) = 0#32 := rfl
  have hones : ∀ j, (RefTerms.ones65536 (F := F)) j = BitVec.ofNat 32 1 := fun _ => rfl
  unfold RefTerms.binc
  rw [scatter_addi_apply, hz, BitVec.zero_add, Finset.sum_congr rfl (fun j _ => hones j), sum_ofNat,
    ← Finset.card_eq_sum_ones, ← card_fin_filter 65536 (fun e => Cert.Tri.cnt e = v.val)]
  refine congrArg (BitVec.ofNat 32) ?_
  refine Finset.card_bij (fun j _ => j 0) ?_ ?_ ?_
  · intro j hj
    exact Finset.mem_filter.mpr ⟨Finset.mem_univ _, (lands_cnt_iff hmask j v).mp (Finset.mem_filter.mp hj).2⟩
  · intro j₁ _ j₂ _ h
    exact (eq_ix1 j₁).trans ((congrArg ix1 h).trans (eq_ix1 j₂).symm)
  · intro e he
    exact ⟨ix1 e, Finset.mem_filter.mpr ⟨Finset.mem_univ _, (lands_cnt_iff hmask (ix1 e) v).mpr (Finset.mem_filter.mp he).2⟩, rfl⟩

theorem flatIdx_of_mask (k : S32896.Idx) :
    (RefTerms.flatIdx (F := F)) k
      = BitVec.ofNat 32 (256 * Cert.Tri.triRow (k 0).val + Cert.Tri.triCol (k 0).val) := by
  have hk : (k 0).val < 32896 := (k 0).isLt
  conv_lhs => rw [eq_ix1 k]
  unfold RefTerms.flatIdx RefTerms.cumsum1
  refine (Cert.HostRead.cumsum_window (E := 32896) reduceWindows_S32896_S32896_w32896s1p32895_0 h_S_
    (RefTerms.binc (F := F)) (RefTerms.sumInit (F := F)) (fun _ => rfl) (k 0)).trans ?_
  refine ((Finset.sum_congr rfl fun a _ => binc_apply hmask a).trans
    (sum_fin_le 32896 (k 0).val hk
      (fun v => BitVec.ofNat 32 ((Finset.range 65536).filter (fun e => Cert.Tri.cnt e = v)).card))).trans ?_
  rw [sum_ofNat, ← Cert.Tri.card_filter_cnt_le _ hk]
  refine congrArg (BitVec.ofNat 32) ?_
  symm
  rw [Finset.card_eq_sum_card_fiberwise (f := Cert.Tri.cnt) (t := Finset.range ((k 0).val + 1))
    (fun e he => by
      have := (Finset.mem_filter.mp he).2
      exact Finset.mem_range.mpr (by omega))]
  refine Finset.sum_congr rfl fun v hv => ?_
  have hv' := Finset.mem_range.mp hv
  refine congrArg Finset.card ?_
  rw [Finset.filter_filter]
  ext e
  simp only [Finset.mem_filter, Finset.mem_range]
  omega

end FromMask2

theorem bit_eq_ite (b : BitVec 1) (P : Prop) [Decidable P] (h : b = 1#1 ↔ P) : b = if P then 1#1 else 0#1 := by
  by_cases hp : P
  · rw [if_pos hp]
    exact h.mpr hp
  · rw [if_neg hp]
    rcases BitVec.eq_zero_or_eq_one b with h0 | h1
    · exact h0
    · exact absurd (h.mp h1) hp

theorem below_apply (r c : Fin 256) :
    (RefTerms.triuBelow (F := F)) (ix2 r c) = if c.val < r.val then 1#1 else 0#1 := by
  have hr := r.isLt
  have hc := c.isLt
  have hcs : (BitVec.ofNat 32 c.val).toNat = c.val := toNat_ofNat_small _ (by omega)
  show IntOp.cmpi .sge (IntOp.addi (BitVec.ofNat 32 r.val) 4294967295#32) (BitVec.ofNat 32 c.val) = _
  apply bit_eq_ite
  by_cases h0 : r.val = 0
  · rw [h0]
    have ha : IntOp.addi (BitVec.ofNat 32 0) 4294967295#32 = 4294967295#32 := by decide
    have hi : (4294967295#32 : BitVec 32).toInt = -1 := by decide
    rw [ha]
    constructor
    · intro h
      have h' : BitVec.ofBool ((BitVec.ofNat 32 c.val).sle 4294967295#32) = 1#1 := h
      rw [StableHlo.Predicate.ofBool_eq_one_iff, BitVec.sle, decide_eq_true_eq, hi,
        StableHlo.Predicate.toInt_ofNat_small _ (by omega)] at h'
      omega
    · intro h
      omega
  · have ha : IntOp.addi (BitVec.ofNat 32 r.val) 4294967295#32 = BitVec.ofNat 32 (r.val - 1) := by
      have e : (4294967295#32 : BitVec 32) = -1#32 := by decide
      show BitVec.ofNat 32 r.val + 4294967295#32 = _
      rw [e, ← sub_eq_add_neg]
      exact StableHlo.Predicate.sub_one_ofNat r.val (by omega) (by omega)
    rw [ha, StableHlo.Predicate.sge_iff_toNat (by rw [toNat_ofNat_small _ (by omega)]; omega) (by rw [hcs]; omega),
      hcs, toNat_ofNat_small _ (by omega)]
    omega

end Cert.ReferenceIdeal.RefIdx

namespace Cert.ReferenceIdeal.RefIdx

open Idealize.ShloMosaic Idealize.SL.Sem Cert.ReferenceIdeal
open Cert.ReferenceIdeal.Facts₀ Cert.ReferenceIdeal.Facts
open Idealize.ShloMosaic.ValueIdx

variable [Facts]

theorem cmpf_ideal {φ : FTy} (p : CmpFPredicate) (x y : Ideal φ) :
    FloatOps.cmpf (F := Ideal) p x y = Ideal.cmp p x y := rfl

theorem cmpf_apply {F : FTy → Type} [FloatOps F] {s : Shape} {φ : FTy} (p : CmpFPredicate) (x y : FVec F s φ)
    (i : s.Idx) : cmpf p x y i = FloatOps.cmpf p (x i) (y i) := rfl

theorem select_apply {s : Shape} {α : Type} (c : IVec s 1) (a b : s.Idx → α) (i : s.Idx) :
    select c a b i = Scalar.select (c i) (a i) (b i) := rfl

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]
  norm_num

theorem bconst_ideal (b : BitVec 32) (i : S256x256.Idx) :
    broadcastInDim S256x256 ![] bcast_S_S256x256 (constant (F := Ideal) S_ .f32 b) i = Ideal.ofBits .f32 b := by
  unfold broadcastInDim constant
  exact Ideal.ofBits_def (φ := .f32) b

theorem mask_ideal (r c : Fin 256) :
    (RefTerms.mask (F := Ideal)) (ix2 r c) = if r.val ≤ c.val then 1#1 else 0#1 := by
  unfold RefTerms.mask
  rw [cmpf_apply, cmpf_ideal]
  unfold RefTerms.triuOnes RefTerms.triu
  rw [select_apply]
  unfold RefTerms.zeros256 RefTerms.ones256
  rw [bconst_ideal, bconst_ideal, below_apply, ofBits_zero, ofBits_one]
  by_cases h : c.val < r.val
  · rw [if_pos h, select_one, if_neg (by omega)]
    simp [Ideal.cmp]
  · rw [if_neg h, select_zero, if_pos (by omega)]
    simp [Ideal.cmp]

theorem flatIdx_apply (i : S32896.Idx) :
    (RefTerms.flatIdx (F := Ideal)) i
      = BitVec.ofNat 32 (256 * Cert.Tri.triRow (i 0).val + Cert.Tri.triCol (i 0).val) :=
  flatIdx_of_mask mask_ideal i

theorem rowIdx_apply (i : S32896x1.Idx) :
    (RefTerms.rowIdx (F := Ideal)) i = BitVec.ofNat 32 (Cert.Tri.triRow (i 0).val) :=
  rowIdx_of_flat flatIdx_apply i

theorem colIdx_apply (i : S32896x1.Idx) :
    (RefTerms.colIdx (F := Ideal)) i = BitVec.ofNat 32 (Cert.Tri.triCol (i 0).val) :=
  colIdx_of_flat flatIdx_apply i

end Cert.ReferenceIdeal.RefIdx

end
-- ==== Proof.RefValue.lean ====
import proofs.«422836_j30605936951494_3_alg».proof.Proof.RefTerms
import proofs.«422836_j30605936951494_3_alg».proof.Proof.RefIdx
import proofs.«422836_j30605936951494_3_alg».proof.Proof.Spec
import proofs.«422836_j30605936951494_3_alg».proof.Proof.Tri
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.SL.Sem Cert.ReferenceIdeal
open Cert.ReferenceIdeal.Facts₀ Cert.ReferenceIdeal.Facts
open Idealize.ShloMosaic.ValueIdx

section Gather
variable {B N E D : Nat} (d : GatherDims ⟨3, ![B, N, D]⟩ ⟨2, ![E, 1]⟩ ⟨3, ![B, E, D]⟩)
    (h1 : d.offsetDims = [0, 2]) (h2 : d.collapsedSliceDims = [1]) (h3 : d.operandBatchingDims = [])
    (h4 : d.startIndicesBatchingDims = []) (h5 : d.startIndexMap = [1]) (h6 : d.indexVectorDim = 1)
    (h7 : d.sliceSizes = ![B, 1, D])
include h1 h2 h3 h4 h5 h6 h7

private theorem start1 (idx : (⟨2, ![E, 1]⟩ : Shape).Idx → BitVec 32) (j : (⟨3, ![B, E, D]⟩ : Shape).Idx) :
    d.start j idx 1 = min (idx (ix2 (j 1) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext c
  match c with
  | ⟨0, _⟩ => rfl
  | ⟨1, _⟩ => rfl

private theorem start0 (idx : (⟨2, ![E, 1]⟩ : Shape).Idx → BitVec 32) (j : (⟨3, ![B, E, D]⟩ : Shape).Idx) :
    d.start j idx 0 = 0 := by
  obtain ⟨od, cd, ob, sb, sm, iv, ss, wf⟩ := d
  simp only at h1 h2 h3 h4 h5 h6 h7
  subst h1 h2 h3 h4 h5 h6 h7
  rfl

private theorem start2 (idx : (⟨2, ![E, 1]⟩ : Shape).Idx → BitVec 32) (j : (⟨3, ![B, E, D]⟩ : Shape).Idx) :
    d.start j idx 2 = 0 := by
  obtain ⟨od, cd, ob, sb, sm, iv, ss, wf⟩ := d
  simp only at h1 h2 h3 h4 h5 h6 h7
  subst h1 h2 h3 h4 h5 h6 h7
  rfl

private theorem batch0 (j : (⟨3, ![B, E, D]⟩ : Shape).Idx) (a : Fin 3) : d.batchCoord j a = 0 :=
  d.batchCoord_eq_zero j a (by rw [h3]; exact List.not_mem_nil)

private theorem off0 (j : (⟨3, ![B, E, D]⟩ : Shape).Idx) : d.offCoord j 0 = (j 0).val := by
  obtain ⟨od, cd, ob, sb, sm, iv, ss, wf⟩ := d
  simp only at h1 h2 h3 h4 h5 h6 h7
  subst h1 h2 h3 h4 h5 h6 h7
  rfl

private theorem off1 (j : (⟨3, ![B, E, D]⟩ : Shape).Idx) : d.offCoord j 1 = 0 := by
  obtain ⟨od, cd, ob, sb, sm, iv, ss, wf⟩ := d
  simp only at h1 h2 h3 h4 h5 h6 h7
  subst h1 h2 h3 h4 h5 h6 h7
  rfl

private theorem off2 (j : (⟨3, ![B, E, D]⟩ : Shape).Idx) : d.offCoord j 2 = (j 2).val := by
  obtain ⟨od, cd, ob, sb, sm, iv, ss, wf⟩ := d
  simp only at h1 h2 h3 h4 h5 h6 h7
  subst h1 h2 h3 h4 h5 h6 h7
  rfl

end Gather

theorem gather_rows3 {α : Type} {B N E D : Nat} (d : GatherDims ⟨3, ![B, N, D]⟩ ⟨2, ![E, 1]⟩ ⟨3, ![B, E, D]⟩)
    (h1 : d.offsetDims = [0, 2]) (h2 : d.collapsedSliceDims = [1]) (h3 : d.operandBatchingDims = [])
    (h4 : d.startIndicesBatchingDims = []) (h5 : d.startIndexMap = [1]) (h6 : d.indexVectorDim = 1)
    (h7 : d.sliceSizes = ![B, 1, D])
    (x : (⟨3, ![B, N, D]⟩ : Shape).Idx → α) (idx : (⟨2, ![E, 1]⟩ : Shape).Idx → BitVec 32)
    (b : Fin B) (e : Fin E) (q : Fin D) (n : Fin N) (hn : (idx (ix2 e 0)).toInt = (n.val : Int)) :
    Host.gather d x idx (ix3 b e q) = x (ix3 b n q) := by

  have f0 : d.start (ix3 b e q) idx 0 + d.batchCoord (ix3 b e q) 0 + d.offCoord (ix3 b e q) 0 = b.val := by
    rw [start0 d h1 h2 h3 h4 h5 h6 h7, batch0 d h1 h2 h3 h4 h5 h6 h7, off0 d h1 h2 h3 h4 h5 h6 h7]
    show 0 + 0 + b.val = b.val
    omega

  have f1 : d.start (ix3 b e q) idx 1 + d.batchCoord (ix3 b e q) 1 + d.offCoord (ix3 b e q) 1 = n.val := by
    rw [start1 d h1 h2 h3 h4 h5 h6 h7, batch0 d h1 h2 h3 h4 h5 h6 h7, off1 d h1 h2 h3 h4 h5 h6 h7]
    show min (idx (ix2 e 0)).toInt.toNat (N - 1) + 0 + 0 = n.val
    rw [hn, Int.toNat_natCast]
    have := n.isLt
    omega

  have f2 : d.start (ix3 b e q) idx 2 + d.batchCoord (ix3 b e q) 2 + d.offCoord (ix3 b e q) 2 = q.val := by
    rw [start2 d h1 h2 h3 h4 h5 h6 h7, batch0 d h1 h2 h3 h4 h5 h6 h7, off2 d h1 h2 h3 h4 h5 h6 h7]
    show 0 + 0 + q.val = q.val
    omega
  unfold Host.gather
  congr 1
  funext a
  apply Fin.ext
  match a with
  | ⟨0, _⟩ => exact f0
  | ⟨1, _⟩ => exact f1
  | ⟨2, _⟩ => exact f2

theorem toInt_ofNat_of_lt (n : Nat) (hn : n < 256) : (BitVec.ofNat 32 n).toInt = (n : Int) := by
  rw [BitVec.toInt_eq_toNat_cond, BitVec.toNat_ofNat]
  have : n % 2 ^ 32 = n := Nat.mod_eq_of_lt (by omega)
  rw [this, if_pos (by omega)]

variable [Facts]

theorem w1_apply (w : (⟨S768x1536, .f32⟩ : BufTy).Contents (Elt Ideal)) (o k : Fin 768) :
    RefTerms.w1 (F := Ideal) w (ix2 o k) = w (ix2 o (⟨0 + k.val, by omega⟩ : Fin 1536)) := by
  unfold RefTerms.w1
  refine extractStridedSlice_apply _ w _ (ix2 o k) _ fun a => ?_
  match a with
  | ⟨0, _⟩ => exact (Nat.zero_add _).symm
  | ⟨1, _⟩ => rfl

theorem w2_apply (w : (⟨S768x1536, .f32⟩ : BufTy).Contents (Elt Ideal)) (o k : Fin 768) :
    RefTerms.w2 (F := Ideal) w (ix2 o k) = w (ix2 o (⟨768 + k.val, by omega⟩ : Fin 1536)) := by
  unfold RefTerms.w2
  refine extractStridedSlice_apply _ w _ (ix2 o k) _ fun a => ?_
  match a with
  | ⟨0, _⟩ => exact (Nat.zero_add _).symm
  | ⟨1, _⟩ => rfl

private theorem lhs_0 (j : S4x256x768.Idx) (k : dot_S4x256x768_S768x768_S4x256x768_2_1_01_0_n_n.contr.Idx) :
    (dot_S4x256x768_S768x768_S4x256x768_2_1_01_0_n_n.lhsIdx j k 0).val = (j 0).val := by
  simp [DotDims.lhsIdx, dot_S4x256x768_S768x768_S4x256x768_2_1_01_0_n_n]
  rfl

private theorem lhs_1 (j : S4x256x768.Idx) (k : dot_S4x256x768_S768x768_S4x256x768_2_1_01_0_n_n.contr.Idx) :
    (dot_S4x256x768_S768x768_S4x256x768_2_1_01_0_n_n.lhsIdx j k 1).val = (j 1).val := by
  simp [DotDims.lhsIdx, dot_S4x256x768_S768x768_S4x256x768_2_1_01_0_n_n]
  rfl

private theorem lhs_2 (j : S4x256x768.Idx) (k : dot_S4x256x768_S768x768_S4x256x768_2_1_01_0_n_n.contr.Idx) :
    (dot_S4x256x768_S768x768_S4x256x768_2_1_01_0_n_n.lhsIdx j k 2).val = (k ⟨0, Nat.one_pos⟩).val :=
  dot_S4x256x768_S768x768_S4x256x768_2_1_01_0_n_n.lhsIdx_val_of_single rfl j k

private theorem rhs_0 (j : S4x256x768.Idx) (k : dot_S4x256x768_S768x768_S4x256x768_2_1_01_0_n_n.contr.Idx) :
    (dot_S4x256x768_S768x768_S4x256x768_2_1_01_0_n_n.rhsIdx j k 0).val = (j 2).val := by
  simp [DotDims.rhsIdx, dot_S4x256x768_S768x768_S4x256x768_2_1_01_0_n_n]
  rfl

private theorem rhs_1 (j : S4x256x768.Idx) (k : dot_S4x256x768_S768x768_S4x256x768_2_1_01_0_n_n.contr.Idx) :
    (dot_S4x256x768_S768x768_S4x256x768_2_1_01_0_n_n.rhsIdx j k 1).val = (k ⟨0, Nat.one_pos⟩).val :=
  dot_S4x256x768_S768x768_S4x256x768_2_1_01_0_n_n.rhsIdx_val_of_single rfl j k

theorem dot_apply (x : FVec Ideal S4x256x768 .f32) (y : FVec Ideal S768x768 .f32)
    (b : Fin 4) (s : Fin 256) (o : Fin 768) :
    Host.dotGeneral (F := Ideal) dot_S4x256x768_S768x768_S4x256x768_2_1_01_0_n_n none x y (ix3 b s o)
      = ∑ k : Fin 768, x (ix3 b s k) * y (ix2 o k) := by
  show FloatOps.dotGeneral _ none _ x y (ix3 b s o) = _
  rw [Ideal.dotGeneral_apply, ← Equiv.sum_comp (contrEquiv1 dot_S4x256x768_S768x768_S4x256x768_2_1_01_0_n_n 768 rfl rfl).symm]
  refine Finset.sum_congr rfl fun c _ => ?_
  have hc := contrEquiv1_symm_val dot_S4x256x768_S768x768_S4x256x768_2_1_01_0_n_n 768 rfl rfl c

  have hl : dot_S4x256x768_S768x768_S4x256x768_2_1_01_0_n_n.lhsIdx (ix3 b s o) ((contrEquiv1 dot_S4x256x768_S768x768_S4x256x768_2_1_01_0_n_n 768 rfl rfl).symm c) = ix3 b s c := by
    funext a
    apply Fin.ext
    match a with
    | ⟨0, _⟩ => exact lhs_0 _ _
    | ⟨1, _⟩ => exact lhs_1 _ _
    | ⟨2, _⟩ => exact (lhs_2 _ _).trans hc

  have hr : dot_S4x256x768_S768x768_S4x256x768_2_1_01_0_n_n.rhsIdx (ix3 b s o) ((contrEquiv1 dot_S4x256x768_S768x768_S4x256x768_2_1_01_0_n_n 768 rfl rfl).symm c) = ix2 o c := by
    funext a
    apply Fin.ext
    match a with
    | ⟨0, _⟩ => exact rhs_0 _ _
    | ⟨1, _⟩ => exact (rhs_1 _ _).trans hc
  rw [hl, hr]

theorem p1_apply (h : (⟨S4x256x768, .f32⟩ : BufTy).Contents (Elt Ideal)) (w : (⟨S768x1536, .f32⟩ : BufTy).Contents (Elt Ideal))
    (b : Fin 4) (s : Fin 256) (o : Fin 768) :
    RefTerms.p1 (F := Ideal) h w (ix3 b s o) = Cert.Spec.proj h w 0 (by omega) b s o := by
  unfold RefTerms.p1 Cert.Spec.proj
  refine (dot_apply h (RefTerms.w1 (F := Ideal) w) b s o).trans (Finset.sum_congr rfl fun k _ => ?_)
  rw [w1_apply]

theorem p2_apply (h : (⟨S4x256x768, .f32⟩ : BufTy).Contents (Elt Ideal)) (w : (⟨S768x1536, .f32⟩ : BufTy).Contents (Elt Ideal))
    (b : Fin 4) (s : Fin 256) (o : Fin 768) :
    RefTerms.p2 (F := Ideal) h w (ix3 b s o) = Cert.Spec.proj h w 768 (by omega) b s o := by
  unfold RefTerms.p2 Cert.Spec.proj
  refine (dot_apply h (RefTerms.w2 (F := Ideal) w) b s o).trans (Finset.sum_congr rfl fun k _ => ?_)
  rw [w2_apply]

theorem gather_apply (x : (⟨S4x256x768, .f32⟩ : BufTy).Contents (Elt Ideal)) (idx : (⟨S32896x1, .i32⟩ : BufTy).Contents (Elt Ideal))
    (b : Fin 4) (p : Fin 32896) (o : Fin 768) (n : Nat) (hn : n < 256) (hidx : idx (ix2 p 0) = BitVec.ofNat 32 n) :
    Host.gather gather_S4x256x768_S32896x1_S4x32896x768_02_1_n_n_1_1_41768 x idx (ix3 b p o) = x (ix3 b (⟨n, hn⟩ : Fin 256) o) := by
  have hw : (idx (ix2 p 0)).toInt = (((⟨n, hn⟩ : Fin 256)).val : Int) := by
    rw [hidx]
    exact toInt_ofNat_of_lt n hn
  exact gather_rows3 gather_S4x256x768_S32896x1_S4x32896x768_02_1_n_n_1_1_41768 rfl rfl rfl rfl rfl rfl rfl x idx b p o ⟨n, hn⟩ hw

theorem g1_apply (h : (⟨S4x256x768, .f32⟩ : BufTy).Contents (Elt Ideal)) (w : (⟨S768x1536, .f32⟩ : BufTy).Contents (Elt Ideal))
    (b : Fin 4) (p : Fin 32896) (o : Fin 768) :
    RefTerms.g1 (F := Ideal) h w (ix3 b p o)
      = Cert.Spec.proj h w 0 (by omega) b ⟨Cert.Tri.triRow p.val, Cert.Tri.triRow_lt _⟩ o := by
  unfold RefTerms.g1
  refine (gather_apply _ _ b p o (Cert.Tri.triRow p.val) (Cert.Tri.triRow_lt _) (RefIdx.rowIdx_apply (ix2 p 0))).trans ?_
  exact p1_apply h w b _ o

theorem g2_apply (h : (⟨S4x256x768, .f32⟩ : BufTy).Contents (Elt Ideal)) (w : (⟨S768x1536, .f32⟩ : BufTy).Contents (Elt Ideal))
    (b : Fin 4) (p : Fin 32896) (o : Fin 768) :
    RefTerms.g2 (F := Ideal) h w (ix3 b p o)
      = Cert.Spec.proj h w 768 (by omega) b ⟨Cert.Tri.triCol p.val, Cert.Tri.triCol_lt _ p.isLt⟩ o := by
  unfold RefTerms.g2
  refine (gather_apply _ _ b p o (Cert.Tri.triCol p.val) (Cert.Tri.triCol_lt _ p.isLt) (RefIdx.colIdx_apply (ix2 p 0))).trans ?_
  exact p2_apply h w b _ o

theorem biasB_apply (bias : (⟨S768, .f32⟩ : BufTy).Contents (Elt Ideal)) (b : Fin 4) (p : Fin 32896) (o : Fin 768) :
    RefTerms.biasB (F := Ideal) bias (ix3 b p o) = bias (ix1 o) := by
  unfold RefTerms.biasB

  refine (broadcastInDim_apply _ _ _ (ix3 b p o) (ix3 (0 : Fin 1) (0 : Fin 1) o) fun a => ?_).trans ?_
  · match a with
    | ⟨0, _⟩ => rfl
    | ⟨1, _⟩ => rfl
    | ⟨2, _⟩ => rfl

  · refine broadcastInDim_apply _ _ _ (ix3 (0 : Fin 1) (0 : Fin 1) o) (ix1 o) fun a => ?_
    match a with
    | ⟨0, _⟩ => rfl

private theorem hostTanh_apply {s : Shape} {φ : FTy} (x : FVec Ideal s φ) (i : s.Idx) :
    Host.tanh x i = Ideal.tanh (x i) := rfl

theorem out_apply (h : (⟨S4x256x768, .f32⟩ : BufTy).Contents (Elt Ideal)) (w : (⟨S768x1536, .f32⟩ : BufTy).Contents (Elt Ideal))
    (bias : (⟨S768, .f32⟩ : BufTy).Contents (Elt Ideal)) (b : Fin 4) (p : Fin 32896) (o : Fin 768) :
    RefTerms.out (F := Ideal) h w bias (ix3 b p o) = Cert.Spec.Gc h w bias b p o := by
  unfold RefTerms.out Cert.Spec.Gc
  rw [hostTanh_apply, addf_apply, addf_apply, g1_apply, g2_apply, biasB_apply]

/-- The reference's composed term is the specification, index by index. -/
theorem out_eq_G (h : (⟨S4x256x768, .f32⟩ : BufTy).Contents (Elt Ideal)) (w : (⟨S768x1536, .f32⟩ : BufTy).Contents (Elt Ideal))
    (b : (⟨S768, .f32⟩ : BufTy).Contents (Elt Ideal)) :
    RefTerms.out (F := Ideal) h w b = Cert.Spec.G h w b := by
  funext i
  obtain ⟨b', p, o, rfl⟩ : ∃ (b' : Fin 4) (p : Fin 32896) (o : Fin 768), i = ix3 b' p o := ⟨i 0, i 1, i 2, eq_ix3 i⟩
  rw [out_apply, Cert.Spec.G_ix3]

end Cert.ReferenceIdeal.RefValue

end
-- ==== Proof.RefClaims.lean ====
import proofs.«422836_j30605936951494_3_alg».proof.Defs
import proofs.«422836_j30605936951494_3_alg».proof.Proof.Gen.ReferenceIdeal
import proofs.«422836_j30605936951494_3_alg».proof.Proof.Gen.Pre_finite_inputs
import proofs.«422836_j30605936951494_3_alg».proof.Proof.RefRun
import proofs.«422836_j30605936951494_3_alg».proof.Proof.RefValue

noncomputable section

namespace Cert.Proof.Ref

open Idealize.ShloMosaic Idealize.SL.Sem Cert.ReferenceIdeal

theorem frame_ri : Cert.frame_ReferenceIdeal := fun m ρ _ =>
  (θ_run (Cert.ReferenceIdeal.defs (F := Ideal)) _ _).mono (fun _ h c => (h c).2) (Cert.ReferenceIdeal.RefRun.run (F := Ideal) m ρ)

/-- The reference terminates with its result at the specification of its arguments. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono
    (fun _ h c => ⟨(h c).1.trans (Cert.ReferenceIdeal.RefValue.out_eq_G _ _ _), (h c).2⟩)
    (Cert.ReferenceIdeal.RefRun.run (F := Ideal) m ρ)

end Cert.Proof.Ref

end
-- ==== Proof.lean ====
import proofs.«422836_j30605936951494_3_alg».proof.Defs
import proofs.«422836_j30605936951494_3_alg».proof.Proof.Gen.Kernel
import proofs.«422836_j30605936951494_3_alg».proof.Proof.Gen.KernelIdeal
import proofs.«422836_j30605936951494_3_alg».proof.Proof.Gen.ReferenceIdeal
import proofs.«422836_j30605936951494_3_alg».proof.Proof.Gen.Pre_finite_inputs
import proofs.«422836_j30605936951494_3_alg».proof.Proof.KernelLaunch
import proofs.«422836_j30605936951494_3_alg».proof.Proof.KernelIdealLaunch
import proofs.«422836_j30605936951494_3_alg».proof.Proof.KernelIdealFinal
import proofs.«422836_j30605936951494_3_alg».proof.Proof.RefClaims
import Idealize.ShloMosaic.Adequacy
import Idealize.ShloMosaic.Init

noncomputable section

namespace Cert.Proof

open Idealize.ShloMosaic Idealize.SL.Sem

theorem frame_k : Cert.frame_Kernel := fun m ρ _ => Cert.Kernel.Launch.frame (F := Bits) m ρ

theorem frame_ki : Cert.frame_KernelIdeal := fun m ρ _ => Cert.KernelIdeal.Launch.frame (F := Ideal) m ρ

/-- From memories agreeing on the three arguments both idealized programs end with the result at the specification. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun _ h c => ⟨((h c).1.trans (Cert.KernelIdeal.Launch.resAt_N m c)).trans (Cert.KernelIdeal.KFinal.res4_eq_G m c), (h c).2⟩)
      (Cert.KernelIdeal.Launch.run_value (F := Ideal) m ρ)
  · refine (θ_run (Cert.ReferenceIdeal.defs (F := Ideal)) _ _).mono (fun _ h c => ⟨?_, (h c).2⟩) (Cert.Proof.Ref.run_G m' ρ')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.Proof.Ref.frame_ri, trivial, algebraic⟩

end Cert.Proof

end
